-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1024 : Shape := ⟨2, ![100000, 1024]⟩
abbrev S2x1600000 : Shape := ⟨2, ![2, 1600000]⟩
abbrev S100000 : Shape := ⟨1, ![100000]⟩
abbrev S2x16 : Shape := ⟨2, ![2, 16]⟩
abbrev S16 : Shape := ⟨1, ![16]⟩
abbrev S16x32 : Shape := ⟨2, ![16, 32]⟩
abbrev S32 : Shape := ⟨1, ![32]⟩
abbrev S1022x16 : Shape := ⟨2, ![1022, 16]⟩
abbrev S2x64x64 : Shape := ⟨3, ![2, 64, 64]⟩
abbrev S2x64 : Shape := ⟨2, ![2, 64]⟩
abbrev S64x16 : Shape := ⟨2, ![64, 16]⟩
abbrev S16x7 : Shape := ⟨2, ![16, 7]⟩
abbrev S7 : Shape := ⟨1, ![7]⟩
abbrev S_ : Shape := ⟨0, ![]⟩
abbrev S1x1600000 : Shape := ⟨2, ![1, 1600000]⟩
abbrev S1600000 : Shape := ⟨1, ![1600000]⟩

class Facts : Prop where
  bcast_S_S100000x1024 : S_.BroadcastsInDim S100000x1024 (![] : Fin 0 → Fin S100000x1024.rank)
  reducesTo_S100000x1024_S_d0_1 : S100000x1024.ReducesTo [0, 1] S_
  h_S_ : 0 < S_.numel
  bcast_S_S2x16 : S_.BroadcastsInDim S2x16 (![] : Fin 0 → Fin S2x16.rank)
  reducesTo_S2x16_S_d0_1 : S2x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S1022x16 : S_.BroadcastsInDim S1022x16 (![] : Fin 0 → Fin S1022x16.rank)
  reducesTo_S1022x16_S_d0_1 : S1022x16.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S64x16 : S_.BroadcastsInDim S64x16 (![] : Fin 0 → Fin S64x16.rank)
  reducesTo_S64x16_S_d0_1 : S64x16.ReducesTo [0, 1] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part7 {F : FTy → Type} [FloatOps F] (main_arg1 : IVec S2x1600000 32) (main_v118 : IVec S_ 1) (main_v119 : FVec F S7 .f32) : IVec S_ 1 :=
  let main_cst_46 : FVec F S_ .f32 := constant S_ .f32 0x7F800000#32
  let main_v120 : FVec F S7 .f32 := broadcastInDim S7 ![] bcast_S_S7 main_cst_46
  let main_v121 : IVec S7 1 := cmpf .olt main_v119 main_v120
  let main_c_47 : IVec S_ 1 := constantI S_ 1 1#1
  let main_v122 : IVec S_ 1 := (fun x v => Host.reduce IntOp.andi x v reducesTo_S7_S_d0 h_S_) main_v121 main_c_47
  let main_v123 : IVec S_ 1 := andi main_v118 main_v122
  let main_v124 : IVec S1x1600000 32 := (extractStridedSlice S1x1600000 ![0, 0] · slices_S2x1600000_S1x1600000_0_0) main_arg1
  let main_v125 : IVec S1600000 32 := shapeCast S1600000 main_v124 shapeCasts_S1x1600000_S1600000
  let main_c_48 : IVec S_ 32 := constantI S_ 32 0#32
  let main_v126 : IVec S1600000 32 := broadcastInDim S1600000 ![] bcast_S_S1600000 main_c_48
  let main_v127 : IVec S1600000 1 := cmpi .sge main_v125 main_v126
  let main_v128 : IVec S1x1600000 32 := (extractStridedSlice S1x1600000 ![0, 0] · slices_S2x1600000_S1x1600000_0_0) main_arg1
  let main_v129 : IVec S1600000 32 := shapeCast S1600000 main_v128 shapeCasts_S1x1600000_S1600000
  let main_c_49 : IVec S_ 32 := constantI S_ 32 100000#32
  let main_v130 : IVec S1600000 32 := broadcastInDim S1600000 ![] bcast_S_S1600000 main_c_49
  let main_v131 : IVec S1600000 1 := cmpi .slt main_v129 main_v130
  let main_v132 : IVec S1600000 1 := andi main_v127 main_v131
  let main_c_50 : IVec S_ 1 := constantI S_ 1 1#1
  let main_v133 : IVec S_ 1 := (fun x v => Host.reduce IntOp.andi x v reducesTo_S1600000_S_d0 h_S_) main_v132 main_c_50
  let main_v134 : IVec S_ 1 := andi main_v123 main_v133
  main_v134

def fn_part6 {F : FTy → Type} [FloatOps F] (main_arg1 : IVec S2x1600000 32) (main_arg23 : FVec F S64x16 .f32) (main_arg24 : FVec F S16 .f32) (main_arg25 : FVec F S16x7 .f32) (main_arg26 : FVec F S7 .f32) (main_v98 : IVec S_ 1) (main_v101 : IVec S2x64 1) (main_c_39 : IVec S_ 1) : IVec S_ 1 :=
  let main_v102 : IVec S_ 1 := (fun x v => Host.reduce IntOp.andi x v reducesTo_S2x64_S_d0_1 h_S_) main_v101 main_c_39
  let main_v103 : IVec S_ 1 := andi main_v98 main_v102
  let main_v104 : FVec F S64x16 .f32 := Host.absf main_arg23
  let main_cst_40 : FVec F S_ .f32 := constant S_ .f32 0x7F800000#32
  let main_v105 : FVec F S64x16 .f32 := broadcastInDim S64x16 ![] bcast_S_S64x16 main_cst_40
  let main_v106 : IVec S64x16 1 := cmpf .olt main_v104 main_v105
  let main_c_41 : IVec S_ 1 := constantI S_ 1 1#1
  let main_v107 : IVec S_ 1 := (fun x v => Host.reduce IntOp.andi x v reducesTo_S64x16_S_d0_1 h_S_) main_v106 main_c_41
  let main_v108 : IVec S_ 1 := andi main_v103 main_v107
  let main_v109 : FVec F S16 .f32 := Host.absf main_arg24
  let main_cst_42 : FVec F S_ .f32 := constant S_ .f32 0x7F800000#32
  let main_v110 : FVec F S16 .f32 := broadcastInDim S16 ![] bcast_S_S16 main_cst_42
  let main_v111 : IVec S16 1 := cmpf .olt main_v109 main_v110
  let main_c_43 : IVec S_ 1 := constantI S_ 1 1#1
  let main_v112 : IVec S_ 1 := (fun x v => Host.reduce IntOp.andi x v reducesTo_S16_S_d0 h_S_) main_v111 main_c_43
  let main_v113 : IVec S_ 1 := andi main_v108 main_v112
  let main_v114 : FVec F S16x7 .f32 := Host.absf main_arg25
  let main_cst_44 : FVec F S_ .f32 := constant S_ .f32 0x7F800000#32
  let main_v115 : FVec F S16x7 .f32 := broadcastInDim S16x7 ![] bcast_S_S16x7 main_cst_44
  let main_v116 : IVec S16x7 1 := cmpf .olt main_v114 main_v115
  let main_c_45 : IVec S_ 1 := constantI S_ 1 1#1
  let main_v117 : IVec S_ 1 := (fun x v => Host.reduce IntOp.andi x v reducesTo_S16x7_S_d0_1 h_S_) main_v116 main_c_45
  let main_v118 : IVec S_ 1 := andi main_v113 main_v117
  let main_v119 : FVec F S7 .f32 := Host.absf main_arg26
  fn_part7 (F := F) main_arg1 main_v118 main_v119

def fn_part5 {F : FTy → Type} [FloatOps F] (main_arg1 : IVec S2x1600000 32) (main_arg20 : FVec F S2x64 .f32) (main_arg21 : FVec F S2x64 .f32) (main_arg22 : FVec F S2x64 .f32) (main_arg23 : FVec F S64x16 .f32) (main_arg24 : FVec F S16 .f32) (main_arg25 : FVec F S16x7 .f32) (main_arg26 : FVec F S7 .f32) (main_v83 : IVec S_ 1) (main_v84 : FVec F S2x64 .f32) (main_cst_32 : FVec F S_ .f32) : IVec S_ 1 :=
  let main_v85 : FVec F S2x64 .f32 := broadcastInDim S2x64 ![] bcast_S_S2x64 main_cst_32
  let main_v86 : IVec S2x64 1 := cmpf .olt main_v84 main_v85
  let main_c_33 : IVec S_ 1 := constantI S_ 1 1#1
  let main_v87 : IVec S_ 1 := (fun x v => Host.reduce IntOp.andi x v reducesTo_S2x64_S_d0_1 h_S_) main_v86 main_c_33
  let main_v88 : IVec S_ 1 := andi main_v83 main_v87
  let main_v89 : FVec F S2x64 .f32 := Host.absf main_arg20
  let main_cst_34 : FVec F S_ .f32 := constant S_ .f32 0x7F800000#32
  let main_v90 : FVec F S2x64 .f32 := broadcastInDim S2x64 ![] bcast_S_S2x64 main_cst_34
  let main_v91 : IVec S2x64 1 := cmpf .olt main_v89 main_v90
  let main_c_35 : IVec S_ 1 := constantI S_ 1 1#1
  let main_v92 : IVec S_ 1 := (fun x v => Host.reduce IntOp.andi x v reducesTo_S2x64_S_d0_1 h_S_) main_v91 main_c_35
  let main_v93 : IVec S_ 1 := andi main_v88 main_v92
  let main_v94 : FVec F S2x64 .f32 := Host.absf main_arg21
  let main_cst_36 : FVec F S_ .f32 := constant S_ .f32 0x7F800000#32
  let main_v95 : FVec F S2x64 .f32 := broadcastInDim S2x64 ![] bcast_S_S2x64 main_cst_36
  let main_v96 : IVec S2x64 1 := cmpf .olt main_v94 main_v95
  let main_c_37 : IVec S_ 1 := constantI S_ 1 1#1
  let main_v97 : IVec S_ 1 := (fun x v => Host.reduce IntOp.andi x v reducesTo_S2x64_S_d0_1 h_S_) main_v96 main_c_37
  let main_v98 : IVec S_ 1 := andi main_v93 main_v97
  let main_v99 : FVec F S2x64 .f32 := Host.absf main_arg22
  let main_cst_38 : FVec F S_ .f32 := constant S_ .f32 0x7F800000#32
  let main_v100 : FVec F S2x64 .f32 := broadcastInDim S2x64 ![] bcast_S_S2x64 main_cst_38
  let main_v101 : IVec S2x64 1 := cmpf .olt main_v99 main_v100
  let main_c_39 : IVec S_ 1 := constantI S_ 1 1#1
  fn_part6 (F := F) main_arg1 main_arg23 main_arg24 main_arg25 main_arg26 main_v98 main_v101 main_c_39

def fn_part4 {F : FTy → Type} [FloatOps F] (main_arg1 : IVec S2x1600000 32) (main_arg16 : FVec F S2x64 .f32) (main_arg17 : FVec F S2x64x64 .f32) (main_arg18 : FVec F S2x64 .f32) (main_arg19 : FVec F S2x64 .f32) (main_arg20 : FVec F S2x64 .f32) (main_arg21 : FVec F S2x64 .f32) (main_arg22 : FVec F S2x64 .f32) (main_arg23 : FVec F S64x16 .f32) (main_arg24 : FVec F S16 .f32) (main_arg25 : FVec F S16x7 .f32) (main_arg26 : FVec F S7 .f32) (main_v63 : IVec S_ 1) (main_v67 : IVec S_ 1) : IVec S_ 1 :=
  let main_v68 : IVec S_ 1 := andi main_v63 main_v67
  let main_v69 : FVec F S2x64 .f32 := Host.absf main_arg16
  let main_cst_26 : FVec F S_ .f32 := constant S_ .f32 0x7F800000#32
  let main_v70 : FVec F S2x64 .f32 := broadcastInDim S2x64 ![] bcast_S_S2x64 main_cst_26
  let main_v71 : IVec S2x64 1 := cmpf .olt main_v69 main_v70
  let main_c_27 : IVec S_ 1 := constantI S_ 1 1#1
  let main_v72 : IVec S_ 1 := (fun x v => Host.reduce IntOp.andi x v reducesTo_S2x64_S_d0_1 h_S_) main_v71 main_c_27
  let main_v73 : IVec S_ 1 := andi main_v68 main_v72
  let main_v74 : FVec F S2x64x64 .f32 := Host.absf main_arg17
  let main_cst_28 : FVec F S_ .f32 := constant S_ .f32 0x7F800000#32
  let main_v75 : FVec F S2x64x64 .f32 := broadcastInDim S2x64x64 ![] bcast_S_S2x64x64 main_cst_28
  let main_v76 : IVec S2x64x64 1 := cmpf .olt main_v74 main_v75
  let main_c_29 : IVec S_ 1 := constantI S_ 1 1#1
  let main_v77 : IVec S_ 1 := (fun x v => Host.reduce IntOp.andi x v reducesTo_S2x64x64_S_d0_1_2 h_S_) main_v76 main_c_29
  let main_v78 : IVec S_ 1 := andi main_v73 main_v77
  let main_v79 : FVec F S2x64 .f32 := Host.absf main_arg18
  let main_cst_30 : FVec F S_ .f32 := constant S_ .f32 0x7F800000#32
  let main_v80 : FVec F S2x64 .f32 := broadcastInDim S2x64 ![] bcast_S_S2x64 main_cst_30
  let main_v81 : IVec S2x64 1 := cmpf .olt main_v79 main_v80
  let main_c_31 : IVec S_ 1 := constantI S_ 1 1#1
  let main_v82 : IVec S_ 1 := (fun x v => Host.reduce IntOp.andi x v reducesTo_S2x64_S_d0_1 h_S_) main_v81 main_c_31
  let main_v83 : IVec S_ 1 := andi main_v78 main_v82
  let main_v84 : FVec F S2x64 .f32 := Host.absf main_arg19
  let main_cst_32 : FVec F S_ .f32 := constant S_ .f32 0x7F800000#32
  fn_part5 (F := F) main_arg1 main_arg20 main_arg21 main_arg22 main_arg23 main_arg24 main_arg25 main_arg26 main_v83 main_v84 main_cst_32

def fn_part3 {F : FTy → Type} [FloatOps F] (main_arg1 : IVec S2x1600000 32) (main_arg13 : FVec F S2x64 .f32) (main_arg14 : FVec F S2x64 .f32) (main_arg15 : FVec F S2x64 .f32) (main_arg16 : FVec F S2x64 .f32) (main_arg17 : FVec F S2x64x64 .f32) (main_arg18 : FVec F S2x64 .f32) (main_arg19 : FVec F S2x64 .f32) (main_arg20 : FVec F S2x64 .f32) (main_arg21 : FVec F S2x64 .f32) (main_arg22 : FVec F S2x64 .f32) (main_arg23 : FVec F S64x16 .f32) (main_arg24 : FVec F S16 .f32) (main_arg25 : FVec F S16x7 .f32) (main_arg26 : FVec F S7 .f32) (main_v48 : IVec S_ 1) (main_v49 : FVec F S2x64 .f32) (main_v50 : FVec F S2x64 .f32) : IVec S_ 1 :=
  let main_v51 : IVec S2x64 1 := cmpf .olt main_v49 main_v50
  let main_c_19 : IVec S_ 1 := constantI S_ 1 1#1
  let main_v52 : IVec S_ 1 := (fun x v => Host.reduce IntOp.andi x v reducesTo_S2x64_S_d0_1 h_S_) main_v51 main_c_19
  let main_v53 : IVec S_ 1 := andi main_v48 main_v52
  let main_v54 : FVec F S2x64 .f32 := Host.absf main_arg13
  let main_cst_20 : FVec F S_ .f32 := constant S_ .f32 0x7F800000#32
  let main_v55 : FVec F S2x64 .f32 := broadcastInDim S2x64 ![] bcast_S_S2x64 main_cst_20
  let main_v56 : IVec S2x64 1 := cmpf .olt main_v54 main_v55
  let main_c_21 : IVec S_ 1 := constantI S_ 1 1#1
  let main_v57 : IVec S_ 1 := (fun x v => Host.reduce IntOp.andi x v reducesTo_S2x64_S_d0_1 h_S_) main_v56 main_c_21
  let main_v58 : IVec S_ 1 := andi main_v53 main_v57
  let main_v59 : FVec F S2x64 .f32 := Host.absf main_arg14
  let main_cst_22 : FVec F S_ .f32 := constant S_ .f32 0x7F800000#32
  let main_v60 : FVec F S2x64 .f32 := broadcastInDim S2x64 ![] bcast_S_S2x64 main_cst_22
  let main_v61 : IVec S2x64 1 := cmpf .olt main_v59 main_v60
  let main_c_23 : IVec S_ 1 := constantI S_ 1 1#1
  let main_v62 : IVec S_ 1 := (fun x v => Host.reduce IntOp.andi x v reducesTo_S2x64_S_d0_1 h_S_) main_v61 main_c_23
  let main_v63 : IVec S_ 1 := andi main_v58 main_v62
  let main_v64 : FVec F S2x64 .f32 := Host.absf main_arg15
  let main_cst_24 : FVec F S_ .f32 := constant S_ .f32 0x7F800000#32
  let main_v65 : FVec F S2x64 .f32 := broadcastInDim S2x64 ![] bcast_S_S2x64 main_cst_24
  let main_v66 : IVec S2x64 1 := cmpf .olt main_v64 main_v65
  let main_c_25 : IVec S_ 1 := constantI S_ 1 1#1
  let main_v67 : IVec S_ 1 := (fun x v => Host.reduce IntOp.andi x v reducesTo_S2x64_S_d0_1 h_S_) main_v66 main_c_25
  fn_part4 (F := F) main_arg1 main_arg16 main_arg17 main_arg18 main_arg19 main_arg20 main_arg21 main_arg22 main_arg23 main_arg24 main_arg25 main_arg26 main_v63 main_v67

def fn_part2 {F : FTy → Type} [FloatOps F] (main_arg1 : IVec S2x1600000 32) (main_arg9 : FVec F S16x32 .f32) (main_arg10 : FVec F S32 .f32) (main_arg11 : FVec F S2x64x64 .f32) (main_arg12 : FVec F S2x64 .f32) (main_arg13 : FVec F S2x64 .f32) (main_arg14 : FVec F S2x64 .f32) (main_arg15 : FVec F S2x64 .f32) (main_arg16 : FVec F S2x64 .f32) (main_arg17 : FVec F S2x64x64 .f32) (main_arg18 : FVec F S2x64 .f32) (main_arg19 : FVec F S2x64 .f32) (main_arg20 : FVec F S2x64 .f32) (main_arg21 : FVec F S2x64 .f32) (main_arg22 : FVec F S2x64 .f32) (main_arg23 : FVec F S64x16 .f32) (main_arg24 : FVec F S16 .f32) (main_arg25 : FVec F S16x7 .f32) (main_arg26 : FVec F S7 .f32) (main_v33 : IVec S_ 1) : IVec S_ 1 :=
  let main_v34 : FVec F S16x32 .f32 := Host.absf main_arg9
  let main_cst_12 : FVec F S_ .f32 := constant S_ .f32 0x7F800000#32
  let main_v35 : FVec F S16x32 .f32 := broadcastInDim S16x32 ![] bcast_S_S16x32 main_cst_12
  let main_v36 : IVec S16x32 1 := cmpf .olt main_v34 main_v35
  let main_c_13 : IVec S_ 1 := constantI S_ 1 1#1
  let main_v37 : IVec S_ 1 := (fun x v => Host.reduce IntOp.andi x v reducesTo_S16x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S2x64x64 .f32 := Host.absf main_arg11
  let main_cst_16 : FVec F S_ .f32 := constant S_ .f32 0x7F800000#32
  let main_v45 : FVec F S2x64x64 .f32 := broadcastInDim S2x64x64 ![] bcast_S_S2x64x64 main_cst_16
  let main_v46 : IVec S2x64x64 1 := cmpf .olt main_v44 main_v45
  let main_c_17 : IVec S_ 1 := constantI S_ 1 1#1
  let main_v47 : IVec S_ 1 := (fun x v => Host.reduce IntOp.andi x v reducesTo_S2x64x64_S_d0_1_2 h_S_) main_v46 main_c_17
  let main_v48 : IVec S_ 1 := andi main_v43 main_v47
  let main_v49 : FVec F S2x64 .f32 := Host.absf main_arg12
  let main_cst_18 : FVec F S_ .f32 := constant S_ .f32 0x7F800000#32
  let main_v50 : FVec F S2x64 .f32 := broadcastInDim S2x64 ![] bcast_S_S2x64 main_cst_18
  fn_part3 (F := F) main_arg1 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg1 : IVec S2x1600000 32) (main_arg6 : FVec F S32 .f32) (main_arg7 : FVec F S1022x16 .f32) (main_arg8 : FVec F S16 .f32) (main_arg9 : FVec F S16x32 .f32) (main_arg10 : FVec F S32 .f32) (main_arg11 : FVec F S2x64x64 .f32) (main_arg12 : FVec F S2x64 .f32) (main_arg13 : FVec F S2x64 .f32) (main_arg14 : FVec F S2x64 .f32) (main_arg15 : FVec F S2x64 .f32) (main_arg16 : FVec F S2x64 .f32) (main_arg17 : FVec F S2x64x64 .f32) (main_arg18 : FVec F S2x64 .f32) (main_arg19 : FVec F S2x64 .f32) (main_arg20 : FVec F S2x64 .f32) (main_arg21 : FVec F S2x64 .f32) (main_arg22 : FVec F S2x64 .f32) (main_arg23 : FVec F S64x16 .f32) (main_arg24 : FVec F S16 .f32) (main_arg25 : FVec F S16x7 .f32) (main_arg26 : FVec F S7 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S1022x16 .f32 := Host.absf main_arg7
  let main_cst_8 : FVec F S_ .f32 := constant S_ .f32 0x7F800000#32
  let main_v25 : FVec F S1022x16 .f32 := broadcastInDim S1022x16 ![] bcast_S_S1022x16 main_cst_8
  let main_v26 : IVec S1022x16 1 := cmpf .olt main_v24 main_v25
  let main_c_9 : IVec S_ 1 := constantI S_ 1 1#1
  let main_v27 : IVec S_ 1 := (fun x v => Host.reduce IntOp.andi x v reducesTo_S1022x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S100000x1024 .f32) (main_arg1 : IVec S2x1600000 32) (main_arg2 : IVec S100000 32) (main_arg3 : FVec F S2x16 .f32) (main_arg4 : FVec F S16 .f32) (main_arg5 : FVec F S16x32 .f32) (main_arg6 : FVec F S32 .f32) (main_arg7 : FVec F S1022x16 .f32) (main_arg8 : FVec F S16 .f32) (main_arg9 : FVec F S16x32 .f32) (main_arg10 : FVec F S32 .f32) (main_arg11 : FVec F S2x64x64 .f32) (main_arg12 : FVec F S2x64 .f32) (main_arg13 : FVec F S2x64 .f32) (main_arg14 : FVec F S2x64 .f32) (main_arg15 : FVec F S2x64 .f32) (main_arg16 : FVec F S2x64 .f32) (main_arg17 : FVec F S2x64x64 .f32) (main_arg18 : FVec F S2x64 .f32) (main_arg19 : FVec F S2x64 .f32) (main_arg20 : FVec F S2x64 .f32) (main_arg21 : FVec F S2x64 .f32) (main_arg22 : FVec F S2x64 .f32) (main_arg23 : FVec F S64x16 .f32) (main_arg24 : FVec F S16 .f32) (main_arg25 : FVec F S16x7 .f32) (main_arg26 : FVec F S7 .f32) : IVec S_ 1 :=
  let main_v0 : FVec F S100000x1024 .f32 := Host.absf main_arg0
  let main_cst : FVec F S_ .f32 := constant S_ .f32 0x7F800000#32
  let main_v1 : FVec F S100000x1024 .f32 := broadcastInDim S100000x1024 ![] bcast_S_S100000x1024 main_cst
  let main_v2 : IVec S100000x1024 1 := cmpf .olt main_v0 main_v1
  let main_c : IVec S_ 1 := constantI S_ 1 1#1
  let main_v3 : IVec S_ 1 := (fun x v => Host.reduce IntOp.andi x v reducesTo_S100000x1024_S_d0_1 h_S_) main_v2 main_c
  let main_v4 : FVec F S2x16 .f32 := Host.absf main_arg3
  let main_cst_0 : FVec F S_ .f32 := constant S_ .f32 0x7F800000#32
  let main_v5 : FVec F S2x16 .f32 := broadcastInDim S2x16 ![] bcast_S_S2x16 main_cst_0
  let main_v6 : IVec S2x16 1 := cmpf .olt main_v4 main_v5
  let main_c_1 : IVec S_ 1 := constantI S_ 1 1#1
  let main_v7 : IVec S_ 1 := (fun x v => Host.reduce IntOp.andi x v reducesTo_S2x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg5
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg1 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S100000x1024 : Shape := ⟨2, ![100000, 1024]⟩
abbrev S2x1600000 : Shape := ⟨2, ![2, 1600000]⟩
abbrev S100000 : Shape := ⟨1, ![100000]⟩
abbrev S2x16 : Shape := ⟨2, ![2, 16]⟩
abbrev S16 : Shape := ⟨1, ![16]⟩
abbrev S16x32 : Shape := ⟨2, ![16, 32]⟩
abbrev S32 : Shape := ⟨1, ![32]⟩
abbrev S1022x16 : Shape := ⟨2, ![1022, 16]⟩
abbrev S2x64x64 : Shape := ⟨3, ![2, 64, 64]⟩
abbrev S2x64 : Shape := ⟨2, ![2, 64]⟩
abbrev S64x16 : Shape := ⟨2, ![64, 16]⟩
abbrev S16x7 : Shape := ⟨2, ![16, 7]⟩
abbrev S7 : Shape := ⟨1, ![7]⟩
abbrev S_ : Shape := ⟨0, ![]⟩
abbrev S1024x16 : Shape := ⟨2, ![1024, 16]⟩
abbrev S1x16 : Shape := ⟨2, ![1, 16]⟩
abbrev S1x32 : Shape := ⟨2, ![1, 32]⟩
abbrev S100000x64 : Shape := ⟨2, ![100000, 64]⟩
abbrev S2000x1024 : Shape := ⟨2, ![2000, 1024]⟩
abbrev S2000x64 : Shape := ⟨2, ![2000, 64]⟩
abbrev S2000x16 : Shape := ⟨2, ![2000, 16]⟩
abbrev S2000x32 : Shape := ⟨2, ![2000, 32]⟩
abbrev S1x1600000 : Shape := ⟨2, ![1, 1600000]⟩
abbrev S1600000 : Shape := ⟨1, ![1600000]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S10000x64 : Shape := ⟨2, ![10000, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S1x7 : Shape := ⟨2, ![1, 7]⟩
abbrev S512x7 : Shape := ⟨2, ![512, 7]⟩
abbrev S512x16 : Shape := ⟨2, ![512, 16]⟩

abbrev nBuf : Space → Nat
  | .hbm => 181
  | .vmem => 59
  | .smem => 0
  | _ => 0

abbrev hbmTy0_0 (i : Nat) : BufTy := match i % 128 with
  | 0 => ⟨S100000x1024, .f32⟩
  | 1 => ⟨S2x1600000, .i32⟩
  | 2 => ⟨S100000, .i32⟩
  | 3 => ⟨S2x16, .f32⟩
  | 4 => ⟨S16, .f32⟩
  | 5 => ⟨S16x32, .f32⟩
  | 6 => ⟨S32, .f32⟩
  | 7 => ⟨S1022x16, .f32⟩
  | 8 => ⟨S16, .f32⟩
  | 9 => ⟨S16x32, .f32⟩
  | 10 => ⟨S32, .f32⟩
  | 11 => ⟨S2x64x64, .f32⟩
  | 12 => ⟨S2x64, .f32⟩
  | 13 => ⟨S2x64, .f32⟩
  | 14 => ⟨S2x64, .f32⟩
  | 15 => ⟨S2x64, .f32⟩
  | 16 => ⟨S2x64, .f32⟩
  | 17 => ⟨S2x64x64, .f32⟩
  | 18 => ⟨S2x64, .f32⟩
  | 19 => ⟨S2x64, .f32⟩
  | 20 => ⟨S2x64, .f32⟩
  | 21 => ⟨S2x64, .f32⟩
  | 22 => ⟨S2x64, .f32⟩
  | 23 => ⟨S64x16, .f32⟩
  | 24 => ⟨S16, .f32⟩
  | 25 => ⟨S16x7, .f32⟩
  | 26 => ⟨S7, .f32⟩
  | 27 => ⟨S_, .f32⟩
  | 28 => ⟨S1022x16, .f32⟩
  | 29 => ⟨S1024x16, .f32⟩
  | 30 => ⟨S_, .f32⟩
  | 31 => ⟨S2x16, .f32⟩
  | 32 => ⟨S1024x16, .f32⟩
  | 33 => ⟨S1x16, .f32⟩
  | 34 => ⟨S1x32, .f32⟩
  | 35 => ⟨S1x16, .f32⟩
  | 36 => ⟨S1x32, .f32⟩
  | 37 => ⟨S100000x64, .f32⟩
  | 38 => ⟨S1x1600000, .i32⟩
  | 39 => ⟨S1600000, .i32⟩
  | 40 => ⟨S1x1600000, .i32⟩
  | 41 => ⟨S1600000, .i32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1, .i32⟩
  | 51 => ⟨S_, .i32⟩
  | 52 => ⟨S1600000x1, .i32⟩
  | 53 => ⟨S1600000x1, .i1⟩
  | 54 => ⟨S1x1, .i32⟩
  | 55 => ⟨S1600000x1, .i32⟩
  | 56 => ⟨S1600000x1, .i1⟩
  | 57 => ⟨S1600000x1, .i1⟩
  | 58 => ⟨S_, .i1⟩
  | 59 => ⟨S1600000, .i1⟩
  | 60 => ⟨S1600000x64, .f32⟩
  | 61 => ⟨S1600000x64, .i1⟩
  | 62 => ⟨S_, .f32⟩
  | 63 => ⟨S1600000x64, .f32⟩
  | 64 => ⟨S1600000x64, .f32⟩
  | 65 => ⟨S_, .f32⟩
  | 66 => ⟨S100000x64, .f32⟩
  | 67 => ⟨S1600000x1, .i32⟩
  | 68 => ⟨S100000x64, .f32⟩
  | 69 => ⟨S1x64x64, .f32⟩
  | 70 => ⟨S64x64, .f32⟩
  | 71 => ⟨S1x64, .f32⟩
  | 72 => ⟨S64, .f32⟩
  | 73 => ⟨S1x64, .f32⟩
  | 74 => ⟨S1x64, .f32⟩
  | 75 => ⟨S64, .f32⟩
  | 76 => ⟨S1x64, .f32⟩
  | 77 => ⟨S1x64, .f32⟩
  | 78 => ⟨S64, .f32⟩
  | 79 => ⟨S1x64, .f32⟩
  | 80 => ⟨S1x64, .f32⟩
  | 81 => ⟨S64, .f32⟩
  | 82 => ⟨S1x64, .f32⟩
  | 83 => ⟨S1x64, .f32⟩
  | 84 => ⟨S64, .f32⟩
  | 85 => ⟨S1x64, .f32⟩
  | 86 => ⟨S1x64x64, .f32⟩
  | 87 => ⟨S64x64, .f32⟩
  | 88 => ⟨S1x64, .f32⟩
  | 89 => ⟨S64, .f32⟩
  | 90 => ⟨S1x64, .f32⟩
  | 91 => ⟨S1x64, .f32⟩
  | 92 => ⟨S64, .f32⟩
  | 93 => ⟨S1x64, .f32⟩
  | 94 => ⟨S1x64, .f32⟩
  | 95 => ⟨S64, .f32⟩
  | 96 => ⟨S1x64, .f32⟩
  | 97 => ⟨S1x64, .f32⟩
  | 98 => ⟨S64, .f32⟩
  | 99 => ⟨S1x64, .f32⟩
  | 100 => ⟨S1x64, .f32⟩
  | 101 => ⟨S64, .f32⟩
  | 102 => ⟨S1x64, .f32⟩
  | 103 => ⟨S100000x64, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1, .i32⟩
  | 113 => ⟨S_, .i32⟩
  | 114 => ⟨S1600000x1, .i32⟩
  | 115 => ⟨S1600000x1, .i1⟩
  | 116 => ⟨S1x1, .i32⟩
  | 117 => ⟨S1600000x1, .i32⟩
  | 118 => ⟨S1600000x1, .i1⟩
  | 119 => ⟨S1600000x1, .i1⟩
  | 120 => ⟨S_, .i1⟩
  | 121 => ⟨S1600000, .i1⟩
  | 122 => ⟨S1600000x64, .f32⟩
  | 123 => ⟨S1600000x64, .i1⟩
  | 124 => ⟨S_, .f32⟩
  | 125 => ⟨S1600000x64, .f32⟩
  | 126 => ⟨S1600000x64, .f32⟩
  | 127 => ⟨S_, .f32⟩
  | _ => ⟨S100000x1024, .f32⟩

abbrev hbmTy0_1 (i : Nat) : BufTy := match i % 128 with
  | 0 => ⟨S100000x64, .f32⟩
  | 1 => ⟨S1600000x1, .i32⟩
  | 2 => ⟨S100000x64, .f32⟩
  | 3 => ⟨S100000x64, .f32⟩
  | 4 => ⟨S1x64x64, .f32⟩
  | 5 => ⟨S64x64, .f32⟩
  | 6 => ⟨S1x64, .f32⟩
  | 7 => ⟨S64, .f32⟩
  | 8 => ⟨S1x64, .f32⟩
  | 9 => ⟨S1x64, .f32⟩
  | 10 => ⟨S64, .f32⟩
  | 11 => ⟨S1x64, .f32⟩
  | 12 => ⟨S1x64, .f32⟩
  | 13 => ⟨S64, .f32⟩
  | 14 => ⟨S1x64, .f32⟩
  | 15 => ⟨S1x64, .f32⟩
  | 16 => ⟨S64, .f32⟩
  | 17 => ⟨S1x64, .f32⟩
  | 18 => ⟨S1x64, .f32⟩
  | 19 => ⟨S64, .f32⟩
  | 20 => ⟨S1x64, .f32⟩
  | 21 => ⟨S1x64x64, .f32⟩
  | 22 => ⟨S64x64, .f32⟩
  | 23 => ⟨S1x64, .f32⟩
  | 24 => ⟨S64, .f32⟩
  | 25 => ⟨S1x64, .f32⟩
  | 26 => ⟨S1x64, .f32⟩
  | 27 => ⟨S64, .f32⟩
  | 28 => ⟨S1x64, .f32⟩
  | 29 => ⟨S1x64, .f32⟩
  | 30 => ⟨S64, .f32⟩
  | 31 => ⟨S1x64, .f32⟩
  | 32 => ⟨S1x64, .f32⟩
  | 33 => ⟨S64, .f32⟩
  | 34 => ⟨S1x64, .f32⟩
  | 35 => ⟨S1x64, .f32⟩
  | 36 => ⟨S64, .f32⟩
  | 37 => ⟨S1x64, .f32⟩
  | 38 => ⟨S100000x64, .f32⟩
  | 39 => ⟨S_, .f32⟩
  | 40 => ⟨S512x64, .f32⟩
  | 41 => ⟨S100000x1, .i32⟩
  | 42 => ⟨S512x64, .f32⟩
  | 43 => ⟨S_, .f32⟩
  | 44 => ⟨S100000, .f32⟩
  | 45 => ⟨S_, .f32⟩
  | 46 => ⟨S512, .f32⟩
  | 47 => ⟨S100000x1, .i32⟩
  | 48 => ⟨S512, .f32⟩
  | 49 => ⟨S512x1, .f32⟩
  | 50 => ⟨S1x16, .f32⟩
  | 51 => ⟨S1x7, .f32⟩
  | 52 => ⟨S512x7, .f32⟩
  | _ => ⟨S100000x1024, .f32⟩

abbrev hbmTy (i : Nat) : BufTy := match i / 128 with
  | 0 => hbmTy0_0 i
  | 1 => hbmTy0_1 i
  | _ => ⟨S100000x1024, .f32⟩

abbrev bufTy : (tb : Table) → Fin (tcTables nBuf tb) → BufTy
  | .hbm, ⟨i, _⟩ => hbmTy i
  | .local _ .vmem, ⟨0, _⟩ => ⟨S2000x1024, .f32⟩
  | .local _ .vmem, ⟨1, _⟩ => ⟨S2000x1024, .f32⟩
  | .local _ .vmem, ⟨2, _⟩ => ⟨S1024x16, .f32⟩
  | .local _ .vmem, ⟨3, _⟩ => ⟨S1x16, .f32⟩
  | .local _ .vmem, ⟨4, _⟩ => ⟨S16x32, .f32⟩
  | .local _ .vmem, ⟨5, _⟩ => ⟨S1x32, .f32⟩
  | .local _ .vmem, ⟨6, _⟩ => ⟨S1024x16, .f32⟩
  | .local _ .vmem, ⟨7, _⟩ => ⟨S1x16, .f32⟩
  | .local _ .vmem, ⟨8, _⟩ => ⟨S16x32, .f32⟩
  | .local _ .vmem, ⟨9, _⟩ => ⟨S1x32, .f32⟩
  | .local _ .vmem, ⟨10, _⟩ => ⟨S2000x64, .f32⟩
  | .local _ .vmem, ⟨11, _⟩ => ⟨S2000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S64x64, .f32⟩
  | .local _ .vmem, ⟨39, _⟩ => ⟨S1x64, .f32⟩
  | .local _ .vmem, ⟨40, _⟩ => ⟨S1x64, .f32⟩
  | .local _ .vmem, ⟨41, _⟩ => ⟨S1x64, .f32⟩
  | .local _ .vmem, ⟨42, _⟩ => ⟨S1x64, .f32⟩
  | .local _ .vmem, ⟨43, _⟩ => ⟨S1x64, .f32⟩
  | .local _ .vmem, ⟨44, _⟩ => ⟨S64x64, .f32⟩
  | .local _ .vmem, ⟨45, _⟩ => ⟨S1x64, .f32⟩
  | .local _ .vmem, ⟨46, _⟩ => ⟨S1x64, .f32⟩
  | .local _ .vmem, ⟨47, _⟩ => ⟨S1x64, .f32⟩
  | .local _ .vmem, ⟨48, _⟩ => ⟨S1x64, .f32⟩
  | .local _ .vmem, ⟨49, _⟩ => ⟨S1x64, .f32⟩
  | .local _ .vmem, ⟨50, _⟩ => ⟨S10000x64, .f32⟩
  | .local _ .vmem, ⟨51, _⟩ => ⟨S10000x64, .f32⟩
  | .local _ .vmem, ⟨52, _⟩ => ⟨S512x64, .f32⟩
  | .local _ .vmem, ⟨53, _⟩ => ⟨S512x1, .f32⟩
  | .local _ .vmem, ⟨54, _⟩ => ⟨S64x16, .f32⟩
  | .local _ .vmem, ⟨55, _⟩ => ⟨S1x16, .f32⟩
  | .local _ .vmem, ⟨56, _⟩ => ⟨S16x7, .f32⟩
  | .local _ .vmem, ⟨57, _⟩ => ⟨S1x7, .f32⟩
  | .local _ .vmem, ⟨58, _⟩ => ⟨S512x7, .f32⟩
  | _, _ => ⟨S100000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_cst : Ref sig .tc := ⟨.hbm, 27, rfl⟩
abbrev main_v0 : Ref sig .tc := ⟨.hbm, 28, rfl⟩
abbrev main_v1 : Ref sig .tc := ⟨.hbm, 29, rfl⟩
abbrev main_cst_0 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_call0_c : Ref sig .tc := ⟨.hbm, 42, rfl⟩
abbrev main_call0_v0 : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_c_1 : Ref sig .tc := ⟨.hbm, 50, rfl⟩
abbrev main_call0_c_2 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_3 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_call0_cst : Ref sig .tc := ⟨.hbm, 62, rfl⟩
abbrev main_call0_v15 : Ref sig .tc := ⟨.hbm, 63, rfl⟩
abbrev main_v13 : Ref sig .tc := ⟨.hbm, 64, rfl⟩
abbrev main_cst_1 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_call1_c : Ref sig .tc := ⟨.hbm, 104, rfl⟩
abbrev main_call1_v0 : Ref sig .tc := ⟨.hbm, 105, rfl⟩
abbrev main_call1_v1 : Ref sig .tc := ⟨.hbm, 106, rfl⟩
abbrev main_call1_c_0 : Ref sig .tc := ⟨.hbm, 107, rfl⟩
abbrev main_call1_v2 : Ref sig .tc := ⟨.hbm, 108, rfl⟩
abbrev main_call1_v3 : Ref sig .tc := ⟨.hbm, 109, rfl⟩
abbrev main_call1_v4 : Ref sig .tc := ⟨.hbm, 110, rfl⟩
abbrev main_call1_v5 : Ref sig .tc := ⟨.hbm, 111, rfl⟩
abbrev main_call1_c_1 : Ref sig .tc := ⟨.hbm, 112, rfl⟩
abbrev main_call1_c_2 : Ref sig .tc := ⟨.hbm, 113, rfl⟩
abbrev main_call1_v6 : Ref sig .tc := ⟨.hbm, 114, rfl⟩
abbrev main_call1_v7 : Ref sig .tc := ⟨.hbm, 115, rfl⟩
abbrev main_call1_v8 : Ref sig .tc := ⟨.hbm, 116, rfl⟩
abbrev main_call1_v9 : Ref sig .tc := ⟨.hbm, 117, rfl⟩
abbrev main_call1_v10 : Ref sig .tc := ⟨.hbm, 118, rfl⟩
abbrev main_call1_v11 : Ref sig .tc := ⟨.hbm, 119, rfl⟩
abbrev main_call1_c_3 : Ref sig .tc := ⟨.hbm, 120, rfl⟩
abbrev main_call1_v12 : Ref sig .tc := ⟨.hbm, 121, rfl⟩
abbrev main_call1_v13 : Ref sig .tc := ⟨.hbm, 122, rfl⟩
abbrev main_call1_v14 : Ref sig .tc := ⟨.hbm, 123, rfl⟩
abbrev main_call1_cst : Ref sig .tc := ⟨.hbm, 124, rfl⟩
abbrev main_call1_v15 : Ref sig .tc := ⟨.hbm, 125, rfl⟩
abbrev main_v52 : Ref sig .tc := ⟨.hbm, 126, rfl⟩
abbrev main_cst_2 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_cst_3 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_cst_4 : Ref sig .tc := ⟨.hbm, 171, rfl⟩
abbrev main_v95 : Ref sig .tc := ⟨.hbm, 172, rfl⟩
abbrev main_cst_5 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg12_0 : Ref sig .tc := ⟨.vmem, 27, rfl⟩
abbrev cc1_stg13_0 : Ref sig .tc := ⟨.vmem, 28, rfl⟩
abbrev cc1_stg14_0 : Ref sig .tc := ⟨.vmem, 29, rfl⟩
abbrev cc1_stg15_0 : Ref sig .tc := ⟨.vmem, 30, rfl⟩
abbrev cc1_stg15_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg6_0 : Ref sig .tc := ⟨.vmem, 41, rfl⟩
abbrev cc2_stg7_0 : Ref sig .tc := ⟨.vmem, 42, rfl⟩
abbrev cc2_stg8_0 : Ref sig .tc := ⟨.vmem, 43, rfl⟩
abbrev cc2_stg9_0 : Ref sig .tc := ⟨.vmem, 44, rfl⟩
abbrev cc2_stg10_0 : Ref sig .tc := ⟨.vmem, 45, rfl⟩
abbrev cc2_stg11_0 : Ref sig .tc := ⟨.vmem, 46, rfl⟩
abbrev cc2_stg12_0 : Ref sig .tc := ⟨.vmem, 47, rfl⟩
abbrev cc2_stg13_0 : Ref sig .tc := ⟨.vmem, 48, rfl⟩
abbrev cc2_stg14_0 : Ref sig .tc := ⟨.vmem, 49, rfl⟩
abbrev cc2_stg15_0 : Ref sig .tc := ⟨.vmem, 50, rfl⟩
abbrev cc2_stg15_1 : Ref sig .tc := ⟨.vmem, 51, rfl⟩
abbrev cc3_stg0_0 : Ref sig .tc := ⟨.vmem, 52, rfl⟩
abbrev cc3_stg1_0 : Ref sig .tc := ⟨.vmem, 53, rfl⟩
abbrev cc3_stg2_0 : Ref sig .tc := ⟨.vmem, 54, rfl⟩
abbrev cc3_stg3_0 : Ref sig .tc := ⟨.vmem, 55, rfl⟩
abbrev cc3_stg4_0 : Ref sig .tc := ⟨.vmem, 56, rfl⟩
abbrev cc3_stg5_0 : Ref sig .tc := ⟨.vmem, 57, rfl⟩
abbrev cc3_stg6_0 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem12_0 : DmaSem sig := 27
abbrev cc1_sem13_0 : DmaSem sig := 28
abbrev cc1_sem14_0 : DmaSem sig := 29
abbrev cc1_sem15_0 : DmaSem sig := 30
abbrev cc1_sem15_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem4_0 : DmaSem sig := 39
abbrev cc2_sem5_0 : DmaSem sig := 40
abbrev cc2_sem6_0 : DmaSem sig := 41
abbrev cc2_sem7_0 : DmaSem sig := 42
abbrev cc2_sem8_0 : DmaSem sig := 43
abbrev cc2_sem9_0 : DmaSem sig := 44
abbrev cc2_sem10_0 : DmaSem sig := 45
abbrev cc2_sem11_0 : DmaSem sig := 46
abbrev cc2_sem12_0 : DmaSem sig := 47
abbrev cc2_sem13_0 : DmaSem sig := 48
abbrev cc2_sem14_0 : DmaSem sig := 49
abbrev cc2_sem15_0 : DmaSem sig := 50
abbrev cc2_sem15_1 : DmaSem sig := 51
abbrev cc3_sem0_0 : DmaSem sig := 52
abbrev cc3_sem1_0 : DmaSem sig := 53
abbrev cc3_sem2_0 : DmaSem sig := 54
abbrev cc3_sem3_0 : DmaSem sig := 55
abbrev cc3_sem4_0 : DmaSem sig := 56
abbrev cc3_sem5_0 : DmaSem sig := 57
abbrev cc3_sem6_0 : DmaSem sig := 58

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x64 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S10000x64 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x64 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 2 → Memref sig .tc .vmem S10000x64 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S512x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S16x7 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x7 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S512x7 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  bcast_S_S1022x16 : S_.BroadcastsInDim S1022x16 (![] : Fin 0 → Fin S1022x16.rank)
  concatenates_S1022x16_S2x16_S1024x16_d0 : Shape.Concatenates [S1022x16, S2x16] S1024x16 0
  bcast_S_S2x16 : S_.BroadcastsInDim S2x16 (![] : Fin 0 → Fin S2x16.rank)
  shapeCasts_S16_S1x16 : S16.ShapeCasts S1x16
  shapeCasts_S32_S1x32 : S32.ShapeCasts S1x32
  inb_S2000x1024_S2000x1024_0_0 : ∀ a, (![0, 0] : Fin 2 → Nat) a + S2000x1024.size a ≤ S2000x1024.size a
  h_S2000x1024 : 0 < S2000x1024.numel
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  concatenates_S2000x32_S2000x32_S2000x64_d1 : Shape.Concatenates [S2000x32, S2000x32] S2000x64 1
  inb_S2000x64_S2000x64_0_0 : ∀ a, (![0, 0] : Fin 2 → Nat) a + S2000x64.size a ≤ S2000x64.size a
  h_S2000x64 : 0 < S2000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S2x64x64_S1x64x64_1_0_0 : S2x64x64.Slices ![1, 0, 0] S1x64x64
  slices_S2x64_S1x64_1_0 : S2x64.Slices ![1, 0] S1x64
  bcast_S_S512x64 : S_.BroadcastsInDim S512x64 (![] : Fin 0 → Fin S512x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  shapeCasts_S512_S512x1 : S512.ShapeCasts S512x1
  shapeCasts_S7_S1x7 : S7.ShapeCasts S1x7
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S512x1_S512x64 : S512x1.Broadcasts S512x64
  inb_S64x16_S64x16_0_0 : ∀ a, (![0, 0] : Fin 2 → Nat) a + S64x16.size a ≤ S64x16.size a
  h_S64x16 : 0 < S64x16.numel
  broadcasts_S1x16_S512x16 : S1x16.Broadcasts S512x16
  inb_S16x7_S16x7_0_0 : ∀ a, (![0, 0] : Fin 2 → Nat) a + S16x7.size a ≤ S16x7.size a
  h_S16x7 : 0 < S16x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S512x7 : S1x7.Broadcasts S512x7
  reduces_S512x7_S512 : S512x7.Reduces [1] S512
  broadcasts_S512x1_S512x7 : S512x1.Broadcasts S512x7
  inb_S512x7_S512x7_0_0 : ∀ a, (![0, 0] : Fin 2 → Nat) a + S512x7.size a ≤ S512x7.size a
  h_S512x7 : 0 < S512x7.numel
  dot_S2000x1024_S1024x16_S2000x16_1_0_0_1_n_n_wf : DotDims.WF S2000x1024 S1024x16 S2000x16 [1] [0] [0] [1] [] []
  dot_S2000x16_S16x32_S2000x32_1_0_0_1_n_n_wf : DotDims.WF S2000x16 S16x32 S2000x32 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x16_S512x16_1_0_0_1_n_n_wf : DotDims.WF S512x64 S64x16 S512x16 [1] [0] [0] [1] [] []
  dot_S512x16_S16x7_S512x7_1_0_0_1_n_n_wf : DotDims.WF S512x16 S16x7 S512x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S100000x1024.size a
  hwx0_0 : ∀ i : grid0.Coords, EltTy.bits .f32 = 32 ∨ (Rect.block (s := S100000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S1024x16.size a
  hwx0_1 : ∀ i : grid0.Coords, EltTy.bits .f32 = 32 ∨ (Rect.block (s := S1024x16) S1024x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x32.size a ≤ S16x32.size a
  hwx0_3 : ∀ i : grid0.Coords, EltTy.bits .f32 = 32 ∨ (Rect.block (s := S16x32) S16x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x16.size a ≤ S1024x16.size a
  hwx0_5 : ∀ i : grid0.Coords, EltTy.bits .f32 = 32 ∨ (Rect.block (s := S1024x16) S1024x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x32.size a ≤ S16x32.size a
  hwx0_7 : ∀ i : grid0.Coords, EltTy.bits .f32 = 32 ∨ (Rect.block (s := S16x32) S16x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x64.size a ≤ S100000x64.size a
  hwx0_9 : ∀ i : grid0.Coords, EltTy.bits .f32 = 32 ∨ (Rect.block (s := S100000x64) S2000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x64.size a ≤ S64x64.size a
  hwx1_9 : ∀ i : grid1.Coords, EltTy.bits .f32 = 32 ∨ (Rect.block (s := S64x64) S64x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x64.size a ≤ S1x64.size a
  hwx1_11 : ∀ i : grid1.Coords, EltTy.bits .f32 = 32 ∨ (Rect.block (s := S1x64) S1x64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x64.size a ≤ S1x64.size a
  hwx1_12 : ∀ i : grid1.Coords, EltTy.bits .f32 = 32 ∨ (Rect.block (s := S1x64) S1x64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x64.size a ≤ S1x64.size a
  hwx1_13 : ∀ i : grid1.Coords, EltTy.bits .f32 = 32 ∨ (Rect.block (s := S1x64) S1x64.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x64.size a ≤ S1x64.size a
  hwx1_14 : ∀ i : grid1.Coords, EltTy.bits .f32 = 32 ∨ (Rect.block (s := S1x64) S1x64.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S10000x64.size a ≤ S100000x64.size a
  hwx1_15 : ∀ i : grid1.Coords, EltTy.bits .f32 = 32 ∨ (Rect.block (s := S100000x64) S10000x64.size (cc1_transform_15 i) (hinb1_15 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x64.size a ≤ S64x64.size a
  hwx2_9 : ∀ i : grid2.Coords, EltTy.bits .f32 = 32 ∨ (Rect.block (s := S64x64) S64x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x64.size a ≤ S1x64.size a
  hwx2_10 : ∀ i : grid2.Coords, EltTy.bits .f32 = 32 ∨ (Rect.block (s := S1x64) S1x64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x64.size a ≤ S1x64.size a
  hwx2_11 : ∀ i : grid2.Coords, EltTy.bits .f32 = 32 ∨ (Rect.block (s := S1x64) S1x64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x64.size a ≤ S1x64.size a
  hwx2_12 : ∀ i : grid2.Coords, EltTy.bits .f32 = 32 ∨ (Rect.block (s := S1x64) S1x64.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x64.size a ≤ S1x64.size a
  hwx2_13 : ∀ i : grid2.Coords, EltTy.bits .f32 = 32 ∨ (Rect.block (s := S1x64) S1x64.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x64.size a ≤ S1x64.size a
  hwx2_14 : ∀ i : grid2.Coords, EltTy.bits .f32 = 32 ∨ (Rect.block (s := S1x64) S1x64.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S10000x64.size a ≤ S100000x64.size a
  hwx2_15 : ∀ i : grid2.Coords, EltTy.bits .f32 = 32 ∨ (Rect.block (s := S100000x64) S10000x64.size (cc2_transform_15 i) (hinb2_15 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x64.size a ≤ S512x64.size a
  hwx3_0 : ∀ i : grid3.Coords, EltTy.bits .f32 = 32 ∨ (Rect.block (s := S512x64) S512x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x1.size a ≤ S512x1.size a
  hwx3_1 : ∀ i : grid3.Coords, EltTy.bits .f32 = 32 ∨ (Rect.block (s := S512x1) S512x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x16.size a ≤ S64x16.size a
  hwx3_2 : ∀ i : grid3.Coords, EltTy.bits .f32 = 32 ∨ (Rect.block (s := S64x16) S64x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S16x7.size a ≤ S16x7.size a
  hwx3_4 : ∀ i : grid3.Coords, EltTy.bits .f32 = 32 ∨ (Rect.block (s := S16x7) S16x7.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x7.size a ≤ S1x7.size a
  hwx3_5 : ∀ i : grid3.Coords, EltTy.bits .f32 = 32 ∨ (Rect.block (s := S1x7) S1x7.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S512x7.size a ≤ S512x7.size a
  hwx3_6 : ∀ i : grid3.Coords, EltTy.bits .f32 = 32 ∨ (Rect.block (s := S512x7) S512x7.size (cc3_transform_6 i) (hinb3_6 i)).WholeWords (EltTy.packing .f32)

variable [Facts₀]

def dot_S2000x1024_S1024x16_S2000x16_1_0_0_1_n_n : DotDims S2000x1024 S1024x16 S2000x16 where
  lhsContracting := [1]
  rhsContracting := [0]
  lhsNonContracting := [0]
  rhsNonContracting := [1]
  lhsBatch := []
  rhsBatch := []
  wf := dot_S2000x1024_S1024x16_S2000x16_1_0_0_1_n_n_wf
def dot_S2000x16_S16x32_S2000x32_1_0_0_1_n_n : DotDims S2000x16 S16x32 S2000x32 where
  lhsContracting := [1]
  rhsContracting := [0]
  lhsNonContracting := [0]
  rhsNonContracting := [1]
  lhsBatch := []
  rhsBatch := []
  wf := dot_S2000x16_S16x32_S2000x32_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x16_S512x16_1_0_0_1_n_n : DotDims S512x64 S64x16 S512x16 where
  lhsContracting := [1]
  rhsContracting := [0]
  lhsNonContracting := [0]
  rhsNonContracting := [1]
  lhsBatch := []
  rhsBatch := []
  wf := dot_S512x64_S64x16_S512x16_1_0_0_1_n_n_wf
def dot_S512x16_S16x7_S512x7_1_0_0_1_n_n : DotDims S512x16 S16x7 S512x7 where
  lhsContracting := [1]
  rhsContracting := [0]
  lhsNonContracting := [0]
  rhsNonContracting := [1]
  lhsBatch := []
  rhsBatch := []
  wf := dot_S512x16_S16x7_S512x7_1_0_0_1_n_n_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S16x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S16x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S2000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v8) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v30) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v33) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v35) S64x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v38) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v41) S1x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v44) S1x64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v47) S1x64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v50) S1x64.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v51) S10000x64.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

abbrev win2_0 : Pipeline.Window sig grid2 :=
  Pipeline.Window.ofSpec (Memref.whole main_v51) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S10000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v58) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v67) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v70) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v73) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v75) S64x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v78) S1x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v81) S1x64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v84) S1x64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v87) S1x64.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v90) S1x64.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v91) S10000x64.size cc2_transform_15 reads2_15 true false 2 stage2_15 sem2_15
    hrank2 hreads2_15 hinb2_15 nbuf2_15 (Memref.isWhole_whole _) hwx2_15 hstage2_15

abbrev win2 : Fin 16 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | ⟨_ + 16, h⟩ => absurd h (Nat.not_lt.2 (Nat.le_add_left _ _))
abbrev spec2 : Fin 16 → Pipeline.WinSpec sig grid2.rank := fun w => (win2 w).toWinSpec

abbrev win3_0 : Pipeline.Window sig grid3 :=
  Pipeline.Window.ofSpec (Memref.whole main_v94) S512x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v99) S512x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg23) S64x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v100) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg25) S16x7.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v101) S1x7.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v102) S512x7.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x1024 : Shape := ⟨2, ![100000, 1024]⟩
abbrev S2x1600000 : Shape := ⟨2, ![2, 1600000]⟩
abbrev S100000 : Shape := ⟨1, ![100000]⟩
abbrev S2x16 : Shape := ⟨2, ![2, 16]⟩
abbrev S16 : Shape := ⟨1, ![16]⟩
abbrev S16x32 : Shape := ⟨2, ![16, 32]⟩
abbrev S32 : Shape := ⟨1, ![32]⟩
abbrev S1022x16 : Shape := ⟨2, ![1022, 16]⟩
abbrev S2x64x64 : Shape := ⟨3, ![2, 64, 64]⟩
abbrev S2x64 : Shape := ⟨2, ![2, 64]⟩
abbrev S64x16 : Shape := ⟨2, ![64, 16]⟩
abbrev S16x7 : Shape := ⟨2, ![16, 7]⟩
abbrev S7 : Shape := ⟨1, ![7]⟩
abbrev S1x1600000 : Shape := ⟨2, ![1, 1600000]⟩
abbrev S1600000 : Shape := ⟨1, ![1600000]⟩
abbrev S100000x1022 : Shape := ⟨2, ![100000, 1022]⟩
abbrev S100000x2 : Shape := ⟨2, ![100000, 2]⟩
abbrev S100000x16 : Shape := ⟨2, ![100000, 16]⟩
abbrev S1x16 : Shape := ⟨2, ![1, 16]⟩
abbrev S_ : Shape := ⟨0, ![]⟩
abbrev S100000x32 : Shape := ⟨2, ![100000, 32]⟩
abbrev S1x32 : Shape := ⟨2, ![1, 32]⟩
abbrev S100000x64 : Shape := ⟨2, ![100000, 64]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S512x16 : Shape := ⟨2, ![512, 16]⟩
abbrev S512x7 : Shape := ⟨2, ![512, 7]⟩
abbrev S1x7 : Shape := ⟨2, ![1, 7]⟩

abbrev nBuf : Space → Nat
  | .hbm => 269
  | .vmem => 0
  | .smem => 0
  | _ => 0

abbrev hbmTy0_0 (i : Nat) : BufTy := match i % 128 with
  | 0 => ⟨S100000x1024, .f32⟩
  | 1 => ⟨S2x1600000, .i32⟩
  | 2 => ⟨S100000, .i32⟩
  | 3 => ⟨S2x16, .f32⟩
  | 4 => ⟨S16, .f32⟩
  | 5 => ⟨S16x32, .f32⟩
  | 6 => ⟨S32, .f32⟩
  | 7 => ⟨S1022x16, .f32⟩
  | 8 => ⟨S16, .f32⟩
  | 9 => ⟨S16x32, .f32⟩
  | 10 => ⟨S32, .f32⟩
  | 11 => ⟨S2x64x64, .f32⟩
  | 12 => ⟨S2x64, .f32⟩
  | 13 => ⟨S2x64, .f32⟩
  | 14 => ⟨S2x64, .f32⟩
  | 15 => ⟨S2x64, .f32⟩
  | 16 => ⟨S2x64, .f32⟩
  | 17 => ⟨S2x64x64, .f32⟩
  | 18 => ⟨S2x64, .f32⟩
  | 19 => ⟨S2x64, .f32⟩
  | 20 => ⟨S2x64, .f32⟩
  | 21 => ⟨S2x64, .f32⟩
  | 22 => ⟨S2x64, .f32⟩
  | 23 => ⟨S64x16, .f32⟩
  | 24 => ⟨S16, .f32⟩
  | 25 => ⟨S16x7, .f32⟩
  | 26 => ⟨S7, .f32⟩
  | 27 => ⟨S1x1600000, .i32⟩
  | 28 => ⟨S1600000, .i32⟩
  | 29 => ⟨S1x1600000, .i32⟩
  | 30 => ⟨S1600000, .i32⟩
  | 31 => ⟨S100000x1022, .f32⟩
  | 32 => ⟨S100000x2, .f32⟩
  | 33 => ⟨S100000x16, .f32⟩
  | 34 => ⟨S1x16, .f32⟩
  | 35 => ⟨S100000x16, .f32⟩
  | 36 => ⟨S100000x16, .f32⟩
  | 37 => ⟨S_, .f32⟩
  | 38 => ⟨S100000x16, .f32⟩
  | 39 => ⟨S100000x16, .f32⟩
  | 40 => ⟨S100000x32, .f32⟩
  | 41 => ⟨S1x32, .f32⟩
  | 42 => ⟨S100000x32, .f32⟩
  | 43 => ⟨S100000x32, .f32⟩
  | 44 => ⟨S_, .f32⟩
  | 45 => ⟨S100000x32, .f32⟩
  | 46 => ⟨S100000x32, .f32⟩
  | 47 => ⟨S100000x16, .f32⟩
  | 48 => ⟨S1x16, .f32⟩
  | 49 => ⟨S100000x16, .f32⟩
  | 50 => ⟨S100000x16, .f32⟩
  | 51 => ⟨S_, .f32⟩
  | 52 => ⟨S100000x16, .f32⟩
  | 53 => ⟨S100000x16, .f32⟩
  | 54 => ⟨S100000x32, .f32⟩
  | 55 => ⟨S1x32, .f32⟩
  | 56 => ⟨S100000x32, .f32⟩
  | 57 => ⟨S100000x32, .f32⟩
  | 58 => ⟨S_, .f32⟩
  | 59 => ⟨S100000x32, .f32⟩
  | 60 => ⟨S100000x32, .f32⟩
  | 61 => ⟨S100000x64, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x64, .f32⟩
  | 71 => ⟨S_, .f32⟩
  | 72 => ⟨S100000x64, .f32⟩
  | 73 => ⟨S1600000x1, .i32⟩
  | 74 => ⟨S100000x64, .f32⟩
  | 75 => ⟨S100000x64, .f32⟩
  | 76 => ⟨S1x64x64, .f32⟩
  | 77 => ⟨S64x64, .f32⟩
  | 78 => ⟨S100000x64, .f32⟩
  | 79 => ⟨S1x64, .f32⟩
  | 80 => ⟨S64, .f32⟩
  | 81 => ⟨S1x64, .f32⟩
  | 82 => ⟨S100000x64, .f32⟩
  | 83 => ⟨S100000x64, .f32⟩
  | 84 => ⟨S1x64, .f32⟩
  | 85 => ⟨S64, .f32⟩
  | 86 => ⟨S1x64, .f32⟩
  | 87 => ⟨S64, .f32⟩
  | 88 => ⟨S1x64, .f32⟩
  | 89 => ⟨S64, .f32⟩
  | 90 => ⟨S1x64, .f32⟩
  | 91 => ⟨S64, .f32⟩
  | 92 => ⟨S1x64, .f32⟩
  | 93 => ⟨S100000x64, .f32⟩
  | 94 => ⟨S100000x64, .f32⟩
  | 95 => ⟨S_, .f32⟩
  | 96 => ⟨S64, .f32⟩
  | 97 => ⟨S64, .f32⟩
  | 98 => ⟨S64, .f32⟩
  | 99 => ⟨S1x64, .f32⟩
  | 100 => ⟨S100000x64, .f32⟩
  | 101 => ⟨S100000x64, .f32⟩
  | 102 => ⟨S1x64, .f32⟩
  | 103 => ⟨S100000x64, .f32⟩
  | 104 => ⟨S100000x64, .f32⟩
  | 105 => ⟨S1x64, .f32⟩
  | 106 => ⟨S100000x64, .f32⟩
  | 107 => ⟨S100000x64, .f32⟩
  | 108 => ⟨S_, .f32⟩
  | 109 => ⟨S100000x64, .f32⟩
  | 110 => ⟨S100000x64, .f32⟩
  | 111 => ⟨S1x64x64, .f32⟩
  | 112 => ⟨S64x64, .f32⟩
  | 113 => ⟨S100000x64, .f32⟩
  | 114 => ⟨S1x64, .f32⟩
  | 115 => ⟨S64, .f32⟩
  | 116 => ⟨S1x64, .f32⟩
  | 117 => ⟨S100000x64, .f32⟩
  | 118 => ⟨S100000x64, .f32⟩
  | 119 => ⟨S1x64, .f32⟩
  | 120 => ⟨S64, .f32⟩
  | 121 => ⟨S1x64, .f32⟩
  | 122 => ⟨S64, .f32⟩
  | 123 => ⟨S1x64, .f32⟩
  | 124 => ⟨S64, .f32⟩
  | 125 => ⟨S1x64, .f32⟩
  | 126 => ⟨S64, .f32⟩
  | 127 => ⟨S1x64, .f32⟩
  | _ => ⟨S100000x1024, .f32⟩

abbrev hbmTy0_1 (i : Nat) : BufTy := match i % 128 with
  | 0 => ⟨S100000x64, .f32⟩
  | 1 => ⟨S100000x64, .f32⟩
  | 2 => ⟨S_, .f32⟩
  | 3 => ⟨S64, .f32⟩
  | 4 => ⟨S64, .f32⟩
  | 5 => ⟨S64, .f32⟩
  | 6 => ⟨S1x64, .f32⟩
  | 7 => ⟨S100000x64, .f32⟩
  | 8 => ⟨S100000x64, .f32⟩
  | 9 => ⟨S1x64, .f32⟩
  | 10 => ⟨S100000x64, .f32⟩
  | 11 => ⟨S100000x64, .f32⟩
  | 12 => ⟨S1x64, .f32⟩
  | 13 => ⟨S100000x64, .f32⟩
  | 14 => ⟨S100000x64, .f32⟩
  | 15 => ⟨S100000x64, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x64, .f32⟩
  | 25 => ⟨S_, .f32⟩
  | 26 => ⟨S100000x64, .f32⟩
  | 27 => ⟨S1600000x1, .i32⟩
  | 28 => ⟨S100000x64, .f32⟩
  | 29 => ⟨S100000x64, .f32⟩
  | 30 => ⟨S1x64x64, .f32⟩
  | 31 => ⟨S64x64, .f32⟩
  | 32 => ⟨S100000x64, .f32⟩
  | 33 => ⟨S1x64, .f32⟩
  | 34 => ⟨S64, .f32⟩
  | 35 => ⟨S1x64, .f32⟩
  | 36 => ⟨S100000x64, .f32⟩
  | 37 => ⟨S100000x64, .f32⟩
  | 38 => ⟨S1x64, .f32⟩
  | 39 => ⟨S64, .f32⟩
  | 40 => ⟨S1x64, .f32⟩
  | 41 => ⟨S64, .f32⟩
  | 42 => ⟨S1x64, .f32⟩
  | 43 => ⟨S64, .f32⟩
  | 44 => ⟨S1x64, .f32⟩
  | 45 => ⟨S64, .f32⟩
  | 46 => ⟨S1x64, .f32⟩
  | 47 => ⟨S100000x64, .f32⟩
  | 48 => ⟨S100000x64, .f32⟩
  | 49 => ⟨S_, .f32⟩
  | 50 => ⟨S64, .f32⟩
  | 51 => ⟨S64, .f32⟩
  | 52 => ⟨S64, .f32⟩
  | 53 => ⟨S1x64, .f32⟩
  | 54 => ⟨S100000x64, .f32⟩
  | 55 => ⟨S100000x64, .f32⟩
  | 56 => ⟨S1x64, .f32⟩
  | 57 => ⟨S100000x64, .f32⟩
  | 58 => ⟨S100000x64, .f32⟩
  | 59 => ⟨S1x64, .f32⟩
  | 60 => ⟨S100000x64, .f32⟩
  | 61 => ⟨S100000x64, .f32⟩
  | 62 => ⟨S_, .f32⟩
  | 63 => ⟨S100000x64, .f32⟩
  | 64 => ⟨S100000x64, .f32⟩
  | 65 => ⟨S1x64x64, .f32⟩
  | 66 => ⟨S64x64, .f32⟩
  | 67 => ⟨S100000x64, .f32⟩
  | 68 => ⟨S1x64, .f32⟩
  | 69 => ⟨S64, .f32⟩
  | 70 => ⟨S1x64, .f32⟩
  | 71 => ⟨S100000x64, .f32⟩
  | 72 => ⟨S100000x64, .f32⟩
  | 73 => ⟨S1x64, .f32⟩
  | 74 => ⟨S64, .f32⟩
  | 75 => ⟨S1x64, .f32⟩
  | 76 => ⟨S64, .f32⟩
  | 77 => ⟨S1x64, .f32⟩
  | 78 => ⟨S64, .f32⟩
  | 79 => ⟨S1x64, .f32⟩
  | 80 => ⟨S64, .f32⟩
  | 81 => ⟨S1x64, .f32⟩
  | 82 => ⟨S100000x64, .f32⟩
  | 83 => ⟨S100000x64, .f32⟩
  | 84 => ⟨S_, .f32⟩
  | 85 => ⟨S64, .f32⟩
  | 86 => ⟨S64, .f32⟩
  | 87 => ⟨S64, .f32⟩
  | 88 => ⟨S1x64, .f32⟩
  | 89 => ⟨S100000x64, .f32⟩
  | 90 => ⟨S100000x64, .f32⟩
  | 91 => ⟨S1x64, .f32⟩
  | 92 => ⟨S100000x64, .f32⟩
  | 93 => ⟨S100000x64, .f32⟩
  | 94 => ⟨S1x64, .f32⟩
  | 95 => ⟨S100000x64, .f32⟩
  | 96 => ⟨S100000x64, .f32⟩
  | 97 => ⟨S100000x64, .f32⟩
  | 98 => ⟨S100000x64, .f32⟩
  | 99 => ⟨S_, .f32⟩
  | 100 => ⟨S512x64, .f32⟩
  | 101 => ⟨S100000x1, .i32⟩
  | 102 => ⟨S512x64, .f32⟩
  | 103 => ⟨S_, .f32⟩
  | 104 => ⟨S100000, .f32⟩
  | 105 => ⟨S_, .f32⟩
  | 106 => ⟨S512, .f32⟩
  | 107 => ⟨S100000x1, .i32⟩
  | 108 => ⟨S512, .f32⟩
  | 109 => ⟨S_, .f32⟩
  | 110 => ⟨S512, .f32⟩
  | 111 => ⟨S512, .f32⟩
  | 112 => ⟨S512x1, .f32⟩
  | 113 => ⟨S512x64, .f32⟩
  | 114 => ⟨S512x64, .f32⟩
  | 115 => ⟨S512x16, .f32⟩
  | 116 => ⟨S1x16, .f32⟩
  | 117 => ⟨S512x16, .f32⟩
  | 118 => ⟨S512x16, .f32⟩
  | 119 => ⟨S_, .f32⟩
  | 120 => ⟨S512x16, .f32⟩
  | 121 => ⟨S512x16, .f32⟩
  | 122 => ⟨S512x7, .f32⟩
  | 123 => ⟨S1x7, .f32⟩
  | 124 => ⟨S512x7, .f32⟩
  | 125 => ⟨S512x7, .f32⟩
  | 126 => ⟨S_, .f32⟩
  | 127 => ⟨S512, .f32⟩
  | _ => ⟨S100000x1024, .f32⟩

abbrev hbmTy0_2 (i : Nat) : BufTy := match i % 128 with
  | 0 => ⟨S_, .f32⟩
  | 1 => ⟨S512, .f32⟩
  | 2 => ⟨S512, .f32⟩
  | 3 => ⟨S512x1, .f32⟩
  | 4 => ⟨S512x7, .f32⟩
  | 5 => ⟨S512x7, .f32⟩
  | 6 => ⟨S512x7, .f32⟩
  | 7 => ⟨S_, .f32⟩
  | 8 => ⟨S512, .f32⟩
  | 9 => ⟨S512x1, .f32⟩
  | 10 => ⟨S512x1, .f32⟩
  | 11 => ⟨S512x7, .f32⟩
  | 12 => ⟨S512x7, .f32⟩
  | _ => ⟨S100000x1024, .f32⟩

abbrev hbmTy (i : Nat) : BufTy := match i / 128 with
  | 0 => hbmTy0_0 i
  | 1 => hbmTy0_1 i
  | 2 => hbmTy0_2 i
  | _ => ⟨S100000x1024, .f32⟩

abbrev bufTy : (tb : Table) → Fin (tcTables nBuf tb) → BufTy
  | .hbm, ⟨i, _⟩ => hbmTy i
  | _, _ => ⟨S100000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_call0_cst : Ref sig .tc := ⟨.hbm, 37, rfl⟩
abbrev main_call0_v0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_call1_cst : Ref sig .tc := ⟨.hbm, 44, rfl⟩
abbrev main_call1_v0 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_call2_cst : Ref sig .tc := ⟨.hbm, 51, rfl⟩
abbrev main_call2_v0 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_call3_cst : Ref sig .tc := ⟨.hbm, 58, rfl⟩
abbrev main_call3_v0 : Ref sig .tc := ⟨.hbm, 59, rfl⟩
abbrev main_v25 : Ref sig .tc := ⟨.hbm, 60, rfl⟩
abbrev main_v26 : Ref sig .tc := ⟨.hbm, 61, rfl⟩
abbrev main_c : Ref sig .tc := ⟨.hbm, 62, rfl⟩
abbrev main_v27 : Ref sig .tc := ⟨.hbm, 63, rfl⟩
abbrev main_v28 : Ref sig .tc := ⟨.hbm, 64, rfl⟩
abbrev main_c_0 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_1 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_call4_cst : Ref sig .tc := ⟨.hbm, 108, rfl⟩
abbrev main_call4_v0 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_2 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_c_3 : Ref sig .tc := ⟨.hbm, 144, rfl⟩
abbrev main_v102 : Ref sig .tc := ⟨.hbm, 145, rfl⟩
abbrev main_v103 : Ref sig .tc := ⟨.hbm, 146, rfl⟩
abbrev main_c_4 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_5 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_cst_6 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_call5_cst : Ref sig .tc := ⟨.hbm, 190, rfl⟩
abbrev main_call5_v0 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_cst_7 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_cst_8 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_cst_9 : Ref sig .tc := ⟨.hbm, 231, rfl⟩
abbrev main_v181 : Ref sig .tc := ⟨.hbm, 232, rfl⟩
abbrev main_cst_10 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_cst_11 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_call6_cst : Ref sig .tc := ⟨.hbm, 247, rfl⟩
abbrev main_call6_v0 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_call7_cst : Ref sig .tc := ⟨.hbm, 254, rfl⟩
abbrev main_call7_v0 : Ref sig .tc := ⟨.hbm, 255, rfl⟩
abbrev main_call7_cst_0 : Ref sig .tc := ⟨.hbm, 256, rfl⟩
abbrev main_call7_v1 : Ref sig .tc := ⟨.hbm, 257, rfl⟩
abbrev main_call7_v2 : Ref sig .tc := ⟨.hbm, 258, rfl⟩
abbrev main_call7_v3 : Ref sig .tc := ⟨.hbm, 259, rfl⟩
abbrev main_call7_v4 : Ref sig .tc := ⟨.hbm, 260, rfl⟩
abbrev main_call7_v5 : Ref sig .tc := ⟨.hbm, 261, rfl⟩
abbrev main_call7_v6 : Ref sig .tc := ⟨.hbm, 262, rfl⟩
abbrev main_call7_cst_1 : Ref sig .tc := ⟨.hbm, 263, rfl⟩
abbrev main_call7_v7 : Ref sig .tc := ⟨.hbm, 264, rfl⟩
abbrev main_call7_v8 : Ref sig .tc := ⟨.hbm, 265, rfl⟩
abbrev main_call7_v9 : Ref sig .tc := ⟨.hbm, 266, rfl⟩
abbrev main_call7_v10 : Ref sig .tc := ⟨.hbm, 267, rfl⟩
abbrev main_v199 : Ref sig .tc := ⟨.hbm, 268, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S100000x1024_S100000x1022_0_0 : S100000x1024.Slices ![0, 0] S100000x1022
  slices_S100000x1024_S100000x2_0_1022 : S100000x1024.Slices ![0, 1022] S100000x2
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  concatenates_S100000x32_S100000x32_S100000x64_d1 : Shape.Concatenates [S100000x32, S100000x32] S100000x64 1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  slices_S2x64x64_S1x64x64_1_0_0 : S2x64x64.Slices ![1, 0, 0] S1x64x64
  slices_S2x64_S1x64_1_0 : S2x64.Slices ![1, 0] S1x64
  bcast_S_S512x64 : S_.BroadcastsInDim S512x64 (![] : Fin 0 → Fin S512x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S1x16_S512x16_0_1 : S1x16.BroadcastsInDim S512x16 (![0, 1] : Fin 2 → Fin S512x16.rank)
  bcast_S_S512x16 : S_.BroadcastsInDim S512x16 (![] : Fin 0 → Fin S512x16.rank)
  bcast_S7_S1x7_1 : S7.BroadcastsInDim S1x7 (![1] : Fin 1 → Fin S1x7.rank)
  bcast_S1x7_S512x7_0_1 : S1x7.BroadcastsInDim S512x7 (![0, 1] : Fin 2 → Fin S512x7.rank)
  reducesTo_S512x7_S512_d1 : S512x7.ReducesTo [1] S512
  h_S_ : 0 < S_.numel
  bcast_S512x1_S512x7_0_1 : S512x1.BroadcastsInDim S512x7 (![0, 1] : Fin 2 → Fin S512x7.rank)
  dot_S100000x2_S2x16_S100000x16_1_0_0_1_n_n_wf : DotDims.WF S100000x2 S2x16 S100000x16 [1] [0] [0] [1] [] []
  dot_S100000x16_S16x32_S100000x32_1_0_0_1_n_n_wf : DotDims.WF S100000x16 S16x32 S100000x32 [1] [0] [0] [1] [] []
  dot_S100000x1022_S1022x16_S100000x16_1_0_0_1_n_n_wf : DotDims.WF S100000x1022 S1022x16 S100000x16 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x16_S512x16_1_0_0_1_n_n_wf : DotDims.WF S512x64 S64x16 S512x16 [1] [0] [0] [1] [] []
  dot_S512x16_S16x7_S512x7_1_0_0_1_n_n_wf : DotDims.WF S512x16 S16x7 S512x7 [1] [0] [0] [1] [] []

variable [Facts₀]

def dot_S100000x2_S2x16_S100000x16_1_0_0_1_n_n : DotDims S100000x2 S2x16 S100000x16 where
  lhsContracting := [1]
  rhsContracting := [0]
  lhsNonContracting := [0]
  rhsNonContracting := [1]
  lhsBatch := []
  rhsBatch := []
  wf := dot_S100000x2_S2x16_S100000x16_1_0_0_1_n_n_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def dot_S100000x1022_S1022x16_S100000x16_1_0_0_1_n_n : DotDims S100000x1022 S1022x16 S100000x16 where
  lhsContracting := [1]
  rhsContracting := [0]
  lhsNonContracting := [0]
  rhsNonContracting := [1]
  lhsBatch := []
  rhsBatch := []
  wf := dot_S100000x1022_S1022x16_S100000x16_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x16_S512x16_1_0_0_1_n_n : DotDims S512x64 S64x16 S512x16 where
  lhsContracting := [1]
  rhsContracting := [0]
  lhsNonContracting := [0]
  rhsNonContracting := [1]
  lhsBatch := []
  rhsBatch := []
  wf := dot_S512x64_S64x16_S512x16_1_0_0_1_n_n_wf
def dot_S512x16_S16x7_S512x7_1_0_0_1_n_n : DotDims S512x16 S16x7 S512x7 where
  lhsContracting := [1]
  rhsContracting := [0]
  lhsNonContracting := [0]
  rhsNonContracting := [1]
  lhsBatch := []
  rhsBatch := []
  wf := dot_S512x16_S16x7_S512x7_1_0_0_1_n_n_wf

class Facts : Prop extends Facts₀ where

variable [Facts]
-- ==== Proof.Hand.Fold.lean ====
import proofs.«406513_j58480274702513_1_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)
variable (o0 : (c : Dev nD) → Buf (Elt F) ((c : Thread nD τ).loc main_v8))
variable (o1 : (c : Dev nD) → Buf (Elt F) ((c : Thread nD τ).loc main_v51))
variable (o2 : (c : Dev nD) → Buf (Elt F) ((c : Thread nD τ).loc main_v91))
variable (o3 : (c : Dev nD) → Buf (Elt F) ((c : Thread nD τ).loc main_v102))

abbrev W0 (c : Dev nD) : Valuation τ sig (Elt F) := fun b => m (c, b)

abbrev W1 (c : Dev nD) : Valuation τ sig (Elt F) := StableHlo.after hostOps0 (W0 m c)

abbrev W2 (c : Dev nD) : Valuation τ sig (Elt F) := Function.update (W1 m c) main_v8 (o0 c)
abbrev W3 (c : Dev nD) : Valuation τ sig (Elt F) := StableHlo.after hostOps1 (W2 m o0 c)
abbrev W4 (c : Dev nD) : Valuation τ sig (Elt F) := StableHlo.after hostOps1_1 (W3 m o0 c)

abbrev W5 (c : Dev nD) : Valuation τ sig (Elt F) := StableHlo.after hostOps1_2 (W4 m o0 c)

abbrev W6 (c : Dev nD) : Valuation τ sig (Elt F) := Function.update (W5 m o0 c) main_v51 (o1 c)
abbrev W7 (c : Dev nD) : Valuation τ sig (Elt F) := StableHlo.after hostOps2 (W6 m o0 o1 c)

abbrev W8 (c : Dev nD) : Valuation τ sig (Elt F) := StableHlo.after hostOps2_1 (W7 m o0 o1 c)

abbrev W9 (c : Dev nD) : Valuation τ sig (Elt F) := Function.update (W8 m o0 o1 c) main_v91 (o2 c)

abbrev W10 (c : Dev nD) : Valuation τ sig (Elt F) := StableHlo.after hostOps3 (W9 m o0 o1 o2 c)

abbrev W11 (c : Dev nD) : Valuation τ sig (Elt F) := Function.update (W10 m o0 o1 o2 c) main_v102 (o3 c)

abbrev atRefs (W : Dev nD → Valuation τ sig (Elt F)) : (c : Dev nD) → (b : Ref sig .tc) → Buf (Elt F) ((c : Thread nD τ).loc b) :=
  fun c b => W c b

end Cert.KernelIdeal.Hand

end
-- ==== Proof.Hand.Region0.lean ====
import proofs.«406513_j58480274702513_1_alg».proof.Proof.Gen.KernelIdeal.Launch
import proofs.«406513_j58480274702513_1_alg».proof.Proof.Gen.KernelIdeal.Skeleton
import proofs.«406513_j58480274702513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x1024 := Rect.unit (s := S2000x1024) ![0, 0] S2000x1024.size inb_S2000x1024_S2000x1024_0_0
abbrev r0_1 : Rect S1024x16 := Rect.unit (s := S1024x16) ![0, 0] S1024x16.size inb_S1024x16_S1024x16_0_0
abbrev r0_2 : Rect S1x16 := Rect.unit (s := S1x16) ![0, 0] S1x16.size inb_S1x16_S1x16_0_0
abbrev r0_3 : Rect S16x32 := Rect.unit (s := S16x32) ![0, 0] S16x32.size inb_S16x32_S16x32_0_0
abbrev r0_4 : Rect S1x32 := Rect.unit (s := S1x32) ![0, 0] S1x32.size inb_S1x32_S1x32_0_0
abbrev r0_5 : Rect S1024x16 := Rect.unit (s := S1024x16) ![0, 0] S1024x16.size inb_S1024x16_S1024x16_0_0
abbrev r0_6 : Rect S1x16 := Rect.unit (s := S1x16) ![0, 0] S1x16.size inb_S1x16_S1x16_0_0
abbrev r0_7 : Rect S16x32 := Rect.unit (s := S16x32) ![0, 0] S16x32.size inb_S16x32_S16x32_0_0
abbrev r0_8 : Rect S1x32 := Rect.unit (s := S1x32) ![0, 0] S1x32.size inb_S1x32_S1x32_0_0
abbrev r0_9 : Rect S2000x64 := Rect.unit (s := S2000x64) ![0, 0] S2000x64.size inb_S2000x64_S2000x64_0_0

def out0_9 (x0 : Vec F S2000x1024 .f32) (x1 : Vec F S1024x16 .f32) (x2 : Vec F S1x16 .f32) (x3 : Vec F S16x32 .f32) (x4 : Vec F S1x32 .f32) (x5 : Vec F S1024x16 .f32) (x6 : Vec F S1x16 .f32) (x7 : Vec F S16x32 .f32) (x8 : Vec F S1x32 .f32) : Vec F S2000x64 .f32 :=
  View.canon [⟨r0_9, k0_pay1
    (k0_pay2 (View.ld x0 r0_0) (View.ld x1 r0_1) (View.ld x2 r0_2) (View.ld x3 r0_3) (View.ld x4 r0_4))
    (k0_pay3 (View.ld x0 r0_0) (View.ld x5 r0_5) (View.ld x6 r0_6) (View.ld x7 r0_7) (View.ld x8 r0_8))
    (Scalar.ofBits .f32 0x00000000#32)⟩]

theorem cover0_9 (p0 : Vec F S2000x64 .f32) (y : S2000x64.Idx) :
    ∃ pc ∈ ([⟨r0_9, p0⟩] : List (View.Piece (Elt F) S2000x64 .f32)), y ∈ pc.1.set :=
  View.cover_of_tiled [⟨r0_9, p0⟩] S2000x64.size (by rfl) y

set_option maxHeartbeats 1000000 in
theorem sound_kernel0 (c : Dev nD) (E : Set ℕ) (i : grid0.Coords) (arg1 : Memref sig .tc .vmem S2000x1024 .f32) (harg1 : arg1.IsWhole) (arg2 : Memref sig .tc .vmem S1024x16 .f32) (harg2 : arg2.IsWhole) (arg3 : Memref sig .tc .vmem S1x16 .f32) (harg3 : arg3.IsWhole) (arg4 : Memref sig .tc .vmem S16x32 .f32) (harg4 : arg4.IsWhole) (arg5 : Memref sig .tc .vmem S1x32 .f32) (harg5 : arg5.IsWhole) (arg6 : Memref sig .tc .vmem S1024x16 .f32) (harg6 : arg6.IsWhole) (arg7 : Memref sig .tc .vmem S1x16 .f32) (harg7 : arg7.IsWhole) (arg8 : Memref sig .tc .vmem S16x32 .f32) (harg8 : arg8.IsWhole) (arg9 : Memref sig .tc .vmem S1x32 .f32) (harg9 : arg9.IsWhole) (arg10 : Memref sig .tc .vmem S2000x64 .f32) (harg10 : arg10.IsWhole)
    (x0 : Vec F S2000x1024 .f32) (x1 : Vec F S1024x16 .f32) (x2 : Vec F S1x16 .f32) (x3 : Vec F S16x32 .f32) (x4 : Vec F S1x32 .f32) (x5 : Vec F S1024x16 .f32) (x6 : Vec F S1x16 .f32) (x7 : Vec F S16x32 .f32) (x8 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__pre_mlp_kernel i arg1 harg1 arg2 harg2 arg3 harg3 arg4 harg4 arg5 harg5 arg6 harg6 arg7 harg7 arg8 harg8 arg9 harg9 arg10 harg10) K := by
  simp only [cc0__pre_mlp_kernel_eq_skeleton]; unfold cc0__pre_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0 (c : Dev nD) (t : Fin cfg0.N) :
    (dat0 V c).after 0 t = iblk0 V c 0 t ∧ (dat0 V c).after 1 t = iblk0 V c 1 t ∧ (dat0 V c).after 2 t = iblk0 V c 2 t ∧ (dat0 V c).after 3 t = iblk0 V c 3 t ∧ (dat0 V c).after 4 t = iblk0 V c 4 t ∧ (dat0 V c).after 5 t = iblk0 V c 5 t ∧ (dat0 V c).after 6 t = iblk0 V c 6 t ∧ (dat0 V c).after 7 t = iblk0 V c 7 t ∧ (dat0 V c).after 8 t = iblk0 V c 8 t :=
  ⟨rfl, rfl, rfl, rfl, rfl, rfl, rfl, rfl, rfl⟩
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) ∧ (∀ d, (dat0 V c).before 3 t d = iblk0 V c 3 t) ∧ (∀ d, (dat0 V c).before 4 t d = iblk0 V c 4 t) ∧ (∀ d, (dat0 V c).before 5 t d = iblk0 V c 5 t) ∧ (∀ d, (dat0 V c).before 6 t d = iblk0 V c 6 t) ∧ (∀ d, (dat0 V c).before 7 t d = iblk0 V c 7 t) ∧ (∀ d, (dat0 V c).before 8 t d = iblk0 V c 8 t) := by
  refine ⟨?_, ?_, ?_, ?_, ?_, ?_, ?_, ?_, ?_⟩ <;> exact fun d =>
    ((dat0 V c).before_in_eq_fetched _ rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  obtain ⟨b0, b1, b2, b3, b4, b5, b6, b7, b8⟩ := before0 V c t
  obtain ⟨a0, a1, a2, a3, a4, a5, a6, a7, a8⟩ := after0 V c t
  simp only [b0, b1, b2, b3, b4, b5, b6, b7, b8]
  rw [show (dat0 V c).Φ t.succ = (dat0 V c).Φ t.castSucc from rfl,
    show (dat0 V c).owesAt () t.succ = (dat0 V c).owesAt () t.castSucc from rfl,
    a0, a1, a2, a3, a4, a5, a6, a7, a8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  iframe H0 H1 H2 H3 H4 H5 H6 H7 H8
  isplitl [H9]; · iexists _; iexact H9
  iintro ⟨H0, H1, H2, H3, H4, H5, H6, H7, H8, H9⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Hand.Region1.lean ====
import proofs.«406513_j58480274702513_1_alg».proof.Proof.Gen.KernelIdeal.Launch
import proofs.«406513_j58480274702513_1_alg».proof.Proof.Gen.KernelIdeal.Skeleton
import proofs.«406513_j58480274702513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rBlk1 : Rect S10000x64 := Rect.unit (s := S10000x64) ![0, 0] S10000x64.size inb_S10000x64_S10000x64_0_0
abbrev rMat1 : Rect S64x64 := Rect.unit (s := S64x64) ![0, 0] S64x64.size inb_S64x64_S64x64_0_0
abbrev rRow1 : Rect S1x64 := Rect.unit (s := S1x64) ![0, 0] S1x64.size inb_S1x64_S1x64_0_0

def out1_15 (x0 : Vec F S10000x64 .f32) (x1 : Vec F S10000x64 .f32) (x2 : Vec F S10000x64 .f32) (x3 : Vec F S64x64 .f32) (x4 : Vec F S1x64 .f32) (x5 : Vec F S1x64 .f32) (x6 : Vec F S1x64 .f32) (x7 : Vec F S1x64 .f32) (x8 : Vec F S1x64 .f32) (x9 : Vec F S64x64 .f32) (x10 : Vec F S1x64 .f32) (x11 : Vec F S1x64 .f32) (x12 : Vec F S1x64 .f32) (x13 : Vec F S1x64 .f32) (x14 : Vec F S1x64 .f32) : Vec F S10000x64 .f32 :=
  View.canon [⟨rBlk1, k1_pay1 (k1_pay2 (View.ld x0 rBlk1) (View.ld x1 rBlk1) (View.ld x3 rMat1) (View.ld x4 rRow1) (View.ld x7 rRow1) (View.ld x8 rRow1) (View.ld x5 rRow1) (View.ld x6 rRow1) (View.ld x9 rMat1)) (View.ld x10 rRow1) (View.ld x13 rRow1) (View.ld x14 rRow1) (View.ld x11 rRow1) (View.ld x12 rRow1) (View.ld x2 rBlk1)⟩]

theorem cover1_15 (p0 : Vec F S10000x64 .f32) (y : S10000x64.Idx) :
    ∃ pc ∈ ([⟨rBlk1, p0⟩] : List (View.Piece (Elt F) S10000x64 .f32)), y ∈ pc.1.set :=
  View.cover_of_tiled [⟨rBlk1, p0⟩] S10000x64.size (by rfl) y

set_option maxHeartbeats 4000000 in
theorem sound_kernel1 (c : Dev nD) (E : Set ℕ) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S10000x64 .f32) (harg16 : arg16.IsWhole)
    (x0 : Vec F S10000x64 .f32) (x1 : Vec F S10000x64 .f32) (x2 : Vec F S10000x64 .f32) (x3 : Vec F S64x64 .f32) (x4 : Vec F S1x64 .f32) (x5 : Vec F S1x64 .f32) (x6 : Vec F S1x64 .f32) (x7 : Vec F S1x64 .f32) (x8 : Vec F S1x64 .f32) (x9 : Vec F S64x64 .f32) (x10 : Vec F S1x64 .f32) (x11 : Vec F S1x64 .f32) (x12 : Vec F S1x64 .f32) (x13 : Vec F S1x64 .f32) (x14 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out1_15 x0 x1 x2 x3 x4 x5 x6 x7 x8 x9 x10 x11 x12 x13 x14)) -∗ K ⟨⟩))
      ⊢ wp frame (wpE (defs₀ (F := F)) Variants.none c none) E (cc1__gin_layer_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1__gin_layer_kernel_eq_skeleton]; unfold cc1__gin_layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover1_15 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨_ + 16, h⟩ => absurd h (Nat.not_lt.2 (Nat.le_add_left _ _))
  Φ _ := Pipeline.ΦA spec1 c
  q w := match w with
    | ⟨0, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem after1 (c : Dev nD) (t : Fin cfg1.N) :
    (dat1 V c).after 0 t = iblk1 V c 0 t ∧ (dat1 V c).after 1 t = iblk1 V c 1 t ∧ (dat1 V c).after 2 t = iblk1 V c 2 t ∧ (dat1 V c).after 3 t = iblk1 V c 3 t ∧ (dat1 V c).after 4 t = iblk1 V c 4 t ∧ (dat1 V c).after 5 t = iblk1 V c 5 t ∧ (dat1 V c).after 6 t = iblk1 V c 6 t ∧ (dat1 V c).after 7 t = iblk1 V c 7 t ∧ (dat1 V c).after 8 t = iblk1 V c 8 t ∧ (dat1 V c).after 9 t = iblk1 V c 9 t ∧ (dat1 V c).after 10 t = iblk1 V c 10 t ∧ (dat1 V c).after 11 t = iblk1 V c 11 t ∧ (dat1 V c).after 12 t = iblk1 V c 12 t ∧ (dat1 V c).after 13 t = iblk1 V c 13 t ∧ (dat1 V c).after 14 t = iblk1 V c 14 t :=
  ⟨rfl, rfl, rfl, rfl, rfl, rfl, rfl, rfl, rfl, rfl, rfl, rfl, rfl, rfl, rfl⟩
theorem after1_15 (c : Dev nD) (t : Fin cfg1.N) : (dat1 V c).after 15 t = out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]

theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) ∧ (∀ d, (dat1 V c).before 5 t d = iblk1 V c 5 t) ∧ (∀ d, (dat1 V c).before 6 t d = iblk1 V c 6 t) ∧ (∀ d, (dat1 V c).before 7 t d = iblk1 V c 7 t) ∧ (∀ d, (dat1 V c).before 8 t d = iblk1 V c 8 t) ∧ (∀ d, (dat1 V c).before 9 t d = iblk1 V c 9 t) ∧ (∀ d, (dat1 V c).before 10 t d = iblk1 V c 10 t) ∧ (∀ d, (dat1 V c).before 11 t d = iblk1 V c 11 t) ∧ (∀ d, (dat1 V c).before 12 t d = iblk1 V c 12 t) ∧ (∀ d, (dat1 V c).before 13 t d = iblk1 V c 13 t) ∧ (∀ d, (dat1 V c).before 14 t d = iblk1 V c 14 t) := by
  refine ⟨?_, ?_, ?_, ?_, ?_, ?_, ?_, ?_, ?_, ?_, ?_, ?_, ?_, ?_, ?_⟩ <;> exact fun d =>
    ((dat1 V c).before_in_eq_fetched _ rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  obtain ⟨b0, b1, b2, b3, b4, b5, b6, b7, b8, b9, b10, b11, b12, b13, b14⟩ := before1 V c t
  obtain ⟨a0, a1, a2, a3, a4, a5, a6, a7, a8, a9, a10, a11, a12, a13, a14⟩ := after1 V c t
  simp only [b0, b1, b2, b3, b4, b5, b6, b7, b8, b9, b10, b11, b12, b13, b14]
  rw [show (dat1 V c).Φ t.succ = (dat1 V c).Φ t.castSucc from rfl,
    show (dat1 V c).owesAt () t.succ = (dat1 V c).owesAt () t.castSucc from rfl,
    a0, a1, a2, a3, a4, a5, a6, a7, a8, a9, a10, a11, a12, a13, a14, after1_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel1 c Set.univ (grid1.coords t) _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) _)
  iframe H0 H1 H2 H3 H4 H5 H6 H7 H8 H9 H10 H11 H12 H13 H14
  isplitl [H15]; · iexists _; iexact H15
  iintro ⟨H0, H1, H2, H3, H4, H5, H6, H7, H8, H9, H10, H11, H12, H13, H14, H15⟩
  iframe

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Hand.Region2.lean ====
import proofs.«406513_j58480274702513_1_alg».proof.Proof.Gen.KernelIdeal.Launch
import proofs.«406513_j58480274702513_1_alg».proof.Proof.Gen.KernelIdeal.Skeleton
import proofs.«406513_j58480274702513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rBlk2 : Rect S10000x64 := Rect.unit (s := S10000x64) ![0, 0] S10000x64.size inb_S10000x64_S10000x64_0_0
abbrev rMat2 : Rect S64x64 := Rect.unit (s := S64x64) ![0, 0] S64x64.size inb_S64x64_S64x64_0_0
abbrev rRow2 : Rect S1x64 := Rect.unit (s := S1x64) ![0, 0] S1x64.size inb_S1x64_S1x64_0_0

def out2_15 (x0 : Vec F S10000x64 .f32) (x1 : Vec F S10000x64 .f32) (x2 : Vec F S10000x64 .f32) (x3 : Vec F S64x64 .f32) (x4 : Vec F S1x64 .f32) (x5 : Vec F S1x64 .f32) (x6 : Vec F S1x64 .f32) (x7 : Vec F S1x64 .f32) (x8 : Vec F S1x64 .f32) (x9 : Vec F S64x64 .f32) (x10 : Vec F S1x64 .f32) (x11 : Vec F S1x64 .f32) (x12 : Vec F S1x64 .f32) (x13 : Vec F S1x64 .f32) (x14 : Vec F S1x64 .f32) : Vec F S10000x64 .f32 :=
  View.canon [⟨rBlk2, k2_pay1 (k2_pay2 (View.ld x0 rBlk2) (View.ld x1 rBlk2) (View.ld x3 rMat2) (View.ld x4 rRow2) (View.ld x7 rRow2) (View.ld x8 rRow2) (View.ld x5 rRow2) (View.ld x6 rRow2) (View.ld x9 rMat2)) (View.ld x10 rRow2) (View.ld x13 rRow2) (View.ld x14 rRow2) (View.ld x11 rRow2) (View.ld x12 rRow2) (View.ld x2 rBlk2)⟩]

theorem cover2_15 (p0 : Vec F S10000x64 .f32) (y : S10000x64.Idx) :
    ∃ pc ∈ ([⟨rBlk2, p0⟩] : List (View.Piece (Elt F) S10000x64 .f32)), y ∈ pc.1.set :=
  View.cover_of_tiled [⟨rBlk2, p0⟩] S10000x64.size (by rfl) y

set_option maxHeartbeats 4000000 in
theorem sound_kernel2 (c : Dev nD) (E : Set ℕ) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S10000x64 .f32) (harg16 : arg16.IsWhole)
    (x0 : Vec F S10000x64 .f32) (x1 : Vec F S10000x64 .f32) (x2 : Vec F S10000x64 .f32) (x3 : Vec F S64x64 .f32) (x4 : Vec F S1x64 .f32) (x5 : Vec F S1x64 .f32) (x6 : Vec F S1x64 .f32) (x7 : Vec F S1x64 .f32) (x8 : Vec F S1x64 .f32) (x9 : Vec F S64x64 .f32) (x10 : Vec F S1x64 .f32) (x11 : Vec F S1x64 .f32) (x12 : Vec F S1x64 .f32) (x13 : Vec F S1x64 .f32) (x14 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out2_15 x0 x1 x2 x3 x4 x5 x6 x7 x8 x9 x10 x11 x12 x13 x14)) -∗ K ⟨⟩))
      ⊢ wp frame (wpE (defs₀ (F := F)) Variants.none c none) E (cc2__gin_layer_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc2__gin_layer_kernel_eq_skeleton]; unfold cc2__gin_layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover2_15 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => out2_15 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t)
    | ⟨_ + 16, h⟩ => absurd h (Nat.not_lt.2 (Nat.le_add_left _ _))
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2 (c : Dev nD) (t : Fin cfg2.N) :
    (dat2 V c).after 0 t = iblk2 V c 0 t ∧ (dat2 V c).after 1 t = iblk2 V c 1 t ∧ (dat2 V c).after 2 t = iblk2 V c 2 t ∧ (dat2 V c).after 3 t = iblk2 V c 3 t ∧ (dat2 V c).after 4 t = iblk2 V c 4 t ∧ (dat2 V c).after 5 t = iblk2 V c 5 t ∧ (dat2 V c).after 6 t = iblk2 V c 6 t ∧ (dat2 V c).after 7 t = iblk2 V c 7 t ∧ (dat2 V c).after 8 t = iblk2 V c 8 t ∧ (dat2 V c).after 9 t = iblk2 V c 9 t ∧ (dat2 V c).after 10 t = iblk2 V c 10 t ∧ (dat2 V c).after 11 t = iblk2 V c 11 t ∧ (dat2 V c).after 12 t = iblk2 V c 12 t ∧ (dat2 V c).after 13 t = iblk2 V c 13 t ∧ (dat2 V c).after 14 t = iblk2 V c 14 t :=
  ⟨rfl, rfl, rfl, rfl, rfl, rfl, rfl, rfl, rfl, rfl, rfl, rfl, rfl, rfl, rfl⟩
theorem after2_15 (c : Dev nD) (t : Fin cfg2.N) : (dat2 V c).after 15 t = out2_15 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) := by dsimp only [dat2]

theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) ∧ (∀ d, (dat2 V c).before 3 t d = iblk2 V c 3 t) ∧ (∀ d, (dat2 V c).before 4 t d = iblk2 V c 4 t) ∧ (∀ d, (dat2 V c).before 5 t d = iblk2 V c 5 t) ∧ (∀ d, (dat2 V c).before 6 t d = iblk2 V c 6 t) ∧ (∀ d, (dat2 V c).before 7 t d = iblk2 V c 7 t) ∧ (∀ d, (dat2 V c).before 8 t d = iblk2 V c 8 t) ∧ (∀ d, (dat2 V c).before 9 t d = iblk2 V c 9 t) ∧ (∀ d, (dat2 V c).before 10 t d = iblk2 V c 10 t) ∧ (∀ d, (dat2 V c).before 11 t d = iblk2 V c 11 t) ∧ (∀ d, (dat2 V c).before 12 t d = iblk2 V c 12 t) ∧ (∀ d, (dat2 V c).before 13 t d = iblk2 V c 13 t) ∧ (∀ d, (dat2 V c).before 14 t d = iblk2 V c 14 t) := by
  refine ⟨?_, ?_, ?_, ?_, ?_, ?_, ?_, ?_, ?_, ?_, ?_, ?_, ?_, ?_, ?_⟩ <;> exact fun d =>
    ((dat2 V c).before_in_eq_fetched _ rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t))

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  obtain ⟨b0, b1, b2, b3, b4, b5, b6, b7, b8, b9, b10, b11, b12, b13, b14⟩ := before2 V c t
  obtain ⟨a0, a1, a2, a3, a4, a5, a6, a7, a8, a9, a10, a11, a12, a13, a14⟩ := after2 V c t
  simp only [b0, b1, b2, b3, b4, b5, b6, b7, b8, b9, b10, b11, b12, b13, b14]
  rw [show (dat2 V c).Φ t.succ = (dat2 V c).Φ t.castSucc from rfl,
    show (dat2 V c).owesAt () t.succ = (dat2 V c).owesAt () t.castSucc from rfl,
    a0, a1, a2, a3, a4, a5, a6, a7, a8, a9, a10, a11, a12, a13, a14, after2_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel2 c Set.univ (grid2.coords t) _ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) _)
  iframe H0 H1 H2 H3 H4 H5 H6 H7 H8 H9 H10 H11 H12 H13 H14
  isplitl [H15]; · iexists _; iexact H15
  iintro ⟨H0, H1, H2, H3, H4, H5, H6, H7, H8, H9, H10, H11, H12, H13, H14, H15⟩
  iframe

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Hand.Region3.lean ====
import proofs.«406513_j58480274702513_1_alg».proof.Proof.Gen.KernelIdeal.Launch
import proofs.«406513_j58480274702513_1_alg».proof.Proof.Gen.KernelIdeal.Skeleton
import proofs.«406513_j58480274702513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S512x64 := Rect.unit (s := S512x64) ![0, 0] S512x64.size inb_S512x64_S512x64_0_0
abbrev r3_1 : Rect S512x1 := Rect.unit (s := S512x1) ![0, 0] S512x1.size inb_S512x1_S512x1_0_0
abbrev r3_2 : Rect S64x16 := Rect.unit (s := S64x16) ![0, 0] S64x16.size inb_S64x16_S64x16_0_0
abbrev r3_3 : Rect S1x16 := Rect.unit (s := S1x16) ![0, 0] S1x16.size inb_S1x16_S1x16_0_0
abbrev r3_4 : Rect S16x7 := Rect.unit (s := S16x7) ![0, 0] S16x7.size inb_S16x7_S16x7_0_0
abbrev r3_5 : Rect S1x7 := Rect.unit (s := S1x7) ![0, 0] S1x7.size inb_S1x7_S1x7_0_0
abbrev r3_6 : Rect S512x7 := Rect.unit (s := S512x7) ![0, 0] S512x7.size inb_S512x7_S512x7_0_0

def out3_6 (x0 : Vec F S512x64 .f32) (x1 : Vec F S512x1 .f32) (x2 : Vec F S64x16 .f32) (x3 : Vec F S1x16 .f32)
    (x4 : Vec F S16x7 .f32) (x5 : Vec F S1x7 .f32) : Vec F S512x7 .f32 :=
  View.canon [⟨r3_6, k3_pay1 (View.ld x1 r3_1) (View.ld x0 r3_0) (View.ld x2 r3_2) (View.ld x3 r3_3) (View.ld x4 r3_4) (View.ld x5 r3_5)⟩]

theorem cover3_6 (p0 : Vec F S512x7 .f32) (y : S512x7.Idx) :
    ∃ pc ∈ ([⟨r3_6, p0⟩] : List (View.Piece (Elt F) S512x7 .f32)), y ∈ pc.1.set :=
  View.cover_of_tiled [⟨r3_6, p0⟩] S512x7.size (by rfl) y

set_option maxHeartbeats 1000000 in
theorem sound_kernel3 (c : Dev nD) (E : Set ℕ) (i : grid3.Coords)
    (arg1 : Memref sig .tc .vmem S512x64 .f32) (harg1 : arg1.IsWhole) (arg2 : Memref sig .tc .vmem S512x1 .f32) (harg2 : arg2.IsWhole)
    (arg3 : Memref sig .tc .vmem S64x16 .f32) (harg3 : arg3.IsWhole) (arg4 : Memref sig .tc .vmem S1x16 .f32) (harg4 : arg4.IsWhole)
    (arg5 : Memref sig .tc .vmem S16x7 .f32) (harg5 : arg5.IsWhole) (arg6 : Memref sig .tc .vmem S1x7 .f32) (harg6 : arg6.IsWhole)
    (arg7 : Memref sig .tc .vmem S512x7 .f32) (harg7 : arg7.IsWhole)
    (x0 : Vec F S512x64 .f32) (x1 : Vec F S512x1 .f32) (x2 : Vec F S64x16 .f32) (x3 : Vec F S1x16 .f32)
    (x4 : Vec F S16x7 .f32) (x5 : Vec F S1x7 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E (cc3__post_kernel i arg1 harg1 arg2 harg2 arg3 harg3 arg4 harg4 arg5 harg5 arg6 harg6 arg7 harg7) K := by
  simp only [cc3__post_kernel_eq_skeleton]; unfold cc3__post_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3 (c : Dev nD) (t : Fin cfg3.N) :
    (dat3 V c).after 0 t = iblk3 V c 0 t ∧ (dat3 V c).after 1 t = iblk3 V c 1 t ∧ (dat3 V c).after 2 t = iblk3 V c 2 t ∧ (dat3 V c).after 3 t = iblk3 V c 3 t ∧ (dat3 V c).after 4 t = iblk3 V c 4 t ∧ (dat3 V c).after 5 t = iblk3 V c 5 t :=
  ⟨rfl, rfl, rfl, rfl, rfl, rfl⟩
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t) ∧ (∀ d, (dat3 V c).before 3 t d = iblk3 V c 3 t) ∧ (∀ d, (dat3 V c).before 4 t d = iblk3 V c 4 t) ∧ (∀ d, (dat3 V c).before 5 t d = iblk3 V c 5 t) := by
  refine ⟨?_, ?_, ?_, ?_, ?_, ?_⟩ <;> exact fun d =>
    ((dat3 V c).before_in_eq_fetched _ rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  obtain ⟨b0, b1, b2, b3, b4, b5⟩ := before3 V c t
  obtain ⟨a0, a1, a2, a3, a4, a5⟩ := after3 V c t
  simp only [b0, b1, b2, b3, b4, b5]
  rw [show (dat3 V c).Φ t.succ = (dat3 V c).Φ t.castSucc from rfl,
    show (dat3 V c).owesAt () t.succ = (dat3 V c).owesAt () t.castSucc from rfl,
    a0, a1, a2, a3, a4, a5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  iframe H0 H1 H2 H3 H4 H5
  isplitl [H6]; · iexists _; iexact H6
  iintro ⟨H0, H1, H2, H3, H4, H5, H6⟩
  iframe

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.Hand.Outs.lean ====
import proofs.«406513_j58480274702513_1_alg».proof.Proof.Hand.Fold
import proofs.«406513_j58480274702513_1_alg».proof.Proof.Hand.Region0
import proofs.«406513_j58480274702513_1_alg».proof.Proof.Hand.Region1
import proofs.«406513_j58480274702513_1_alg».proof.Proof.Hand.Region2
import proofs.«406513_j58480274702513_1_alg».proof.Proof.Hand.Region3

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

def O0 (c : Dev nD) : Buf (Elt F) ((c : Thread nD τ).loc main_v8) :=
  (dat0 (atRefs (W1 m)) c).arrAt 9 cfg0.N

def O1 (c : Dev nD) : Buf (Elt F) ((c : Thread nD τ).loc main_v51) :=
  (dat1 (atRefs (W5 m (O0 m))) c).arrAt 15 cfg1.N

def O2 (c : Dev nD) : Buf (Elt F) ((c : Thread nD τ).loc main_v91) :=
  (dat2 (atRefs (W8 m (O0 m) (O1 m))) c).arrAt 15 cfg2.N

def O3 (c : Dev nD) : Buf (Elt F) ((c : Thread nD τ).loc main_v102) :=
  (dat3 (atRefs (W10 m (O0 m) (O1 m) (O2 m))) c).arrAt 6 cfg3.N

end Cert.KernelIdeal.Hand

end
-- ==== Proof.Hand.Keep.lean ====
import proofs.«406513_j58480274702513_1_alg».proof.Proof.Hand.Fold
import proofs.«406513_j58480274702513_1_alg».proof.Proof.Gen.KernelIdeal.Regions

set_option maxRecDepth 3520

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)
variable (o0 : (c : Dev nD) → Buf (Elt F) ((c : Thread nD τ).loc main_v8))
variable (o1 : (c : Dev nD) → Buf (Elt F) ((c : Thread nD τ).loc main_v51))
variable (o2 : (c : Dev nD) → Buf (Elt F) ((c : Thread nD τ).loc main_v91))
variable (o3 : (c : Dev nD) → Buf (Elt F) ((c : Thread nD τ).loc main_v102))

abbrev written : List (Ref sig .tc) :=
  hostOps0_W ++ ([main_v8] ++ (hostOps1_W ++ (hostOps1_1_W ++ (hostOps1_2_W ++ ([main_v51] ++ (hostOps2_W ++ (hostOps2_1_W ++ ([main_v91] ++ (hostOps3_W ++ [main_v102])))))))))

theorem upd_keep (W : Valuation τ sig (Elt F)) (b r : Ref sig .tc) (v) (h : r ∉ ([b] : List (Ref sig .tc))) :
    Function.update W (Proc.devRef .tc b) v (Proc.devRef .tc r) = W (Proc.devRef .tc r) :=
  Function.update_of_ne (StableHlo.devRef_ne_of_ne (List.ne_of_not_mem_cons h)) ..

theorem W1_keep (c : Dev nD) (r : Ref sig .tc) (h : r ∉ hostOps0_W) : W1 m c r = W0 m c r :=
  StableHlo.after_of_writes_sub hostOps0 _ hostOps0_writes h
theorem W2_keep (c : Dev nD) (r : Ref sig .tc) (h : r ∉ ([main_v8] : List (Ref sig .tc))) : W2 m o0 c r = W1 m c r :=
  upd_keep _ _ _ _ h
theorem W3_keep (c : Dev nD) (r : Ref sig .tc) (h : r ∉ hostOps1_W) : W3 m o0 c r = W2 m o0 c r :=
  StableHlo.after_of_writes_sub hostOps1 _ hostOps1_writes h
theorem W4_keep (c : Dev nD) (r : Ref sig .tc) (h : r ∉ hostOps1_1_W) : W4 m o0 c r = W3 m o0 c r :=
  StableHlo.after_of_writes_sub hostOps1_1 _ hostOps1_1_writes h
theorem W5_keep (c : Dev nD) (r : Ref sig .tc) (h : r ∉ hostOps1_2_W) : W5 m o0 c r = W4 m o0 c r :=
  StableHlo.after_of_writes_sub hostOps1_2 _ hostOps1_2_writes h
theorem W6_keep (c : Dev nD) (r : Ref sig .tc) (h : r ∉ ([main_v51] : List (Ref sig .tc))) : W6 m o0 o1 c r = W5 m o0 c r :=
  upd_keep _ _ _ _ h
theorem W7_keep (c : Dev nD) (r : Ref sig .tc) (h : r ∉ hostOps2_W) : W7 m o0 o1 c r = W6 m o0 o1 c r :=
  StableHlo.after_of_writes_sub hostOps2 _ hostOps2_writes h
theorem W8_keep (c : Dev nD) (r : Ref sig .tc) (h : r ∉ hostOps2_1_W) : W8 m o0 o1 c r = W7 m o0 o1 c r :=
  StableHlo.after_of_writes_sub hostOps2_1 _ hostOps2_1_writes h
theorem W9_keep (c : Dev nD) (r : Ref sig .tc) (h : r ∉ ([main_v91] : List (Ref sig .tc))) : W9 m o0 o1 o2 c r = W8 m o0 o1 c r :=
  upd_keep _ _ _ _ h
theorem W10_keep (c : Dev nD) (r : Ref sig .tc) (h : r ∉ hostOps3_W) : W10 m o0 o1 o2 c r = W9 m o0 o1 o2 c r :=
  StableHlo.after_of_writes_sub hostOps3 _ hostOps3_writes h
theorem W11_keep (c : Dev nD) (r : Ref sig .tc) (h : r ∉ ([main_v102] : List (Ref sig .tc))) : W11 m o0 o1 o2 o3 c r = W10 m o0 o1 o2 c r :=
  upd_keep _ _ _ _ h

theorem W11_unwritten (c : Dev nD) (r : Ref sig .tc) (h : r ∉ written) : W11 m o0 o1 o2 o3 c r = m ((c : Thread nD τ).loc r) := by
  simp only [written, List.mem_append, not_or] at h
  obtain ⟨h0, h1, h2, h3, h4, h5, h6, h7, h8, h9, h10⟩ := h
  exact (W11_keep m o0 o1 o2 o3 c r h10).trans <| (W10_keep m o0 o1 o2 c r h9).trans <| (W9_keep m o0 o1 o2 c r h8).trans <|
    (W8_keep m o0 o1 c r h7).trans <| (W7_keep m o0 o1 c r h6).trans <| (W6_keep m o0 o1 c r h5).trans <| (W5_keep m o0 c r h4).trans <|
    (W4_keep m o0 c r h3).trans <| (W3_keep m o0 c r h2).trans <| (W2_keep m o0 c r h1).trans <| (W1_keep m c r h0).trans rfl

theorem W11_result (c : Dev nD) : W11 m o0 o1 o2 o3 c main_v102 = o3 c := by
  simp only [W11, Function.update_self]

end Cert.KernelIdeal.Hand

end
-- ==== Proof.Hand.Q1.lean ====
import proofs.«406513_j58480274702513_1_alg».proof.Proof.Gen.KernelIdeal.Launch

noncomputable section

namespace Cert.KernelIdeal.Hand

open Cert.KernelIdeal Cert.KernelIdeal.Gen
open Idealize.ShloMosaic Idealize.SL.RA

def q1 : Fin cfg1.W → PosShare TreeShare := fun w =>
  match w with
  | ⟨0, _⟩ => fullShare.left
  | ⟨2, _⟩ => fullShare.right
  | _ => fullShare

end Cert.KernelIdeal.Hand

end
-- ==== Proof.Hand.Share1.lean ====
import proofs.«406513_j58480274702513_1_alg».proof.Proof.Gen.KernelIdeal.Launch
import proofs.«406513_j58480274702513_1_alg».proof.Proof.Hand.Q1
import Idealize.ShloMosaic.Lib.Pipeline.Launch
import Idealize.ShloMosaic.Lib.Pipeline.Regions
import Idealize.ShloMosaic.Lib.Pipeline.RegionsLoop

set_option maxRecDepth 3520

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

def ref1 : Fin 16 → Ref sig .tc := fun | 0 => main_v8 | 1 => main_v16 | 2 => main_v8 | 3 => main_v18 | 4 => main_v21 | 5 => main_v24 | 6 => main_v27 | 7 => main_v30 | 8 => main_v33 | 9 => main_v35 | 10 => main_v38 | 11 => main_v41 | 12 => main_v44 | 13 => main_v47 | 14 => main_v50 | 15 => main_v51 | ⟨_ + 16, h⟩ => absurd h (Nat.not_lt.2 (Nat.le_add_left _ _))

theorem arrRef1 : ∀ w : Fin 16, Pipeline.arrRef spec1 w = ref1 w := fun | 0 => rfl | 1 => rfl | 2 => rfl | 3 => rfl | 4 => rfl | 5 => rfl | 6 => rfl | 7 => rfl | 8 => rfl | 9 => rfl | 10 => rfl | 11 => rfl | 12 => rfl | 13 => rfl | 14 => rfl | 15 => rfl | ⟨_ + 16, h⟩ => absurd h (Nat.not_lt.2 (Nat.le_add_left _ _))

local notation "refs1" => ([main_v8, main_v16, main_v18, main_v21, main_v24, main_v27, main_v30, main_v33, main_v35, main_v38, main_v41, main_v44, main_v47, main_v50, main_v51] : List (Ref sig Kind.tc))

theorem refs1_nodup : (refs1).Nodup := by decide

theorem image_arrRef1 : Finset.univ.image (Pipeline.arrRef spec1) = (refs1).toFinset := by decide

theorem sep_deal {M : Type} [URA M] {A A₀ A₂ X R : sProp M} (h : A ⊣⊢ iprop(A₀ ∗ A₂)) :
    iprop(A ∗ X ∗ R) ⊣⊢ iprop(A₀ ∗ X ∗ A₂ ∗ R) :=
  (sep_congr_left h).trans (sep_assoc.trans (sep_congr_right sep_left_comm))

def pt (c : Dev nD) (V : (b : Ref sig .tc) → Buf (Elt F) ((c : Thread nD τ).loc b)) (b : Ref sig .tc) (q : PosShare TreeShare) : sProp 𝕄 :=
  ((c : Thread nD τ).loc b) ↦{q} V b

section
variable (c : Dev nD) (dat : Dat τ (Elt F) Unit ℕ (UR sig nD τ) ℕ cfg1 c) (hq : dat.q = q1)

include hq in

theorem share1 : ∀ w, dat.share w = q1 w := by
  intro w; unfold Dat.share; rw [hq]; revert w
  exact fun | 0 => rfl | 1 => rfl | 2 => rfl | 3 => rfl | 4 => rfl | 5 => rfl | 6 => rfl | 7 => rfl | 8 => rfl | 9 => rfl | 10 => rfl | 11 => rfl | 12 => rfl | 13 => rfl | 14 => rfl | 15 => rfl | ⟨_ + 16, h⟩ => absurd h (Nat.not_lt.2 (Nat.le_add_left _ _))

include hq in

theorem arrays1_eq (V : (b : Ref sig .tc) → Buf (Elt F) ((c : Thread nD τ).loc b))
    (Fc : (w : Fin cfg1.W) → Buf (Elt F) ((cfg1.win w).arr.view.loc (c : Thread nD τ)))
    (hF : ∀ w, Fc w = V (Pipeline.arrRef spec1 w)) :
    (dat.arrays Fc : sProp 𝕄) = bigSep Finset.univ fun w : Fin 16 => pt c V (ref1 w) (q1 w) := by
  unfold Dat.arrays
  refine bigSep_congr fun w _ => ?_
  rw [(arr_whole1 w).set_eq_univ, share1 c dat hq w, hF w]
  exact (show _ = pt c V (Pipeline.arrRef spec1 w) (q1 w) from rfl).trans (congrArg (pt c V · (q1 w)) (arrRef1 w))
end

theorem arrBufs1_iff (c : Dev nD) (V : (b : Ref sig .tc) → Buf (Elt F) ((c : Thread nD τ).loc b)) :
    (Pipeline.arrBufs spec1 c V : sProp 𝕄) ⊣⊢ bigSep Finset.univ fun w : Fin 16 => pt c V (ref1 w) (q1 w) := by
  show bigSep _ (fun b => pt c V b fullShare) ⊣⊢ _
  rw [bigSep_eq_bigSepL_of_eq refs1 image_arrRef1 refs1_nodup (fun b => pt c V b fullShare), bigSep_W1]
  simp only [bigSepL_cons_cons, bigSepL_singleton]
  exact sep_deal (pointsTo_share (PosShare.mem_left_op_right fullShare))

theorem entry1 (c : Dev nD) (dat : Dat τ (Elt F) Unit ℕ (UR sig nD τ) ℕ cfg1 c) (hq : dat.q = q1)
    (V : (b : Ref sig .tc) → Buf (Elt F) ((c : Thread nD τ).loc b)) (hA : ∀ w, dat.A w = V (Pipeline.arrRef spec1 w)) :
    (unscopedBufs c V : sProp 𝕄) ⊢ iprop(dat.arrays (dat.arrAt · 0) ∗ Pipeline.unscopedRest spec1 c V) := by
  rw [Pipeline.PerCore.unscopedBufs_split₀ (fun _ (_ : Unit) => cfg1) () c winFacts₀1.arr_unscoped V,
    arrays1_eq c dat hq V (dat.arrAt · 0) hA]
  exact sep_mono_left (arrBufs1_iff c V).mp

theorem exit1 (c : Dev nD) (dat : Dat τ (Elt F) Unit ℕ (UR sig nD τ) ℕ cfg1 c) (hq : dat.q = q1)
    (V V' : (b : Ref sig .tc) → Buf (Elt F) ((c : Thread nD τ).loc b))
    (Fc : (w : Fin cfg1.W) → Buf (Elt F) ((spec1 w).arr.view.loc (c : Thread nD τ)))
    (hF : ∀ w, Fc w = V' (Pipeline.arrRef spec1 w))
    (hrest : ∀ b, b ∉ Finset.univ.image (Pipeline.arrRef spec1) → V' b = V b) :
    iprop(dat.arrays Fc ∗ Pipeline.unscopedRest spec1 c V) ⊢ (unscopedBufs c V' : sProp 𝕄) := by
  rw [Pipeline.PerCore.unscopedBufs_split₀ (fun _ (_ : Unit) => cfg1) () c winFacts₀1.arr_unscoped V',
    arrays1_eq c dat hq V' Fc hF]
  refine sep_mono (arrBufs1_iff c V').mpr (Entails.of_eq ?_)
  unfold Pipeline.unscopedRest
  exact bigSep_congr fun b hb => by rw [hrest b (Finset.mem_sdiff.mp hb).2]

end Cert.KernelIdeal.Hand
-- ==== Proof.Hand.Run.lean ====
import proofs.«406513_j58480274702513_1_alg».proof.Proof.Hand.Fold
import proofs.«406513_j58480274702513_1_alg».proof.Proof.Hand.Q1
import proofs.«406513_j58480274702513_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Entry : Type := (c : Dev nD) → (b : Ref sig .tc) → Buf (Elt F) ((c : Thread nD τ).loc b)

variable (dat0 : (V : Entry (F := F)) → (c : Dev nD) → Dat τ (Elt F) Unit ℕ (UR sig nD τ) ℕ cfg0 c)
variable (dat1 : (V : Entry (F := F)) → (c : Dev nD) → Dat τ (Elt F) Unit ℕ (UR sig nD τ) ℕ cfg1 c)
variable (dat2 : (V : Entry (F := F)) → (c : Dev nD) → Dat τ (Elt F) Unit ℕ (UR sig nD τ) ℕ cfg2 c)
variable (dat3 : (V : Entry (F := F)) → (c : Dev nD) → Dat τ (Elt F) Unit ℕ (UR sig nD τ) ℕ cfg3 c)
variable (m : (ℓ : Loc nD τ sig) → Buf (Elt F) ℓ)

def out0 (c : Dev nD) : Buf (Elt F) ((c : Thread nD τ).loc main_v8) := (dat0 (atRefs (W1 m)) c).arrAt 9 cfg0.N

def out1 (c : Dev nD) : Buf (Elt F) ((c : Thread nD τ).loc main_v51) := (dat1 (atRefs (W5 m (out0 dat0 m))) c).arrAt 15 cfg1.N

def out2 (c : Dev nD) : Buf (Elt F) ((c : Thread nD τ).loc main_v91) :=
  (dat2 (atRefs (W8 m (out0 dat0 m) (out1 dat0 dat1 m))) c).arrAt 15 cfg2.N

def out3 (c : Dev nD) : Buf (Elt F) ((c : Thread nD τ).loc main_v102) :=
  (dat3 (atRefs (W10 m (out0 dat0 m) (out1 dat0 dat1 m) (out2 dat0 dat1 dat2 m))) c).arrAt 6 cfg3.N

local notation "o₀" => out0 dat0 m
local notation "o₁" => out1 dat0 dat1 m
local notation "o₂" => out2 dat0 dat1 dat2 m
local notation "o₃" => out3 dat0 dat1 dat2 dat3 m

def pdats : (p : Fin 4) → (c : Dev nD) → Dat τ (Elt F) Unit ℕ (UR sig nD τ) ℕ (Pipeline.pin (pcfgs (F := F)) adm p) c
  | ⟨0, _⟩ => fun c => dat0 (atRefs (W1 m)) c
  | ⟨1, _⟩ => fun c => dat1 (atRefs (W5 m o₀)) c
  | ⟨2, _⟩ => fun c => dat2 (atRefs (W8 m o₀ o₁)) c
  | ⟨3, _⟩ => fun c => dat3 (atRefs (W10 m o₀ o₁ o₂)) c

local notation "𝒟" => pdats dat0 dat1 dat2 dat3 m

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Entry1 : Prop :=
  ∀ (c : Dev nD) (dat : Dat τ (Elt F) Unit ℕ (UR sig nD τ) ℕ cfg1 c), dat.q = q1 →
    ∀ (V : (b : Ref sig .tc) → Buf (Elt F) ((c : Thread nD τ).loc b)), (∀ w, dat.A w = V (Pipeline.arrRef spec1 w)) →
      ((unscopedBufs c V : sProp 𝕄) ⊢ iprop(dat.arrays (dat.arrAt · 0) ∗ Pipeline.unscopedRest spec1 c V))

abbrev Exit1 : Prop :=
  ∀ (c : Dev nD) (dat : Dat τ (Elt F) Unit ℕ (UR sig nD τ) ℕ cfg1 c), dat.q = q1 →
    ∀ (V V' : (b : Ref sig .tc) → Buf (Elt F) ((c : Thread nD τ).loc b))
      (Fc : (w : Fin cfg1.W) → Buf (Elt F) ((spec1 w).arr.view.loc (c : Thread nD τ))),
      (∀ w, Fc w = V' (Pipeline.arrRef spec1 w)) → (∀ b, b ∉ Finset.univ.image (Pipeline.arrRef spec1) → V' b = V b) →
      (iprop(dat.arrays Fc ∗ Pipeline.unscopedRest spec1 c V) ⊢ (unscopedBufs c V' : sProp 𝕄))

abbrev Tₙ (c : Dev nD) : sProp 𝕄 :=
  iprop(StableHlo.held (c : Thread nD τ) (Pipeline.ucRefs τ sig) (W11 m o₀ o₁ o₂ o₃ c) ∗ ∃ r, prngReg c r)

variable (hA0 : ∀ V c w, (dat0 V c).A w = V c (Pipeline.arrRef spec0 w))
  (hb0 : ∀ V c, BodyObligation (dat0 V c) (defs₀ (F := F)) Variants.none () Set.univ)
  (hq0 : ∀ V c w, (dat0 V c).q w = fullShare)
  (hΦ0 : ∀ V c t, (dat0 V c).Φ t = Pipeline.ΦA spec0 c)
  (hO0 : ∀ V c t, (dat0 V c).owed t = 0)
  (hR0 : ∀ V c, (dat0 V c).recorded 0 = Set.univ)

variable (hA1 : ∀ V c w, (dat1 V c).A w = V c (Pipeline.arrRef spec1 w))
  (hb1 : ∀ V c, BodyObligation (dat1 V c) (defs₀ (F := F)) Variants.none () Set.univ)
  (hq1 : ∀ V c, (dat1 V c).q = q1)
  (hΦ1 : ∀ V c t, (dat1 V c).Φ t = Pipeline.ΦA spec1 c)
  (hO1 : ∀ V c t, (dat1 V c).owed t = 0)
  (hR1 : ∀ V c, (dat1 V c).recorded 0 = Set.univ)
  (entry1 : Entry1 (F := F)) (exit1 : Exit1 (F := F))

variable (hA2 : ∀ V c w, (dat2 V c).A w = V c (Pipeline.arrRef spec2 w))
  (hb2 : ∀ V c, BodyObligation (dat2 V c) (defs₀ (F := F)) Variants.none () Set.univ)
  (hq2 : ∀ V c w, (dat2 V c).q w = fullShare)
  (hΦ2 : ∀ V c t, (dat2 V c).Φ t = Pipeline.ΦA spec2 c)
  (hO2 : ∀ V c t, (dat2 V c).owed t = 0)
  (hR2 : ∀ V c, (dat2 V c).recorded 0 = Set.univ)

variable (hA3 : ∀ V c w, (dat3 V c).A w = V c (Pipeline.arrRef spec3 w))
  (hb3 : ∀ V c, BodyObligation (dat3 V c) (defs₀ (F := F)) Variants.none () Set.univ)
  (hq3 : ∀ V c w, (dat3 V c).q w = fullShare)
  (hΦ3 : ∀ V c t, (dat3 V c).Φ t = Pipeline.ΦA spec3 c)
  (hO3 : ∀ V c t, (dat3 V c).owed t = 0)
  (hR3 : ∀ V c, (dat3 V c).recorded 0 = Set.univ)

set_option backward.isDefEq.respectTransparency.types false in
/-- A kernel region as an item, from the split of the core's buffers into its arrays and the rest at entry and the
    join at exit: the generator register rides through the pipeline's invariant, nothing is owed, no table, no
    semaphore of its own. -/
def regOf (p : Fin 4) (win : Pipeline.WinFacts₀ ((pcfgs (F := F)) p).spec)
    (block_pos : ∀ w : Fin (Pipeline.pin (pcfgs (F := F)) adm p).W, 0 < ((Pipeline.pin (pcfgs (F := F)) adm p).spec w).block.numel)
    (stage_whole : ∀ (w : Fin (Pipeline.pin (pcfgs (F := F)) adm p).W) (s : Fin ((Pipeline.pin (pcfgs (F := F)) adm p).spec w).nbuf),
      (((Pipeline.pin (pcfgs (F := F)) adm p).spec w).stage s).IsWhole)
    (hK : IsEmpty (Fin ((pcfgs (F := F)) p).pre.K))
    (Wa Wb : Dev nD → Valuation τ sig (Elt F))
    (hb : ∀ c, BodyObligation (𝒟 p c) (defs₀ (F := F)) Variants.none () Set.univ)
    (hΦ : ∀ c t, (𝒟 p c).Φ t = Pipeline.ΦA (Pipeline.pin (pcfgs (F := F)) adm p).spec c)
    (hO : ∀ c t, (𝒟 p c).owed t = 0) (hR : ∀ c, (𝒟 p c).recorded 0 = Set.univ)
    (hsplit : ∀ c, (unscopedBufs c (atRefs Wa c) : sProp 𝕄) ⊢
      iprop((𝒟 p c).arrays ((𝒟 p c).arrAt · 0) ∗ Pipeline.unscopedRest (Pipeline.pin (pcfgs (F := F)) adm p).spec c (atRefs Wa c)))
    (hjoin : ∀ c, iprop((𝒟 p c).arrays ((𝒟 p c).arrAt · (Pipeline.pin (pcfgs (F := F)) adm p).N)
        ∗ Pipeline.unscopedRest (Pipeline.pin (pcfgs (F := F)) adm p).spec c (atRefs Wa c)) ⊢ (unscopedBufs c (atRefs Wb c) : sProp 𝕄)) :
    Pipeline.RegionSeg (pcfgs (F := F)) adm 𝒟 () defs₀ 𝒱₀ L lv p where
  win := win
  block_pos := block_pos
  stage_whole := stage_whole
  K := PEmpty
  osem k := k.elim
  ho := Pipeline.OwnSemFacts.none _
  hbody c := (hb c).loose
  hwaits := Pipeline.hwaits_of_owed_zero _ _ _ _ L lv p hO
  pre c := iprop(StableHlo.held (c : Thread nD τ) (Pipeline.ucRefs τ sig) (Wa c) ∗ R c)
  post c := iprop(StableHlo.held (c : Thread nD τ) (Pipeline.ucRefs τ sig) (Wb c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (atRefs Wa c)
  hentry c := by
    rw [Pipeline.ownSems0_none]
    have hs := hsplit c
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [Finset.univ_eq_empty, BI.bigSep_empty]; iempintro
    isplitl [HO]
    · unfold Pipeline.Dat.owesAt Pipeline.owesWithin
      rw [hO c 0]
      icases HO with ⟨%W, HO⟩; iexists W; isplitr
      · ipureintro; exact fun x _ => Or.inl (by rw [hR c]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hj := hjoin c
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin
    rw [hO c (Fin.last _)]
    icases HO with ⟨%W, -, HO⟩; iexists W; iexact HO

include hA0 in

theorem hF0 (c : Dev nD) (w : Fin cfg0.W) :
    (dat0 (atRefs (W1 m)) c).arrAt w cfg0.N = atRefs (W2 m o₀) c (Pipeline.arrRef spec0 w) := by
  by_cases h : w = 9
  · subst h; exact (Function.update_self (Proc.devRef (τ := τ) .tc main_v8) (o₀ c) (W1 m c)).symm
  · have hin : (cfg0.win w).isOut = false := (by decide : ∀ w : Fin 10, w ≠ 9 → (cfg0.win w).isOut = false) w h
    have hne : Pipeline.arrRef spec0 w ≠ main_v8 := (by decide : ∀ w : Fin 10, w ≠ 9 → Pipeline.arrRef spec0 w ≠ main_v8) w h
    exact ((dat0 _ c).arrAt_in w hin _).trans ((hA0 _ c w).trans (Function.update_of_ne (StableHlo.devRef_ne_of_ne hne) _ _).symm)

theorem hrest0 (c : Dev nD) : ∀ b, b ∉ Finset.univ.image (Pipeline.arrRef spec0) → atRefs (W2 m o₀) c b = atRefs (W1 m) c b :=
  fun b hb => Function.update_of_ne (StableHlo.devRef_ne_of_ne fun e => hb (Finset.mem_image.mpr ⟨9, Finset.mem_univ _, e.symm⟩)) _ _

set_option backward.isDefEq.respectTransparency.types false in
def reg0 : Pipeline.RegionSeg (pcfgs (F := F)) adm 𝒟 () defs₀ 𝒱₀ L lv 0 :=
  regOf dat0 dat1 dat2 dat3 m 0 launch0.win.to₀ launch0.block_pos launch0.stage_whole ⟨Fin.elim0⟩ (W1 m) (W2 m o₀)
    (hb0 _) (hΦ0 _) (hO0 _) (hR0 _)
    (fun c => Pipeline.arrays_of_unscopedBufs (p := 0) (pcfgs (F := F)) adm 𝒟 launch0.win launch0.arr_whole c
      ((𝒟 0 c).share_full fun w => hq0 _ c w) (atRefs (W1 m) c) fun w => hA0 _ c w)
    (fun c => Pipeline.unscopedBufs_of_arrays (p := 0) (pcfgs (F := F)) adm (Ix := Unit) (Name := ℕ) (U := UR sig nD τ) (Lvl := ℕ)
      launch0.win launch0.arr_whole c 𝒟 ((𝒟 0 c).share_full fun w => hq0 _ c w)
      (atRefs (W1 m) c) (atRefs (W2 m o₀) c) ((𝒟 0 c).arrAt · cfg0.N) (hF0 dat0 m hA0 c) (hrest0 dat0 m c))

include hA1 in

theorem hF1 (c : Dev nD) (w : Fin cfg1.W) :
    (dat1 (atRefs (W5 m o₀)) c).arrAt w cfg1.N = atRefs (W6 m o₀ o₁) c (Pipeline.arrRef spec1 w) := by
  by_cases h : w = 15
  · subst h; exact (Function.update_self (Proc.devRef (τ := τ) .tc main_v51) (o₁ c) (W5 m o₀ c)).symm
  · have hin : (cfg1.win w).isOut = false := (by decide : ∀ w : Fin 16, w ≠ 15 → (cfg1.win w).isOut = false) w h
    have hne : Pipeline.arrRef spec1 w ≠ main_v51 := (by decide : ∀ w : Fin 16, w ≠ 15 → Pipeline.arrRef spec1 w ≠ main_v51) w h
    exact ((dat1 _ c).arrAt_in w hin _).trans ((hA1 _ c w).trans (Function.update_of_ne (StableHlo.devRef_ne_of_ne hne) _ _).symm)

theorem hrest1 (c : Dev nD) : ∀ b, b ∉ Finset.univ.image (Pipeline.arrRef spec1) → atRefs (W6 m o₀ o₁) c b = atRefs (W5 m o₀) c b :=
  fun b hb => Function.update_of_ne (StableHlo.devRef_ne_of_ne fun e => hb (Finset.mem_image.mpr ⟨15, Finset.mem_univ _, e.symm⟩)) _ _

set_option backward.isDefEq.respectTransparency.types false in
def reg1 : Pipeline.RegionSeg (pcfgs (F := F)) adm 𝒟 () defs₀ 𝒱₀ L lv 1 :=
  regOf dat0 dat1 dat2 dat3 m 1 winFacts₀1 block_pos1 stage_whole1 ⟨Fin.elim0⟩ (W5 m o₀) (W6 m o₀ o₁)
    (hb1 _) (hΦ1 _) (hO1 _) (hR1 _)
    (fun c => entry1 c (𝒟 1 c) (hq1 _ c) (atRefs (W5 m o₀) c) fun w => hA1 _ c w)
    (fun c => exit1 c (𝒟 1 c) (hq1 _ c) (atRefs (W5 m o₀) c) (atRefs (W6 m o₀ o₁) c)
      ((𝒟 1 c).arrAt · cfg1.N) (hF1 dat0 dat1 m hA1 c) (hrest1 dat0 dat1 m c))

include hA2 in

theorem hF2 (c : Dev nD) (w : Fin cfg2.W) :
    (dat2 (atRefs (W8 m o₀ o₁)) c).arrAt w cfg2.N = atRefs (W9 m o₀ o₁ o₂) c (Pipeline.arrRef spec2 w) := by
  by_cases h : w = 15
  · subst h; exact (Function.update_self (Proc.devRef (τ := τ) .tc main_v91) (o₂ c) (W8 m o₀ o₁ c)).symm
  · have hin : (cfg2.win w).isOut = false := (by decide : ∀ w : Fin 16, w ≠ 15 → (cfg2.win w).isOut = false) w h
    have hne : Pipeline.arrRef spec2 w ≠ main_v91 := (by decide : ∀ w : Fin 16, w ≠ 15 → Pipeline.arrRef spec2 w ≠ main_v91) w h
    exact ((dat2 _ c).arrAt_in w hin _).trans ((hA2 _ c w).trans (Function.update_of_ne (StableHlo.devRef_ne_of_ne hne) _ _).symm)

theorem hrest2 (c : Dev nD) : ∀ b, b ∉ Finset.univ.image (Pipeline.arrRef spec2) → atRefs (W9 m o₀ o₁ o₂) c b = atRefs (W8 m o₀ o₁) c b :=
  fun b hb => Function.update_of_ne (StableHlo.devRef_ne_of_ne fun e => hb (Finset.mem_image.mpr ⟨15, Finset.mem_univ _, e.symm⟩)) _ _

set_option backward.isDefEq.respectTransparency.types false in
def reg2 : Pipeline.RegionSeg (pcfgs (F := F)) adm 𝒟 () defs₀ 𝒱₀ L lv 2 :=
  regOf dat0 dat1 dat2 dat3 m 2 launch2.win.to₀ launch2.block_pos launch2.stage_whole ⟨Fin.elim0⟩ (W8 m o₀ o₁) (W9 m o₀ o₁ o₂)
    (hb2 _) (hΦ2 _) (hO2 _) (hR2 _)
    (fun c => Pipeline.arrays_of_unscopedBufs (p := 2) (pcfgs (F := F)) adm 𝒟 launch2.win launch2.arr_whole c
      ((𝒟 2 c).share_full fun w => hq2 _ c w) (atRefs (W8 m o₀ o₁) c) fun w => hA2 _ c w)
    (fun c => Pipeline.unscopedBufs_of_arrays (p := 2) (pcfgs (F := F)) adm (Ix := Unit) (Name := ℕ) (U := UR sig nD τ) (Lvl := ℕ)
      launch2.win launch2.arr_whole c 𝒟 ((𝒟 2 c).share_full fun w => hq2 _ c w)
      (atRefs (W8 m o₀ o₁) c) (atRefs (W9 m o₀ o₁ o₂) c) ((𝒟 2 c).arrAt · cfg2.N) (hF2 dat0 dat1 dat2 m hA2 c) (hrest2 dat0 dat1 dat2 m c))

include hA3 in

theorem hF3 (c : Dev nD) (w : Fin cfg3.W) :
    (dat3 (atRefs (W10 m o₀ o₁ o₂)) c).arrAt w cfg3.N = atRefs (W11 m o₀ o₁ o₂ o₃) c (Pipeline.arrRef spec3 w) := by
  by_cases h : w = 6
  · subst h; exact (Function.update_self (Proc.devRef (τ := τ) .tc main_v102) (o₃ c) (W10 m o₀ o₁ o₂ c)).symm
  · have hin : (cfg3.win w).isOut = false := (by decide : ∀ w : Fin 7, w ≠ 6 → (cfg3.win w).isOut = false) w h
    have hne : Pipeline.arrRef spec3 w ≠ main_v102 := (by decide : ∀ w : Fin 7, w ≠ 6 → Pipeline.arrRef spec3 w ≠ main_v102) w h
    exact ((dat3 _ c).arrAt_in w hin _).trans ((hA3 _ c w).trans (Function.update_of_ne (StableHlo.devRef_ne_of_ne hne) _ _).symm)

theorem hrest3 (c : Dev nD) : ∀ b, b ∉ Finset.univ.image (Pipeline.arrRef spec3) → atRefs (W11 m o₀ o₁ o₂ o₃) c b = atRefs (W10 m o₀ o₁ o₂) c b :=
  fun b hb => Function.update_of_ne (StableHlo.devRef_ne_of_ne fun e => hb (Finset.mem_image.mpr ⟨6, Finset.mem_univ _, e.symm⟩)) _ _

set_option backward.isDefEq.respectTransparency.types false in
def reg3 : Pipeline.RegionSeg (pcfgs (F := F)) adm 𝒟 () defs₀ 𝒱₀ L lv 3 :=
  regOf dat0 dat1 dat2 dat3 m 3 launch3.win.to₀ launch3.block_pos launch3.stage_whole ⟨Fin.elim0⟩ (W10 m o₀ o₁ o₂) (W11 m o₀ o₁ o₂ o₃)
    (hb3 _) (hΦ3 _) (hO3 _) (hR3 _)
    (fun c => Pipeline.arrays_of_unscopedBufs (p := 3) (pcfgs (F := F)) adm 𝒟 launch3.win launch3.arr_whole c
      ((𝒟 3 c).share_full fun w => hq3 _ c w) (atRefs (W10 m o₀ o₁ o₂) c) fun w => hA3 _ c w)
    (fun c => Pipeline.unscopedBufs_of_arrays (p := 3) (pcfgs (F := F)) adm (Ix := Unit) (Name := ℕ) (U := UR sig nD τ) (Lvl := ℕ)
      launch3.win launch3.arr_whole c 𝒟 ((𝒟 3 c).share_full fun w => hq3 _ c w)
      (atRefs (W10 m o₀ o₁ o₂) c) (atRefs (W11 m o₀ o₁ o₂ o₃) c) ((𝒟 3 c).arrAt · cfg3.N) (hF3 dat0 dat1 dat2 dat3 m hA3 c) (hrest3 dat0 dat1 dat2 dat3 m c))

abbrev segs : List (Pipeline.Seg (pcfgs (F := F)) adm 𝒟 () defs₀ 𝒱₀ L lv) :=
  [ .host (hseg hostOps0 hostOps0_sub hostOps0_fresh (W0 m)),
    .region (reg0 dat0 dat1 dat2 dat3 m hA0 hb0 hq0 hΦ0 hO0 hR0),
    .host (hseg hostOps1 hostOps1_sub hostOps1_fresh (W2 m o₀)),
    .host (hseg hostOps1_1 hostOps1_1_sub hostOps1_1_fresh (W3 m o₀)),
    .host (hseg hostOps1_2 hostOps1_2_sub hostOps1_2_fresh (W4 m o₀)),
    .region (reg1 dat0 dat1 dat2 dat3 m hA1 hb1 hq1 hΦ1 hO1 hR1 entry1 exit1),
    .host (hseg hostOps2 hostOps2_sub hostOps2_fresh (W6 m o₀ o₁)),
    .host (hseg hostOps2_1 hostOps2_1_sub hostOps2_1_fresh (W7 m o₀ o₁)),
    .region (reg2 dat0 dat1 dat2 dat3 m hA2 hb2 hq2 hΦ2 hO2 hR2),
    .host (hseg hostOps3 hostOps3_sub hostOps3_fresh (W9 m o₀ o₁ o₂)),
    .region (reg3 dat0 dat1 dat2 dat3 m hA3 hb3 hq3 hΦ3 hO3 hR3) ]

include hA0 hb0 hq0 hΦ0 hO0 hR0 hA1 hb1 hq1 hΦ1 hO1 hR1 entry1 exit1 hA2 hb2 hq2 hΦ2 hO2 hR2 hA3 hb3 hq3 hΦ3 hO3 hR3

set_option backward.isDefEq.respectTransparency.types false in

theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W11 m o₀ o₁ o₂ o₃ c b) :=
  Pipeline.θ_run_regions_kit (pcfgs (F := F)) adm 𝒟 () cellOf_inj emb₁ defs₀ 𝒱₀ L lv m ρ main (segs dat0 dat1 dat2 dat3 m hA0 hb0 hq0 hΦ0 hO0 hR0 hA1 hb1 hq1 hΦ1 hO1 hR1 entry1 exit1 hA2 hb2 hq2 hΦ2 hO2 hR2 hA3 hb3 hq3 hΦ3 hO3 hR3)
    (fun c Q => by
      rewrite [main_chain c, Pipeline.Seg.run_eq_chain,
        show (segs dat0 dat1 dat2 dat3 m hA0 hb0 hq0 hΦ0 hO0 hR0 hA1 hb1 hq1 hΦ1 hO1 hR1 entry1 exit1 hA2 hb2 hq2 hΦ2 hO2 hR2 hA3 hb3 hq3 hΦ3 hO3 hR3).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ dat0 dat1 dat2 dat3 m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => sep_assoc.mpr⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m o₀ o₁ o₂ o₃ c b)
    (hfin := fun c s' => by
      iintro ⟨⟨Hh, -⟩, HSI⟩
      unfold StableHlo.held
      imodintro
      iapply (pointsTo_read_all (Pipeline.ucRefs τ sig) (fun b => (((c : Thread nD τ)).1, b)) (W11 m o₀ o₁ o₂ o₃ c) s')
      isplitl [Hh] <;> iassumption)
    (hQ := fun s h => h)

end Cert.KernelIdeal.Hand

end
-- ==== Proof.Hand.Inst.lean ====
import proofs.«406513_j58480274702513_1_alg».proof.Proof.Hand.Outs
import proofs.«406513_j58480274702513_1_alg».proof.Proof.Hand.Keep
import proofs.«406513_j58480274702513_1_alg».proof.Proof.Hand.Share1
import proofs.«406513_j58480274702513_1_alg».proof.Proof.Hand.Run

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

theorem uc_of_unscoped (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

theorem run_inst (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W11 m (O0 m) (O1 m) (O2 m) (O3 m) c b) :=
  run_all (F := F) dat0 dat1 dat2 dat3 m
    A_eq0 body_obligation0 (fun _ _ _ => rfl) (fun _ _ _ => rfl) (fun _ _ _ => rfl) (fun _ _ => rfl)
    A_eq1 body_obligation1 (fun _ _ => rfl) (fun _ _ _ => rfl) (fun _ _ _ => rfl) (fun _ _ => rfl) entry1 exit1
    A_eq2 body_obligation2 (fun _ _ _ => rfl) (fun _ _ _ => rfl) (fun _ _ _ => rfl) (fun _ _ => rfl)
    A_eq3 body_obligation3 (fun _ _ _ => rfl) (fun _ _ _ => rfl) (fun _ _ _ => rfl) (fun _ _ => rfl) ρ

/-- The result buffer ends at the last region's output array; a buffer no item writes ends as launched. -/
theorem run_result (ρ : Dev nD → PrngReg) : θ_run defs (onTc (τ := τ) (main (F := F))) ⟨m, fun _ => 0, ρ⟩ (fun r => ∀ c : Dev nD,
      r.2.mem ((c.tc : Thread nD τ).loc main_v102) = O3 m c
      ∧ ∀ b : Ref sig .tc, ¬ (Proc.devRef .tc b : DevRef τ sig).isScoped → b ∉ written →
          r.2.mem ((c.tc : Thread nD τ).loc b) = m ((c.tc : Thread nD τ).loc b)) :=
  (θ_run defs _ _).mono (fun r h c =>
    ⟨(h c _ (uc_of_unscoped main_v102 (by decide))).trans (W11_result m (O0 m) (O1 m) (O2 m) (O3 m) c),
      fun b hs hw => (h c _ (uc_of_unscoped b hs)).trans (W11_unwritten m (O0 m) (O1 m) (O2 m) (O3 m) c b hw)⟩) (run_inst m ρ)

end Cert.KernelIdeal.Hand

end
-- ==== Proof.RefStages.lean ====
import proofs.«406513_j58480274702513_1_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S100000x1024, .f32⟩ : BufTy).Contents (Elt F))
  (x1 : (⟨S2x1600000, .i32⟩ : BufTy).Contents (Elt F))
  (x2 : (⟨S100000, .i32⟩ : BufTy).Contents (Elt F))
  (x3 : (⟨S2x16, .f32⟩ : BufTy).Contents (Elt F))
  (x4 : (⟨S16, .f32⟩ : BufTy).Contents (Elt F))
  (x5 : (⟨S16x32, .f32⟩ : BufTy).Contents (Elt F))
  (x6 : (⟨S32, .f32⟩ : BufTy).Contents (Elt F))
  (x7 : (⟨S1022x16, .f32⟩ : BufTy).Contents (Elt F))
  (x8 : (⟨S16, .f32⟩ : BufTy).Contents (Elt F))
  (x9 : (⟨S16x32, .f32⟩ : BufTy).Contents (Elt F))
  (x10 : (⟨S32, .f32⟩ : BufTy).Contents (Elt F))
  (x11 : (⟨S2x64x64, .f32⟩ : BufTy).Contents (Elt F))
  (x12 : (⟨S2x64, .f32⟩ : BufTy).Contents (Elt F))
  (x13 : (⟨S2x64, .f32⟩ : BufTy).Contents (Elt F))
  (x14 : (⟨S2x64, .f32⟩ : BufTy).Contents (Elt F))
  (x15 : (⟨S2x64, .f32⟩ : BufTy).Contents (Elt F))
  (x16 : (⟨S2x64, .f32⟩ : BufTy).Contents (Elt F))
  (x17 : (⟨S2x64x64, .f32⟩ : BufTy).Contents (Elt F))
  (x18 : (⟨S2x64, .f32⟩ : BufTy).Contents (Elt F))
  (x19 : (⟨S2x64, .f32⟩ : BufTy).Contents (Elt F))
  (x20 : (⟨S2x64, .f32⟩ : BufTy).Contents (Elt F))
  (x21 : (⟨S2x64, .f32⟩ : BufTy).Contents (Elt F))
  (x22 : (⟨S2x64, .f32⟩ : BufTy).Contents (Elt F))
  (x23 : (⟨S64x16, .f32⟩ : BufTy).Contents (Elt F))
  (x24 : (⟨S16, .f32⟩ : BufTy).Contents (Elt F))
  (x25 : (⟨S16x7, .f32⟩ : BufTy).Contents (Elt F))
  (x26 : (⟨S7, .f32⟩ : BufTy).Contents (Elt F))

def val_main_v0 : (⟨S1x1600000, .i32⟩ : BufTy).Contents (Elt F) :=
  extractStridedSlice S1x1600000 ![0, 0] (x1) slices_S2x1600000_S1x1600000_0_0
def val_main_v1 : (⟨S1600000, .i32⟩ : BufTy).Contents (Elt F) :=
  shapeCast _ (val_main_v0 (F := F) x1) shapeCasts_S1x1600000_S1600000
def val_main_v2 : (⟨S1x1600000, .i32⟩ : BufTy).Contents (Elt F) :=
  extractStridedSlice S1x1600000 ![1, 0] (x1) slices_S2x1600000_S1x1600000_1_0
def val_main_v3 : (⟨S1600000, .i32⟩ : BufTy).Contents (Elt F) :=
  shapeCast _ (val_main_v2 (F := F) x1) shapeCasts_S1x1600000_S1600000
def val_main_v4 : (⟨S100000x1022, .f32⟩ : BufTy).Contents (Elt F) :=
  extractStridedSlice S100000x1022 ![0, 0] (x0) slices_S100000x1024_S100000x1022_0_0
abbrev idx_main_v4 (i : S100000x1022.Idx) : S100000x1024.Idx := fun a => match a with
  | ⟨0, _⟩ => ⟨(i 0).val, (i 0).isLt⟩
  | ⟨1, _⟩ => ⟨(i 1).val, by have h1 : (i 1).val < 1022 := (i 1).isLt; show (i 1).val < 1024; omega⟩
theorem val_main_v4_apply (i : S100000x1022.Idx) :
    val_main_v4 (F := F) x0 i = x0 (idx_main_v4 i) := by
  unfold val_main_v4
  exact extractStridedSlice_apply ![0, 0] x0 slices_S100000x1024_S100000x1022_0_0 i (idx_main_v4 i) (fun a => match a with
    | ⟨0, _⟩ => by show (i 0).val = 0 + (i 0).val; omega
    | ⟨1, _⟩ => by show (i 1).val = 0 + (i 1).val; omega)
def val_main_v5 : (⟨S100000x2, .f32⟩ : BufTy).Contents (Elt F) :=
  extractStridedSlice S100000x2 ![0, 1022] (x0) slices_S100000x1024_S100000x2_0_1022
abbrev idx_main_v5 (i : S100000x2.Idx) : S100000x1024.Idx := fun a => match a with
  | ⟨0, _⟩ => ⟨(i 0).val, (i 0).isLt⟩
  | ⟨1, _⟩ => ⟨1022 + (i 1).val, by have h1 : (i 1).val < 2 := (i 1).isLt; show 1022 + (i 1).val < 1024; omega⟩
theorem val_main_v5_apply (i : S100000x2.Idx) :
    val_main_v5 (F := F) x0 i = x0 (idx_main_v5 i) := by
  unfold val_main_v5
  exact extractStridedSlice_apply ![0, 1022] x0 slices_S100000x1024_S100000x2_0_1022 i (idx_main_v5 i) (fun a => match a with
    | ⟨0, _⟩ => by show (i 0).val = 0 + (i 0).val; omega
    | ⟨1, _⟩ => by show 1022 + (i 1).val = 1022 + (i 1).val; omega)
def val_main_v6 : (⟨S100000x16, .f32⟩ : BufTy).Contents (Elt F) :=
  Host.dotGeneral dot_S100000x2_S2x16_S100000x16_1_0_0_1_n_n none (val_main_v5 (F := F) x0) (x3)
theorem lhs_main_v6_0 (i : S100000x16.Idx) (q : dot_S100000x2_S2x16_S100000x16_1_0_0_1_n_n.contr.Idx) :
    (dot_S100000x2_S2x16_S100000x16_1_0_0_1_n_n.lhsIdx i q 0).val = (i 0).val := by
  unfold DotDims.lhsIdx
  rw [dif_neg (show ¬(0 : Fin S100000x2.rank) ∈ dot_S100000x2_S2x16_S100000x16_1_0_0_1_n_n.lhsBatch by decide), dif_pos (show (0 : Fin S100000x2.rank) ∈ dot_S100000x2_S2x16_S100000x16_1_0_0_1_n_n.lhsNonContracting by decide)]
  rfl
theorem lhs_main_v6_1 (i : S100000x16.Idx) (q : dot_S100000x2_S2x16_S100000x16_1_0_0_1_n_n.contr.Idx) :
    (dot_S100000x2_S2x16_S100000x16_1_0_0_1_n_n.lhsIdx i q 1).val = (q ⟨0, by decide⟩).val :=
  dot_S100000x2_S2x16_S100000x16_1_0_0_1_n_n.lhsIdx_val_of_single rfl i q
theorem rhs_main_v6_0 (i : S100000x16.Idx) (q : dot_S100000x2_S2x16_S100000x16_1_0_0_1_n_n.contr.Idx) :
    (dot_S100000x2_S2x16_S100000x16_1_0_0_1_n_n.rhsIdx i q 0).val = (q ⟨0, by decide⟩).val :=
  dot_S100000x2_S2x16_S100000x16_1_0_0_1_n_n.rhsIdx_val_of_single rfl i q
theorem rhs_main_v6_1 (i : S100000x16.Idx) (q : dot_S100000x2_S2x16_S100000x16_1_0_0_1_n_n.contr.Idx) :
    (dot_S100000x2_S2x16_S100000x16_1_0_0_1_n_n.rhsIdx i q 1).val = (i 1).val := by
  unfold DotDims.rhsIdx
  rw [dif_neg (show ¬(1 : Fin S2x16.rank) ∈ dot_S100000x2_S2x16_S100000x16_1_0_0_1_n_n.rhsBatch by decide), dif_pos (show (1 : Fin S2x16.rank) ∈ dot_S100000x2_S2x16_S100000x16_1_0_0_1_n_n.rhsNonContracting by decide)]
  rfl
abbrev lidx_main_v6 (i : S100000x16.Idx) (k : Fin 2) : S100000x2.Idx := fun a => match a with
  | ⟨0, _⟩ => ⟨(i 0).val, (i 0).isLt⟩
  | ⟨1, _⟩ => ⟨k.val, k.isLt⟩
abbrev ridx_main_v6 (i : S100000x16.Idx) (k : Fin 2) : S2x16.Idx := fun a => match a with
  | ⟨0, _⟩ => ⟨k.val, k.isLt⟩
  | ⟨1, _⟩ => ⟨(i 1).val, (i 1).isLt⟩

theorem val_main_v6_apply (x0 : (⟨S100000x1024, .f32⟩ : BufTy).Contents (Elt Ideal)) (x3 : (⟨S2x16, .f32⟩ : BufTy).Contents (Elt Ideal)) (i : S100000x16.Idx) :
    val_main_v6 (F := Ideal) x0 x3 i = ∑ k : Fin 2, (val_main_v5 (F := Ideal) x0) (lidx_main_v6 i k) * x3 (ridx_main_v6 i k) := by
  unfold val_main_v6
  generalize val_main_v5 (F := Ideal) x0 = y0
  simp only [Host.dotGeneral]
  rw [Ideal.dotGeneral_apply, ← Equiv.sum_comp (ValueIdx.contrEquiv1 dot_S100000x2_S2x16_S100000x16_1_0_0_1_n_n 2 rfl rfl).symm]
  refine Finset.sum_congr rfl fun k _ => ?_
  have hk := ValueIdx.contrEquiv1_symm_val dot_S100000x2_S2x16_S100000x16_1_0_0_1_n_n 2 rfl rfl k
  have el : dot_S100000x2_S2x16_S100000x16_1_0_0_1_n_n.lhsIdx i ((ValueIdx.contrEquiv1 dot_S100000x2_S2x16_S100000x16_1_0_0_1_n_n 2 rfl rfl).symm k) = lidx_main_v6 i k := funext fun a => Fin.ext (by
    match a with
    | ⟨0, _⟩ => exact lhs_main_v6_0 _ _
    | ⟨1, _⟩ => exact (lhs_main_v6_1 _ _).trans hk)
  have er : dot_S100000x2_S2x16_S100000x16_1_0_0_1_n_n.rhsIdx i ((ValueIdx.contrEquiv1 dot_S100000x2_S2x16_S100000x16_1_0_0_1_n_n 2 rfl rfl).symm k) = ridx_main_v6 i k := funext fun a => Fin.ext (by
    match a with
    | ⟨0, _⟩ => exact (rhs_main_v6_0 _ _).trans hk
    | ⟨1, _⟩ => exact rhs_main_v6_1 _ _)
  rw [el, er]
def val_main_v7 : (⟨S1x16, .f32⟩ : BufTy).Contents (Elt F) :=
  broadcastInDim S1x16 ![1] bcast_S16_S1x16_1 (x4)
abbrev idx_main_v7 (i : S1x16.Idx) : S16.Idx := fun a => match a with
  | ⟨0, _⟩ => ⟨(i 1).val, (i 1).isLt⟩
theorem val_main_v7_apply (i : S1x16.Idx) :
    val_main_v7 (F := F) x4 i = x4 (idx_main_v7 i) := by
  unfold val_main_v7
  exact broadcastInDim_apply _ bcast_S16_S1x16_1 x4 i (idx_main_v7 i) (fun a => match a with
    | ⟨0, _⟩ => by show (i 1).val = if (16 : Nat) = 1 then 0 else (i 1).val; rw [if_neg (by decide)])
def val_main_v8 : (⟨S100000x16, .f32⟩ : BufTy).Contents (Elt F) :=
  broadcastInDim S100000x16 ![0, 1] bcast_S1x16_S100000x16_0_1 (val_main_v7 (F := F) x4)
abbrev idx_main_v8 (i : S100000x16.Idx) : S1x16.Idx := fun a => match a with
  | ⟨0, _⟩ => ⟨0, Nat.one_pos⟩
  | ⟨1, _⟩ => ⟨(i 1).val, (i 1).isLt⟩
theorem val_main_v8_apply (i : S100000x16.Idx) :
    val_main_v8 (F := F) x4 i = val_main_v7 (F := F) x4 (idx_main_v8 i) := by
  unfold val_main_v8
  generalize val_main_v7 (F := F) x4 = y
  exact broadcastInDim_apply _ bcast_S1x16_S100000x16_0_1 y i (idx_main_v8 i) (fun a => match a with
    | ⟨0, _⟩ => by show 0 = if (1 : Nat) = 1 then 0 else (i 0).val; rw [if_pos rfl]
    | ⟨1, _⟩ => by show (i 1).val = if (16 : Nat) = 1 then 0 else (i 1).val; rw [if_neg (by decide)])
def val_main_v9 : (⟨S100000x16, .f32⟩ : BufTy).Contents (Elt F) :=
  addf (val_main_v6 (F := F) x0 x3) (val_main_v8 (F := F) x4)
theorem val_main_v9_apply (i : S100000x16.Idx) :
    val_main_v9 (F := F) x0 x3 x4 i = FloatOps.addf (val_main_v6 (F := F) x0 x3 i) (val_main_v8 (F := F) x4 i) := rfl
def val_main_call0_cst : (⟨S_, .f32⟩ : BufTy).Contents (Elt F) :=
  constant S_ .f32 0x00000000#32
theorem val_main_call0_cst_apply (i : S_.Idx) :
    val_main_call0_cst (F := F) i = FloatOps.ofBits .f32 0x00000000#32 := rfl
def val_main_call0_v0 : (⟨S100000x16, .f32⟩ : BufTy).Contents (Elt F) :=
  broadcastInDim S100000x16 ![] bcast_S_S100000x16 (val_main_call0_cst (F := F))
abbrev idx_main_call0_v0 (i : S100000x16.Idx) : S_.Idx := fun a => a.elim0
theorem val_main_call0_v0_apply (i : S100000x16.Idx) :
    val_main_call0_v0 (F := F) i = val_main_call0_cst (F := F) (idx_main_call0_v0 i) := by
  unfold val_main_call0_v0
  generalize val_main_call0_cst (F := F) = y
  exact broadcastInDim_apply _ bcast_S_S100000x16 y i (idx_main_call0_v0 i) (fun a => a.elim0)
def val_main_v10 : (⟨S100000x16, .f32⟩ : BufTy).Contents (Elt F) :=
  maximumf (val_main_v9 (F := F) x0 x3 x4) (val_main_call0_v0 (F := F))
theorem val_main_v10_apply (i : S100000x16.Idx) :
    val_main_v10 (F := F) x0 x3 x4 i = FloatOps.maximumf (val_main_v9 (F := F) x0 x3 x4 i) (val_main_call0_v0 (F := F) i) := rfl
def val_main_v11 : (⟨S100000x32, .f32⟩ : BufTy).Contents (Elt F) :=
  Host.dotGeneral dot_S100000x16_S16x32_S100000x32_1_0_0_1_n_n none (val_main_v10 (F := F) x0 x3 x4) (x5)
theorem lhs_main_v11_0 (i : S100000x32.Idx) (q : dot_S100000x16_S16x32_S100000x32_1_0_0_1_n_n.contr.Idx) :
    (dot_S100000x16_S16x32_S100000x32_1_0_0_1_n_n.lhsIdx i q 0).val = (i 0).val := by
  unfold DotDims.lhsIdx
  rw [dif_neg (show ¬(0 : Fin S100000x16.rank) ∈ dot_S100000x16_S16x32_S100000x32_1_0_0_1_n_n.lhsBatch by decide), dif_pos (show (0 : Fin S100000x16.rank) ∈ dot_S100000x16_S16x32_S100000x32_1_0_0_1_n_n.lhsNonContracting by decide)]
  rfl
theorem lhs_main_v11_1 (i : S100000x32.Idx) (q : dot_S100000x16_S16x32_S100000x32_1_0_0_1_n_n.contr.Idx) :
    (dot_S100000x16_S16x32_S100000x32_1_0_0_1_n_n.lhsIdx i q 1).val = (q ⟨0, by decide⟩).val :=
  dot_S100000x16_S16x32_S100000x32_1_0_0_1_n_n.lhsIdx_val_of_single rfl i q
theorem rhs_main_v11_0 (i : S100000x32.Idx) (q : dot_S100000x16_S16x32_S100000x32_1_0_0_1_n_n.contr.Idx) :
    (dot_S100000x16_S16x32_S100000x32_1_0_0_1_n_n.rhsIdx i q 0).val = (q ⟨0, by decide⟩).val :=
  dot_S100000x16_S16x32_S100000x32_1_0_0_1_n_n.rhsIdx_val_of_single rfl i q
theorem rhs_main_v11_1 (i : S100000x32.Idx) (q : dot_S100000x16_S16x32_S100000x32_1_0_0_1_n_n.contr.Idx) :
    (dot_S100000x16_S16x32_S100000x32_1_0_0_1_n_n.rhsIdx i q 1).val = (i 1).val := by
  unfold DotDims.rhsIdx
  rw [dif_neg (show ¬(1 : Fin S16x32.rank) ∈ dot_S100000x16_S16x32_S100000x32_1_0_0_1_n_n.rhsBatch by decide), dif_pos (show (1 : Fin S16x32.rank) ∈ dot_S100000x16_S16x32_S100000x32_1_0_0_1_n_n.rhsNonContracting by decide)]
  rfl
abbrev lidx_main_v11 (i : S100000x32.Idx) (k : Fin 16) : S100000x16.Idx := fun a => match a with
  | ⟨0, _⟩ => ⟨(i 0).val, (i 0).isLt⟩
  | ⟨1, _⟩ => ⟨k.val, k.isLt⟩
abbrev ridx_main_v11 (i : S100000x32.Idx) (k : Fin 16) : S16x32.Idx := fun a => match a with
  | ⟨0, _⟩ => ⟨k.val, k.isLt⟩
  | ⟨1, _⟩ => ⟨(i 1).val, (i 1).isLt⟩

theorem val_main_v11_apply (x0 : (⟨S100000x1024, .f32⟩ : BufTy).Contents (Elt Ideal)) (x3 : (⟨S2x16, .f32⟩ : BufTy).Contents (Elt Ideal)) (x4 : (⟨S16, .f32⟩ : BufTy).Contents (Elt Ideal)) (x5 : (⟨S16x32, .f32⟩ : BufTy).Contents (Elt Ideal)) (i : S100000x32.Idx) :
    val_main_v11 (F := Ideal) x0 x3 x4 x5 i = ∑ k : Fin 16, (val_main_v10 (F := Ideal) x0 x3 x4) (lidx_main_v11 i k) * x5 (ridx_main_v11 i k) := by
  unfold val_main_v11
  generalize val_main_v10 (F := Ideal) x0 x3 x4 = y0
  simp only [Host.dotGeneral]
  rw [Ideal.dotGeneral_apply, ← Equiv.sum_comp (ValueIdx.contrEquiv1 dot_S100000x16_S16x32_S100000x32_1_0_0_1_n_n 16 rfl rfl).symm]
  refine Finset.sum_congr rfl fun k _ => ?_
  have hk := ValueIdx.contrEquiv1_symm_val dot_S100000x16_S16x32_S100000x32_1_0_0_1_n_n 16 rfl rfl k
  have el : dot_S100000x16_S16x32_S100000x32_1_0_0_1_n_n.lhsIdx i ((ValueIdx.contrEquiv1 dot_S100000x16_S16x32_S100000x32_1_0_0_1_n_n 16 rfl rfl).symm k) = lidx_main_v11 i k := funext fun a => Fin.ext (by
    match a with
    | ⟨0, _⟩ => exact lhs_main_v11_0 _ _
    | ⟨1, _⟩ => exact (lhs_main_v11_1 _ _).trans hk)
  have er : dot_S100000x16_S16x32_S100000x32_1_0_0_1_n_n.rhsIdx i ((ValueIdx.contrEquiv1 dot_S100000x16_S16x32_S100000x32_1_0_0_1_n_n 16 rfl rfl).symm k) = ridx_main_v11 i k := funext fun a => Fin.ext (by
    match a with
    | ⟨0, _⟩ => exact (rhs_main_v11_0 _ _).trans hk
    | ⟨1, _⟩ => exact rhs_main_v11_1 _ _)
  rw [el, er]
def val_main_v12 : (⟨S1x32, .f32⟩ : BufTy).Contents (Elt F) :=
  broadcastInDim S1x32 ![1] bcast_S32_S1x32_1 (x6)
abbrev idx_main_v12 (i : S1x32.Idx) : S32.Idx := fun a => match a with
  | ⟨0, _⟩ => ⟨(i 1).val, (i 1).isLt⟩
theorem val_main_v12_apply (i : S1x32.Idx) :
    val_main_v12 (F := F) x6 i = x6 (idx_main_v12 i) := by
  unfold val_main_v12
  exact broadcastInDim_apply _ bcast_S32_S1x32_1 x6 i (idx_main_v12 i) (fun a => match a with
    | ⟨0, _⟩ => by show (i 1).val = if (32 : Nat) = 1 then 0 else (i 1).val; rw [if_neg (by decide)])
def val_main_v13 : (⟨S100000x32, .f32⟩ : BufTy).Contents (Elt F) :=
  broadcastInDim S100000x32 ![0, 1] bcast_S1x32_S100000x32_0_1 (val_main_v12 (F := F) x6)
abbrev idx_main_v13 (i : S100000x32.Idx) : S1x32.Idx := fun a => match a with
  | ⟨0, _⟩ => ⟨0, Nat.one_pos⟩
  | ⟨1, _⟩ => ⟨(i 1).val, (i 1).isLt⟩
theorem val_main_v13_apply (i : S100000x32.Idx) :
    val_main_v13 (F := F) x6 i = val_main_v12 (F := F) x6 (idx_main_v13 i) := by
  unfold val_main_v13
  generalize val_main_v12 (F := F) x6 = y
  exact broadcastInDim_apply _ bcast_S1x32_S100000x32_0_1 y i (idx_main_v13 i) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])
def val_main_v14 : (⟨S100000x32, .f32⟩ : BufTy).Contents (Elt F) :=
  addf (val_main_v11 (F := F) x0 x3 x4 x5) (val_main_v13 (F := F) x6)
theorem val_main_v14_apply (i : S100000x32.Idx) :
    val_main_v14 (F := F) x0 x3 x4 x5 x6 i = FloatOps.addf (val_main_v11 (F := F) x0 x3 x4 x5 i) (val_main_v13 (F := F) x6 i) := rfl
def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl
def val_main_call1_v0 : (⟨S100000x32, .f32⟩ : BufTy).Contents (Elt F) :=
  broadcastInDim S100000x32 ![] bcast_S_S100000x32 (val_main_call1_cst (F := F))
abbrev idx_main_call1_v0 (i : S100000x32.Idx) : S_.Idx := fun a => a.elim0
theorem val_main_call1_v0_apply (i : S100000x32.Idx) :
    val_main_call1_v0 (F := F) i = val_main_call1_cst (F := F) (idx_main_call1_v0 i) := by
  unfold val_main_call1_v0
  generalize val_main_call1_cst (F := F) = y
  exact broadcastInDim_apply _ bcast_S_S100000x32 y i (idx_main_call1_v0 i) (fun a => a.elim0)
def val_main_v15 : (⟨S100000x32, .f32⟩ : BufTy).Contents (Elt F) :=
  maximumf (val_main_v14 (F := F) x0 x3 x4 x5 x6) (val_main_call1_v0 (F := F))
theorem val_main_v15_apply (i : S100000x32.Idx) :
    val_main_v15 (F := F) x0 x3 x4 x5 x6 i = FloatOps.maximumf (val_main_v14 (F := F) x0 x3 x4 x5 x6 i) (val_main_call1_v0 (F := F) i) := rfl
def val_main_v16 : (⟨S100000x16, .f32⟩ : BufTy).Contents (Elt F) :=
  Host.dotGeneral dot_S100000x1022_S1022x16_S100000x16_1_0_0_1_n_n none (val_main_v4 (F := F) x0) (x7)
theorem lhs_main_v16_0 (i : S100000x16.Idx) (q : dot_S100000x1022_S1022x16_S100000x16_1_0_0_1_n_n.contr.Idx) :
    (dot_S100000x1022_S1022x16_S100000x16_1_0_0_1_n_n.lhsIdx i q 0).val = (i 0).val := by
  unfold DotDims.lhsIdx
  rw [dif_neg (show ¬(0 : Fin S100000x1022.rank) ∈ dot_S100000x1022_S1022x16_S100000x16_1_0_0_1_n_n.lhsBatch by decide), dif_pos (show (0 : Fin S100000x1022.rank) ∈ dot_S100000x1022_S1022x16_S100000x16_1_0_0_1_n_n.lhsNonContracting by decide)]
  rfl
theorem lhs_main_v16_1 (i : S100000x16.Idx) (q : dot_S100000x1022_S1022x16_S100000x16_1_0_0_1_n_n.contr.Idx) :
    (dot_S100000x1022_S1022x16_S100000x16_1_0_0_1_n_n.lhsIdx i q 1).val = (q ⟨0, by decide⟩).val :=
  dot_S100000x1022_S1022x16_S100000x16_1_0_0_1_n_n.lhsIdx_val_of_single rfl i q
theorem rhs_main_v16_0 (i : S100000x16.Idx) (q : dot_S100000x1022_S1022x16_S100000x16_1_0_0_1_n_n.contr.Idx) :
    (dot_S100000x1022_S1022x16_S100000x16_1_0_0_1_n_n.rhsIdx i q 0).val = (q ⟨0, by decide⟩).val :=
  dot_S100000x1022_S1022x16_S100000x16_1_0_0_1_n_n.rhsIdx_val_of_single rfl i q
theorem rhs_main_v16_1 (i : S100000x16.Idx) (q : dot_S100000x1022_S1022x16_S100000x16_1_0_0_1_n_n.contr.Idx) :
    (dot_S100000x1022_S1022x16_S100000x16_1_0_0_1_n_n.rhsIdx i q 1).val = (i 1).val := by
  unfold DotDims.rhsIdx
  rw [dif_neg (show ¬(1 : Fin S1022x16.rank) ∈ dot_S100000x1022_S1022x16_S100000x16_1_0_0_1_n_n.rhsBatch by decide), dif_pos (show (1 : Fin S1022x16.rank) ∈ dot_S100000x1022_S1022x16_S100000x16_1_0_0_1_n_n.rhsNonContracting by decide)]
  rfl
abbrev lidx_main_v16 (i : S100000x16.Idx) (k : Fin 1022) : S100000x1022.Idx := fun a => match a with
  | ⟨0, _⟩ => ⟨(i 0).val, (i 0).isLt⟩
  | ⟨1, _⟩ => ⟨k.val, k.isLt⟩
abbrev ridx_main_v16 (i : S100000x16.Idx) (k : Fin 1022) : S1022x16.Idx := fun a => match a with
  | ⟨0, _⟩ => ⟨k.val, k.isLt⟩
  | ⟨1, _⟩ => ⟨(i 1).val, (i 1).isLt⟩

theorem val_main_v16_apply (x0 : (⟨S100000x1024, .f32⟩ : BufTy).Contents (Elt Ideal)) (x7 : (⟨S1022x16, .f32⟩ : BufTy).Contents (Elt Ideal)) (i : S100000x16.Idx) :
    val_main_v16 (F := Ideal) x0 x7 i = ∑ k : Fin 1022, (val_main_v4 (F := Ideal) x0) (lidx_main_v16 i k) * x7 (ridx_main_v16 i k) := by
  unfold val_main_v16
  generalize val_main_v4 (F := Ideal) x0 = y0
  simp only [Host.dotGeneral]
  rw [Ideal.dotGeneral_apply, ← Equiv.sum_comp (ValueIdx.contrEquiv1 dot_S100000x1022_S1022x16_S100000x16_1_0_0_1_n_n 1022 rfl rfl).symm]
  refine Finset.sum_congr rfl fun k _ => ?_
  have hk := ValueIdx.contrEquiv1_symm_val dot_S100000x1022_S1022x16_S100000x16_1_0_0_1_n_n 1022 rfl rfl k
  have el : dot_S100000x1022_S1022x16_S100000x16_1_0_0_1_n_n.lhsIdx i ((ValueIdx.contrEquiv1 dot_S100000x1022_S1022x16_S100000x16_1_0_0_1_n_n 1022 rfl rfl).symm k) = lidx_main_v16 i k := funext fun a => Fin.ext (by
    match a with
    | ⟨0, _⟩ => exact lhs_main_v16_0 _ _
    | ⟨1, _⟩ => exact (lhs_main_v16_1 _ _).trans hk)
  have er : dot_S100000x1022_S1022x16_S100000x16_1_0_0_1_n_n.rhsIdx i ((ValueIdx.contrEquiv1 dot_S100000x1022_S1022x16_S100000x16_1_0_0_1_n_n 1022 rfl rfl).symm k) = ridx_main_v16 i k := funext fun a => Fin.ext (by
    match a with
    | ⟨0, _⟩ => exact (rhs_main_v16_0 _ _).trans hk
    | ⟨1, _⟩ => exact rhs_main_v16_1 _ _)
  rw [el, er]
def val_main_v17 : (⟨S1x16, .f32⟩ : BufTy).Contents (Elt F) :=
  broadcastInDim S1x16 ![1] bcast_S16_S1x16_1 (x8)
abbrev idx_main_v17 (i : S1x16.Idx) : S16.Idx := fun a => match a with
  | ⟨0, _⟩ => ⟨(i 1).val, (i 1).isLt⟩
theorem val_main_v17_apply (i : S1x16.Idx) :
    val_main_v17 (F := F) x8 i = x8 (idx_main_v17 i) := by
  unfold val_main_v17
  exact broadcastInDim_apply _ bcast_S16_S1x16_1 x8 i (idx_main_v17 i) (fun a => match a with
    | ⟨0, _⟩ => by show (i 1).val = if (16 : Nat) = 1 then 0 else (i 1).val; rw [if_neg (by decide)])
def val_main_v18 : (⟨S100000x16, .f32⟩ : BufTy).Contents (Elt F) :=
  broadcastInDim S100000x16 ![0, 1] bcast_S1x16_S100000x16_0_1 (val_main_v17 (F := F) x8)
abbrev idx_main_v18 (i : S100000x16.Idx) : S1x16.Idx := fun a => match a with
  | ⟨0, _⟩ => ⟨0, Nat.one_pos⟩
  | ⟨1, _⟩ => ⟨(i 1).val, (i 1).isLt⟩
theorem val_main_v18_apply (i : S100000x16.Idx) :
    val_main_v18 (F := F) x8 i = val_main_v17 (F := F) x8 (idx_main_v18 i) := by
  unfold val_main_v18
  generalize val_main_v17 (F := F) x8 = y
  exact broadcastInDim_apply _ bcast_S1x16_S100000x16_0_1 y i (idx_main_v18 i) (fun a => match a with
    | ⟨0, _⟩ => by show 0 = if (1 : Nat) = 1 then 0 else (i 0).val; rw [if_pos rfl]
    | ⟨1, _⟩ => by show (i 1).val = if (16 : Nat) = 1 then 0 else (i 1).val; rw [if_neg (by decide)])
def val_main_v19 : (⟨S100000x16, .f32⟩ : BufTy).Contents (Elt F) :=
  addf (val_main_v16 (F := F) x0 x7) (val_main_v18 (F := F) x8)
theorem val_main_v19_apply (i : S100000x16.Idx) :
    val_main_v19 (F := F) x0 x7 x8 i = FloatOps.addf (val_main_v16 (F := F) x0 x7 i) (val_main_v18 (F := F) x8 i) := rfl
def val_main_call2_cst : (⟨S_, .f32⟩ : BufTy).Contents (Elt F) :=
  constant S_ .f32 0x00000000#32
theorem val_main_call2_cst_apply (i : S_.Idx) :
    val_main_call2_cst (F := F) i = FloatOps.ofBits .f32 0x00000000#32 := rfl
def val_main_call2_v0 : (⟨S100000x16, .f32⟩ : BufTy).Contents (Elt F) :=
  broadcastInDim S100000x16 ![] bcast_S_S100000x16 (val_main_call2_cst (F := F))
abbrev idx_main_call2_v0 (i : S100000x16.Idx) : S_.Idx := fun a => a.elim0
theorem val_main_call2_v0_apply (i : S100000x16.Idx) :
    val_main_call2_v0 (F := F) i = val_main_call2_cst (F := F) (idx_main_call2_v0 i) := by
  unfold val_main_call2_v0
  generalize val_main_call2_cst (F := F) = y
  exact broadcastInDim_apply _ bcast_S_S100000x16 y i (idx_main_call2_v0 i) (fun a => a.elim0)
def val_main_v20 : (⟨S100000x16, .f32⟩ : BufTy).Contents (Elt F) :=
  maximumf (val_main_v19 (F := F) x0 x7 x8) (val_main_call2_v0 (F := F))
theorem val_main_v20_apply (i : S100000x16.Idx) :
    val_main_v20 (F := F) x0 x7 x8 i = FloatOps.maximumf (val_main_v19 (F := F) x0 x7 x8 i) (val_main_call2_v0 (F := F) i) := rfl
def val_main_v21 : (⟨S100000x32, .f32⟩ : BufTy).Contents (Elt F) :=
  Host.dotGeneral dot_S100000x16_S16x32_S100000x32_1_0_0_1_n_n none (val_main_v20 (F := F) x0 x7 x8) (x9)
theorem lhs_main_v21_0 (i : S100000x32.Idx) (q : dot_S100000x16_S16x32_S100000x32_1_0_0_1_n_n.contr.Idx) :
    (dot_S100000x16_S16x32_S100000x32_1_0_0_1_n_n.lhsIdx i q 0).val = (i 0).val := by
  unfold DotDims.lhsIdx
  rw [dif_neg (show ¬(0 : Fin S100000x16.rank) ∈ dot_S100000x16_S16x32_S100000x32_1_0_0_1_n_n.lhsBatch by decide), dif_pos (show (0 : Fin S100000x16.rank) ∈ dot_S100000x16_S16x32_S100000x32_1_0_0_1_n_n.lhsNonContracting by decide)]
  rfl
theorem lhs_main_v21_1 (i : S100000x32.Idx) (q : dot_S100000x16_S16x32_S100000x32_1_0_0_1_n_n.contr.Idx) :
    (dot_S100000x16_S16x32_S100000x32_1_0_0_1_n_n.lhsIdx i q 1).val = (q ⟨0, by decide⟩).val :=
  dot_S100000x16_S16x32_S100000x32_1_0_0_1_n_n.lhsIdx_val_of_single rfl i q
theorem rhs_main_v21_0 (i : S100000x32.Idx) (q : dot_S100000x16_S16x32_S100000x32_1_0_0_1_n_n.contr.Idx) :
    (dot_S100000x16_S16x32_S100000x32_1_0_0_1_n_n.rhsIdx i q 0).val = (q ⟨0, by decide⟩).val :=
  dot_S100000x16_S16x32_S100000x32_1_0_0_1_n_n.rhsIdx_val_of_single rfl i q
theorem rhs_main_v21_1 (i : S100000x32.Idx) (q : dot_S100000x16_S16x32_S100000x32_1_0_0_1_n_n.contr.Idx) :
    (dot_S100000x16_S16x32_S100000x32_1_0_0_1_n_n.rhsIdx i q 1).val = (i 1).val := by
  unfold DotDims.rhsIdx
  rw [dif_neg (show ¬(1 : Fin S16x32.rank) ∈ dot_S100000x16_S16x32_S100000x32_1_0_0_1_n_n.rhsBatch by decide), dif_pos (show (1 : Fin S16x32.rank) ∈ dot_S100000x16_S16x32_S100000x32_1_0_0_1_n_n.rhsNonContracting by decide)]
  rfl
abbrev lidx_main_v21 (i : S100000x32.Idx) (k : Fin 16) : S100000x16.Idx := fun a => match a with
  | ⟨0, _⟩ => ⟨(i 0).val, (i 0).isLt⟩
  | ⟨1, _⟩ => ⟨k.val, k.isLt⟩
abbrev ridx_main_v21 (i : S100000x32.Idx) (k : Fin 16) : S16x32.Idx := fun a => match a with
  | ⟨0, _⟩ => ⟨k.val, k.isLt⟩
  | ⟨1, _⟩ => ⟨(i 1).val, (i 1).isLt⟩

theorem val_main_v21_apply (x0 : (⟨S100000x1024, .f32⟩ : BufTy).Contents (Elt Ideal)) (x7 : (⟨S1022x16, .f32⟩ : BufTy).Contents (Elt Ideal)) (x8 : (⟨S16, .f32⟩ : BufTy).Contents (Elt Ideal)) (x9 : (⟨S16x32, .f32⟩ : BufTy).Contents (Elt Ideal)) (i : S100000x32.Idx) :
    val_main_v21 (F := Ideal) x0 x7 x8 x9 i = ∑ k : Fin 16, (val_main_v20 (F := Ideal) x0 x7 x8) (lidx_main_v21 i k) * x9 (ridx_main_v21 i k) := by
  unfold val_main_v21
  generalize val_main_v20 (F := Ideal) x0 x7 x8 = y0
  simp only [Host.dotGeneral]
  rw [Ideal.dotGeneral_apply, ← Equiv.sum_comp (ValueIdx.contrEquiv1 dot_S100000x16_S16x32_S100000x32_1_0_0_1_n_n 16 rfl rfl).symm]
  refine Finset.sum_congr rfl fun k _ => ?_
  have hk := ValueIdx.contrEquiv1_symm_val dot_S100000x16_S16x32_S100000x32_1_0_0_1_n_n 16 rfl rfl k
  have el : dot_S100000x16_S16x32_S100000x32_1_0_0_1_n_n.lhsIdx i ((ValueIdx.contrEquiv1 dot_S100000x16_S16x32_S100000x32_1_0_0_1_n_n 16 rfl rfl).symm k) = lidx_main_v21 i k := funext fun a => Fin.ext (by
    match a with
    | ⟨0, _⟩ => exact lhs_main_v21_0 _ _
    | ⟨1, _⟩ => exact (lhs_main_v21_1 _ _).trans hk)
  have er : dot_S100000x16_S16x32_S100000x32_1_0_0_1_n_n.rhsIdx i ((ValueIdx.contrEquiv1 dot_S100000x16_S16x32_S100000x32_1_0_0_1_n_n 16 rfl rfl).symm k) = ridx_main_v21 i k := funext fun a => Fin.ext (by
    match a with
    | ⟨0, _⟩ => exact (rhs_main_v21_0 _ _).trans hk
    | ⟨1, _⟩ => exact rhs_main_v21_1 _ _)
  rw [el, er]
def val_main_v22 : (⟨S1x32, .f32⟩ : BufTy).Contents (Elt F) :=
  broadcastInDim S1x32 ![1] bcast_S32_S1x32_1 (x10)
abbrev idx_main_v22 (i : S1x32.Idx) : S32.Idx := fun a => match a with
  | ⟨0, _⟩ => ⟨(i 1).val, (i 1).isLt⟩
theorem val_main_v22_apply (i : S1x32.Idx) :
    val_main_v22 (F := F) x10 i = x10 (idx_main_v22 i) := by
  unfold val_main_v22
  exact broadcastInDim_apply _ bcast_S32_S1x32_1 x10 i (idx_main_v22 i) (fun a => match a with
    | ⟨0, _⟩ => by show (i 1).val = if (32 : Nat) = 1 then 0 else (i 1).val; rw [if_neg (by decide)])
def val_main_v23 : (⟨S100000x32, .f32⟩ : BufTy).Contents (Elt F) :=
  broadcastInDim S100000x32 ![0, 1] bcast_S1x32_S100000x32_0_1 (val_main_v22 (F := F) x10)
abbrev idx_main_v23 (i : S100000x32.Idx) : S1x32.Idx := fun a => match a with
  | ⟨0, _⟩ => ⟨0, Nat.one_pos⟩
  | ⟨1, _⟩ => ⟨(i 1).val, (i 1).isLt⟩
theorem val_main_v23_apply (i : S100000x32.Idx) :
    val_main_v23 (F := F) x10 i = val_main_v22 (F := F) x10 (idx_main_v23 i) := by
  unfold val_main_v23
  generalize val_main_v22 (F := F) x10 = y
  exact broadcastInDim_apply _ bcast_S1x32_S100000x32_0_1 y i (idx_main_v23 i) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])
def val_main_v24 : (⟨S100000x32, .f32⟩ : BufTy).Contents (Elt F) :=
  addf (val_main_v21 (F := F) x0 x7 x8 x9) (val_main_v23 (F := F) x10)
theorem val_main_v24_apply (i : S100000x32.Idx) :
    val_main_v24 (F := F) x0 x7 x8 x9 x10 i = FloatOps.addf (val_main_v21 (F := F) x0 x7 x8 x9 i) (val_main_v23 (F := F) x10 i) := rfl
def val_main_call3_cst : (⟨S_, .f32⟩ : BufTy).Contents (Elt F) :=
  constant S_ .f32 0x00000000#32
theorem val_main_call3_cst_apply (i : S_.Idx) :
    val_main_call3_cst (F := F) i = FloatOps.ofBits .f32 0x00000000#32 := rfl
def val_main_call3_v0 : (⟨S100000x32, .f32⟩ : BufTy).Contents (Elt F) :=
  broadcastInDim S100000x32 ![] bcast_S_S100000x32 (val_main_call3_cst (F := F))
abbrev idx_main_call3_v0 (i : S100000x32.Idx) : S_.Idx := fun a => a.elim0
theorem val_main_call3_v0_apply (i : S100000x32.Idx) :
    val_main_call3_v0 (F := F) i = val_main_call3_cst (F := F) (idx_main_call3_v0 i) := by
  unfold val_main_call3_v0
  generalize val_main_call3_cst (F := F) = y
  exact broadcastInDim_apply _ bcast_S_S100000x32 y i (idx_main_call3_v0 i) (fun a => a.elim0)
def val_main_v25 : (⟨S100000x32, .f32⟩ : BufTy).Contents (Elt F) :=
  maximumf (val_main_v24 (F := F) x0 x7 x8 x9 x10) (val_main_call3_v0 (F := F))
theorem val_main_v25_apply (i : S100000x32.Idx) :
    val_main_v25 (F := F) x0 x7 x8 x9 x10 i = FloatOps.maximumf (val_main_v24 (F := F) x0 x7 x8 x9 x10 i) (val_main_call3_v0 (F := F) i) := rfl
def val_main_v26 : (⟨S100000x64, .f32⟩ : BufTy).Contents (Elt F) :=
  concatenate S100000x64 1 [⟨S100000x32, (val_main_v25 (F := F) x0 x7 x8 x9 x10)⟩, ⟨S100000x32, (val_main_v15 (F := F) x0 x3 x4 x5 x6)⟩] concatenates_S100000x32_S100000x32_S100000x64_d1
def val_main_c : (⟨S_, .i32⟩ : BufTy).Contents (Elt F) :=
  constantI S_ 32 0#32
def val_main_v27 : (⟨S1600000, .i32⟩ : BufTy).Contents (Elt F) :=
  broadcastInDim S1600000 ![] bcast_S_S1600000 (val_main_c (F := F))
def val_main_v28 : (⟨S1600000, .i1⟩ : BufTy).Contents (Elt F) :=
  cmpi .slt (val_main_v1 (F := F) x1) (val_main_v27 (F := F))
def val_main_c_0 : (⟨S_, .i32⟩ : BufTy).Contents (Elt F) :=
  constantI S_ 32 100000#32
def val_main_v29 : (⟨S1600000, .i32⟩ : BufTy).Contents (Elt F) :=
  broadcastInDim S1600000 ![] bcast_S_S1600000 (val_main_c_0 (F := F))
def val_main_v30 : (⟨S1600000, .i32⟩ : BufTy).Contents (Elt F) :=
  addi (val_main_v1 (F := F) x1) (val_main_v29 (F := F))
def val_main_v31 : (⟨S1600000, .i32⟩ : BufTy).Contents (Elt F) :=
  select (val_main_v28 (F := F) x1) (val_main_v30 (F := F) x1) (val_main_v1 (F := F) x1)
def val_main_v32 : (⟨S1600000x1, .i32⟩ : BufTy).Contents (Elt F) :=
  broadcastInDim S1600000x1 ![0] bcast_S1600000_S1600000x1_0 (val_main_v31 (F := F) x1)
def val_main_v33 : (⟨S1600000x64, .f32⟩ : BufTy).Contents (Elt F) :=
  Host.gather gather_S100000x64_S1600000x1_S1600000x64_1_0_n_n_0_1_164 (val_main_v26 (F := F) x0 x3 x4 x5 x6 x7 x8 x9 x10) (val_main_v32 (F := F) x1)
def val_main_cst : (⟨S_, .f32⟩ : BufTy).Contents (Elt F) :=
  constant S_ .f32 0x00000000#32
def val_main_v34 : (⟨S100000x64, .f32⟩ : BufTy).Contents (Elt F) :=
  broadcastInDim S100000x64 ![] bcast_S_S100000x64 (val_main_cst (F := F))
def val_main_v35 : (⟨S1600000x1, .i32⟩ : BufTy).Contents (Elt F) :=
  broadcastInDim S1600000x1 ![0] bcast_S1600000_S1600000x1_0 (val_main_v3 (F := F) x1)
def val_main_v36 : (⟨S100000x64, .f32⟩ : BufTy).Contents (Elt F) :=
  Host.scatterAdd scatter_S100000x64_S1600000x1_S1600000x64_1_0_0_1 (val_main_v34 (F := F)) (val_main_v35 (F := F) x1) (val_main_v33 (F := F) x0 x1 x3 x4 x5 x6 x7 x8 x9 x10)
def val_main_v37 : (⟨S100000x64, .f32⟩ : BufTy).Contents (Elt F) :=
  addf (val_main_v26 (F := F) x0 x3 x4 x5 x6 x7 x8 x9 x10) (val_main_v36 (F := F) x0 x1 x3 x4 x5 x6 x7 x8 x9 x10)
def val_main_v38 : (⟨S1x64x64, .f32⟩ : BufTy).Contents (Elt F) :=
  extractStridedSlice S1x64x64 ![0, 0, 0] (x11) slices_S2x64x64_S1x64x64_0_0_0
def val_main_v39 : (⟨S64x64, .f32⟩ : BufTy).Contents (Elt F) :=
  shapeCast _ (val_main_v38 (F := F) x11) shapeCasts_S1x64x64_S64x64
def val_main_v40 : (⟨S100000x64, .f32⟩ : BufTy).Contents (Elt F) :=
  Host.dotGeneral dot_S100000x64_S64x64_S100000x64_1_0_0_1_n_n none (val_main_v37 (F := F) x0 x1 x3 x4 x5 x6 x7 x8 x9 x10) (val_main_v39 (F := F) x11)
def val_main_v41 : (⟨S1x64, .f32⟩ : BufTy).Contents (Elt F) :=
  extractStridedSlice S1x64 ![0, 0] (x12) slices_S2x64_S1x64_0_0
def val_main_v42 : (⟨S64, .f32⟩ : BufTy).Contents (Elt F) :=
  shapeCast _ (val_main_v41 (F := F) x12) shapeCasts_S1x64_S64
def val_main_v43 : (⟨S1x64, .f32⟩ : BufTy).Contents (Elt F) :=
  broadcastInDim S1x64 ![1] bcast_S64_S1x64_1 (val_main_v42 (F := F) x12)
def val_main_v44 : (⟨S100000x64, .f32⟩ : BufTy).Contents (Elt F) :=
  broadcastInDim S100000x64 ![0, 1] bcast_S1x64_S100000x64_0_1 (val_main_v43 (F := F) x12)
def val_main_v45 : (⟨S100000x64, .f32⟩ : BufTy).Contents (Elt F) :=
  addf (val_main_v40 (F := F) x0 x1 x3 x4 x5 x6 x7 x8 x9 x10 x11) (val_main_v44 (F := F) x12)
def val_main_v46 : (⟨S1x64, .f32⟩ : BufTy).Contents (Elt F) :=
  extractStridedSlice S1x64 ![0, 0] (x13) slices_S2x64_S1x64_0_0
def val_main_v47 : (⟨S64, .f32⟩ : BufTy).Contents (Elt F) :=
  shapeCast _ (val_main_v46 (F := F) x13) shapeCasts_S1x64_S64
def val_main_v48 : (⟨S1x64, .f32⟩ : BufTy).Contents (Elt F) :=
  extractStridedSlice S1x64 ![0, 0] (x14) slices_S2x64_S1x64_0_0
def val_main_v49 : (⟨S64, .f32⟩ : BufTy).Contents (Elt F) :=
  shapeCast _ (val_main_v48 (F := F) x14) shapeCasts_S1x64_S64
def val_main_v50 : (⟨S1x64, .f32⟩ : BufTy).Contents (Elt F) :=
  extractStridedSlice S1x64 ![0, 0] (x15) slices_S2x64_S1x64_0_0
def val_main_v51 : (⟨S64, .f32⟩ : BufTy).Contents (Elt F) :=
  shapeCast _ (val_main_v50 (F := F) x15) shapeCasts_S1x64_S64
def val_main_v52 : (⟨S1x64, .f32⟩ : BufTy).Contents (Elt F) :=
  extractStridedSlice S1x64 ![0, 0] (x16) slices_S2x64_S1x64_0_0
def val_main_v53 : (⟨S64, .f32⟩ : BufTy).Contents (Elt F) :=
  shapeCast _ (val_main_v52 (F := F) x16) shapeCasts_S1x64_S64
def val_main_v54 : (⟨S1x64, .f32⟩ : BufTy).Contents (Elt F) :=
  broadcastInDim S1x64 ![1] bcast_S64_S1x64_1 (val_main_v51 (F := F) x15)
def val_main_v55 : (⟨S100000x64, .f32⟩ : BufTy).Contents (Elt F) :=
  broadcastInDim S100000x64 ![0, 1] bcast_S1x64_S100000x64_0_1 (val_main_v54 (F := F) x15)
def val_main_v56 : (⟨S100000x64, .f32⟩ : BufTy).Contents (Elt F) :=
  subf (val_main_v45 (F := F) x0 x1 x3 x4 x5 x6 x7 x8 x9 x10 x11 x12) (val_main_v55 (F := F) x15)
def val_main_cst_1 : (⟨S_, .f32⟩ : BufTy).Contents (Elt F) :=
  constant S_ .f32 0x3727C5AC#32
def val_main_v57 : (⟨S64, .f32⟩ : BufTy).Contents (Elt F) :=
  broadcastInDim S64 ![] bcast_S_S64 (val_main_cst_1 (F := F))
def val_main_v58 : (⟨S64, .f32⟩ : BufTy).Contents (Elt F) :=
  addf (val_main_v53 (F := F) x16) (val_main_v57 (F := F))
def val_main_v59 : (⟨S64, .f32⟩ : BufTy).Contents (Elt F) :=
  Host.rsqrt (val_main_v58 (F := F) x16)
def val_main_v60 : (⟨S1x64, .f32⟩ : BufTy).Contents (Elt F) :=
  broadcastInDim S1x64 ![1] bcast_S64_S1x64_1 (val_main_v59 (F := F) x16)
def val_main_v61 : (⟨S100000x64, .f32⟩ : BufTy).Contents (Elt F) :=
  broadcastInDim S100000x64 ![0, 1] bcast_S1x64_S100000x64_0_1 (val_main_v60 (F := F) x16)
def val_main_v62 : (⟨S100000x64, .f32⟩ : BufTy).Contents (Elt F) :=
  mulf (val_main_v56 (F := F) x0 x1 x3 x4 x5 x6 x7 x8 x9 x10 x11 x12 x15) (val_main_v61 (F := F) x16)
def val_main_v63 : (⟨S1x64, .f32⟩ : BufTy).Contents (Elt F) :=
  broadcastInDim S1x64 ![1] bcast_S64_S1x64_1 (val_main_v47 (F := F) x13)
def val_main_v64 : (⟨S100000x64, .f32⟩ : BufTy).Contents (Elt F) :=
  broadcastInDim S100000x64 ![0, 1] bcast_S1x64_S100000x64_0_1 (val_main_v63 (F := F) x13)
def val_main_v65 : (⟨S100000x64, .f32⟩ : BufTy).Contents (Elt F) :=
  mulf (val_main_v62 (F := F) x0 x1 x3 x4 x5 x6 x7 x8 x9 x10 x11 x12 x15 x16) (val_main_v64 (F := F) x13)
def val_main_v66 : (⟨S1x64, .f32⟩ : BufTy).Contents (Elt F) :=
  broadcastInDim S1x64 ![1] bcast_S64_S1x64_1 (val_main_v49 (F := F) x14)
def val_main_v67 : (⟨S100000x64, .f32⟩ : BufTy).Contents (Elt F) :=
  broadcastInDim S100000x64 ![0, 1] bcast_S1x64_S100000x64_0_1 (val_main_v66 (F := F) x14)
def val_main_v68 : (⟨S100000x64, .f32⟩ : BufTy).Contents (Elt F) :=
  addf (val_main_v65 (F := F) x0 x1 x3 x4 x5 x6 x7 x8 x9 x10 x11 x12 x13 x15 x16) (val_main_v67 (F := F) x14)
def val_main_call4_cst : (⟨S_, .f32⟩ : BufTy).Contents (Elt F) :=
  constant S_ .f32 0x00000000#32
def val_main_call4_v0 : (⟨S100000x64, .f32⟩ : BufTy).Contents (Elt F) :=
  broadcastInDim S100000x64 ![] bcast_S_S100000x64 (val_main_call4_cst (F := F))
def val_main_v69 : (⟨S100000x64, .f32⟩ : BufTy).Contents (Elt F) :=
  maximumf (val_main_v68 (F := F) x0 x1 x3 x4 x5 x6 x7 x8 x9 x10 x11 x12 x13 x14 x15 x16) (val_main_call4_v0 (F := F))
def val_main_v70 : (⟨S1x64x64, .f32⟩ : BufTy).Contents (Elt F) :=
  extractStridedSlice S1x64x64 ![0, 0, 0] (x17) slices_S2x64x64_S1x64x64_0_0_0
def val_main_v71 : (⟨S64x64, .f32⟩ : BufTy).Contents (Elt F) :=
  shapeCast _ (val_main_v70 (F := F) x17) shapeCasts_S1x64x64_S64x64
def val_main_v72 : (⟨S100000x64, .f32⟩ : BufTy).Contents (Elt F) :=
  Host.dotGeneral dot_S100000x64_S64x64_S100000x64_1_0_0_1_n_n none (val_main_v69 (F := F) x0 x1 x3 x4 x5 x6 x7 x8 x9 x10 x11 x12 x13 x14 x15 x16) (val_main_v71 (F := F) x17)
def val_main_v73 : (⟨S1x64, .f32⟩ : BufTy).Contents (Elt F) :=
  extractStridedSlice S1x64 ![0, 0] (x18) slices_S2x64_S1x64_0_0
def val_main_v74 : (⟨S64, .f32⟩ : BufTy).Contents (Elt F) :=
  shapeCast _ (val_main_v73 (F := F) x18) shapeCasts_S1x64_S64
def val_main_v75 : (⟨S1x64, .f32⟩ : BufTy).Contents (Elt F) :=
  broadcastInDim S1x64 ![1] bcast_S64_S1x64_1 (val_main_v74 (F := F) x18)
def val_main_v76 : (⟨S100000x64, .f32⟩ : BufTy).Contents (Elt F) :=
  broadcastInDim S100000x64 ![0, 1] bcast_S1x64_S100000x64_0_1 (val_main_v75 (F := F) x18)
def val_main_v77 : (⟨S100000x64, .f32⟩ : BufTy).Contents (Elt F) :=
  addf (val_main_v72 (F := F) x0 x1 x3 x4 x5 x6 x7 x8 x9 x10 x11 x12 x13 x14 x15 x16 x17) (val_main_v76 (F := F) x18)
def val_main_v78 : (⟨S1x64, .f32⟩ : BufTy).Contents (Elt F) :=
  extractStridedSlice S1x64 ![0, 0] (x19) slices_S2x64_S1x64_0_0
def val_main_v79 : (⟨S64, .f32⟩ : BufTy).Contents (Elt F) :=
  shapeCast _ (val_main_v78 (F := F) x19) shapeCasts_S1x64_S64
def val_main_v80 : (⟨S1x64, .f32⟩ : BufTy).Contents (Elt F) :=
  extractStridedSlice S1x64 ![0, 0] (x20) slices_S2x64_S1x64_0_0
def val_main_v81 : (⟨S64, .f32⟩ : BufTy).Contents (Elt F) :=
  shapeCast _ (val_main_v80 (F := F) x20) shapeCasts_S1x64_S64
def val_main_v82 : (⟨S1x64, .f32⟩ : BufTy).Contents (Elt F) :=
  extractStridedSlice S1x64 ![0, 0] (x21) slices_S2x64_S1x64_0_0
def val_main_v83 : (⟨S64, .f32⟩ : BufTy).Contents (Elt F) :=
  shapeCast _ (val_main_v82 (F := F) x21) shapeCasts_S1x64_S64
def val_main_v84 : (⟨S1x64, .f32⟩ : BufTy).Contents (Elt F) :=
  extractStridedSlice S1x64 ![0, 0] (x22) slices_S2x64_S1x64_0_0
def val_main_v85 : (⟨S64, .f32⟩ : BufTy).Contents (Elt F) :=
  shapeCast _ (val_main_v84 (F := F) x22) shapeCasts_S1x64_S64
def val_main_v86 : (⟨S1x64, .f32⟩ : BufTy).Contents (Elt F) :=
  broadcastInDim S1x64 ![1] bcast_S64_S1x64_1 (val_main_v83 (F := F) x21)
def val_main_v87 : (⟨S100000x64, .f32⟩ : BufTy).Contents (Elt F) :=
  broadcastInDim S100000x64 ![0, 1] bcast_S1x64_S100000x64_0_1 (val_main_v86 (F := F) x21)
def val_main_v88 : (⟨S100000x64, .f32⟩ : BufTy).Contents (Elt F) :=
  subf (val_main_v77 (F := F) x0 x1 x3 x4 x5 x6 x7 x8 x9 x10 x11 x12 x13 x14 x15 x16 x17 x18) (val_main_v87 (F := F) x21)
def val_main_cst_2 : (⟨S_, .f32⟩ : BufTy).Contents (Elt F) :=
  constant S_ .f32 0x3727C5AC#32
def val_main_v89 : (⟨S64, .f32⟩ : BufTy).Contents (Elt F) :=
  broadcastInDim S64 ![] bcast_S_S64 (val_main_cst_2 (F := F))
def val_main_v90 : (⟨S64, .f32⟩ : BufTy).Contents (Elt F) :=
  addf (val_main_v85 (F := F) x22) (val_main_v89 (F := F))
def val_main_v91 : (⟨S64, .f32⟩ : BufTy).Contents (Elt F) :=
  Host.rsqrt (val_main_v90 (F := F) x22)
def val_main_v92 : (⟨S1x64, .f32⟩ : BufTy).Contents (Elt F) :=
  broadcastInDim S1x64 ![1] bcast_S64_S1x64_1 (val_main_v91 (F := F) x22)
def val_main_v93 : (⟨S100000x64, .f32⟩ : BufTy).Contents (Elt F) :=
  broadcastInDim S100000x64 ![0, 1] bcast_S1x64_S100000x64_0_1 (val_main_v92 (F := F) x22)
def val_main_v94 : (⟨S100000x64, .f32⟩ : BufTy).Contents (Elt F) :=
  mulf (val_main_v88 (F := F) x0 x1 x3 x4 x5 x6 x7 x8 x9 x10 x11 x12 x13 x14 x15 x16 x17 x18 x21) (val_main_v93 (F := F) x22)
def val_main_v95 : (⟨S1x64, .f32⟩ : BufTy).Contents (Elt F) :=
  broadcastInDim S1x64 ![1] bcast_S64_S1x64_1 (val_main_v79 (F := F) x19)
def val_main_v96 : (⟨S100000x64, .f32⟩ : BufTy).Contents (Elt F) :=
  broadcastInDim S100000x64 ![0, 1] bcast_S1x64_S100000x64_0_1 (val_main_v95 (F := F) x19)
def val_main_v97 : (⟨S100000x64, .f32⟩ : BufTy).Contents (Elt F) :=
  mulf (val_main_v94 (F := F) x0 x1 x3 x4 x5 x6 x7 x8 x9 x10 x11 x12 x13 x14 x15 x16 x17 x18 x21 x22) (val_main_v96 (F := F) x19)
def val_main_v98 : (⟨S1x64, .f32⟩ : BufTy).Contents (Elt F) :=
  broadcastInDim S1x64 ![1] bcast_S64_S1x64_1 (val_main_v81 (F := F) x20)
def val_main_v99 : (⟨S100000x64, .f32⟩ : BufTy).Contents (Elt F) :=
  broadcastInDim S100000x64 ![0, 1] bcast_S1x64_S100000x64_0_1 (val_main_v98 (F := F) x20)
def val_main_v100 : (⟨S100000x64, .f32⟩ : BufTy).Contents (Elt F) :=
  addf (val_main_v97 (F := F) x0 x1 x3 x4 x5 x6 x7 x8 x9 x10 x11 x12 x13 x14 x15 x16 x17 x18 x19 x21 x22) (val_main_v99 (F := F) x20)
def val_main_v101 : (⟨S100000x64, .f32⟩ : BufTy).Contents (Elt F) :=
  addf (val_main_v100 (F := F) x0 x1 x3 x4 x5 x6 x7 x8 x9 x10 x11 x12 x13 x14 x15 x16 x17 x18 x19 x20 x21 x22) (val_main_v26 (F := F) x0 x3 x4 x5 x6 x7 x8 x9 x10)
def val_main_c_3 : (⟨S_, .i32⟩ : BufTy).Contents (Elt F) :=
  constantI S_ 32 0#32
def val_main_v102 : (⟨S1600000, .i32⟩ : BufTy).Contents (Elt F) :=
  broadcastInDim S1600000 ![] bcast_S_S1600000 (val_main_c_3 (F := F))
def val_main_v103 : (⟨S1600000, .i1⟩ : BufTy).Contents (Elt F) :=
  cmpi .slt (val_main_v1 (F := F) x1) (val_main_v102 (F := F))
def val_main_c_4 : (⟨S_, .i32⟩ : BufTy).Contents (Elt F) :=
  constantI S_ 32 100000#32
def val_main_v104 : (⟨S1600000, .i32⟩ : BufTy).Contents (Elt F) :=
  broadcastInDim S1600000 ![] bcast_S_S1600000 (val_main_c_4 (F := F))
def val_main_v105 : (⟨S1600000, .i32⟩ : BufTy).Contents (Elt F) :=
  addi (val_main_v1 (F := F) x1) (val_main_v104 (F := F))
def val_main_v106 : (⟨S1600000, .i32⟩ : BufTy).Contents (Elt F) :=
  select (val_main_v103 (F := F) x1) (val_main_v105 (F := F) x1) (val_main_v1 (F := F) x1)
def val_main_v107 : (⟨S1600000x1, .i32⟩ : BufTy).Contents (Elt F) :=
  broadcastInDim S1600000x1 ![0] bcast_S1600000_S1600000x1_0 (val_main_v106 (F := F) x1)
def val_main_v108 : (⟨S1600000x64, .f32⟩ : BufTy).Contents (Elt F) :=
  Host.gather gather_S100000x64_S1600000x1_S1600000x64_1_0_n_n_0_1_164 (val_main_v101 (F := F) x0 x1 x3 x4 x5 x6 x7 x8 x9 x10 x11 x12 x13 x14 x15 x16 x17 x18 x19 x20 x21 x22) (val_main_v107 (F := F) x1)
def val_main_cst_5 : (⟨S_, .f32⟩ : BufTy).Contents (Elt F) :=
  constant S_ .f32 0x00000000#32
def val_main_v109 : (⟨S100000x64, .f32⟩ : BufTy).Contents (Elt F) :=
  broadcastInDim S100000x64 ![] bcast_S_S100000x64 (val_main_cst_5 (F := F))
def val_main_v110 : (⟨S1600000x1, .i32⟩ : BufTy).Contents (Elt F) :=
  broadcastInDim S1600000x1 ![0] bcast_S1600000_S1600000x1_0 (val_main_v3 (F := F) x1)
def val_main_v111 : (⟨S100000x64, .f32⟩ : BufTy).Contents (Elt F) :=
  Host.scatterAdd scatter_S100000x64_S1600000x1_S1600000x64_1_0_0_1 (val_main_v109 (F := F)) (val_main_v110 (F := F) x1) (val_main_v108 (F := F) x0 x1 x3 x4 x5 x6 x7 x8 x9 x10 x11 x12 x13 x14 x15 x16 x17 x18 x19 x20 x21 x22)
def val_main_v112 : (⟨S100000x64, .f32⟩ : BufTy).Contents (Elt F) :=
  addf (val_main_v101 (F := F) x0 x1 x3 x4 x5 x6 x7 x8 x9 x10 x11 x12 x13 x14 x15 x16 x17 x18 x19 x20 x21 x22) (val_main_v111 (F := F) x0 x1 x3 x4 x5 x6 x7 x8 x9 x10 x11 x12 x13 x14 x15 x16 x17 x18 x19 x20 x21 x22)
def val_main_v113 : (⟨S1x64x64, .f32⟩ : BufTy).Contents (Elt F) :=
  extractStridedSlice S1x64x64 ![1, 0, 0] (x11) slices_S2x64x64_S1x64x64_1_0_0
def val_main_v114 : (⟨S64x64, .f32⟩ : BufTy).Contents (Elt F) :=
  shapeCast _ (val_main_v113 (F := F) x11) shapeCasts_S1x64x64_S64x64
def val_main_v115 : (⟨S100000x64, .f32⟩ : BufTy).Contents (Elt F) :=
  Host.dotGeneral dot_S100000x64_S64x64_S100000x64_1_0_0_1_n_n none (val_main_v112 (F := F) x0 x1 x3 x4 x5 x6 x7 x8 x9 x10 x11 x12 x13 x14 x15 x16 x17 x18 x19 x20 x21 x22) (val_main_v114 (F := F) x11)
def val_main_v116 : (⟨S1x64, .f32⟩ : BufTy).Contents (Elt F) :=
  extractStridedSlice S1x64 ![1, 0] (x12) slices_S2x64_S1x64_1_0
def val_main_v117 : (⟨S64, .f32⟩ : BufTy).Contents (Elt F) :=
  shapeCast _ (val_main_v116 (F := F) x12) shapeCasts_S1x64_S64
def val_main_v118 : (⟨S1x64, .f32⟩ : BufTy).Contents (Elt F) :=
  broadcastInDim S1x64 ![1] bcast_S64_S1x64_1 (val_main_v117 (F := F) x12)
def val_main_v119 : (⟨S100000x64, .f32⟩ : BufTy).Contents (Elt F) :=
  broadcastInDim S100000x64 ![0, 1] bcast_S1x64_S100000x64_0_1 (val_main_v118 (F := F) x12)
def val_main_v120 : (⟨S100000x64, .f32⟩ : BufTy).Contents (Elt F) :=
  addf (val_main_v115 (F := F) x0 x1 x3 x4 x5 x6 x7 x8 x9 x10 x11 x12 x13 x14 x15 x16 x17 x18 x19 x20 x21 x22) (val_main_v119 (F := F) x12)
def val_main_v121 : (⟨S1x64, .f32⟩ : BufTy).Contents (Elt F) :=
  extractStridedSlice S1x64 ![1, 0] (x13) slices_S2x64_S1x64_1_0
def val_main_v122 : (⟨S64, .f32⟩ : BufTy).Contents (Elt F) :=
  shapeCast _ (val_main_v121 (F := F) x13) shapeCasts_S1x64_S64
def val_main_v123 : (⟨S1x64, .f32⟩ : BufTy).Contents (Elt F) :=
  extractStridedSlice S1x64 ![1, 0] (x14) slices_S2x64_S1x64_1_0
def val_main_v124 : (⟨S64, .f32⟩ : BufTy).Contents (Elt F) :=
  shapeCast _ (val_main_v123 (F := F) x14) shapeCasts_S1x64_S64
def val_main_v125 : (⟨S1x64, .f32⟩ : BufTy).Contents (Elt F) :=
  extractStridedSlice S1x64 ![1, 0] (x15) slices_S2x64_S1x64_1_0
def val_main_v126 : (⟨S64, .f32⟩ : BufTy).Contents (Elt F) :=
  shapeCast _ (val_main_v125 (F := F) x15) shapeCasts_S1x64_S64
def val_main_v127 : (⟨S1x64, .f32⟩ : BufTy).Contents (Elt F) :=
  extractStridedSlice S1x64 ![1, 0] (x16) slices_S2x64_S1x64_1_0
def val_main_v128 : (⟨S64, .f32⟩ : BufTy).Contents (Elt F) :=
  shapeCast _ (val_main_v127 (F := F) x16) shapeCasts_S1x64_S64
def val_main_v129 : (⟨S1x64, .f32⟩ : BufTy).Contents (Elt F) :=
  broadcastInDim S1x64 ![1] bcast_S64_S1x64_1 (val_main_v126 (F := F) x15)
def val_main_v130 : (⟨S100000x64, .f32⟩ : BufTy).Contents (Elt F) :=
  broadcastInDim S100000x64 ![0, 1] bcast_S1x64_S100000x64_0_1 (val_main_v129 (F := F) x15)
def val_main_v131 : (⟨S100000x64, .f32⟩ : BufTy).Contents (Elt F) :=
  subf (val_main_v120 (F := F) x0 x1 x3 x4 x5 x6 x7 x8 x9 x10 x11 x12 x13 x14 x15 x16 x17 x18 x19 x20 x21 x22) (val_main_v130 (F := F) x15)
def val_main_cst_6 : (⟨S_, .f32⟩ : BufTy).Contents (Elt F) :=
  constant S_ .f32 0x3727C5AC#32
def val_main_v132 : (⟨S64, .f32⟩ : BufTy).Contents (Elt F) :=
  broadcastInDim S64 ![] bcast_S_S64 (val_main_cst_6 (F := F))
def val_main_v133 : (⟨S64, .f32⟩ : BufTy).Contents (Elt F) :=
  addf (val_main_v128 (F := F) x16) (val_main_v132 (F := F))
def val_main_v134 : (⟨S64, .f32⟩ : BufTy).Contents (Elt F) :=
  Host.rsqrt (val_main_v133 (F := F) x16)
def val_main_v135 : (⟨S1x64, .f32⟩ : BufTy).Contents (Elt F) :=
  broadcastInDim S1x64 ![1] bcast_S64_S1x64_1 (val_main_v134 (F := F) x16)
def val_main_v136 : (⟨S100000x64, .f32⟩ : BufTy).Contents (Elt F) :=
  broadcastInDim S100000x64 ![0, 1] bcast_S1x64_S100000x64_0_1 (val_main_v135 (F := F) x16)
def val_main_v137 : (⟨S100000x64, .f32⟩ : BufTy).Contents (Elt F) :=
  mulf (val_main_v131 (F := F) x0 x1 x3 x4 x5 x6 x7 x8 x9 x10 x11 x12 x13 x14 x15 x16 x17 x18 x19 x20 x21 x22) (val_main_v136 (F := F) x16)
def val_main_v138 : (⟨S1x64, .f32⟩ : BufTy).Contents (Elt F) :=
  broadcastInDim S1x64 ![1] bcast_S64_S1x64_1 (val_main_v122 (F := F) x13)
def val_main_v139 : (⟨S100000x64, .f32⟩ : BufTy).Contents (Elt F) :=
  broadcastInDim S100000x64 ![0, 1] bcast_S1x64_S100000x64_0_1 (val_main_v138 (F := F) x13)
def val_main_v140 : (⟨S100000x64, .f32⟩ : BufTy).Contents (Elt F) :=
  mulf (val_main_v137 (F := F) x0 x1 x3 x4 x5 x6 x7 x8 x9 x10 x11 x12 x13 x14 x15 x16 x17 x18 x19 x20 x21 x22) (val_main_v139 (F := F) x13)
def val_main_v141 : (⟨S1x64, .f32⟩ : BufTy).Contents (Elt F) :=
  broadcastInDim S1x64 ![1] bcast_S64_S1x64_1 (val_main_v124 (F := F) x14)
def val_main_v142 : (⟨S100000x64, .f32⟩ : BufTy).Contents (Elt F) :=
  broadcastInDim S100000x64 ![0, 1] bcast_S1x64_S100000x64_0_1 (val_main_v141 (F := F) x14)
def val_main_v143 : (⟨S100000x64, .f32⟩ : BufTy).Contents (Elt F) :=
  addf (val_main_v140 (F := F) x0 x1 x3 x4 x5 x6 x7 x8 x9 x10 x11 x12 x13 x14 x15 x16 x17 x18 x19 x20 x21 x22) (val_main_v142 (F := F) x14)
def val_main_call5_cst : (⟨S_, .f32⟩ : BufTy).Contents (Elt F) :=
  constant S_ .f32 0x00000000#32
def val_main_call5_v0 : (⟨S100000x64, .f32⟩ : BufTy).Contents (Elt F) :=
  broadcastInDim S100000x64 ![] bcast_S_S100000x64 (val_main_call5_cst (F := F))
def val_main_v144 : (⟨S100000x64, .f32⟩ : BufTy).Contents (Elt F) :=
  maximumf (val_main_v143 (F := F) x0 x1 x3 x4 x5 x6 x7 x8 x9 x10 x11 x12 x13 x14 x15 x16 x17 x18 x19 x20 x21 x22) (val_main_call5_v0 (F := F))
def val_main_v145 : (⟨S1x64x64, .f32⟩ : BufTy).Contents (Elt F) :=
  extractStridedSlice S1x64x64 ![1, 0, 0] (x17) slices_S2x64x64_S1x64x64_1_0_0
def val_main_v146 : (⟨S64x64, .f32⟩ : BufTy).Contents (Elt F) :=
  shapeCast _ (val_main_v145 (F := F) x17) shapeCasts_S1x64x64_S64x64
def val_main_v147 : (⟨S100000x64, .f32⟩ : BufTy).Contents (Elt F) :=
  Host.dotGeneral dot_S100000x64_S64x64_S100000x64_1_0_0_1_n_n none (val_main_v144 (F := F) x0 x1 x3 x4 x5 x6 x7 x8 x9 x10 x11 x12 x13 x14 x15 x16 x17 x18 x19 x20 x21 x22) (val_main_v146 (F := F) x17)
def val_main_v148 : (⟨S1x64, .f32⟩ : BufTy).Contents (Elt F) :=
  extractStridedSlice S1x64 ![1, 0] (x18) slices_S2x64_S1x64_1_0
def val_main_v149 : (⟨S64, .f32⟩ : BufTy).Contents (Elt F) :=
  shapeCast _ (val_main_v148 (F := F) x18) shapeCasts_S1x64_S64
def val_main_v150 : (⟨S1x64, .f32⟩ : BufTy).Contents (Elt F) :=
  broadcastInDim S1x64 ![1] bcast_S64_S1x64_1 (val_main_v149 (F := F) x18)
def val_main_v151 : (⟨S100000x64, .f32⟩ : BufTy).Contents (Elt F) :=
  broadcastInDim S100000x64 ![0, 1] bcast_S1x64_S100000x64_0_1 (val_main_v150 (F := F) x18)
def val_main_v152 : (⟨S100000x64, .f32⟩ : BufTy).Contents (Elt F) :=
  addf (val_main_v147 (F := F) x0 x1 x3 x4 x5 x6 x7 x8 x9 x10 x11 x12 x13 x14 x15 x16 x17 x18 x19 x20 x21 x22) (val_main_v151 (F := F) x18)
def val_main_v153 : (⟨S1x64, .f32⟩ : BufTy).Contents (Elt F) :=
  extractStridedSlice S1x64 ![1, 0] (x19) slices_S2x64_S1x64_1_0
def val_main_v154 : (⟨S64, .f32⟩ : BufTy).Contents (Elt F) :=
  shapeCast _ (val_main_v153 (F := F) x19) shapeCasts_S1x64_S64
def val_main_v155 : (⟨S1x64, .f32⟩ : BufTy).Contents (Elt F) :=
  extractStridedSlice S1x64 ![1, 0] (x20) slices_S2x64_S1x64_1_0
def val_main_v156 : (⟨S64, .f32⟩ : BufTy).Contents (Elt F) :=
  shapeCast _ (val_main_v155 (F := F) x20) shapeCasts_S1x64_S64
def val_main_v157 : (⟨S1x64, .f32⟩ : BufTy).Contents (Elt F) :=
  extractStridedSlice S1x64 ![1, 0] (x21) slices_S2x64_S1x64_1_0
def val_main_v158 : (⟨S64, .f32⟩ : BufTy).Contents (Elt F) :=
  shapeCast _ (val_main_v157 (F := F) x21) shapeCasts_S1x64_S64
def val_main_v159 : (⟨S1x64, .f32⟩ : BufTy).Contents (Elt F) :=
  extractStridedSlice S1x64 ![1, 0] (x22) slices_S2x64_S1x64_1_0
def val_main_v160 : (⟨S64, .f32⟩ : BufTy).Contents (Elt F) :=
  shapeCast _ (val_main_v159 (F := F) x22) shapeCasts_S1x64_S64
def val_main_v161 : (⟨S1x64, .f32⟩ : BufTy).Contents (Elt F) :=
  broadcastInDim S1x64 ![1] bcast_S64_S1x64_1 (val_main_v158 (F := F) x21)
def val_main_v162 : (⟨S100000x64, .f32⟩ : BufTy).Contents (Elt F) :=
  broadcastInDim S100000x64 ![0, 1] bcast_S1x64_S100000x64_0_1 (val_main_v161 (F := F) x21)
def val_main_v163 : (⟨S100000x64, .f32⟩ : BufTy).Contents (Elt F) :=
  subf (val_main_v152 (F := F) x0 x1 x3 x4 x5 x6 x7 x8 x9 x10 x11 x12 x13 x14 x15 x16 x17 x18 x19 x20 x21 x22) (val_main_v162 (F := F) x21)
def val_main_cst_7 : (⟨S_, .f32⟩ : BufTy).Contents (Elt F) :=
  constant S_ .f32 0x3727C5AC#32
def val_main_v164 : (⟨S64, .f32⟩ : BufTy).Contents (Elt F) :=
  broadcastInDim S64 ![] bcast_S_S64 (val_main_cst_7 (F := F))
def val_main_v165 : (⟨S64, .f32⟩ : BufTy).Contents (Elt F) :=
  addf (val_main_v160 (F := F) x22) (val_main_v164 (F := F))
def val_main_v166 : (⟨S64, .f32⟩ : BufTy).Contents (Elt F) :=
  Host.rsqrt (val_main_v165 (F := F) x22)
def val_main_v167 : (⟨S1x64, .f32⟩ : BufTy).Contents (Elt F) :=
  broadcastInDim S1x64 ![1] bcast_S64_S1x64_1 (val_main_v166 (F := F) x22)
def val_main_v168 : (⟨S100000x64, .f32⟩ : BufTy).Contents (Elt F) :=
  broadcastInDim S100000x64 ![0, 1] bcast_S1x64_S100000x64_0_1 (val_main_v167 (F := F) x22)
def val_main_v169 : (⟨S100000x64, .f32⟩ : BufTy).Contents (Elt F) :=
  mulf (val_main_v163 (F := F) x0 x1 x3 x4 x5 x6 x7 x8 x9 x10 x11 x12 x13 x14 x15 x16 x17 x18 x19 x20 x21 x22) (val_main_v168 (F := F) x22)
def val_main_v170 : (⟨S1x64, .f32⟩ : BufTy).Contents (Elt F) :=
  broadcastInDim S1x64 ![1] bcast_S64_S1x64_1 (val_main_v154 (F := F) x19)
def val_main_v171 : (⟨S100000x64, .f32⟩ : BufTy).Contents (Elt F) :=
  broadcastInDim S100000x64 ![0, 1] bcast_S1x64_S100000x64_0_1 (val_main_v170 (F := F) x19)
def val_main_v172 : (⟨S100000x64, .f32⟩ : BufTy).Contents (Elt F) :=
  mulf (val_main_v169 (F := F) x0 x1 x3 x4 x5 x6 x7 x8 x9 x10 x11 x12 x13 x14 x15 x16 x17 x18 x19 x20 x21 x22) (val_main_v171 (F := F) x19)
def val_main_v173 : (⟨S1x64, .f32⟩ : BufTy).Contents (Elt F) :=
  broadcastInDim S1x64 ![1] bcast_S64_S1x64_1 (val_main_v156 (F := F) x20)
def val_main_v174 : (⟨S100000x64, .f32⟩ : BufTy).Contents (Elt F) :=
  broadcastInDim S100000x64 ![0, 1] bcast_S1x64_S100000x64_0_1 (val_main_v173 (F := F) x20)
def val_main_v175 : (⟨S100000x64, .f32⟩ : BufTy).Contents (Elt F) :=
  addf (val_main_v172 (F := F) x0 x1 x3 x4 x5 x6 x7 x8 x9 x10 x11 x12 x13 x14 x15 x16 x17 x18 x19 x20 x21 x22) (val_main_v174 (F := F) x20)
def val_main_v176 : (⟨S100000x64, .f32⟩ : BufTy).Contents (Elt F) :=
  addf (val_main_v175 (F := F) x0 x1 x3 x4 x5 x6 x7 x8 x9 x10 x11 x12 x13 x14 x15 x16 x17 x18 x19 x20 x21 x22) (val_main_v101 (F := F) x0 x1 x3 x4 x5 x6 x7 x8 x9 x10 x11 x12 x13 x14 x15 x16 x17 x18 x19 x20 x21 x22)
def val_main_v177 : (⟨S100000x64, .f32⟩ : BufTy).Contents (Elt F) :=
  addf (val_main_v176 (F := F) x0 x1 x3 x4 x5 x6 x7 x8 x9 x10 x11 x12 x13 x14 x15 x16 x17 x18 x19 x20 x21 x22) (val_main_v26 (F := F) x0 x3 x4 x5 x6 x7 x8 x9 x10)
def val_main_cst_8 : (⟨S_, .f32⟩ : BufTy).Contents (Elt F) :=
  constant S_ .f32 0x00000000#32
def val_main_v178 : (⟨S512x64, .f32⟩ : BufTy).Contents (Elt F) :=
  broadcastInDim S512x64 ![] bcast_S_S512x64 (val_main_cst_8 (F := F))
def val_main_v179 : (⟨S100000x1, .i32⟩ : BufTy).Contents (Elt F) :=
  broadcastInDim S100000x1 ![0] bcast_S100000_S100000x1_0 (x2)
def val_main_v180 : (⟨S512x64, .f32⟩ : BufTy).Contents (Elt F) :=
  Host.scatterAdd scatter_S512x64_S100000x1_S100000x64_1_0_0_1 (val_main_v178 (F := F)) (val_main_v179 (F := F) x2) (val_main_v177 (F := F) x0 x1 x3 x4 x5 x6 x7 x8 x9 x10 x11 x12 x13 x14 x15 x16 x17 x18 x19 x20 x21 x22)
def val_main_cst_9 : (⟨S_, .f32⟩ : BufTy).Contents (Elt F) :=
  constant S_ .f32 0x3F800000#32
def val_main_v181 : (⟨S100000, .f32⟩ : BufTy).Contents (Elt F) :=
  broadcastInDim S100000 ![] bcast_S_S100000 (val_main_cst_9 (F := F))
def val_main_cst_10 : (⟨S_, .f32⟩ : BufTy).Contents (Elt F) :=
  constant S_ .f32 0x00000000#32
def val_main_v182 : (⟨S512, .f32⟩ : BufTy).Contents (Elt F) :=
  broadcastInDim S512 ![] bcast_S_S512 (val_main_cst_10 (F := F))
def val_main_v183 : (⟨S100000x1, .i32⟩ : BufTy).Contents (Elt F) :=
  broadcastInDim S100000x1 ![0] bcast_S100000_S100000x1_0 (x2)
def val_main_v184 : (⟨S512, .f32⟩ : BufTy).Contents (Elt F) :=
  Host.scatterAdd scatter_S512_S100000x1_S100000_n_0_0_1 (val_main_v182 (F := F)) (val_main_v183 (F := F) x2) (val_main_v181 (F := F))
def val_main_cst_11 : (⟨S_, .f32⟩ : BufTy).Contents (Elt F) :=
  constant S_ .f32 0x3F800000#32
theorem val_main_cst_11_apply (i : S_.Idx) :
    val_main_cst_11 (F := F) i = FloatOps.ofBits .f32 0x3F800000#32 := rfl
def val_main_v185 : (⟨S512, .f32⟩ : BufTy).Contents (Elt F) :=
  broadcastInDim S512 ![] bcast_S_S512 (val_main_cst_11 (F := F))
abbrev idx_main_v185 (i : S512.Idx) : S_.Idx := fun a => a.elim0
theorem val_main_v185_apply (i : S512.Idx) :
    val_main_v185 (F := F) i = val_main_cst_11 (F := F) (idx_main_v185 i) := by
  unfold val_main_v185
  generalize val_main_cst_11 (F := F) = y
  exact broadcastInDim_apply _ bcast_S_S512 y i (idx_main_v185 i) (fun a => a.elim0)
def val_main_v186 : (⟨S512, .f32⟩ : BufTy).Contents (Elt F) :=
  maximumf (val_main_v184 (F := F) x2) (val_main_v185 (F := F))
theorem val_main_v186_apply (i : S512.Idx) :
    val_main_v186 (F := F) x2 i = FloatOps.maximumf (val_main_v184 (F := F) x2 i) (val_main_v185 (F := F) i) := rfl
def val_main_v187 : (⟨S512x1, .f32⟩ : BufTy).Contents (Elt F) :=
  broadcastInDim S512x1 ![0] bcast_S512_S512x1_0 (val_main_v186 (F := F) x2)
abbrev idx_main_v187 (i : S512x1.Idx) : S512.Idx := fun a => match a with
  | ⟨0, _⟩ => ⟨(i 0).val, (i 0).isLt⟩
theorem val_main_v187_apply (i : S512x1.Idx) :
    val_main_v187 (F := F) x2 i = val_main_v186 (F := F) x2 (idx_main_v187 i) := by
  unfold val_main_v187
  generalize val_main_v186 (F := F) x2 = y
  exact broadcastInDim_apply _ bcast_S512_S512x1_0 y i (idx_main_v187 i) (fun a => match a with
    | ⟨0, _⟩ => by show (i 0).val = if (512 : Nat) = 1 then 0 else (i 0).val; rw [if_neg (by decide)])
def val_main_v188 : (⟨S512x64, .f32⟩ : BufTy).Contents (Elt F) :=
  broadcastInDim S512x64 ![0, 1] bcast_S512x1_S512x64_0_1 (val_main_v187 (F := F) x2)
abbrev idx_main_v188 (i : S512x64.Idx) : S512x1.Idx := fun a => match a with
  | ⟨0, _⟩ => ⟨(i 0).val, (i 0).isLt⟩
  | ⟨1, _⟩ => ⟨0, Nat.one_pos⟩
theorem val_main_v188_apply (i : S512x64.Idx) :
    val_main_v188 (F := F) x2 i = val_main_v187 (F := F) x2 (idx_main_v188 i) := by
  unfold val_main_v188
  generalize val_main_v187 (F := F) x2 = y
  exact broadcastInDim_apply _ bcast_S512x1_S512x64_0_1 y i (idx_main_v188 i) (fun a => match a with
    | ⟨0, _⟩ => by show (i 0).val = if (512 : Nat) = 1 then 0 else (i 0).val; rw [if_neg (by decide)]
    | ⟨1, _⟩ => by show 0 = if (1 : Nat) = 1 then 0 else (i 1).val; rw [if_pos rfl])
def val_main_v189 : (⟨S512x64, .f32⟩ : BufTy).Contents (Elt F) :=
  Host.divf (val_main_v180 (F := F) x0 x1 x2 x3 x4 x5 x6 x7 x8 x9 x10 x11 x12 x13 x14 x15 x16 x17 x18 x19 x20 x21 x22) (val_main_v188 (F := F) x2)
theorem val_main_v189_apply (i : S512x64.Idx) :
    val_main_v189 (F := F) x0 x1 x2 x3 x4 x5 x6 x7 x8 x9 x10 x11 x12 x13 x14 x15 x16 x17 x18 x19 x20 x21 x22 i = FloatOps.hostDivf (val_main_v180 (F := F) x0 x1 x2 x3 x4 x5 x6 x7 x8 x9 x10 x11 x12 x13 x14 x15 x16 x17 x18 x19 x20 x21 x22 i) (val_main_v188 (F := F) x2 i) := rfl
def val_main_v190 : (⟨S512x16, .f32⟩ : BufTy).Contents (Elt F) :=
  Host.dotGeneral dot_S512x64_S64x16_S512x16_1_0_0_1_n_n none (val_main_v189 (F := F) x0 x1 x2 x3 x4 x5 x6 x7 x8 x9 x10 x11 x12 x13 x14 x15 x16 x17 x18 x19 x20 x21 x22) (x23)
def val_main_v191 : (⟨S1x16, .f32⟩ : BufTy).Contents (Elt F) :=
  broadcastInDim S1x16 ![1] bcast_S16_S1x16_1 (x24)
abbrev idx_main_v191 (i : S1x16.Idx) : S16.Idx := fun a => match a with
  | ⟨0, _⟩ => ⟨(i 1).val, (i 1).isLt⟩
theorem val_main_v191_apply (i : S1x16.Idx) :
    val_main_v191 (F := F) x24 i = x24 (idx_main_v191 i) := by
  unfold val_main_v191
  exact broadcastInDim_apply _ bcast_S16_S1x16_1 x24 i (idx_main_v191 i) (fun a => match a with
    | ⟨0, _⟩ => by show (i 1).val = if (16 : Nat) = 1 then 0 else (i 1).val; rw [if_neg (by decide)])
def val_main_v192 : (⟨S512x16, .f32⟩ : BufTy).Contents (Elt F) :=
  broadcastInDim S512x16 ![0, 1] bcast_S1x16_S512x16_0_1 (val_main_v191 (F := F) x24)
abbrev idx_main_v192 (i : S512x16.Idx) : S1x16.Idx := fun a => match a with
  | ⟨0, _⟩ => ⟨0, Nat.one_pos⟩
  | ⟨1, _⟩ => ⟨(i 1).val, (i 1).isLt⟩
theorem val_main_v192_apply (i : S512x16.Idx) :
    val_main_v192 (F := F) x24 i = val_main_v191 (F := F) x24 (idx_main_v192 i) := by
  unfold val_main_v192
  generalize val_main_v191 (F := F) x24 = y
  exact broadcastInDim_apply _ bcast_S1x16_S512x16_0_1 y i (idx_main_v192 i) (fun a => match a with
    | ⟨0, _⟩ => by show 0 = if (1 : Nat) = 1 then 0 else (i 0).val; rw [if_pos rfl]
    | ⟨1, _⟩ => by show (i 1).val = if (16 : Nat) = 1 then 0 else (i 1).val; rw [if_neg (by decide)])
def val_main_v193 : (⟨S512x16, .f32⟩ : BufTy).Contents (Elt F) :=
  addf (val_main_v190 (F := F) x0 x1 x2 x3 x4 x5 x6 x7 x8 x9 x10 x11 x12 x13 x14 x15 x16 x17 x18 x19 x20 x21 x22 x23) (val_main_v192 (F := F) x24)
theorem val_main_v193_apply (i : S512x16.Idx) :
    val_main_v193 (F := F) x0 x1 x2 x3 x4 x5 x6 x7 x8 x9 x10 x11 x12 x13 x14 x15 x16 x17 x18 x19 x20 x21 x22 x23 x24 i = FloatOps.addf (val_main_v190 (F := F) x0 x1 x2 x3 x4 x5 x6 x7 x8 x9 x10 x11 x12 x13 x14 x15 x16 x17 x18 x19 x20 x21 x22 x23 i) (val_main_v192 (F := F) x24 i) := rfl
def val_main_call6_cst : (⟨S_, .f32⟩ : BufTy).Contents (Elt F) :=
  constant S_ .f32 0x00000000#32
theorem val_main_call6_cst_apply (i : S_.Idx) :
    val_main_call6_cst (F := F) i = FloatOps.ofBits .f32 0x00000000#32 := rfl
def val_main_call6_v0 : (⟨S512x16, .f32⟩ : BufTy).Contents (Elt F) :=
  broadcastInDim S512x16 ![] bcast_S_S512x16 (val_main_call6_cst (F := F))
abbrev idx_main_call6_v0 (i : S512x16.Idx) : S_.Idx := fun a => a.elim0
theorem val_main_call6_v0_apply (i : S512x16.Idx) :
    val_main_call6_v0 (F := F) i = val_main_call6_cst (F := F) (idx_main_call6_v0 i) := by
  unfold val_main_call6_v0
  generalize val_main_call6_cst (F := F) = y
  exact broadcastInDim_apply _ bcast_S_S512x16 y i (idx_main_call6_v0 i) (fun a => a.elim0)
def val_main_v194 : (⟨S512x16, .f32⟩ : BufTy).Contents (Elt F) :=
  maximumf (val_main_v193 (F := F) x0 x1 x2 x3 x4 x5 x6 x7 x8 x9 x10 x11 x12 x13 x14 x15 x16 x17 x18 x19 x20 x21 x22 x23 x24) (val_main_call6_v0 (F := F))
theorem val_main_v194_apply (i : S512x16.Idx) :
    val_main_v194 (F := F) x0 x1 x2 x3 x4 x5 x6 x7 x8 x9 x10 x11 x12 x13 x14 x15 x16 x17 x18 x19 x20 x21 x22 x23 x24 i = FloatOps.maximumf (val_main_v193 (F := F) x0 x1 x2 x3 x4 x5 x6 x7 x8 x9 x10 x11 x12 x13 x14 x15 x16 x17 x18 x19 x20 x21 x22 x23 x24 i) (val_main_call6_v0 (F := F) i) := rfl
def val_main_v195 : (⟨S512x7, .f32⟩ : BufTy).Contents (Elt F) :=
  Host.dotGeneral dot_S512x16_S16x7_S512x7_1_0_0_1_n_n none (val_main_v194 (F := F) x0 x1 x2 x3 x4 x5 x6 x7 x8 x9 x10 x11 x12 x13 x14 x15 x16 x17 x18 x19 x20 x21 x22 x23 x24) (x25)
def val_main_v196 : (⟨S1x7, .f32⟩ : BufTy).Contents (Elt F) :=
  broadcastInDim S1x7 ![1] bcast_S7_S1x7_1 (x26)
abbrev idx_main_v196 (i : S1x7.Idx) : S7.Idx := fun a => match a with
  | ⟨0, _⟩ => ⟨(i 1).val, (i 1).isLt⟩
theorem val_main_v196_apply (i : S1x7.Idx) :
    val_main_v196 (F := F) x26 i = x26 (idx_main_v196 i) := by
  unfold val_main_v196
  exact broadcastInDim_apply _ bcast_S7_S1x7_1 x26 i (idx_main_v196 i) (fun a => match a with
    | ⟨0, _⟩ => by show (i 1).val = if (7 : Nat) = 1 then 0 else (i 1).val; rw [if_neg (by decide)])
def val_main_v197 : (⟨S512x7, .f32⟩ : BufTy).Contents (Elt F) :=
  broadcastInDim S512x7 ![0, 1] bcast_S1x7_S512x7_0_1 (val_main_v196 (F := F) x26)
abbrev idx_main_v197 (i : S512x7.Idx) : S1x7.Idx := fun a => match a with
  | ⟨0, _⟩ => ⟨0, Nat.one_pos⟩
  | ⟨1, _⟩ => ⟨(i 1).val, (i 1).isLt⟩
theorem val_main_v197_apply (i : S512x7.Idx) :
    val_main_v197 (F := F) x26 i = val_main_v196 (F := F) x26 (idx_main_v197 i) := by
  unfold val_main_v197
  generalize val_main_v196 (F := F) x26 = y
  exact broadcastInDim_apply _ bcast_S1x7_S512x7_0_1 y i (idx_main_v197 i) (fun a => match a with
    | ⟨0, _⟩ => by show 0 = if (1 : Nat) = 1 then 0 else (i 0).val; rw [if_pos rfl]
    | ⟨1, _⟩ => by show (i 1).val = if (7 : Nat) = 1 then 0 else (i 1).val; rw [if_neg (by decide)])
def val_main_v198 : (⟨S512x7, .f32⟩ : BufTy).Contents (Elt F) :=
  addf (val_main_v195 (F := F) x0 x1 x2 x3 x4 x5 x6 x7 x8 x9 x10 x11 x12 x13 x14 x15 x16 x17 x18 x19 x20 x21 x22 x23 x24 x25) (val_main_v197 (F := F) x26)
theorem val_main_v198_apply (i : S512x7.Idx) :
    val_main_v198 (F := F) x0 x1 x2 x3 x4 x5 x6 x7 x8 x9 x10 x11 x12 x13 x14 x15 x16 x17 x18 x19 x20 x21 x22 x23 x24 x25 x26 i = FloatOps.addf (val_main_v195 (F := F) x0 x1 x2 x3 x4 x5 x6 x7 x8 x9 x10 x11 x12 x13 x14 x15 x16 x17 x18 x19 x20 x21 x22 x23 x24 x25 i) (val_main_v197 (F := F) x26 i) := rfl
def val_main_call7_cst : (⟨S_, .f32⟩ : BufTy).Contents (Elt F) :=
  constant S_ .f32 0xFF800000#32
def val_main_call7_v0 : (⟨S512, .f32⟩ : BufTy).Contents (Elt F) :=
  Host.reduce FloatOps.maximumf (val_main_v198 (F := F) x0 x1 x2 x3 x4 x5 x6 x7 x8 x9 x10 x11 x12 x13 x14 x15 x16 x17 x18 x19 x20 x21 x22 x23 x24 x25 x26) (val_main_call7_cst (F := F)) reducesTo_S512x7_S512_d1 h_S_
def val_main_call7_cst_0 : (⟨S_, .f32⟩ : BufTy).Contents (Elt F) :=
  constant S_ .f32 0xFF800000#32
theorem val_main_call7_cst_0_apply (i : S_.Idx) :
    val_main_call7_cst_0 (F := F) i = FloatOps.ofBits .f32 0xFF800000#32 := rfl
def val_main_call7_v1 : (⟨S512, .f32⟩ : BufTy).Contents (Elt F) :=
  broadcastInDim S512 ![] bcast_S_S512 (val_main_call7_cst_0 (F := F))
abbrev idx_main_call7_v1 (i : S512.Idx) : S_.Idx := fun a => a.elim0
theorem val_main_call7_v1_apply (i : S512.Idx) :
    val_main_call7_v1 (F := F) i = val_main_call7_cst_0 (F := F) (idx_main_call7_v1 i) := by
  unfold val_main_call7_v1
  generalize val_main_call7_cst_0 (F := F) = y
  exact broadcastInDim_apply _ bcast_S_S512 y i (idx_main_call7_v1 i) (fun a => a.elim0)
def val_main_call7_v2 : (⟨S512, .f32⟩ : BufTy).Contents (Elt F) :=
  maximumf (val_main_call7_v1 (F := F)) (val_main_call7_v0 (F := F) x0 x1 x2 x3 x4 x5 x6 x7 x8 x9 x10 x11 x12 x13 x14 x15 x16 x17 x18 x19 x20 x21 x22 x23 x24 x25 x26)
theorem val_main_call7_v2_apply (i : S512.Idx) :
    val_main_call7_v2 (F := F) x0 x1 x2 x3 x4 x5 x6 x7 x8 x9 x10 x11 x12 x13 x14 x15 x16 x17 x18 x19 x20 x21 x22 x23 x24 x25 x26 i = FloatOps.maximumf (val_main_call7_v1 (F := F) i) (val_main_call7_v0 (F := F) x0 x1 x2 x3 x4 x5 x6 x7 x8 x9 x10 x11 x12 x13 x14 x15 x16 x17 x18 x19 x20 x21 x22 x23 x24 x25 x26 i) := rfl
def val_main_call7_v3 : (⟨S512x1, .f32⟩ : BufTy).Contents (Elt F) :=
  broadcastInDim S512x1 ![0] bcast_S512_S512x1_0 (val_main_call7_v2 (F := F) x0 x1 x2 x3 x4 x5 x6 x7 x8 x9 x10 x11 x12 x13 x14 x15 x16 x17 x18 x19 x20 x21 x22 x23 x24 x25 x26)
abbrev idx_main_call7_v3 (i : S512x1.Idx) : S512.Idx := fun a => match a with
  | ⟨0, _⟩ => ⟨(i 0).val, (i 0).isLt⟩
theorem val_main_call7_v3_apply (i : S512x1.Idx) :
    val_main_call7_v3 (F := F) x0 x1 x2 x3 x4 x5 x6 x7 x8 x9 x10 x11 x12 x13 x14 x15 x16 x17 x18 x19 x20 x21 x22 x23 x24 x25 x26 i = val_main_call7_v2 (F := F) x0 x1 x2 x3 x4 x5 x6 x7 x8 x9 x10 x11 x12 x13 x14 x15 x16 x17 x18 x19 x20 x21 x22 x23 x24 x25 x26 (idx_main_call7_v3 i) := by
  unfold val_main_call7_v3
  generalize val_main_call7_v2 (F := F) x0 x1 x2 x3 x4 x5 x6 x7 x8 x9 x10 x11 x12 x13 x14 x15 x16 x17 x18 x19 x20 x21 x22 x23 x24 x25 x26 = y
  exact broadcastInDim_apply _ bcast_S512_S512x1_0 y i (idx_main_call7_v3 i) (fun a => match a with
    | ⟨0, _⟩ => by show (i 0).val = if (512 : Nat) = 1 then 0 else (i 0).val; rw [if_neg (by decide)])
def val_main_call7_v4 : (⟨S512x7, .f32⟩ : BufTy).Contents (Elt F) :=
  broadcastInDim S512x7 ![0, 1] bcast_S512x1_S512x7_0_1 (val_main_call7_v3 (F := F) x0 x1 x2 x3 x4 x5 x6 x7 x8 x9 x10 x11 x12 x13 x14 x15 x16 x17 x18 x19 x20 x21 x22 x23 x24 x25 x26)
abbrev idx_main_call7_v4 (i : S512x7.Idx) : S512x1.Idx := fun a => match a with
  | ⟨0, _⟩ => ⟨(i 0).val, (i 0).isLt⟩
  | ⟨1, _⟩ => ⟨0, Nat.one_pos⟩
theorem val_main_call7_v4_apply (i : S512x7.Idx) :
    val_main_call7_v4 (F := F) x0 x1 x2 x3 x4 x5 x6 x7 x8 x9 x10 x11 x12 x13 x14 x15 x16 x17 x18 x19 x20 x21 x22 x23 x24 x25 x26 i = val_main_call7_v3 (F := F) x0 x1 x2 x3 x4 x5 x6 x7 x8 x9 x10 x11 x12 x13 x14 x15 x16 x17 x18 x19 x20 x21 x22 x23 x24 x25 x26 (idx_main_call7_v4 i) := by
  unfold val_main_call7_v4
  generalize val_main_call7_v3 (F := F) x0 x1 x2 x3 x4 x5 x6 x7 x8 x9 x10 x11 x12 x13 x14 x15 x16 x17 x18 x19 x20 x21 x22 x23 x24 x25 x26 = y
  exact broadcastInDim_apply _ bcast_S512x1_S512x7_0_1 y i (idx_main_call7_v4 i) (fun a => match a with
    | ⟨0, _⟩ => by show (i 0).val = if (512 : Nat) = 1 then 0 else (i 0).val; rw [if_neg (by decide)]
    | ⟨1, _⟩ => by show 0 = if (1 : Nat) = 1 then 0 else (i 1).val; rw [if_pos rfl])
def val_main_call7_v5 : (⟨S512x7, .f32⟩ : BufTy).Contents (Elt F) :=
  subf (val_main_v198 (F := F) x0 x1 x2 x3 x4 x5 x6 x7 x8 x9 x10 x11 x12 x13 x14 x15 x16 x17 x18 x19 x20 x21 x22 x23 x24 x25 x26) (val_main_call7_v4 (F := F) x0 x1 x2 x3 x4 x5 x6 x7 x8 x9 x10 x11 x12 x13 x14 x15 x16 x17 x18 x19 x20 x21 x22 x23 x24 x25 x26)
theorem val_main_call7_v5_apply (i : S512x7.Idx) :
    val_main_call7_v5 (F := F) x0 x1 x2 x3 x4 x5 x6 x7 x8 x9 x10 x11 x12 x13 x14 x15 x16 x17 x18 x19 x20 x21 x22 x23 x24 x25 x26 i = FloatOps.subf (val_main_v198 (F := F) x0 x1 x2 x3 x4 x5 x6 x7 x8 x9 x10 x11 x12 x13 x14 x15 x16 x17 x18 x19 x20 x21 x22 x23 x24 x25 x26 i) (val_main_call7_v4 (F := F) x0 x1 x2 x3 x4 x5 x6 x7 x8 x9 x10 x11 x12 x13 x14 x15 x16 x17 x18 x19 x20 x21 x22 x23 x24 x25 x26 i) := rfl
def val_main_call7_v6 : (⟨S512x7, .f32⟩ : BufTy).Contents (Elt F) :=
  Host.exp (val_main_call7_v5 (F := F) x0 x1 x2 x3 x4 x5 x6 x7 x8 x9 x10 x11 x12 x13 x14 x15 x16 x17 x18 x19 x20 x21 x22 x23 x24 x25 x26)
theorem val_main_call7_v6_apply (i : S512x7.Idx) :
    val_main_call7_v6 (F := F) x0 x1 x2 x3 x4 x5 x6 x7 x8 x9 x10 x11 x12 x13 x14 x15 x16 x17 x18 x19 x20 x21 x22 x23 x24 x25 x26 i = FloatOps.hostUnary .exp (val_main_call7_v5 (F := F) x0 x1 x2 x3 x4 x5 x6 x7 x8 x9 x10 x11 x12 x13 x14 x15 x16 x17 x18 x19 x20 x21 x22 x23 x24 x25 x26 i) := rfl
def val_main_call7_cst_1 : (⟨S_, .f32⟩ : BufTy).Contents (Elt F) :=
  constant S_ .f32 0x00000000#32
theorem val_main_call7_cst_1_apply (i : S_.Idx) :
    val_main_call7_cst_1 (F := F) i = FloatOps.ofBits .f32 0x00000000#32 := rfl
def val_main_call7_v7 : (⟨S512, .f32⟩ : BufTy).Contents (Elt F) :=
  Host.reduceAdd (val_main_call7_v6 (F := F) x0 x1 x2 x3 x4 x5 x6 x7 x8 x9 x10 x11 x12 x13 x14 x15 x16 x17 x18 x19 x20 x21 x22 x23 x24 x25 x26) (val_main_call7_cst_1 (F := F)) reducesTo_S512x7_S512_d1 h_S_
abbrev idx_main_call7_v7 (i : S512.Idx) (k : Fin 7) : S512x7.Idx := fun a => match a with
  | ⟨0, _⟩ => ⟨(i 0).val, (i 0).isLt⟩
  | ⟨1, _⟩ => ⟨k.val, k.isLt⟩

theorem val_main_call7_v7_apply (x0 : (⟨S100000x1024, .f32⟩ : BufTy).Contents (Elt Ideal)) (x1 : (⟨S2x1600000, .i32⟩ : BufTy).Contents (Elt Ideal)) (x2 : (⟨S100000, .i32⟩ : BufTy).Contents (Elt Ideal)) (x3 : (⟨S2x16, .f32⟩ : BufTy).Contents (Elt Ideal)) (x4 : (⟨S16, .f32⟩ : BufTy).Contents (Elt Ideal)) (x5 : (⟨S16x32, .f32⟩ : BufTy).Contents (Elt Ideal)) (x6 : (⟨S32, .f32⟩ : BufTy).Contents (Elt Ideal)) (x7 : (⟨S1022x16, .f32⟩ : BufTy).Contents (Elt Ideal)) (x8 : (⟨S16, .f32⟩ : BufTy).Contents (Elt Ideal)) (x9 : (⟨S16x32, .f32⟩ : BufTy).Contents (Elt Ideal)) (x10 : (⟨S32, .f32⟩ : BufTy).Contents (Elt Ideal)) (x11 : (⟨S2x64x64, .f32⟩ : BufTy).Contents (Elt Ideal)) (x12 x13 x14 x15 x16 : (⟨S2x64, .f32⟩ : BufTy).Contents (Elt Ideal)) (x17 : (⟨S2x64x64, .f32⟩ : BufTy).Contents (Elt Ideal)) (x18 x19 x20 x21 x22 : (⟨S2x64, .f32⟩ : BufTy).Contents (Elt Ideal)) (x23 : (⟨S64x16, .f32⟩ : BufTy).Contents (Elt Ideal)) (x24 : (⟨S16, .f32⟩ : BufTy).Contents (Elt Ideal)) (x25 : (⟨S16x7, .f32⟩ : BufTy).Contents (Elt Ideal)) (x26 : (⟨S7, .f32⟩ : BufTy).Contents (Elt Ideal)) (i : S512.Idx) :
    val_main_call7_v7 (F := Ideal) x0 x1 x2 x3 x4 x5 x6 x7 x8 x9 x10 x11 x12 x13 x14 x15 x16 x17 x18 x19 x20 x21 x22 x23 x24 x25 x26 i = (val_main_call7_cst_1 (F := Ideal)) (Shape.Idx.first h_S_) + ∑ k : Fin 7, (val_main_call7_v6 (F := Ideal) x0 x1 x2 x3 x4 x5 x6 x7 x8 x9 x10 x11 x12 x13 x14 x15 x16 x17 x18 x19 x20 x21 x22 x23 x24 x25 x26) (idx_main_call7_v7 i k) := by
  unfold val_main_call7_v7
  generalize val_main_call7_v6 (F := Ideal) x0 x1 x2 x3 x4 x5 x6 x7 x8 x9 x10 x11 x12 x13 x14 x15 x16 x17 x18 x19 x20 x21 x22 x23 x24 x25 x26 = y0
  simp only [Host.reduceAdd, Ideal.hostReduceAdd_def]
  rw [Ideal.hostReduceAdd_single reducesTo_S512x7_S512_d1 (by decide)]
  refine congrArg (_ + ·) (Finset.sum_congr rfl fun k _ => ?_)
  exact congrArg y0 (funext fun a => Fin.ext (by match a with | ⟨0, _⟩ => rfl | ⟨1, _⟩ => rfl))
def val_main_call7_v8 : (⟨S512x1, .f32⟩ : BufTy).Contents (Elt F) :=
  broadcastInDim S512x1 ![0] bcast_S512_S512x1_0 (val_main_call7_v7 (F := F) x0 x1 x2 x3 x4 x5 x6 x7 x8 x9 x10 x11 x12 x13 x14 x15 x16 x17 x18 x19 x20 x21 x22 x23 x24 x25 x26)
abbrev idx_main_call7_v8 (i : S512x1.Idx) : S512.Idx := fun a => match a with
  | ⟨0, _⟩ => ⟨(i 0).val, (i 0).isLt⟩
theorem val_main_call7_v8_apply (i : S512x1.Idx) :
    val_main_call7_v8 (F := F) x0 x1 x2 x3 x4 x5 x6 x7 x8 x9 x10 x11 x12 x13 x14 x15 x16 x17 x18 x19 x20 x21 x22 x23 x24 x25 x26 i = val_main_call7_v7 (F := F) x0 x1 x2 x3 x4 x5 x6 x7 x8 x9 x10 x11 x12 x13 x14 x15 x16 x17 x18 x19 x20 x21 x22 x23 x24 x25 x26 (idx_main_call7_v8 i) := by
  unfold val_main_call7_v8
  generalize val_main_call7_v7 (F := F) x0 x1 x2 x3 x4 x5 x6 x7 x8 x9 x10 x11 x12 x13 x14 x15 x16 x17 x18 x19 x20 x21 x22 x23 x24 x25 x26 = y
  exact broadcastInDim_apply _ bcast_S512_S512x1_0 y i (idx_main_call7_v8 i) (fun a => match a with
    | ⟨0, _⟩ => by show (i 0).val = if (512 : Nat) = 1 then 0 else (i 0).val; rw [if_neg (by decide)])
def val_main_call7_v9 : (⟨S512x1, .f32⟩ : BufTy).Contents (Elt F) :=
  Host.log (val_main_call7_v8 (F := F) x0 x1 x2 x3 x4 x5 x6 x7 x8 x9 x10 x11 x12 x13 x14 x15 x16 x17 x18 x19 x20 x21 x22 x23 x24 x25 x26)
theorem val_main_call7_v9_apply (i : S512x1.Idx) :
    val_main_call7_v9 (F := F) x0 x1 x2 x3 x4 x5 x6 x7 x8 x9 x10 x11 x12 x13 x14 x15 x16 x17 x18 x19 x20 x21 x22 x23 x24 x25 x26 i = FloatOps.hostUnary .log (val_main_call7_v8 (F := F) x0 x1 x2 x3 x4 x5 x6 x7 x8 x9 x10 x11 x12 x13 x14 x15 x16 x17 x18 x19 x20 x21 x22 x23 x24 x25 x26 i) := rfl
def val_main_call7_v10 : (⟨S512x7, .f32⟩ : BufTy).Contents (Elt F) :=
  broadcastInDim S512x7 ![0, 1] bcast_S512x1_S512x7_0_1 (val_main_call7_v9 (F := F) x0 x1 x2 x3 x4 x5 x6 x7 x8 x9 x10 x11 x12 x13 x14 x15 x16 x17 x18 x19 x20 x21 x22 x23 x24 x25 x26)
abbrev idx_main_call7_v10 (i : S512x7.Idx) : S512x1.Idx := fun a => match a with
  | ⟨0, _⟩ => ⟨(i 0).val, (i 0).isLt⟩
  | ⟨1, _⟩ => ⟨0, Nat.one_pos⟩
theorem val_main_call7_v10_apply (i : S512x7.Idx) :
    val_main_call7_v10 (F := F) x0 x1 x2 x3 x4 x5 x6 x7 x8 x9 x10 x11 x12 x13 x14 x15 x16 x17 x18 x19 x20 x21 x22 x23 x24 x25 x26 i = val_main_call7_v9 (F := F) x0 x1 x2 x3 x4 x5 x6 x7 x8 x9 x10 x11 x12 x13 x14 x15 x16 x17 x18 x19 x20 x21 x22 x23 x24 x25 x26 (idx_main_call7_v10 i) := by
  unfold val_main_call7_v10
  generalize val_main_call7_v9 (F := F) x0 x1 x2 x3 x4 x5 x6 x7 x8 x9 x10 x11 x12 x13 x14 x15 x16 x17 x18 x19 x20 x21 x22 x23 x24 x25 x26 = y
  exact broadcastInDim_apply _ bcast_S512x1_S512x7_0_1 y i (idx_main_call7_v10 i) (fun a => match a with
    | ⟨0, _⟩ => by show (i 0).val = if (512 : Nat) = 1 then 0 else (i 0).val; rw [if_neg (by decide)]
    | ⟨1, _⟩ => by show 0 = if (1 : Nat) = 1 then 0 else (i 1).val; rw [if_pos rfl])
def val_main_v199 : (⟨S512x7, .f32⟩ : BufTy).Contents (Elt F) :=
  subf (val_main_call7_v5 (F := F) x0 x1 x2 x3 x4 x5 x6 x7 x8 x9 x10 x11 x12 x13 x14 x15 x16 x17 x18 x19 x20 x21 x22 x23 x24 x25 x26) (val_main_call7_v10 (F := F) x0 x1 x2 x3 x4 x5 x6 x7 x8 x9 x10 x11 x12 x13 x14 x15 x16 x17 x18 x19 x20 x21 x22 x23 x24 x25 x26)
theorem val_main_v199_apply (i : S512x7.Idx) :
    val_main_v199 (F := F) x0 x1 x2 x3 x4 x5 x6 x7 x8 x9 x10 x11 x12 x13 x14 x15 x16 x17 x18 x19 x20 x21 x22 x23 x24 x25 x26 i = FloatOps.subf (val_main_call7_v5 (F := F) x0 x1 x2 x3 x4 x5 x6 x7 x8 x9 x10 x11 x12 x13 x14 x15 x16 x17 x18 x19 x20 x21 x22 x23 x24 x25 x26 i) (val_main_call7_v10 (F := F) x0 x1 x2 x3 x4 x5 x6 x7 x8 x9 x10 x11 x12 x13 x14 x15 x16 x17 x18 x19 x20 x21 x22 x23 x24 x25 x26 i) := rfl

end Cert.ReferenceIdeal.ReadP

end
-- ==== Proof.Hand.RefRun1.lean ====
import proofs.«406513_j58480274702513_1_alg».proof.Proof.Gen.ReferenceIdeal
import proofs.«406513_j58480274702513_1_alg».proof.Proof.RefStages
import Idealize.ShloMosaic.Lib.StableHlo.Run

noncomputable section

namespace Cert.ReferenceIdeal.HandRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops1 : List (HloOp τ sig (Elt F)) :=
  [ unary main_arg1 main_v0 (extractStridedSlice S1x1600000 ![0, 0] · slices_S2x1600000_S1x1600000_0_0),
    reshape main_v0 main_v1 rfl shapeCasts_S1x1600000_S1600000,
    unary main_arg1 main_v2 (extractStridedSlice S1x1600000 ![1, 0] · slices_S2x1600000_S1x1600000_1_0),
    reshape main_v2 main_v3 rfl shapeCasts_S1x1600000_S1600000,
    unary main_arg0 main_v4 (extractStridedSlice S100000x1022 ![0, 0] · slices_S100000x1024_S100000x1022_0_0),
    unary main_arg0 main_v5 (extractStridedSlice S100000x2 ![0, 1022] · slices_S100000x1024_S100000x2_0_1022),
    binary main_v5 main_arg3 main_v6 (fun l r => Host.dotGeneral dot_S100000x2_S2x16_S100000x16_1_0_0_1_n_n none l r),
    unary main_arg4 main_v7 (broadcastInDim S1x16 ![1] bcast_S16_S1x16_1),
    unary main_v7 main_v8 (broadcastInDim S100000x16 ![0, 1] bcast_S1x16_S100000x16_0_1),
    binary main_v6 main_v8 main_v9 addf,
    TRef.nullary (TRef.of (T := ⟨S_, .f32⟩) main_call0_cst) (constant S_ .f32 0x00000000#32),
    TRef.unary (TRef.of (T := ⟨S_, .f32⟩) main_call0_cst) (TRef.of (T := ⟨S100000x16, .f32⟩) main_call0_v0) (broadcastInDim S100000x16 ![] bcast_S_S100000x16),
    TRef.binary (TRef.of (T := ⟨S100000x16, .f32⟩) main_v9) (TRef.of (T := ⟨S100000x16, .f32⟩) main_call0_v0) (TRef.of (T := ⟨S100000x16, .f32⟩) main_v10) maximumf,
    binary main_v10 main_arg5 main_v11 (fun l r => Host.dotGeneral dot_S100000x16_S16x32_S100000x32_1_0_0_1_n_n none l r),
    unary main_arg6 main_v12 (broadcastInDim S1x32 ![1] bcast_S32_S1x32_1),
    unary main_v12 main_v13 (broadcastInDim S100000x32 ![0, 1] bcast_S1x32_S100000x32_0_1),
    binary main_v11 main_v13 main_v14 addf,
    TRef.nullary (TRef.of (T := ⟨S_, .f32⟩) main_call1_cst) (constant S_ .f32 0x00000000#32),
    TRef.unary (TRef.of (T := ⟨S_, .f32⟩) main_call1_cst) (TRef.of (T := ⟨S100000x32, .f32⟩) main_call1_v0) (broadcastInDim S100000x32 ![] bcast_S_S100000x32),
    TRef.binary (TRef.of (T := ⟨S100000x32, .f32⟩) main_v14) (TRef.of (T := ⟨S100000x32, .f32⟩) main_call1_v0) (TRef.of (T := ⟨S100000x32, .f32⟩) main_v15) maximumf,
    binary main_v4 main_arg7 main_v16 (fun l r => Host.dotGeneral dot_S100000x1022_S1022x16_S100000x16_1_0_0_1_n_n none l r),
    unary main_arg8 main_v17 (broadcastInDim S1x16 ![1] bcast_S16_S1x16_1),
    unary main_v17 main_v18 (broadcastInDim S100000x16 ![0, 1] bcast_S1x16_S100000x16_0_1),
    binary main_v16 main_v18 main_v19 addf,
    TRef.nullary (TRef.of (T := ⟨S_, .f32⟩) main_call2_cst) (constant S_ .f32 0x00000000#32),
    TRef.unary (TRef.of (T := ⟨S_, .f32⟩) main_call2_cst) (TRef.of (T := ⟨S100000x16, .f32⟩) main_call2_v0) (broadcastInDim S100000x16 ![] bcast_S_S100000x16),
    TRef.binary (TRef.of (T := ⟨S100000x16, .f32⟩) main_v19) (TRef.of (T := ⟨S100000x16, .f32⟩) main_call2_v0) (TRef.of (T := ⟨S100000x16, .f32⟩) main_v20) maximumf,
    binary main_v20 main_arg9 main_v21 (fun l r => Host.dotGeneral dot_S100000x16_S16x32_S100000x32_1_0_0_1_n_n none l r),
    unary main_arg10 main_v22 (broadcastInDim S1x32 ![1] bcast_S32_S1x32_1),
    unary main_v22 main_v23 (broadcastInDim S100000x32 ![0, 1] bcast_S1x32_S100000x32_0_1),
    binary main_v21 main_v23 main_v24 addf,
    TRef.nullary (TRef.of (T := ⟨S_, .f32⟩) main_call3_cst) (constant S_ .f32 0x00000000#32),
    TRef.unary (TRef.of (T := ⟨S_, .f32⟩) main_call3_cst) (TRef.of (T := ⟨S100000x32, .f32⟩) main_call3_v0) (broadcastInDim S100000x32 ![] bcast_S_S100000x32),
    TRef.binary (TRef.of (T := ⟨S100000x32, .f32⟩) main_v24) (TRef.of (T := ⟨S100000x32, .f32⟩) main_call3_v0) (TRef.of (T := ⟨S100000x32, .f32⟩) main_v25) maximumf ]

theorem ops1_sub : (ops1 : List (HloOp τ sig (Elt F))).Forall fun op => op.bufs ⊆ tcRefs τ sig := by
  simp only [List.Forall, unary_bufs_sub, reshape_bufs_sub, binary_bufs_sub, nullary_bufs_sub, and_self]

theorem ops1_fresh : (ops1 : List (HloOp τ sig (Elt F))).Forall fun op => op.fresh = ∅ := by
  simp only [List.Forall]; and_intros <;> rfl

abbrev ops1_W : List (Ref sig .tc) := [main_v0, main_v1, main_v2, main_v3, main_v4, main_v5, main_v6, main_v7, main_v8, main_v9, main_call0_cst, main_call0_v0, main_v10, main_v11, main_v12, main_v13, main_v14, main_call1_cst, main_call1_v0, main_v15, main_v16, main_v17, main_v18, main_v19, main_call2_cst, main_call2_v0, main_v20, main_v21, main_v22, main_v23, main_v24, main_call3_cst, main_call3_v0, main_v25]

theorem ops1_writes : (ops1 : List (HloOp τ sig (Elt F))).Forall fun op => op.writes ⊆ (ops1_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)

variable (X : Valuation τ sig (Elt F))

theorem ops1_keep (r : Ref sig .tc) (h : r ∉ ops1_W) :
    after ops1 X (Proc.devRef .tc r) = X (Proc.devRef .tc r) :=
  after_of_writes_sub ops1 X ops1_writes h

theorem ops1_main_v1 {x1 : _}
    (h_arg1 : X (Proc.devRef .tc main_arg1) = x1) :
    after ops1 X (Proc.devRef .tc main_v1) = val_main_v1 (F := F) x1 := by
  simp only [ops1]
  after_results_simp
  simp only [h_arg1]
  rfl

theorem ops1_main_v3 {x1 : _}
    (h_arg1 : X (Proc.devRef .tc main_arg1) = x1) :
    after ops1 X (Proc.devRef .tc main_v3) = val_main_v3 (F := F) x1 := by
  simp only [ops1]
  after_results_simp
  simp only [h_arg1]
  rfl

theorem ops1_main_v15 {x0 x3 x4 x5 x6 : _}
    (h_arg0 : X (Proc.devRef .tc main_arg0) = x0)
    (h_arg3 : X (Proc.devRef .tc main_arg3) = x3)
    (h_arg4 : X (Proc.devRef .tc main_arg4) = x4)
    (h_arg5 : X (Proc.devRef .tc main_arg5) = x5)
    (h_arg6 : X (Proc.devRef .tc main_arg6) = x6) :
    after ops1 X (Proc.devRef .tc main_v15) = val_main_v15 (F := F) x0 x3 x4 x5 x6 := by
  simp only [ops1]
  after_results_simp
  simp only [h_arg0, h_arg3, h_arg4, h_arg5, h_arg6]
  rfl

theorem ops1_main_v25 {x0 x7 x8 x9 x10 : _}
    (h_arg0 : X (Proc.devRef .tc main_arg0) = x0)
    (h_arg7 : X (Proc.devRef .tc main_arg7) = x7)
    (h_arg8 : X (Proc.devRef .tc main_arg8) = x8)
    (h_arg9 : X (Proc.devRef .tc main_arg9) = x9)
    (h_arg10 : X (Proc.devRef .tc main_arg10) = x10) :
    after ops1 X (Proc.devRef .tc main_v25) = val_main_v25 (F := F) x0 x7 x8 x9 x10 := by
  simp only [ops1]
  after_results_simp
  simp only [h_arg0, h_arg7, h_arg8, h_arg9, h_arg10]
  rfl

end Cert.ReferenceIdeal.HandRun

end
-- ==== Proof.Hand.RefRun2.lean ====
import proofs.«406513_j58480274702513_1_alg».proof.Proof.Gen.ReferenceIdeal
import proofs.«406513_j58480274702513_1_alg».proof.Proof.RefStages
import Idealize.ShloMosaic.Lib.StableHlo.Run

noncomputable section

namespace Cert.ReferenceIdeal.HandRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops2 : List (HloOp τ sig (Elt F)) :=
  [ binary main_v25 main_v15 main_v26 (fun a b => concatenate S100000x64 1 [⟨S100000x32, a⟩, ⟨S100000x32, b⟩] concatenates_S100000x32_S100000x32_S100000x64_d1),
    nullary main_c (constantI S_ 32 0#32),
    unary main_c main_v27 (broadcastInDim S1600000 ![] bcast_S_S1600000),
    binary main_v1 main_v27 main_v28 (cmpi .slt),
    nullary main_c_0 (constantI S_ 32 100000#32),
    unary main_c_0 main_v29 (broadcastInDim S1600000 ![] bcast_S_S1600000),
    binary main_v1 main_v29 main_v30 addi,
    ternary main_v28 main_v30 main_v1 main_v31 (select),
    unary main_v31 main_v32 (broadcastInDim S1600000x1 ![0] bcast_S1600000_S1600000x1_0),
    binary main_v26 main_v32 main_v33 (fun x i => Host.gather gather_S100000x64_S1600000x1_S1600000x64_1_0_n_n_0_1_164 x i),
    nullary main_cst (constant S_ .f32 0x00000000#32),
    unary main_cst main_v34 (broadcastInDim S100000x64 ![] bcast_S_S100000x64),
    unary main_v3 main_v35 (broadcastInDim S1600000x1 ![0] bcast_S1600000_S1600000x1_0),
    ternary main_v34 main_v35 main_v33 main_v36 (fun x i u => Host.scatterAdd scatter_S100000x64_S1600000x1_S1600000x64_1_0_0_1 x i u),
    binary main_v26 main_v36 main_v37 addf,
    unary main_arg11 main_v38 (extractStridedSlice S1x64x64 ![0, 0, 0] · slices_S2x64x64_S1x64x64_0_0_0),
    reshape main_v38 main_v39 rfl shapeCasts_S1x64x64_S64x64,
    binary main_v37 main_v39 main_v40 (fun l r => Host.dotGeneral dot_S100000x64_S64x64_S100000x64_1_0_0_1_n_n none l r),
    unary main_arg12 main_v41 (extractStridedSlice S1x64 ![0, 0] · slices_S2x64_S1x64_0_0),
    reshape main_v41 main_v42 rfl shapeCasts_S1x64_S64,
    unary main_v42 main_v43 (broadcastInDim S1x64 ![1] bcast_S64_S1x64_1),
    unary main_v43 main_v44 (broadcastInDim S100000x64 ![0, 1] bcast_S1x64_S100000x64_0_1),
    binary main_v40 main_v44 main_v45 addf,
    unary main_arg13 main_v46 (extractStridedSlice S1x64 ![0, 0] · slices_S2x64_S1x64_0_0),
    reshape main_v46 main_v47 rfl shapeCasts_S1x64_S64,
    unary main_arg14 main_v48 (extractStridedSlice S1x64 ![0, 0] · slices_S2x64_S1x64_0_0),
    reshape main_v48 main_v49 rfl shapeCasts_S1x64_S64,
    unary main_arg15 main_v50 (extractStridedSlice S1x64 ![0, 0] · slices_S2x64_S1x64_0_0),
    reshape main_v50 main_v51 rfl shapeCasts_S1x64_S64,
    unary main_arg16 main_v52 (extractStridedSlice S1x64 ![0, 0] · slices_S2x64_S1x64_0_0),
    reshape main_v52 main_v53 rfl shapeCasts_S1x64_S64,
    unary main_v51 main_v54 (broadcastInDim S1x64 ![1] bcast_S64_S1x64_1),
    unary main_v54 main_v55 (broadcastInDim S100000x64 ![0, 1] bcast_S1x64_S100000x64_0_1),
    binary main_v45 main_v55 main_v56 subf ]

theorem ops2_sub : (ops2 : List (HloOp τ sig (Elt F))).Forall fun op => op.bufs ⊆ tcRefs τ sig := by
  simp only [List.Forall, binary_bufs_sub, nullary_bufs_sub, unary_bufs_sub, ternary_bufs_sub, reshape_bufs_sub, and_self]

theorem ops2_fresh : (ops2 : List (HloOp τ sig (Elt F))).Forall fun op => op.fresh = ∅ := by
  simp only [List.Forall]; and_intros <;> rfl

abbrev ops2_W : List (Ref sig .tc) := [main_v26, main_c, main_v27, main_v28, main_c_0, main_v29, main_v30, main_v31, main_v32, main_v33, main_cst, main_v34, main_v35, main_v36, main_v37, main_v38, main_v39, main_v40, main_v41, main_v42, main_v43, main_v44, main_v45, main_v46, main_v47, main_v48, main_v49, main_v50, main_v51, main_v52, main_v53, main_v54, main_v55, main_v56]

theorem ops2_writes : (ops2 : List (HloOp τ sig (Elt F))).Forall fun op => op.writes ⊆ (ops2_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)

variable (X : Valuation τ sig (Elt F))

theorem ops2_keep (r : Ref sig .tc) (h : r ∉ ops2_W) :
    after ops2 X (Proc.devRef .tc r) = X (Proc.devRef .tc r) :=
  after_of_writes_sub ops2 X ops2_writes h

theorem ops2_main_v26 {x0 x3 x4 x5 x6 x7 x8 x9 x10 : _}
    (h_v15 : X (Proc.devRef .tc main_v15) = val_main_v15 (F := F) x0 x3 x4 x5 x6)
    (h_v25 : X (Proc.devRef .tc main_v25) = val_main_v25 (F := F) x0 x7 x8 x9 x10) :
    after ops2 X (Proc.devRef .tc main_v26) = val_main_v26 (F := F) x0 x3 x4 x5 x6 x7 x8 x9 x10 := by
  simp only [ops2]
  after_results_simp
  rw [h_v15, h_v25]
  rfl

theorem ops2_main_v47 {x13 : _}
    (h_arg13 : X (Proc.devRef .tc main_arg13) = x13) :
    after ops2 X (Proc.devRef .tc main_v47) = val_main_v47 (F := F) x13 := by
  simp only [ops2]
  after_results_simp
  rw [h_arg13]
  rfl

theorem ops2_main_v49 {x14 : _}
    (h_arg14 : X (Proc.devRef .tc main_arg14) = x14) :
    after ops2 X (Proc.devRef .tc main_v49) = val_main_v49 (F := F) x14 := by
  simp only [ops2]
  after_results_simp
  rw [h_arg14]
  rfl

theorem ops2_main_v53 {x16 : _}
    (h_arg16 : X (Proc.devRef .tc main_arg16) = x16) :
    after ops2 X (Proc.devRef .tc main_v53) = val_main_v53 (F := F) x16 := by
  simp only [ops2]
  after_results_simp
  rw [h_arg16]
  rfl

theorem ops2_main_v56 {x0 x1 x3 x4 x5 x6 x7 x8 x9 x10 x11 x12 x15 : _}
    (h_arg11 : X (Proc.devRef .tc main_arg11) = x11)
    (h_arg12 : X (Proc.devRef .tc main_arg12) = x12)
    (h_arg15 : X (Proc.devRef .tc main_arg15) = x15)
    (h_v1 : X (Proc.devRef .tc main_v1) = val_main_v1 (F := F) x1)
    (h_v3 : X (Proc.devRef .tc main_v3) = val_main_v3 (F := F) x1)
    (h_v15 : X (Proc.devRef .tc main_v15) = val_main_v15 (F := F) x0 x3 x4 x5 x6)
    (h_v25 : X (Proc.devRef .tc main_v25) = val_main_v25 (F := F) x0 x7 x8 x9 x10) :
    after ops2 X (Proc.devRef .tc main_v56) = val_main_v56 (F := F) x0 x1 x3 x4 x5 x6 x7 x8 x9 x10 x11 x12 x15 := by
  simp only [ops2]
  after_results_simp
  rw [h_arg11, h_arg12, h_arg15, h_v1, h_v3, h_v15, h_v25]
  rfl

end Cert.ReferenceIdeal.HandRun

end
-- ==== Proof.Hand.RefRun3.lean ====
import proofs.«406513_j58480274702513_1_alg».proof.Proof.Gen.ReferenceIdeal
import proofs.«406513_j58480274702513_1_alg».proof.Proof.RefStages
import Idealize.ShloMosaic.Lib.StableHlo.Run

noncomputable section

namespace Cert.ReferenceIdeal.HandRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops3 : List (HloOp τ sig (Elt F)) :=
  [ nullary main_cst_1 (constant S_ .f32 0x3727C5AC#32),
    unary main_cst_1 main_v57 (broadcastInDim S64 ![] bcast_S_S64),
    binary main_v53 main_v57 main_v58 addf,
    unary main_v58 main_v59 (Host.rsqrt),
    unary main_v59 main_v60 (broadcastInDim S1x64 ![1] bcast_S64_S1x64_1),
    unary main_v60 main_v61 (broadcastInDim S100000x64 ![0, 1] bcast_S1x64_S100000x64_0_1),
    binary main_v56 main_v61 main_v62 mulf,
    unary main_v47 main_v63 (broadcastInDim S1x64 ![1] bcast_S64_S1x64_1),
    unary main_v63 main_v64 (broadcastInDim S100000x64 ![0, 1] bcast_S1x64_S100000x64_0_1),
    binary main_v62 main_v64 main_v65 mulf,
    unary main_v49 main_v66 (broadcastInDim S1x64 ![1] bcast_S64_S1x64_1),
    unary main_v66 main_v67 (broadcastInDim S100000x64 ![0, 1] bcast_S1x64_S100000x64_0_1),
    binary main_v65 main_v67 main_v68 addf,
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v68) (TRef.of (T := ⟨S100000x64, .f32⟩) main_call4_v0) (TRef.of (T := ⟨S100000x64, .f32⟩) main_v69) maximumf,
    unary main_arg17 main_v70 (extractStridedSlice S1x64x64 ![0, 0, 0] · slices_S2x64x64_S1x64x64_0_0_0),
    reshape main_v70 main_v71 rfl shapeCasts_S1x64x64_S64x64,
    binary main_v69 main_v71 main_v72 (fun l r => Host.dotGeneral dot_S100000x64_S64x64_S100000x64_1_0_0_1_n_n none l r),
    unary main_arg18 main_v73 (extractStridedSlice S1x64 ![0, 0] · slices_S2x64_S1x64_0_0),
    reshape main_v73 main_v74 rfl shapeCasts_S1x64_S64,
    unary main_v74 main_v75 (broadcastInDim S1x64 ![1] bcast_S64_S1x64_1),
    unary main_v75 main_v76 (broadcastInDim S100000x64 ![0, 1] bcast_S1x64_S100000x64_0_1),
    binary main_v72 main_v76 main_v77 addf,
    unary main_arg19 main_v78 (extractStridedSlice S1x64 ![0, 0] · slices_S2x64_S1x64_0_0),
    reshape main_v78 main_v79 rfl shapeCasts_S1x64_S64,
    unary main_arg20 main_v80 (extractStridedSlice S1x64 ![0, 0] · slices_S2x64_S1x64_0_0),
    reshape main_v80 main_v81 rfl shapeCasts_S1x64_S64,
    unary main_arg21 main_v82 (extractStridedSlice S1x64 ![0, 0] · slices_S2x64_S1x64_0_0),
    reshape main_v82 main_v83 rfl shapeCasts_S1x64_S64,
    unary main_arg22 main_v84 (extractStridedSlice S1x64 ![0, 0] · slices_S2x64_S1x64_0_0) ]

theorem ops3_sub : (ops3 : List (HloOp τ sig (Elt F))).Forall fun op => op.bufs ⊆ tcRefs τ sig := by
  simp only [List.Forall, nullary_bufs_sub, unary_bufs_sub, binary_bufs_sub, reshape_bufs_sub, and_self]

theorem ops3_fresh : (ops3 : List (HloOp τ sig (Elt F))).Forall fun op => op.fresh = ∅ := by
  simp only [List.Forall]; and_intros <;> rfl

abbrev ops3_W : List (Ref sig .tc) := [main_cst_1, main_v57, main_v58, main_v59, main_v60, main_v61, main_v62, main_v63, main_v64, main_v65, main_v66, main_v67, main_v68, main_call4_cst, main_call4_v0, main_v69, main_v70, main_v71, main_v72, main_v73, main_v74, main_v75, main_v76, main_v77, main_v78, main_v79, main_v80, main_v81, main_v82, main_v83, main_v84]

theorem ops3_writes : (ops3 : List (HloOp τ sig (Elt F))).Forall fun op => op.writes ⊆ (ops3_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)

variable (X : Valuation τ sig (Elt F))

theorem ops3_keep (r : Ref sig .tc) (h : r ∉ ops3_W) :
    after ops3 X (Proc.devRef .tc r) = X (Proc.devRef .tc r) :=
  after_of_writes_sub ops3 X ops3_writes h

theorem ops3_main_v77 {x0 x1 x3 x4 x5 x6 x7 x8 x9 x10 x11 x12 x13 x14 x15 x16 x17 x18 : _}
    (h_arg17 : X (Proc.devRef .tc main_arg17) = x17)
    (h_arg18 : X (Proc.devRef .tc main_arg18) = x18)
    (h_v47 : X (Proc.devRef .tc main_v47) = val_main_v47 (F := F) x13)
    (h_v49 : X (Proc.devRef .tc main_v49) = val_main_v49 (F := F) x14)
    (h_v53 : X (Proc.devRef .tc main_v53) = val_main_v53 (F := F) x16)
    (h_v56 : X (Proc.devRef .tc main_v56) = val_main_v56 (F := F) x0 x1 x3 x4 x5 x6 x7 x8 x9 x10 x11 x12 x15) :
    after ops3 X (Proc.devRef .tc main_v77) = val_main_v77 (F := F) x0 x1 x3 x4 x5 x6 x7 x8 x9 x10 x11 x12 x13 x14 x15 x16 x17 x18 := by
  simp only [ops3]
  after_results_simp
  simp only [h_arg17, h_arg18, h_v47, h_v49, h_v53, h_v56]
  rfl

theorem ops3_main_v79 {x19 : _}
    (h_arg19 : X (Proc.devRef .tc main_arg19) = x19) :
    after ops3 X (Proc.devRef .tc main_v79) = val_main_v79 (F := F) x19 := by
  simp only [ops3]
  after_results_simp
  simp only [h_arg19]
  rfl

theorem ops3_main_v81 {x20 : _}
    (h_arg20 : X (Proc.devRef .tc main_arg20) = x20) :
    after ops3 X (Proc.devRef .tc main_v81) = val_main_v81 (F := F) x20 := by
  simp only [ops3]
  after_results_simp
  simp only [h_arg20]
  rfl

theorem ops3_main_v83 {x21 : _}
    (h_arg21 : X (Proc.devRef .tc main_arg21) = x21) :
    after ops3 X (Proc.devRef .tc main_v83) = val_main_v83 (F := F) x21 := by
  simp only [ops3]
  after_results_simp
  simp only [h_arg21]
  rfl

theorem ops3_main_v84 {x22 : _}
    (h_arg22 : X (Proc.devRef .tc main_arg22) = x22) :
    after ops3 X (Proc.devRef .tc main_v84) = val_main_v84 (F := F) x22 := by
  simp only [ops3]
  after_results_simp
  simp only [h_arg22]
  rfl

end Cert.ReferenceIdeal.HandRun

end
-- ==== Proof.Hand.RefRun4.lean ====
import proofs.«406513_j58480274702513_1_alg».proof.Proof.Gen.ReferenceIdeal
import proofs.«406513_j58480274702513_1_alg».proof.Proof.RefStages
import Idealize.ShloMosaic.Lib.StableHlo.Run

noncomputable section

namespace Cert.ReferenceIdeal.HandRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops4 : List (HloOp τ sig (Elt F)) :=
  [ reshape main_v84 main_v85 rfl shapeCasts_S1x64_S64,
    unary main_v83 main_v86 (broadcastInDim S1x64 ![1] bcast_S64_S1x64_1),
    unary main_v86 main_v87 (broadcastInDim S100000x64 ![0, 1] bcast_S1x64_S100000x64_0_1),
    binary main_v77 main_v87 main_v88 subf,
    nullary main_cst_2 (constant S_ .f32 0x3727C5AC#32),
    unary main_cst_2 main_v89 (broadcastInDim S64 ![] bcast_S_S64),
    binary main_v85 main_v89 main_v90 addf,
    unary main_v90 main_v91 (Host.rsqrt),
    unary main_v91 main_v92 (broadcastInDim S1x64 ![1] bcast_S64_S1x64_1),
    unary main_v92 main_v93 (broadcastInDim S100000x64 ![0, 1] bcast_S1x64_S100000x64_0_1),
    binary main_v88 main_v93 main_v94 mulf,
    unary main_v79 main_v95 (broadcastInDim S1x64 ![1] bcast_S64_S1x64_1),
    unary main_v95 main_v96 (broadcastInDim S100000x64 ![0, 1] bcast_S1x64_S100000x64_0_1),
    binary main_v94 main_v96 main_v97 mulf,
    unary main_v81 main_v98 (broadcastInDim S1x64 ![1] bcast_S64_S1x64_1),
    unary main_v98 main_v99 (broadcastInDim S100000x64 ![0, 1] bcast_S1x64_S100000x64_0_1),
    binary main_v97 main_v99 main_v100 addf,
    binary main_v100 main_v26 main_v101 addf,
    nullary main_c_3 (constantI S_ 32 0#32),
    unary main_c_3 main_v102 (broadcastInDim S1600000 ![] bcast_S_S1600000),
    binary main_v1 main_v102 main_v103 (cmpi .slt),
    nullary main_c_4 (constantI S_ 32 100000#32),
    unary main_c_4 main_v104 (broadcastInDim S1600000 ![] bcast_S_S1600000),
    binary main_v1 main_v104 main_v105 addi,
    ternary main_v103 main_v105 main_v1 main_v106 (select),
    unary main_v106 main_v107 (broadcastInDim S1600000x1 ![0] bcast_S1600000_S1600000x1_0),
    binary main_v101 main_v107 main_v108 (fun x i => Host.gather gather_S100000x64_S1600000x1_S1600000x64_1_0_n_n_0_1_164 x i),
    nullary main_cst_5 (constant S_ .f32 0x00000000#32),
    unary main_cst_5 main_v109 (broadcastInDim S100000x64 ![] bcast_S_S100000x64),
    unary main_v3 main_v110 (broadcastInDim S1600000x1 ![0] bcast_S1600000_S1600000x1_0),
    ternary main_v109 main_v110 main_v108 main_v111 (fun x i u => Host.scatterAdd scatter_S100000x64_S1600000x1_S1600000x64_1_0_0_1 x i u) ]

theorem ops4_sub : (ops4 : List (HloOp τ sig (Elt F))).Forall fun op => op.bufs ⊆ tcRefs τ sig := by
  simp only [List.Forall, reshape_bufs_sub, unary_bufs_sub, binary_bufs_sub, nullary_bufs_sub, ternary_bufs_sub, and_self]

theorem ops4_fresh : (ops4 : List (HloOp τ sig (Elt F))).Forall fun op => op.fresh = ∅ := by
  simp only [List.Forall]; and_intros <;> rfl

abbrev ops4_W : List (Ref sig .tc) := [main_v85, main_v86, main_v87, main_v88, main_cst_2, main_v89, main_v90, main_v91, main_v92, main_v93, main_v94, main_v95, main_v96, main_v97, main_v98, main_v99, main_v100, main_v101, main_c_3, main_v102, main_v103, main_c_4, main_v104, main_v105, main_v106, main_v107, main_v108, main_cst_5, main_v109, main_v110, main_v111]

theorem ops4_writes : (ops4 : List (HloOp τ sig (Elt F))).Forall fun op => op.writes ⊆ (ops4_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)

variable (X : Valuation τ sig (Elt F))

theorem ops4_keep (r : Ref sig .tc) (h : r ∉ ops4_W) :
    after ops4 X (Proc.devRef .tc r) = X (Proc.devRef .tc r) :=
  after_of_writes_sub ops4 X ops4_writes h

theorem ops4_main_v101 {x0 x1 x3 x4 x5 x6 x7 x8 x9 x10 x11 x12 x13 x14 x15 x16 x17 x18 x19 x20 x21 x22 : _}
    (h_v26 : X (Proc.devRef .tc main_v26) = val_main_v26 (F := F) x0 x3 x4 x5 x6 x7 x8 x9 x10)
    (h_v77 : X (Proc.devRef .tc main_v77) = val_main_v77 (F := F) x0 x1 x3 x4 x5 x6 x7 x8 x9 x10 x11 x12 x13 x14 x15 x16 x17 x18)
    (h_v79 : X (Proc.devRef .tc main_v79) = val_main_v79 (F := F) x19)
    (h_v81 : X (Proc.devRef .tc main_v81) = val_main_v81 (F := F) x20)
    (h_v83 : X (Proc.devRef .tc main_v83) = val_main_v83 (F := F) x21)
    (h_v84 : X (Proc.devRef .tc main_v84) = val_main_v84 (F := F) x22) :
    after ops4 X (Proc.devRef .tc main_v101) = val_main_v101 (F := F) x0 x1 x3 x4 x5 x6 x7 x8 x9 x10 x11 x12 x13 x14 x15 x16 x17 x18 x19 x20 x21 x22 := by
  simp only [ops4]
  after_results_simp
  simp only [h_v26, h_v77, h_v79, h_v81, h_v83, h_v84]
  rfl

theorem ops4_main_v111 {x0 x1 x3 x4 x5 x6 x7 x8 x9 x10 x11 x12 x13 x14 x15 x16 x17 x18 x19 x20 x21 x22 : _}
    (h_v1 : X (Proc.devRef .tc main_v1) = val_main_v1 (F := F) x1)
    (h_v3 : X (Proc.devRef .tc main_v3) = val_main_v3 (F := F) x1)
    (h_v26 : X (Proc.devRef .tc main_v26) = val_main_v26 (F := F) x0 x3 x4 x5 x6 x7 x8 x9 x10)
    (h_v77 : X (Proc.devRef .tc main_v77) = val_main_v77 (F := F) x0 x1 x3 x4 x5 x6 x7 x8 x9 x10 x11 x12 x13 x14 x15 x16 x17 x18)
    (h_v79 : X (Proc.devRef .tc main_v79) = val_main_v79 (F := F) x19)
    (h_v81 : X (Proc.devRef .tc main_v81) = val_main_v81 (F := F) x20)
    (h_v83 : X (Proc.devRef .tc main_v83) = val_main_v83 (F := F) x21)
    (h_v84 : X (Proc.devRef .tc main_v84) = val_main_v84 (F := F) x22) :
    after ops4 X (Proc.devRef .tc main_v111) = val_main_v111 (F := F) x0 x1 x3 x4 x5 x6 x7 x8 x9 x10 x11 x12 x13 x14 x15 x16 x17 x18 x19 x20 x21 x22 := by
  simp only [ops4]
  after_results_simp
  simp only [h_v1, h_v3, h_v26, h_v77, h_v79, h_v81, h_v83, h_v84]
  rfl

end Cert.ReferenceIdeal.HandRun

end
-- ==== Proof.Hand.RefRun5.lean ====
import proofs.«406513_j58480274702513_1_alg».proof.Proof.Gen.ReferenceIdeal
import proofs.«406513_j58480274702513_1_alg».proof.Proof.RefStages
import Idealize.ShloMosaic.Lib.StableHlo.Run

noncomputable section

namespace Cert.ReferenceIdeal.HandRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops5 : List (HloOp τ sig (Elt F)) :=
  [ binary main_v101 main_v111 main_v112 addf,
    unary main_arg11 main_v113 (extractStridedSlice S1x64x64 ![1, 0, 0] · slices_S2x64x64_S1x64x64_1_0_0),
    reshape main_v113 main_v114 rfl shapeCasts_S1x64x64_S64x64,
    binary main_v112 main_v114 main_v115 (fun l r => Host.dotGeneral dot_S100000x64_S64x64_S100000x64_1_0_0_1_n_n none l r),
    unary main_arg12 main_v116 (extractStridedSlice S1x64 ![1, 0] · slices_S2x64_S1x64_1_0),
    reshape main_v116 main_v117 rfl shapeCasts_S1x64_S64,
    unary main_v117 main_v118 (broadcastInDim S1x64 ![1] bcast_S64_S1x64_1),
    unary main_v118 main_v119 (broadcastInDim S100000x64 ![0, 1] bcast_S1x64_S100000x64_0_1),
    binary main_v115 main_v119 main_v120 addf,
    unary main_arg13 main_v121 (extractStridedSlice S1x64 ![1, 0] · slices_S2x64_S1x64_1_0),
    reshape main_v121 main_v122 rfl shapeCasts_S1x64_S64,
    unary main_arg14 main_v123 (extractStridedSlice S1x64 ![1, 0] · slices_S2x64_S1x64_1_0),
    reshape main_v123 main_v124 rfl shapeCasts_S1x64_S64,
    unary main_arg15 main_v125 (extractStridedSlice S1x64 ![1, 0] · slices_S2x64_S1x64_1_0),
    reshape main_v125 main_v126 rfl shapeCasts_S1x64_S64,
    unary main_arg16 main_v127 (extractStridedSlice S1x64 ![1, 0] · slices_S2x64_S1x64_1_0),
    reshape main_v127 main_v128 rfl shapeCasts_S1x64_S64,
    unary main_v126 main_v129 (broadcastInDim S1x64 ![1] bcast_S64_S1x64_1),
    unary main_v129 main_v130 (broadcastInDim S100000x64 ![0, 1] bcast_S1x64_S100000x64_0_1),
    binary main_v120 main_v130 main_v131 subf,
    nullary main_cst_6 (constant S_ .f32 0x3727C5AC#32),
    unary main_cst_6 main_v132 (broadcastInDim S64 ![] bcast_S_S64),
    binary main_v128 main_v132 main_v133 addf,
    unary main_v133 main_v134 (Host.rsqrt),
    unary main_v134 main_v135 (broadcastInDim S1x64 ![1] bcast_S64_S1x64_1),
    unary main_v135 main_v136 (broadcastInDim S100000x64 ![0, 1] bcast_S1x64_S100000x64_0_1),
    binary main_v131 main_v136 main_v137 mulf,
    unary main_v122 main_v138 (broadcastInDim S1x64 ![1] bcast_S64_S1x64_1),
    unary main_v138 main_v139 (broadcastInDim S100000x64 ![0, 1] bcast_S1x64_S100000x64_0_1),
    binary main_v137 main_v139 main_v140 mulf,
    unary main_v124 main_v141 (broadcastInDim S1x64 ![1] bcast_S64_S1x64_1) ]

theorem ops5_sub : (ops5 : List (HloOp τ sig (Elt F))).Forall fun op => op.bufs ⊆ tcRefs τ sig := by
  simp only [List.Forall, binary_bufs_sub, unary_bufs_sub, reshape_bufs_sub, nullary_bufs_sub, and_self]

theorem ops5_fresh : (ops5 : List (HloOp τ sig (Elt F))).Forall fun op => op.fresh = ∅ := by
  simp only [List.Forall]; and_intros <;> rfl

abbrev ops5_W : List (Ref sig .tc) := [main_v112, main_v113, main_v114, main_v115, main_v116, main_v117, main_v118, main_v119, main_v120, main_v121, main_v122, main_v123, main_v124, main_v125, main_v126, main_v127, main_v128, main_v129, main_v130, main_v131, main_cst_6, main_v132, main_v133, main_v134, main_v135, main_v136, main_v137, main_v138, main_v139, main_v140, main_v141]

theorem ops5_writes : (ops5 : List (HloOp τ sig (Elt F))).Forall fun op => op.writes ⊆ (ops5_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)

variable (X : Valuation τ sig (Elt F))

theorem ops5_keep (r : Ref sig .tc) (h : r ∉ ops5_W) :
    after ops5 X (Proc.devRef .tc r) = X (Proc.devRef .tc r) :=
  after_of_writes_sub ops5 X ops5_writes h

theorem ops5_main_v140 {x0 x1 x3 x4 x5 x6 x7 x8 x9 x10 x11 x12 x13 x14 x15 x16 x17 x18 x19 x20 x21 x22 : _}
    (h_arg11 : X (Proc.devRef .tc main_arg11) = x11)
    (h_arg12 : X (Proc.devRef .tc main_arg12) = x12)
    (h_arg13 : X (Proc.devRef .tc main_arg13) = x13)
    (h_arg15 : X (Proc.devRef .tc main_arg15) = x15)
    (h_arg16 : X (Proc.devRef .tc main_arg16) = x16)
    (h_v101 : X (Proc.devRef .tc main_v101) = val_main_v101 (F := F) x0 x1 x3 x4 x5 x6 x7 x8 x9 x10 x11 x12 x13 x14 x15 x16 x17 x18 x19 x20 x21 x22)
    (h_v111 : X (Proc.devRef .tc main_v111) = val_main_v111 (F := F) x0 x1 x3 x4 x5 x6 x7 x8 x9 x10 x11 x12 x13 x14 x15 x16 x17 x18 x19 x20 x21 x22) :
    after ops5 X (Proc.devRef .tc main_v140) = val_main_v140 (F := F) x0 x1 x3 x4 x5 x6 x7 x8 x9 x10 x11 x12 x13 x14 x15 x16 x17 x18 x19 x20 x21 x22 := by
  simp only [ops5]
  after_results_simp
  simp only [h_arg11, h_arg12, h_arg13, h_arg15, h_arg16, h_v101, h_v111]
  rfl

theorem ops5_main_v141 {x14 : _}
    (h_arg14 : X (Proc.devRef .tc main_arg14) = x14) :
    after ops5 X (Proc.devRef .tc main_v141) = val_main_v141 (F := F) x14 := by
  simp only [ops5]
  after_results_simp
  simp only [h_arg14]
  rfl

end Cert.ReferenceIdeal.HandRun

end
-- ==== Proof.Hand.RefRun6.lean ====
import proofs.«406513_j58480274702513_1_alg».proof.Proof.Gen.ReferenceIdeal
import proofs.«406513_j58480274702513_1_alg».proof.Proof.RefStages
import Idealize.ShloMosaic.Lib.StableHlo.Run

noncomputable section

namespace Cert.ReferenceIdeal.HandRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops6 : List (HloOp τ sig (Elt F)) :=
  [ unary main_v141 main_v142 (broadcastInDim S100000x64 ![0, 1] bcast_S1x64_S100000x64_0_1),
    binary main_v140 main_v142 main_v143 addf,
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v143) (TRef.of (T := ⟨S100000x64, .f32⟩) main_call5_v0) (TRef.of (T := ⟨S100000x64, .f32⟩) main_v144) maximumf,
    unary main_arg17 main_v145 (extractStridedSlice S1x64x64 ![1, 0, 0] · slices_S2x64x64_S1x64x64_1_0_0),
    reshape main_v145 main_v146 rfl shapeCasts_S1x64x64_S64x64,
    binary main_v144 main_v146 main_v147 (fun l r => Host.dotGeneral dot_S100000x64_S64x64_S100000x64_1_0_0_1_n_n none l r),
    unary main_arg18 main_v148 (extractStridedSlice S1x64 ![1, 0] · slices_S2x64_S1x64_1_0),
    reshape main_v148 main_v149 rfl shapeCasts_S1x64_S64,
    unary main_v149 main_v150 (broadcastInDim S1x64 ![1] bcast_S64_S1x64_1),
    unary main_v150 main_v151 (broadcastInDim S100000x64 ![0, 1] bcast_S1x64_S100000x64_0_1),
    binary main_v147 main_v151 main_v152 addf,
    unary main_arg19 main_v153 (extractStridedSlice S1x64 ![1, 0] · slices_S2x64_S1x64_1_0),
    reshape main_v153 main_v154 rfl shapeCasts_S1x64_S64,
    unary main_arg20 main_v155 (extractStridedSlice S1x64 ![1, 0] · slices_S2x64_S1x64_1_0),
    reshape main_v155 main_v156 rfl shapeCasts_S1x64_S64,
    unary main_arg21 main_v157 (extractStridedSlice S1x64 ![1, 0] · slices_S2x64_S1x64_1_0),
    reshape main_v157 main_v158 rfl shapeCasts_S1x64_S64,
    unary main_arg22 main_v159 (extractStridedSlice S1x64 ![1, 0] · slices_S2x64_S1x64_1_0),
    reshape main_v159 main_v160 rfl shapeCasts_S1x64_S64,
    unary main_v158 main_v161 (broadcastInDim S1x64 ![1] bcast_S64_S1x64_1),
    unary main_v161 main_v162 (broadcastInDim S100000x64 ![0, 1] bcast_S1x64_S100000x64_0_1),
    binary main_v152 main_v162 main_v163 subf,
    nullary main_cst_7 (constant S_ .f32 0x3727C5AC#32),
    unary main_cst_7 main_v164 (broadcastInDim S64 ![] bcast_S_S64),
    binary main_v160 main_v164 main_v165 addf,
    unary main_v165 main_v166 (Host.rsqrt),
    unary main_v166 main_v167 (broadcastInDim S1x64 ![1] bcast_S64_S1x64_1),
    unary main_v167 main_v168 (broadcastInDim S100000x64 ![0, 1] bcast_S1x64_S100000x64_0_1),
    binary main_v163 main_v168 main_v169 mulf ]

theorem ops6_sub : (ops6 : List (HloOp τ sig (Elt F))).Forall fun op => op.bufs ⊆ tcRefs τ sig := by
  simp only [List.Forall, unary_bufs_sub, binary_bufs_sub, nullary_bufs_sub, reshape_bufs_sub, and_self]

theorem ops6_fresh : (ops6 : List (HloOp τ sig (Elt F))).Forall fun op => op.fresh = ∅ := by
  simp only [List.Forall]; and_intros <;> rfl

abbrev ops6_W : List (Ref sig .tc) := [main_v142, main_v143, main_call5_cst, main_call5_v0, main_v144, main_v145, main_v146, main_v147, main_v148, main_v149, main_v150, main_v151, main_v152, main_v153, main_v154, main_v155, main_v156, main_v157, main_v158, main_v159, main_v160, main_v161, main_v162, main_v163, main_cst_7, main_v164, main_v165, main_v166, main_v167, main_v168, main_v169]

theorem ops6_writes : (ops6 : List (HloOp τ sig (Elt F))).Forall fun op => op.writes ⊆ (ops6_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)

variable (X : Valuation τ sig (Elt F))

theorem ops6_keep (r : Ref sig .tc) (h : r ∉ ops6_W) :
    after ops6 X (Proc.devRef .tc r) = X (Proc.devRef .tc r) :=
  after_of_writes_sub ops6 X ops6_writes h

theorem ops6_main_v154 {x19 : _}
    (h_arg19 : X (Proc.devRef .tc main_arg19) = x19) :
    after ops6 X (Proc.devRef .tc main_v154) = val_main_v154 (F := F) x19 := by
  simp only [ops6]
  after_results_simp
  simp only [h_arg19]
  rfl

theorem ops6_main_v156 {x20 : _}
    (h_arg20 : X (Proc.devRef .tc main_arg20) = x20) :
    after ops6 X (Proc.devRef .tc main_v156) = val_main_v156 (F := F) x20 := by
  simp only [ops6]
  after_results_simp
  simp only [h_arg20]
  rfl

theorem ops6_main_v169 {x0 x1 x3 x4 x5 x6 x7 x8 x9 x10 x11 x12 x13 x14 x15 x16 x17 x18 x19 x20 x21 x22 : _}
    (h_arg17 : X (Proc.devRef .tc main_arg17) = x17)
    (h_arg18 : X (Proc.devRef .tc main_arg18) = x18)
    (h_arg21 : X (Proc.devRef .tc main_arg21) = x21)
    (h_arg22 : X (Proc.devRef .tc main_arg22) = x22)
    (h_v140 : X (Proc.devRef .tc main_v140) = val_main_v140 (F := F) x0 x1 x3 x4 x5 x6 x7 x8 x9 x10 x11 x12 x13 x14 x15 x16 x17 x18 x19 x20 x21 x22)
    (h_v141 : X (Proc.devRef .tc main_v141) = val_main_v141 (F := F) x14) :
    after ops6 X (Proc.devRef .tc main_v169) = val_main_v169 (F := F) x0 x1 x3 x4 x5 x6 x7 x8 x9 x10 x11 x12 x13 x14 x15 x16 x17 x18 x19 x20 x21 x22 := by
  simp only [ops6]
  after_results_simp
  simp only [h_arg17, h_arg18, h_arg21, h_arg22, h_v140, h_v141]
  rfl

end Cert.ReferenceIdeal.HandRun

end
-- ==== Proof.Hand.RefRun7.lean ====
import proofs.«406513_j58480274702513_1_alg».proof.Proof.Gen.ReferenceIdeal
import proofs.«406513_j58480274702513_1_alg».proof.Proof.RefStages
import Idealize.ShloMosaic.Lib.StableHlo.Run

noncomputable section

namespace Cert.ReferenceIdeal.HandRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops7 : List (HloOp τ sig (Elt F)) :=
  [ unary main_v154 main_v170 (broadcastInDim S1x64 ![1] bcast_S64_S1x64_1),
    unary main_v170 main_v171 (broadcastInDim S100000x64 ![0, 1] bcast_S1x64_S100000x64_0_1),
    binary main_v169 main_v171 main_v172 mulf,
    unary main_v156 main_v173 (broadcastInDim S1x64 ![1] bcast_S64_S1x64_1),
    unary main_v173 main_v174 (broadcastInDim S100000x64 ![0, 1] bcast_S1x64_S100000x64_0_1),
    binary main_v172 main_v174 main_v175 addf,
    binary main_v175 main_v101 main_v176 addf,
    binary main_v176 main_v26 main_v177 addf,
    nullary main_cst_8 (constant S_ .f32 0x00000000#32),
    unary main_cst_8 main_v178 (broadcastInDim S512x64 ![] bcast_S_S512x64),
    unary main_arg2 main_v179 (broadcastInDim S100000x1 ![0] bcast_S100000_S100000x1_0),
    ternary main_v178 main_v179 main_v177 main_v180 (fun x i u => Host.scatterAdd scatter_S512x64_S100000x1_S100000x64_1_0_0_1 x i u),
    nullary main_cst_9 (constant S_ .f32 0x3F800000#32),
    unary main_cst_9 main_v181 (broadcastInDim S100000 ![] bcast_S_S100000),
    nullary main_cst_10 (constant S_ .f32 0x00000000#32),
    unary main_cst_10 main_v182 (broadcastInDim S512 ![] bcast_S_S512),
    unary main_arg2 main_v183 (broadcastInDim S100000x1 ![0] bcast_S100000_S100000x1_0),
    ternary main_v182 main_v183 main_v181 main_v184 (fun x i u => Host.scatterAdd scatter_S512_S100000x1_S100000_n_0_0_1 x i u),
    nullary main_cst_11 (constant S_ .f32 0x3F800000#32),
    unary main_cst_11 main_v185 (broadcastInDim S512 ![] bcast_S_S512),
    binary main_v184 main_v185 main_v186 maximumf,
    unary main_v186 main_v187 (broadcastInDim S512x1 ![0] bcast_S512_S512x1_0),
    unary main_v187 main_v188 (broadcastInDim S512x64 ![0, 1] bcast_S512x1_S512x64_0_1),
    binary main_v180 main_v188 main_v189 (Host.divf),
    binary main_v189 main_arg23 main_v190 (fun l r => Host.dotGeneral dot_S512x64_S64x16_S512x16_1_0_0_1_n_n none l r) ]

theorem ops7_sub : (ops7 : List (HloOp τ sig (Elt F))).Forall fun op => op.bufs ⊆ tcRefs τ sig := by
  simp only [List.Forall, unary_bufs_sub, binary_bufs_sub, nullary_bufs_sub, ternary_bufs_sub, and_self]

theorem ops7_fresh : (ops7 : List (HloOp τ sig (Elt F))).Forall fun op => op.fresh = ∅ := by
  simp only [List.Forall]; and_intros <;> rfl

abbrev ops7_W : List (Ref sig .tc) := [main_v170, main_v171, main_v172, main_v173, main_v174, main_v175, main_v176, main_v177, main_cst_8, main_v178, main_v179, main_v180, main_cst_9, main_v181, main_cst_10, main_v182, main_v183, main_v184, main_cst_11, main_v185, main_v186, main_v187, main_v188, main_v189, main_v190]

theorem ops7_writes : (ops7 : List (HloOp τ sig (Elt F))).Forall fun op => op.writes ⊆ (ops7_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)

variable (X : Valuation τ sig (Elt F))

theorem ops7_keep (r : Ref sig .tc) (h : r ∉ ops7_W) :
    after ops7 X (Proc.devRef .tc r) = X (Proc.devRef .tc r) :=
  after_of_writes_sub ops7 X ops7_writes h

theorem ops7_main_v190 {x0 x1 x2 x3 x4 x5 x6 x7 x8 x9 x10 x11 x12 x13 x14 x15 x16 x17 x18 x19 x20 x21 x22 x23 : _}
    (h_arg2 : X (Proc.devRef .tc main_arg2) = x2)
    (h_arg23 : X (Proc.devRef .tc main_arg23) = x23)
    (h_v26 : X (Proc.devRef .tc main_v26) = val_main_v26 (F := F) x0 x3 x4 x5 x6 x7 x8 x9 x10)
    (h_v101 : X (Proc.devRef .tc main_v101) = val_main_v101 (F := F) x0 x1 x3 x4 x5 x6 x7 x8 x9 x10 x11 x12 x13 x14 x15 x16 x17 x18 x19 x20 x21 x22)
    (h_v154 : X (Proc.devRef .tc main_v154) = val_main_v154 (F := F) x19)
    (h_v156 : X (Proc.devRef .tc main_v156) = val_main_v156 (F := F) x20)
    (h_v169 : X (Proc.devRef .tc main_v169) = val_main_v169 (F := F) x0 x1 x3 x4 x5 x6 x7 x8 x9 x10 x11 x12 x13 x14 x15 x16 x17 x18 x19 x20 x21 x22) :
    after ops7 X (Proc.devRef .tc main_v190) = val_main_v190 (F := F) x0 x1 x2 x3 x4 x5 x6 x7 x8 x9 x10 x11 x12 x13 x14 x15 x16 x17 x18 x19 x20 x21 x22 x23 := by
  simp only [ops7]
  after_results_simp
  simp only [h_arg2, h_arg23, h_v26, h_v101, h_v154, h_v156, h_v169]
  rfl

end Cert.ReferenceIdeal.HandRun

end
-- ==== Proof.Hand.RefRun8.lean ====
import proofs.«406513_j58480274702513_1_alg».proof.Proof.Gen.ReferenceIdeal
import proofs.«406513_j58480274702513_1_alg».proof.Proof.RefStages
import Idealize.ShloMosaic.Lib.StableHlo.Run

noncomputable section

namespace Cert.ReferenceIdeal.HandRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops8 : List (HloOp τ sig (Elt F)) :=
  [ unary main_arg24 main_v191 (broadcastInDim S1x16 ![1] bcast_S16_S1x16_1),
    unary main_v191 main_v192 (broadcastInDim S512x16 ![0, 1] bcast_S1x16_S512x16_0_1),
    binary main_v190 main_v192 main_v193 addf,
    TRef.nullary (TRef.of (T := ⟨S_, .f32⟩) main_call6_cst) (constant S_ .f32 0x00000000#32),
    TRef.unary (TRef.of (T := ⟨S_, .f32⟩) main_call6_cst) (TRef.of (T := ⟨S512x16, .f32⟩) main_call6_v0) (broadcastInDim S512x16 ![] bcast_S_S512x16),
    TRef.binary (TRef.of (T := ⟨S512x16, .f32⟩) main_v193) (TRef.of (T := ⟨S512x16, .f32⟩) main_call6_v0) (TRef.of (T := ⟨S512x16, .f32⟩) main_v194) maximumf,
    binary main_v194 main_arg25 main_v195 (fun l r => Host.dotGeneral dot_S512x16_S16x7_S512x7_1_0_0_1_n_n none l r),
    unary main_arg26 main_v196 (broadcastInDim S1x7 ![1] bcast_S7_S1x7_1),
    unary main_v196 main_v197 (broadcastInDim S512x7 ![0, 1] bcast_S1x7_S512x7_0_1),
    binary main_v195 main_v197 main_v198 addf,
    TRef.nullary (TRef.of (T := ⟨S_, .f32⟩) main_call7_cst) (constant S_ .f32 0xFF800000#32),
    TRef.binary (TRef.of (T := ⟨S512x7, .f32⟩) main_v198) (TRef.of (T := ⟨S_, .f32⟩) main_call7_cst) (TRef.of (T := ⟨S512, .f32⟩) main_call7_v0) (fun x v => Host.reduce FloatOps.maximumf x v reducesTo_S512x7_S512_d1 h_S_),
    TRef.nullary (TRef.of (T := ⟨S_, .f32⟩) main_call7_cst_0) (constant S_ .f32 0xFF800000#32),
    TRef.unary (TRef.of (T := ⟨S_, .f32⟩) main_call7_cst_0) (TRef.of (T := ⟨S512, .f32⟩) main_call7_v1) (broadcastInDim S512 ![] bcast_S_S512),
    TRef.binary (TRef.of (T := ⟨S512, .f32⟩) main_call7_v1) (TRef.of (T := ⟨S512, .f32⟩) main_call7_v0) (TRef.of (T := ⟨S512, .f32⟩) main_call7_v2) maximumf,
    TRef.unary (TRef.of (T := ⟨S512, .f32⟩) main_call7_v2) (TRef.of (T := ⟨S512x1, .f32⟩) main_call7_v3) (broadcastInDim S512x1 ![0] bcast_S512_S512x1_0),
    TRef.unary (TRef.of (T := ⟨S512x1, .f32⟩) main_call7_v3) (TRef.of (T := ⟨S512x7, .f32⟩) main_call7_v4) (broadcastInDim S512x7 ![0, 1] bcast_S512x1_S512x7_0_1),
    TRef.binary (TRef.of (T := ⟨S512x7, .f32⟩) main_v198) (TRef.of (T := ⟨S512x7, .f32⟩) main_call7_v4) (TRef.of (T := ⟨S512x7, .f32⟩) main_call7_v5) subf,
    TRef.unary (TRef.of (T := ⟨S512x7, .f32⟩) main_call7_v5) (TRef.of (T := ⟨S512x7, .f32⟩) main_call7_v6) Host.exp,
    TRef.nullary (TRef.of (T := ⟨S_, .f32⟩) main_call7_cst_1) (constant S_ .f32 0x00000000#32),
    TRef.binary (TRef.of (T := ⟨S512x7, .f32⟩) main_call7_v6) (TRef.of (T := ⟨S_, .f32⟩) main_call7_cst_1) (TRef.of (T := ⟨S512, .f32⟩) main_call7_v7) (fun x v => Host.reduceAdd x v reducesTo_S512x7_S512_d1 h_S_),
    TRef.unary (TRef.of (T := ⟨S512, .f32⟩) main_call7_v7) (TRef.of (T := ⟨S512x1, .f32⟩) main_call7_v8) (broadcastInDim S512x1 ![0] bcast_S512_S512x1_0),
    TRef.unary (TRef.of (T := ⟨S512x1, .f32⟩) main_call7_v8) (TRef.of (T := ⟨S512x1, .f32⟩) main_call7_v9) Host.log,
    TRef.unary (TRef.of (T := ⟨S512x1, .f32⟩) main_call7_v9) (TRef.of (T := ⟨S512x7, .f32⟩) main_call7_v10) (broadcastInDim S512x7 ![0, 1] bcast_S512x1_S512x7_0_1),
    TRef.binary (TRef.of (T := ⟨S512x7, .f32⟩) main_call7_v5) (TRef.of (T := ⟨S512x7, .f32⟩) main_call7_v10) (TRef.of (T := ⟨S512x7, .f32⟩) main_v199) subf ]

theorem ops8_sub : (ops8 : List (HloOp τ sig (Elt F))).Forall fun op => op.bufs ⊆ tcRefs τ sig := by
  simp only [List.Forall, unary_bufs_sub, binary_bufs_sub, nullary_bufs_sub, and_self]

theorem ops8_fresh : (ops8 : List (HloOp τ sig (Elt F))).Forall fun op => op.fresh = ∅ := by
  simp only [List.Forall]; and_intros <;> rfl

abbrev ops8_W : List (Ref sig .tc) := [main_v191, main_v192, main_v193, main_call6_cst, main_call6_v0, main_v194, main_v195, main_v196, main_v197, main_v198, main_call7_cst, main_call7_v0, main_call7_cst_0, main_call7_v1, main_call7_v2, main_call7_v3, main_call7_v4, main_call7_v5, main_call7_v6, main_call7_cst_1, main_call7_v7, main_call7_v8, main_call7_v9, main_call7_v10, main_v199]

theorem ops8_writes : (ops8 : List (HloOp τ sig (Elt F))).Forall fun op => op.writes ⊆ (ops8_W.map (Proc.devRef (τ := τ) .tc)).toFinset := by
  simp only [List.Forall, nullary_writes, unary_writes, binary_writes, ternary_writes, reshape_writes, Finset.singleton_subset_iff, List.mem_toFinset]
  and_intros <;> exact List.mem_map_of_mem (by decide)

variable (X : Valuation τ sig (Elt F))

theorem ops8_keep (r : Ref sig .tc) (h : r ∉ ops8_W) :
    after ops8 X (Proc.devRef .tc r) = X (Proc.devRef .tc r) :=
  after_of_writes_sub ops8 X ops8_writes h

theorem ops8_main_v199 {x0 x1 x2 x3 x4 x5 x6 x7 x8 x9 x10 x11 x12 x13 x14 x15 x16 x17 x18 x19 x20 x21 x22 x23 x24 x25 x26 : _}
    (h_arg24 : X (Proc.devRef .tc main_arg24) = x24)
    (h_arg25 : X (Proc.devRef .tc main_arg25) = x25)
    (h_arg26 : X (Proc.devRef .tc main_arg26) = x26)
    (h_v190 : X (Proc.devRef .tc main_v190) = val_main_v190 (F := F) x0 x1 x2 x3 x4 x5 x6 x7 x8 x9 x10 x11 x12 x13 x14 x15 x16 x17 x18 x19 x20 x21 x22 x23) :
    after ops8 X (Proc.devRef .tc main_v199) = val_main_v199 (F := F) x0 x1 x2 x3 x4 x5 x6 x7 x8 x9 x10 x11 x12 x13 x14 x15 x16 x17 x18 x19 x20 x21 x22 x23 x24 x25 x26 := by
  simp only [ops8]
  after_results_simp
  simp only [h_arg24, h_arg25, h_arg26, h_v190]
  rfl

end Cert.ReferenceIdeal.HandRun

end
-- ==== Proof.Hand.RefRun9.lean ====
import proofs.«406513_j58480274702513_1_alg».proof.Proof.Hand.RefRun1
import proofs.«406513_j58480274702513_1_alg».proof.Proof.Hand.RefRun2
import proofs.«406513_j58480274702513_1_alg».proof.Proof.Hand.RefRun3
import proofs.«406513_j58480274702513_1_alg».proof.Proof.Hand.RefRun4
import proofs.«406513_j58480274702513_1_alg».proof.Proof.Hand.RefRun5
import proofs.«406513_j58480274702513_1_alg».proof.Proof.Hand.RefRun6
import proofs.«406513_j58480274702513_1_alg».proof.Proof.Hand.RefRun7
import proofs.«406513_j58480274702513_1_alg».proof.Proof.Hand.RefRun8
import Idealize.ShloMosaic.Lib.Pipeline.Frame

noncomputable section

namespace Cert.ReferenceIdeal.HandRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev ops : List (HloOp τ sig (Elt F)) :=
  ops1 ++ (ops2 ++ (ops3 ++ (ops4 ++ (ops5 ++ (ops6 ++ (ops7 ++ ops8))))))

theorem ops_sub : (ops : List (HloOp τ sig (Elt F))).Forall fun op => op.bufs ⊆ tcRefs τ sig := by
  simp only [ops, List.forall_append]
  exact ⟨ops1_sub, ops2_sub, ops3_sub, ops4_sub, ops5_sub, ops6_sub, ops7_sub, ops8_sub⟩

theorem ops_fresh : (ops : List (HloOp τ sig (Elt F))).Forall fun op => op.fresh = ∅ := by
  simp only [ops, List.forall_append]
  exact ⟨ops1_fresh, ops2_fresh, ops3_fresh, ops4_fresh, ops5_fresh, ops6_fresh, ops7_fresh, ops8_fresh⟩

set_option maxRecDepth 8192 in
set_option maxHeartbeats 4000000 in
theorem main_eq (c : Dev nD) : main (F := F) c = seq ops := by
  have h0 : main_part0 (F := F) c = (seq ops1 >>= fun _ => seq ops2) := rfl
  have h1 : main_part1 (F := F) c = (seq ops3 >>= fun _ => seq ops4) := rfl
  have h2 : main_part2 (F := F) c = (seq ops5 >>= fun _ => seq ops6) := rfl
  have h3 : main_part3 (F := F) c = (seq ops7 >>= fun _ => seq ops8) := rfl
  simp only [main, h0, h1, h2, h3, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26]

-- No stretch writes an argument of @main.
theorem args_kept : ∀ r ∈ args, r ∉ ops1_W ∧ r ∉ ops2_W ∧ r ∉ ops3_W ∧ r ∉ ops4_W ∧ r ∉ ops5_W ∧ r ∉ ops6_W ∧ r ∉ ops7_W ∧ r ∉ ops8_W := by
  decide

variable (V : Valuation τ sig (Elt F))

def W1 := after ops1 V
def W2 := after ops2 (W1 V)
def W3 := after ops3 (W2 V)
def W4 := after ops4 (W3 V)
def W5 := after ops5 (W4 V)
def W6 := after ops6 (W5 V)
def W7 := after ops7 (W6 V)
def W8 := after ops8 (W7 V)

variable {V}

theorem W1_arg {r} (h : r ∈ args := by decide) : W1 V (Proc.devRef .tc r) = V (Proc.devRef .tc r) :=
  ops1_keep V r (args_kept r h).1
theorem W2_arg {r} (h : r ∈ args := by decide) : W2 V (Proc.devRef .tc r) = V (Proc.devRef .tc r) :=
  (ops2_keep _ r (args_kept r h).2.1).trans (W1_arg h)
theorem W3_arg {r} (h : r ∈ args := by decide) : W3 V (Proc.devRef .tc r) = V (Proc.devRef .tc r) :=
  (ops3_keep _ r (args_kept r h).2.2.1).trans (W2_arg h)
theorem W4_arg {r} (h : r ∈ args := by decide) : W4 V (Proc.devRef .tc r) = V (Proc.devRef .tc r) :=
  (ops4_keep _ r (args_kept r h).2.2.2.1).trans (W3_arg h)
theorem W5_arg {r} (h : r ∈ args := by decide) : W5 V (Proc.devRef .tc r) = V (Proc.devRef .tc r) :=
  (ops5_keep _ r (args_kept r h).2.2.2.2.1).trans (W4_arg h)
theorem W6_arg {r} (h : r ∈ args := by decide) : W6 V (Proc.devRef .tc r) = V (Proc.devRef .tc r) :=
  (ops6_keep _ r (args_kept r h).2.2.2.2.2.1).trans (W5_arg h)
theorem W7_arg {r} (h : r ∈ args := by decide) : W7 V (Proc.devRef .tc r) = V (Proc.devRef .tc r) :=
  (ops7_keep _ r (args_kept r h).2.2.2.2.2.2.1).trans (W6_arg h)
theorem W8_arg {r} (h : r ∈ args := by decide) : W8 V (Proc.devRef .tc r) = V (Proc.devRef .tc r) :=
  (ops8_keep _ r (args_kept r h).2.2.2.2.2.2.2).trans (W7_arg h)

variable (V)

-- Stretch by stretch, each buffer a later stretch reads holds its stage value of the arguments' contents at `V`.
theorem W8_main_v199 : W8 V (Proc.devRef .tc main_v199) = val_main_v199 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) := by
  have v1 := ops1_main_v1 V rfl
  have v3 := ops1_main_v3 V rfl
  have v15 := ops1_main_v15 V rfl rfl rfl rfl rfl
  have v25 := ops1_main_v25 V rfl rfl rfl rfl rfl
  have v1 := (ops2_keep _ main_v1 (by decide)).trans v1
  have v3 := (ops2_keep _ main_v3 (by decide)).trans v3
  have v26 := ops2_main_v26 (W1 V) v15 v25
  have v47 := ops2_main_v47 (W1 V) W1_arg
  have v49 := ops2_main_v49 (W1 V) W1_arg
  have v53 := ops2_main_v53 (W1 V) W1_arg
  have v56 := ops2_main_v56 (W1 V) W1_arg W1_arg W1_arg v1 v3 v15 v25
  have v1 := (ops3_keep _ main_v1 (by decide)).trans v1
  have v3 := (ops3_keep _ main_v3 (by decide)).trans v3
  have v26 := (ops3_keep _ main_v26 (by decide)).trans v26
  have v77 := ops3_main_v77 (W2 V) W2_arg W2_arg v47 v49 v53 v56
  have v79 := ops3_main_v79 (W2 V) W2_arg
  have v81 := ops3_main_v81 (W2 V) W2_arg
  have v83 := ops3_main_v83 (W2 V) W2_arg
  have v84 := ops3_main_v84 (W2 V) W2_arg
  have v26 := (ops4_keep _ main_v26 (by decide)).trans v26
  have v101 := ops4_main_v101 (W3 V) v26 v77 v79 v81 v83 v84
  have v111 := ops4_main_v111 (W3 V) v1 v3 v26 v77 v79 v81 v83 v84
  have v26 := (ops5_keep _ main_v26 (by decide)).trans v26
  have v101 := (ops5_keep _ main_v101 (by decide)).trans v101
  have v140 := ops5_main_v140 (W4 V) W4_arg W4_arg W4_arg W4_arg W4_arg v101 v111
  have v141 := ops5_main_v141 (W4 V) W4_arg
  have v26 := (ops6_keep _ main_v26 (by decide)).trans v26
  have v101 := (ops6_keep _ main_v101 (by decide)).trans v101
  have v154 := ops6_main_v154 (W5 V) W5_arg
  have v156 := ops6_main_v156 (W5 V) W5_arg
  have v169 := ops6_main_v169 (W5 V) W5_arg W5_arg W5_arg W5_arg v140 v141
  have v190 := ops7_main_v190 (W6 V) W6_arg W6_arg v26 v101 v154 v156 v169
  exact ops8_main_v199 (W7 V) W7_arg W7_arg W7_arg v190

theorem after_ops : after ops V = W8 V := by
  simp only [ops, after_append]
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v199) = val_main_v199 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run defs _ _).mono (fun _ h c => by
      have e := fun r => (h c r).trans (congrFun (after_ops _) _)
      refine ⟨(e _).trans (W8_main_v199 _), ?_⟩
      and_intros <;> exact (e _).trans W8_arg)
    (run_seq scopedRefs_eq scopedSems_eq defs main (fun _ => ops) main_eq (fun _ => ops_sub) m ρ fun _ => List.forall_iff_forall_mem.mp ops_fresh)

end Cert.ReferenceIdeal.HandRun

end
-- ==== Proof.Hand.Glue.lean ====
import proofs.«406513_j58480274702513_1_alg».proof.Proof.Hand.Keep
import Idealize.ShloMosaic.Lib.StableHlo.Run

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)
variable (o0 : (c : Dev nD) → Buf (Elt F) ((c : Thread nD τ).loc main_v8))
variable (o1 : (c : Dev nD) → Buf (Elt F) ((c : Thread nD τ).loc main_v51))
variable (o2 : (c : Dev nD) → Buf (Elt F) ((c : Thread nD τ).loc main_v91))

theorem W2_main_v8 (c : Dev nD) : W2 m o0 c main_v8 = o0 c := Function.update_self ..
theorem W6_main_v51 (c : Dev nD) : W6 m o0 o1 c main_v51 = o1 c := Function.update_self ..
theorem W9_main_v91 (c : Dev nD) : W9 m o0 o1 o2 c main_v91 = o2 c := Function.update_self ..

-- An array no item of the program writes holds its launch contents at every boundary.
theorem W1_launch (c : Dev nD) (r : Ref sig .tc) (h : r ∉ written := by decide) : W1 m c r = m ((c : Thread nD τ).loc r) := by
  have k := h; simp only [written, List.mem_append, not_or] at k
  exact (W1_keep m c r k.1).trans rfl
theorem W2_launch (c : Dev nD) (r : Ref sig .tc) (h : r ∉ written := by decide) : W2 m o0 c r = m ((c : Thread nD τ).loc r) := by
  have k := h; simp only [written, List.mem_append, not_or] at k
  exact (W2_keep m o0 c r k.2.1).trans (W1_launch m c r h)
theorem W4_launch (c : Dev nD) (r : Ref sig .tc) (h : r ∉ written := by decide) : W4 m o0 c r = m ((c : Thread nD τ).loc r) := by
  have k := h; simp only [written, List.mem_append, not_or] at k
  exact (W4_keep m o0 c r k.2.2.2.1).trans <| (W3_keep m o0 c r k.2.2.1).trans (W2_launch m o0 c r h)
theorem W7_launch (c : Dev nD) (r : Ref sig .tc) (h : r ∉ written := by decide) : W7 m o0 o1 c r = m ((c : Thread nD τ).loc r) := by
  have k := h; simp only [written, List.mem_append, not_or] at k
  exact (W7_keep m o0 o1 c r k.2.2.2.2.2.2.1).trans <| (W6_keep m o0 o1 c r k.2.2.2.2.2.1).trans <|
    (W5_keep m o0 c r k.2.2.2.2.1).trans (W4_launch m o0 c r h)
theorem W9_launch (c : Dev nD) (r : Ref sig .tc) (h : r ∉ written := by decide) : W9 m o0 o1 o2 c r = m ((c : Thread nD τ).loc r) := by
  have k := h; simp only [written, List.mem_append, not_or] at k
  exact (W9_keep m o0 o1 o2 c r k.2.2.2.2.2.2.2.2.1).trans <| (W8_keep m o0 o1 c r k.2.2.2.2.2.2.2.1).trans (W7_launch m o0 o1 c r h)
theorem W10_launch (c : Dev nD) (r : Ref sig .tc) (h : r ∉ written := by decide) : W10 m o0 o1 o2 c r = m ((c : Thread nD τ).loc r) := by
  have k := h; simp only [written, List.mem_append, not_or] at k
  exact (W10_keep m o0 o1 o2 c r k.2.2.2.2.2.2.2.2.2.1).trans (W9_launch m o0 o1 o2 c r h)

theorem ofBuf_toBuf {sg : RefSig} {Val : EltTy → Type} {T : BufTy} (x : StableHlo.TRef sg T) (v : T.Contents Val) :
    x.ofBuf (x.toBuf v) = v := by
  obtain ⟨r, h1, h2, h3⟩ := x; subst h1; rfl

theorem ofBuf_main_v8 (p1 p2 p3) (v : FVec F S100000x64 .f32) :
    ((StableHlo.TRef.of main_v8 p1 p2 p3 : StableHlo.TRef sig ⟨S100000x64, .f32⟩).ofBuf (Val := Elt F) v : FVec F S100000x64 .f32) = v := rfl
theorem ofBuf_main_v51 (p1 p2 p3) (v : FVec F S100000x64 .f32) :
    ((StableHlo.TRef.of main_v51 p1 p2 p3 : StableHlo.TRef sig ⟨S100000x64, .f32⟩).ofBuf (Val := Elt F) v : FVec F S100000x64 .f32) = v := rfl
theorem ofBuf_main_v10 (p1 p2 p3) (v : IVec S1600000 32) :
    ((StableHlo.TRef.of main_v10 p1 p2 p3 : StableHlo.TRef sig ⟨S1600000, .i32⟩).ofBuf (Val := Elt F) v : IVec S1600000 32) = v := rfl
theorem toBuf_main_v13 (p1 p2 p3) (v : FVec F S1600000x64 .f32) :
    ((StableHlo.TRef.of main_v13 p1 p2 p3 : StableHlo.TRef sig ⟨S1600000x64, .f32⟩).toBuf (Val := Elt F) v : FVec F S1600000x64 .f32) = v := rfl
theorem toBuf_main_v52 (p1 p2 p3) (v : FVec F S1600000x64 .f32) :
    ((StableHlo.TRef.of main_v52 p1 p2 p3 : StableHlo.TRef sig ⟨S1600000x64, .f32⟩).toBuf (Val := Elt F) v : FVec F S1600000x64 .f32) = v := rfl

theorem glue0_main_v1 (c : Dev nD) :
    (W1 m c main_v1 : FVec F S1024x16 .f32) =
      concatenate S1024x16 0 [⟨S1022x16, broadcastInDim S1022x16 ![] bcast_S_S1022x16 (constant (F := F) S_ .f32 0x00000000#32)⟩,
        ⟨S2x16, m ((c : Thread nD τ).loc main_arg3)⟩] concatenates_S1022x16_S2x16_S1024x16_d0 := by
  dsimp only [W1, W0, hostOps0]; after_results <;> rfl
theorem glue0_main_v3 (c : Dev nD) :
    (W1 m c main_v3 : FVec F S1024x16 .f32) =
      concatenate S1024x16 0 [⟨S1022x16, m ((c : Thread nD τ).loc main_arg7)⟩,
        ⟨S2x16, broadcastInDim S2x16 ![] bcast_S_S2x16 (constant (F := F) S_ .f32 0x00000000#32)⟩] concatenates_S1022x16_S2x16_S1024x16_d0 := by
  dsimp only [W1, W0, hostOps0]; after_results <;> rfl
theorem glue0_main_v4 (c : Dev nD) :
    (W1 m c main_v4 : FVec F S1x16 .f32) = shapeCast S1x16 (m ((c : Thread nD τ).loc main_arg4)) shapeCasts_S16_S1x16 := by
  dsimp only [W1, W0, hostOps0]; after_results <;> rfl
theorem glue0_main_v5 (c : Dev nD) :
    (W1 m c main_v5 : FVec F S1x32 .f32) = shapeCast S1x32 (m ((c : Thread nD τ).loc main_arg6)) shapeCasts_S32_S1x32 := by
  dsimp only [W1, W0, hostOps0]; after_results <;> rfl
theorem glue0_main_v6 (c : Dev nD) :
    (W1 m c main_v6 : FVec F S1x16 .f32) = shapeCast S1x16 (m ((c : Thread nD τ).loc main_arg8)) shapeCasts_S16_S1x16 := by
  dsimp only [W1, W0, hostOps0]; after_results <;> rfl
theorem glue0_main_v7 (c : Dev nD) :
    (W1 m c main_v7 : FVec F S1x32 .f32) = shapeCast S1x32 (m ((c : Thread nD τ).loc main_arg10)) shapeCasts_S32_S1x32 := by
  dsimp only [W1, W0, hostOps0]; after_results <;> rfl

def srcIdx (e : IVec S2x1600000 32) : IVec S1600000 32 :=
  shapeCast S1600000 (extractStridedSlice S1x1600000 ![0, 0] e slices_S2x1600000_S1x1600000_0_0) shapeCasts_S1x1600000_S1600000

def dstIdx (e : IVec S2x1600000 32) : IVec S1600000 32 :=
  shapeCast S1600000 (extractStridedSlice S1x1600000 ![1, 0] e slices_S2x1600000_S1x1600000_1_0) shapeCasts_S1x1600000_S1600000

def dstCol (e : IVec S2x1600000 32) : IVec S1600000x1 32 :=
  broadcastInDim S1600000x1 ![0] bcast_S1600000_S1600000x1_0 (dstIdx e)

def wrapIdx (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

def idxCol (s : IVec S1600000 32) : IVec S1600000x1 32 :=
  broadcastInDim S1600000x1 ![0] bcast_S1600000_S1600000x1_0 (wrapIdx s)

def rowOk (s : IVec S1600000 32) : IVec S1600000 1 :=
  Host.reduce IntOp.andi
    (andi (cmpi .sge (idxCol s) (broadcastInDim S1600000x1 ![] bcast_S_S1600000x1 (constantI S_ 32 0#32)))
      (cmpi .sle (idxCol s) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

def takeRows (h : FVec F S100000x64 .f32) (s : IVec S1600000 32) : FVec F S1600000x64 .f32 :=
  select (broadcastInDim S1600000x64 ![0] bcast_S1600000_S1600000x64_0 (rowOk s))
    (Host.gather gather_S100000x64_S1600000x1_S1600000x64_1_0_n_n_0_1_164 h (idxCol s))
    (broadcastInDim S1600000x64 ![] bcast_S_S1600000x64 (constant (F := F) S_ .f32 0x7FC00000#32))

def aggRows (h : FVec F S100000x64 .f32) (e : IVec S2x1600000 32) : FVec F S100000x64 .f32 :=
  Host.scatterAdd scatter_S100000x64_S1600000x1_S1600000x64_1_0_0_1
    (broadcastInDim S100000x64 ![] bcast_S_S100000x64 (constant (F := F) S_ .f32 0x00000000#32))
    (dstCol e) (takeRows h (srcIdx e))

def matL0 (x : FVec F S2x64x64 .f32) : FVec F S64x64 .f32 :=
  shapeCast S64x64 (extractStridedSlice S1x64x64 ![0, 0, 0] x slices_S2x64x64_S1x64x64_0_0_0) shapeCasts_S1x64x64_S64x64
def matL1 (x : FVec F S2x64x64 .f32) : FVec F S64x64 .f32 :=
  shapeCast S64x64 (extractStridedSlice S1x64x64 ![1, 0, 0] x slices_S2x64x64_S1x64x64_1_0_0) shapeCasts_S1x64x64_S64x64
def vecL0 (x : FVec F S2x64 .f32) : FVec F S1x64 .f32 :=
  shapeCast S1x64 (shapeCast S64 (extractStridedSlice S1x64 ![0, 0] x slices_S2x64_S1x64_0_0) shapeCasts_S1x64_S64) shapeCasts_S64_S1x64
def vecL1 (x : FVec F S2x64 .f32) : FVec F S1x64 .f32 :=
  shapeCast S1x64 (shapeCast S64 (extractStridedSlice S1x64 ![1, 0] x slices_S2x64_S1x64_1_0) shapeCasts_S1x64_S64) shapeCasts_S64_S1x64

theorem W3_main_v8 (c : Dev nD) : W3 m o0 c main_v8 = o0 c :=
  (W3_keep m o0 c main_v8 (by decide)).trans (W2_main_v8 m o0 c)
theorem W3_main_v10 (c : Dev nD) : (W3 m o0 c main_v10 : IVec S1600000 32) = srcIdx (m ((c : Thread nD τ).loc main_arg1)) := by
  rw [← W2_launch m o0 c main_arg1]; dsimp only [W3]; generalize W2 m o0 c = V; dsimp only [hostOps1]; after_results <;> rfl
theorem W3_main_v12 (c : Dev nD) : (W3 m o0 c main_v12 : IVec S1600000 32) = dstIdx (m ((c : Thread nD τ).loc main_arg1)) := by
  rw [← W2_launch m o0 c main_arg1]; dsimp only [W3]; generalize W2 m o0 c = V; dsimp only [hostOps1]; after_results <;> rfl
theorem W4_main_v13 (c : Dev nD) :
    (W4 m o0 c main_v13 : FVec F S1600000x64 .f32) = takeRows (o0 c) (srcIdx (m ((c : Thread nD τ).loc main_arg1))) := by
  rw [← W3_main_v8 m o0 c, ← W3_main_v10 m o0 c]; dsimp only [W4]; generalize W3 m o0 c = V
  dsimp only [hostOps1_1]; after_results_simp
  simp only [ofBuf_toBuf, ofBuf_main_v8, ofBuf_main_v10, toBuf_main_v13]
  rfl
theorem W4_main_v12 (c : Dev nD) : (W4 m o0 c main_v12 : IVec S1600000 32) = dstIdx (m ((c : Thread nD τ).loc main_arg1)) :=
  (W4_keep m o0 c main_v12 (by decide)).trans (W3_main_v12 m o0 c)
theorem W4_main_v10 (c : Dev nD) : (W4 m o0 c main_v10 : IVec S1600000 32) = srcIdx (m ((c : Thread nD τ).loc main_arg1)) :=
  (W4_keep m o0 c main_v10 (by decide)).trans (W3_main_v10 m o0 c)

theorem glue1_main_v8 (c : Dev nD) : W5 m o0 c main_v8 = o0 c :=
  (W5_keep m o0 c main_v8 (by decide)).trans <| (W4_keep m o0 c main_v8 (by decide)).trans (W3_main_v8 m o0 c)
theorem glue1_main_v16 (c : Dev nD) :
    (W5 m o0 c main_v16 : FVec F S100000x64 .f32) = aggRows (o0 c) (m ((c : Thread nD τ).loc main_arg1)) := by
  unfold aggRows dstCol; rw [← W4_main_v12 m o0 c, ← W4_main_v13 m o0 c]; dsimp only [W5]; generalize W4 m o0 c = V
  dsimp only [hostOps1_2]; after_results <;> rfl
theorem hostOps1_2_main_v18 (V : Valuation τ sig (Elt F)) (x : FVec F S2x64x64 .f32) (hx : V main_arg11 = x) :
    (StableHlo.after hostOps1_2 V main_v18 : FVec F S64x64 .f32) = matL0 x := by
  subst hx; dsimp only [hostOps1_2]; after_results <;> rfl
theorem glue1_main_v18 (c : Dev nD) : (W5 m o0 c main_v18 : FVec F S64x64 .f32) = matL0 (m ((c : Thread nD τ).loc main_arg11)) :=
  hostOps1_2_main_v18 _ _ (W4_launch m o0 c main_arg11)
theorem hostOps1_2_main_v21 (V : Valuation τ sig (Elt F)) (x : FVec F S2x64 .f32) (hx : V main_arg12 = x) :
    (StableHlo.after hostOps1_2 V main_v21 : FVec F S1x64 .f32) = vecL0 x := by
  subst hx; dsimp only [hostOps1_2]; after_results <;> rfl
theorem glue1_main_v21 (c : Dev nD) : (W5 m o0 c main_v21 : FVec F S1x64 .f32) = vecL0 (m ((c : Thread nD τ).loc main_arg12)) :=
  hostOps1_2_main_v21 _ _ (W4_launch m o0 c main_arg12)
theorem hostOps1_2_main_v24 (V : Valuation τ sig (Elt F)) (x : FVec F S2x64 .f32) (hx : V main_arg13 = x) :
    (StableHlo.after hostOps1_2 V main_v24 : FVec F S1x64 .f32) = vecL0 x := by
  subst hx; dsimp only [hostOps1_2]; after_results <;> rfl
theorem glue1_main_v24 (c : Dev nD) : (W5 m o0 c main_v24 : FVec F S1x64 .f32) = vecL0 (m ((c : Thread nD τ).loc main_arg13)) :=
  hostOps1_2_main_v24 _ _ (W4_launch m o0 c main_arg13)
theorem hostOps1_2_main_v27 (V : Valuation τ sig (Elt F)) (x : FVec F S2x64 .f32) (hx : V main_arg14 = x) :
    (StableHlo.after hostOps1_2 V main_v27 : FVec F S1x64 .f32) = vecL0 x := by
  subst hx; dsimp only [hostOps1_2]; after_results <;> rfl
theorem glue1_main_v27 (c : Dev nD) : (W5 m o0 c main_v27 : FVec F S1x64 .f32) = vecL0 (m ((c : Thread nD τ).loc main_arg14)) :=
  hostOps1_2_main_v27 _ _ (W4_launch m o0 c main_arg14)
theorem hostOps1_2_main_v30 (V : Valuation τ sig (Elt F)) (x : FVec F S2x64 .f32) (hx : V main_arg15 = x) :
    (StableHlo.after hostOps1_2 V main_v30 : FVec F S1x64 .f32) = vecL0 x := by
  subst hx; dsimp only [hostOps1_2]; after_results <;> rfl
theorem glue1_main_v30 (c : Dev nD) : (W5 m o0 c main_v30 : FVec F S1x64 .f32) = vecL0 (m ((c : Thread nD τ).loc main_arg15)) :=
  hostOps1_2_main_v30 _ _ (W4_launch m o0 c main_arg15)
theorem hostOps1_2_main_v33 (V : Valuation τ sig (Elt F)) (x : FVec F S2x64 .f32) (hx : V main_arg16 = x) :
    (StableHlo.after hostOps1_2 V main_v33 : FVec F S1x64 .f32) = vecL0 x := by
  subst hx; dsimp only [hostOps1_2]; after_results <;> rfl
theorem glue1_main_v33 (c : Dev nD) : (W5 m o0 c main_v33 : FVec F S1x64 .f32) = vecL0 (m ((c : Thread nD τ).loc main_arg16)) :=
  hostOps1_2_main_v33 _ _ (W4_launch m o0 c main_arg16)
theorem hostOps1_2_main_v35 (V : Valuation τ sig (Elt F)) (x : FVec F S2x64x64 .f32) (hx : V main_arg17 = x) :
    (StableHlo.after hostOps1_2 V main_v35 : FVec F S64x64 .f32) = matL0 x := by
  subst hx; dsimp only [hostOps1_2]; after_results <;> rfl
theorem glue1_main_v35 (c : Dev nD) : (W5 m o0 c main_v35 : FVec F S64x64 .f32) = matL0 (m ((c : Thread nD τ).loc main_arg17)) :=
  hostOps1_2_main_v35 _ _ (W4_launch m o0 c main_arg17)
theorem hostOps1_2_main_v38 (V : Valuation τ sig (Elt F)) (x : FVec F S2x64 .f32) (hx : V main_arg18 = x) :
    (StableHlo.after hostOps1_2 V main_v38 : FVec F S1x64 .f32) = vecL0 x := by
  subst hx; dsimp only [hostOps1_2]; after_results <;> rfl
theorem glue1_main_v38 (c : Dev nD) : (W5 m o0 c main_v38 : FVec F S1x64 .f32) = vecL0 (m ((c : Thread nD τ).loc main_arg18)) :=
  hostOps1_2_main_v38 _ _ (W4_launch m o0 c main_arg18)
theorem hostOps1_2_main_v41 (V : Valuation τ sig (Elt F)) (x : FVec F S2x64 .f32) (hx : V main_arg19 = x) :
    (StableHlo.after hostOps1_2 V main_v41 : FVec F S1x64 .f32) = vecL0 x := by
  subst hx; dsimp only [hostOps1_2]; after_results <;> rfl
theorem glue1_main_v41 (c : Dev nD) : (W5 m o0 c main_v41 : FVec F S1x64 .f32) = vecL0 (m ((c : Thread nD τ).loc main_arg19)) :=
  hostOps1_2_main_v41 _ _ (W4_launch m o0 c main_arg19)
theorem hostOps1_2_main_v44 (V : Valuation τ sig (Elt F)) (x : FVec F S2x64 .f32) (hx : V main_arg20 = x) :
    (StableHlo.after hostOps1_2 V main_v44 : FVec F S1x64 .f32) = vecL0 x := by
  subst hx; dsimp only [hostOps1_2]; after_results <;> rfl
theorem glue1_main_v44 (c : Dev nD) : (W5 m o0 c main_v44 : FVec F S1x64 .f32) = vecL0 (m ((c : Thread nD τ).loc main_arg20)) :=
  hostOps1_2_main_v44 _ _ (W4_launch m o0 c main_arg20)
theorem hostOps1_2_main_v47 (V : Valuation τ sig (Elt F)) (x : FVec F S2x64 .f32) (hx : V main_arg21 = x) :
    (StableHlo.after hostOps1_2 V main_v47 : FVec F S1x64 .f32) = vecL0 x := by
  subst hx; dsimp only [hostOps1_2]; after_results <;> rfl
theorem glue1_main_v47 (c : Dev nD) : (W5 m o0 c main_v47 : FVec F S1x64 .f32) = vecL0 (m ((c : Thread nD τ).loc main_arg21)) :=
  hostOps1_2_main_v47 _ _ (W4_launch m o0 c main_arg21)
theorem hostOps1_2_main_v50 (V : Valuation τ sig (Elt F)) (x : FVec F S2x64 .f32) (hx : V main_arg22 = x) :
    (StableHlo.after hostOps1_2 V main_v50 : FVec F S1x64 .f32) = vecL0 x := by
  subst hx; dsimp only [hostOps1_2]; after_results <;> rfl
theorem glue1_main_v50 (c : Dev nD) : (W5 m o0 c main_v50 : FVec F S1x64 .f32) = vecL0 (m ((c : Thread nD τ).loc main_arg22)) :=
  hostOps1_2_main_v50 _ _ (W4_launch m o0 c main_arg22)

theorem W7_main_v51 (c : Dev nD) : W7 m o0 o1 c main_v51 = o1 c :=
  (W7_keep m o0 o1 c main_v51 (by decide)).trans (W6_main_v51 m o0 o1 c)
theorem W6_main_v10 (c : Dev nD) : (W6 m o0 o1 c main_v10 : IVec S1600000 32) = srcIdx (m ((c : Thread nD τ).loc main_arg1)) :=
  (W6_keep m o0 o1 c main_v10 (by decide)).trans <| (W5_keep m o0 c main_v10 (by decide)).trans (W4_main_v10 m o0 c)
theorem W7_main_v12 (c : Dev nD) : (W7 m o0 o1 c main_v12 : IVec S1600000 32) = dstIdx (m ((c : Thread nD τ).loc main_arg1)) :=
  (W7_keep m o0 o1 c main_v12 (by decide)).trans <| (W6_keep m o0 o1 c main_v12 (by decide)).trans <|
    (W5_keep m o0 c main_v12 (by decide)).trans (W4_main_v12 m o0 c)
theorem W7_main_v8 (c : Dev nD) : W7 m o0 o1 c main_v8 = o0 c :=
  (W7_keep m o0 o1 c main_v8 (by decide)).trans <| (W6_keep m o0 o1 c main_v8 (by decide)).trans (glue1_main_v8 m o0 c)
theorem W7_main_v52 (c : Dev nD) :
    (W7 m o0 o1 c main_v52 : FVec F S1600000x64 .f32) = takeRows (o1 c) (srcIdx (m ((c : Thread nD τ).loc main_arg1))) := by
  rw [← W6_main_v51 m o0 o1 c, ← W6_main_v10 m o0 o1 c]; dsimp only [W7]; generalize W6 m o0 o1 c = V
  dsimp only [hostOps2]; after_results_simp
  simp only [ofBuf_toBuf, ofBuf_main_v51, ofBuf_main_v10, toBuf_main_v52]
  rfl

theorem glue2_main_v51 (c : Dev nD) : W8 m o0 o1 c main_v51 = o1 c :=
  (W8_keep m o0 o1 c main_v51 (by decide)).trans (W7_main_v51 m o0 o1 c)
theorem glue2_main_v55 (c : Dev nD) :
    (W8 m o0 o1 c main_v55 : FVec F S100000x64 .f32) = aggRows (o1 c) (m ((c : Thread nD τ).loc main_arg1)) := by
  unfold aggRows dstCol; rw [← W7_main_v12 m o0 o1 c, ← W7_main_v52 m o0 o1 c]; dsimp only [W8]; generalize W7 m o0 o1 c = V
  dsimp only [hostOps2_1]; after_results <;> rfl
theorem glue2_main_v56 (c : Dev nD) : (W8 m o0 o1 c main_v56 : FVec F S100000x64 .f32) = addf (o1 c) (o0 c) := by
  rw [← W7_main_v51 m o0 o1 c, ← W7_main_v8 m o0 o1 c]; dsimp only [W8]; generalize W7 m o0 o1 c = V
  dsimp only [hostOps2_1]; after_results <;> rfl
theorem hostOps2_1_main_v58 (V : Valuation τ sig (Elt F)) (x : FVec F S2x64x64 .f32) (hx : V main_arg11 = x) :
    (StableHlo.after hostOps2_1 V main_v58 : FVec F S64x64 .f32) = matL1 x := by
  subst hx; dsimp only [hostOps2_1]; after_results <;> rfl
theorem glue2_main_v58 (c : Dev nD) : (W8 m o0 o1 c main_v58 : FVec F S64x64 .f32) = matL1 (m ((c : Thread nD τ).loc main_arg11)) :=
  hostOps2_1_main_v58 _ _ (W7_launch m o0 o1 c main_arg11)
theorem hostOps2_1_main_v61 (V : Valuation τ sig (Elt F)) (x : FVec F S2x64 .f32) (hx : V main_arg12 = x) :
    (StableHlo.after hostOps2_1 V main_v61 : FVec F S1x64 .f32) = vecL1 x := by
  subst hx; dsimp only [hostOps2_1]; after_results <;> rfl
theorem glue2_main_v61 (c : Dev nD) : (W8 m o0 o1 c main_v61 : FVec F S1x64 .f32) = vecL1 (m ((c : Thread nD τ).loc main_arg12)) :=
  hostOps2_1_main_v61 _ _ (W7_launch m o0 o1 c main_arg12)
theorem hostOps2_1_main_v64 (V : Valuation τ sig (Elt F)) (x : FVec F S2x64 .f32) (hx : V main_arg13 = x) :
    (StableHlo.after hostOps2_1 V main_v64 : FVec F S1x64 .f32) = vecL1 x := by
  subst hx; dsimp only [hostOps2_1]; after_results <;> rfl
theorem glue2_main_v64 (c : Dev nD) : (W8 m o0 o1 c main_v64 : FVec F S1x64 .f32) = vecL1 (m ((c : Thread nD τ).loc main_arg13)) :=
  hostOps2_1_main_v64 _ _ (W7_launch m o0 o1 c main_arg13)
theorem hostOps2_1_main_v67 (V : Valuation τ sig (Elt F)) (x : FVec F S2x64 .f32) (hx : V main_arg14 = x) :
    (StableHlo.after hostOps2_1 V main_v67 : FVec F S1x64 .f32) = vecL1 x := by
  subst hx; dsimp only [hostOps2_1]; after_results <;> rfl
theorem glue2_main_v67 (c : Dev nD) : (W8 m o0 o1 c main_v67 : FVec F S1x64 .f32) = vecL1 (m ((c : Thread nD τ).loc main_arg14)) :=
  hostOps2_1_main_v67 _ _ (W7_launch m o0 o1 c main_arg14)
theorem hostOps2_1_main_v70 (V : Valuation τ sig (Elt F)) (x : FVec F S2x64 .f32) (hx : V main_arg15 = x) :
    (StableHlo.after hostOps2_1 V main_v70 : FVec F S1x64 .f32) = vecL1 x := by
  subst hx; dsimp only [hostOps2_1]; after_results <;> rfl
theorem glue2_main_v70 (c : Dev nD) : (W8 m o0 o1 c main_v70 : FVec F S1x64 .f32) = vecL1 (m ((c : Thread nD τ).loc main_arg15)) :=
  hostOps2_1_main_v70 _ _ (W7_launch m o0 o1 c main_arg15)
theorem hostOps2_1_main_v73 (V : Valuation τ sig (Elt F)) (x : FVec F S2x64 .f32) (hx : V main_arg16 = x) :
    (StableHlo.after hostOps2_1 V main_v73 : FVec F S1x64 .f32) = vecL1 x := by
  subst hx; dsimp only [hostOps2_1]; after_results <;> rfl
theorem glue2_main_v73 (c : Dev nD) : (W8 m o0 o1 c main_v73 : FVec F S1x64 .f32) = vecL1 (m ((c : Thread nD τ).loc main_arg16)) :=
  hostOps2_1_main_v73 _ _ (W7_launch m o0 o1 c main_arg16)
theorem hostOps2_1_main_v75 (V : Valuation τ sig (Elt F)) (x : FVec F S2x64x64 .f32) (hx : V main_arg17 = x) :
    (StableHlo.after hostOps2_1 V main_v75 : FVec F S64x64 .f32) = matL1 x := by
  subst hx; dsimp only [hostOps2_1]; after_results <;> rfl
theorem glue2_main_v75 (c : Dev nD) : (W8 m o0 o1 c main_v75 : FVec F S64x64 .f32) = matL1 (m ((c : Thread nD τ).loc main_arg17)) :=
  hostOps2_1_main_v75 _ _ (W7_launch m o0 o1 c main_arg17)
theorem hostOps2_1_main_v78 (V : Valuation τ sig (Elt F)) (x : FVec F S2x64 .f32) (hx : V main_arg18 = x) :
    (StableHlo.after hostOps2_1 V main_v78 : FVec F S1x64 .f32) = vecL1 x := by
  subst hx; dsimp only [hostOps2_1]; after_results <;> rfl
theorem glue2_main_v78 (c : Dev nD) : (W8 m o0 o1 c main_v78 : FVec F S1x64 .f32) = vecL1 (m ((c : Thread nD τ).loc main_arg18)) :=
  hostOps2_1_main_v78 _ _ (W7_launch m o0 o1 c main_arg18)
theorem hostOps2_1_main_v81 (V : Valuation τ sig (Elt F)) (x : FVec F S2x64 .f32) (hx : V main_arg19 = x) :
    (StableHlo.after hostOps2_1 V main_v81 : FVec F S1x64 .f32) = vecL1 x := by
  subst hx; dsimp only [hostOps2_1]; after_results <;> rfl
theorem glue2_main_v81 (c : Dev nD) : (W8 m o0 o1 c main_v81 : FVec F S1x64 .f32) = vecL1 (m ((c : Thread nD τ).loc main_arg19)) :=
  hostOps2_1_main_v81 _ _ (W7_launch m o0 o1 c main_arg19)
theorem hostOps2_1_main_v84 (V : Valuation τ sig (Elt F)) (x : FVec F S2x64 .f32) (hx : V main_arg20 = x) :
    (StableHlo.after hostOps2_1 V main_v84 : FVec F S1x64 .f32) = vecL1 x := by
  subst hx; dsimp only [hostOps2_1]; after_results <;> rfl
theorem glue2_main_v84 (c : Dev nD) : (W8 m o0 o1 c main_v84 : FVec F S1x64 .f32) = vecL1 (m ((c : Thread nD τ).loc main_arg20)) :=
  hostOps2_1_main_v84 _ _ (W7_launch m o0 o1 c main_arg20)
theorem hostOps2_1_main_v87 (V : Valuation τ sig (Elt F)) (x : FVec F S2x64 .f32) (hx : V main_arg21 = x) :
    (StableHlo.after hostOps2_1 V main_v87 : FVec F S1x64 .f32) = vecL1 x := by
  subst hx; dsimp only [hostOps2_1]; after_results <;> rfl
theorem glue2_main_v87 (c : Dev nD) : (W8 m o0 o1 c main_v87 : FVec F S1x64 .f32) = vecL1 (m ((c : Thread nD τ).loc main_arg21)) :=
  hostOps2_1_main_v87 _ _ (W7_launch m o0 o1 c main_arg21)
theorem hostOps2_1_main_v90 (V : Valuation τ sig (Elt F)) (x : FVec F S2x64 .f32) (hx : V main_arg22 = x) :
    (StableHlo.after hostOps2_1 V main_v90 : FVec F S1x64 .f32) = vecL1 x := by
  subst hx; dsimp only [hostOps2_1]; after_results <;> rfl
theorem glue2_main_v90 (c : Dev nD) : (W8 m o0 o1 c main_v90 : FVec F S1x64 .f32) = vecL1 (m ((c : Thread nD τ).loc main_arg22)) :=
  hostOps2_1_main_v90 _ _ (W7_launch m o0 o1 c main_arg22)

theorem hostOps3_main_v94 (V : Valuation τ sig (Elt F)) (g : IVec S100000 32) (u : FVec F S100000x64 .f32)
    (hg : V main_arg2 = g) (hu : V main_v91 = u) :
    (StableHlo.after hostOps3 V main_v94 : FVec F S512x64 .f32) =
      Host.scatterAdd scatter_S512x64_S100000x1_S100000x64_1_0_0_1
        (broadcastInDim S512x64 ![] bcast_S_S512x64 (constant (F := F) S_ .f32 0x00000000#32))
        (broadcastInDim S100000x1 ![0] bcast_S100000_S100000x1_0 g) u := by
  subst hg hu; dsimp only [hostOps3]; after_results <;> rfl
theorem hostOps3_main_v99 (V : Valuation τ sig (Elt F)) (g : IVec S100000 32) (hg : V main_arg2 = g) :
    (StableHlo.after hostOps3 V main_v99 : FVec F S512x1 .f32) =
      shapeCast S512x1
        (Host.scatterAdd scatter_S512_S100000x1_S100000_n_0_0_1
          (broadcastInDim S512 ![] bcast_S_S512 (constant (F := F) S_ .f32 0x00000000#32))
          (broadcastInDim S100000x1 ![0] bcast_S100000_S100000x1_0 g)
          (broadcastInDim S100000 ![] bcast_S_S100000 (constant (F := F) S_ .f32 0x3F800000#32)))
        shapeCasts_S512_S512x1 := by
  subst hg; dsimp only [hostOps3]; after_results <;> rfl
theorem hostOps3_main_v100 (V : Valuation τ sig (Elt F)) (x : FVec F S16 .f32) (hx : V main_arg24 = x) :
    (StableHlo.after hostOps3 V main_v100 : FVec F S1x16 .f32) = shapeCast S1x16 x shapeCasts_S16_S1x16 := by
  subst hx; dsimp only [hostOps3]; after_results <;> rfl
theorem hostOps3_main_v101 (V : Valuation τ sig (Elt F)) (x : FVec F S7 .f32) (hx : V main_arg26 = x) :
    (StableHlo.after hostOps3 V main_v101 : FVec F S1x7 .f32) = shapeCast S1x7 x shapeCasts_S7_S1x7 := by
  subst hx; dsimp only [hostOps3]; after_results <;> rfl

theorem glue3_main_v94 (c : Dev nD) :
    (W10 m o0 o1 o2 c main_v94 : FVec F S512x64 .f32) =
      Host.scatterAdd scatter_S512x64_S100000x1_S100000x64_1_0_0_1
        (broadcastInDim S512x64 ![] bcast_S_S512x64 (constant (F := F) S_ .f32 0x00000000#32))
        (broadcastInDim S100000x1 ![0] bcast_S100000_S100000x1_0 (m ((c : Thread nD τ).loc main_arg2))) (o2 c) :=
  hostOps3_main_v94 _ _ _ (W9_launch m o0 o1 o2 c main_arg2) (W9_main_v91 m o0 o1 o2 c)
theorem glue3_main_v99 (c : Dev nD) :
    (W10 m o0 o1 o2 c main_v99 : FVec F S512x1 .f32) =
      shapeCast S512x1
        (Host.scatterAdd scatter_S512_S100000x1_S100000_n_0_0_1
          (broadcastInDim S512 ![] bcast_S_S512 (constant (F := F) S_ .f32 0x00000000#32))
          (broadcastInDim S100000x1 ![0] bcast_S100000_S100000x1_0 (m ((c : Thread nD τ).loc main_arg2)))
          (broadcastInDim S100000 ![] bcast_S_S100000 (constant (F := F) S_ .f32 0x3F800000#32)))
        shapeCasts_S512_S512x1 :=
  hostOps3_main_v99 _ _ (W9_launch m o0 o1 o2 c main_arg2)
theorem glue3_main_v100 (c : Dev nD) :
    (W10 m o0 o1 o2 c main_v100 : FVec F S1x16 .f32) = shapeCast S1x16 (m ((c : Thread nD τ).loc main_arg24)) shapeCasts_S16_S1x16 :=
  hostOps3_main_v100 _ _ (W9_launch m o0 o1 o2 c main_arg24)
theorem glue3_main_v101 (c : Dev nD) :
    (W10 m o0 o1 o2 c main_v101 : FVec F S1x7 .f32) = shapeCast S1x7 (m ((c : Thread nD τ).loc main_arg26)) shapeCasts_S7_S1x7 :=
  hostOps3_main_v101 _ _ (W9_launch m o0 o1 o2 c main_arg26)

end Cert.KernelIdeal.Hand

end
-- ==== Proof.Hand.TakeRows.lean ====
import proofs.«406513_j58480274702513_1_alg».proof.KernelIdeal
import Idealize.ShloMosaic.Lib.ReduceAll
import Idealize.ShloMosaic.Lib.ValueIdx

noncomputable section

namespace Cert.KernelIdeal.HandValue

open Idealize.ShloMosaic Idealize.ShloMosaic.ValueIdx
open Cert.KernelIdeal Cert.KernelIdeal.Facts₀ Cert.KernelIdeal.Facts

variable {F : FTy → Type} [FloatOps F] [Cert.KernelIdeal.Facts]

def takeIdx (s : IVec S1600000 32) : IVec S1600000x1 32 :=
  let c : IVec S_ 32 := constantI S_ 32 0#32
  let v0 : IVec S1600000 32 := broadcastInDim S1600000 ![] bcast_S_S1600000 c
  let v1 : IVec S1600000 1 := cmpi .slt s v0
  let c_0 : IVec S_ 32 := constantI S_ 32 100000#32
  let v2 : IVec S1600000 32 := broadcastInDim S1600000 ![] bcast_S_S1600000 c_0
  let v3 : IVec S1600000 32 := addi s v2
  let v4 : IVec S1600000 32 := select v1 v3 s
  broadcastInDim S1600000x1 ![0] bcast_S1600000_S1600000x1_0 v4

def takeOk (s : IVec S1600000 32) : IVec S1600000 1 :=
  Host.reduce IntOp.andi (andi (cmpi .sge (takeIdx s) (broadcastInDim S1600000x1 ![] bcast_S_S1600000x1 (constantI S_ 32 0#32)))
      (cmpi .sle (takeIdx s) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

def takeRows (h : FVec F S100000x64 .f32) (s : IVec S1600000 32) : FVec F S1600000x64 .f32 :=
  let c : IVec S_ 32 := constantI S_ 32 0#32
  let v0 : IVec S1600000 32 := broadcastInDim S1600000 ![] bcast_S_S1600000 c
  let v1 : IVec S1600000 1 := cmpi .slt s v0
  let c_0 : IVec S_ 32 := constantI S_ 32 100000#32
  let v2 : IVec S1600000 32 := broadcastInDim S1600000 ![] bcast_S_S1600000 c_0
  let v3 : IVec S1600000 32 := addi s v2
  let v4 : IVec S1600000 32 := select v1 v3 s
  let v5 : IVec S1600000x1 32 := broadcastInDim S1600000x1 ![0] bcast_S1600000_S1600000x1_0 v4
  let c_1 : IVec S1 32 := constantI S1 32 99999#32
  let c_2 : IVec S_ 32 := constantI S_ 32 0#32
  let v6 : IVec S1600000x1 32 := broadcastInDim S1600000x1 ![] bcast_S_S1600000x1 c_2
  let v7 : IVec S1600000x1 1 := cmpi .sge v5 v6
  let v8 : IVec S1x1 32 := broadcastInDim S1x1 ![1] bcast_S1_S1x1_1 c_1
  let v9 : IVec S1600000x1 32 := broadcastInDim S1600000x1 ![0, 1] bcast_S1x1_S1600000x1_0_1 v8
  let v10 : IVec S1600000x1 1 := cmpi .sle v5 v9
  let v11 : IVec S1600000x1 1 := andi v7 v10
  let c_3 : IVec S_ 1 := constantI S_ 1 1#1
  let v12 : IVec S1600000 1 := (fun x v => Host.reduce IntOp.andi x v reducesTo_S1600000x1_S1600000_d1 h_S_) v11 c_3
  let v13 : FVec F S1600000x64 .f32 := (fun x i => Host.gather gather_S100000x64_S1600000x1_S1600000x64_1_0_n_n_0_1_164 x i) h v5
  let v14 : IVec S1600000x64 1 := broadcastInDim S1600000x64 ![0] bcast_S1600000_S1600000x64_0 v12
  let cst : FVec F S_ .f32 := constant S_ .f32 0x7FC00000#32
  let v15 : FVec F S1600000x64 .f32 := broadcastInDim S1600000x64 ![] bcast_S_S1600000x64 cst
  select v14 v13 v15

theorem takeRows_def (h : FVec F S100000x64 .f32) (s : IVec S1600000 32) :
    takeRows h s = select (broadcastInDim S1600000x64 ![0] bcast_S1600000_S1600000x64_0 (takeOk s))
      (Host.gather gather_S100000x64_S1600000x1_S1600000x64_1_0_n_n_0_1_164 h (takeIdx s))
      (broadcastInDim S1600000x64 ![] bcast_S_S1600000x64 (constant S_ .f32 0x7FC00000#32)) := rfl

theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl =>
    foldl_andi_one f l _ (IntOp.andi_eq_one.2 ⟨hi, hl a (List.mem_cons.2 (Or.inl rfl))⟩)
      (fun n hn => hl n (List.mem_cons.2 (Or.inr hn)))

theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, x i = 1#1) : Host.reduce IntOp.andi x init h hu j = 1#1 := by
  rw [Host.reduce_eq_foldl]
  exact foldl_andi_one x _ _ hi (fun n _ => hx n)

theorem toInt_zero32 : (0#32 : BitVec 32).toInt = 0 := by decide
theorem toInt_99999 : (99999#32 : BitVec 32).toInt = 99999 := by decide

theorem wrap_id (s : IVec S1600000 32) (hs : ∀ e, 0 ≤ (s e).toInt ∧ (s e).toInt < 100000) :
    select (cmpi .slt s (broadcastInDim S1600000 ![] bcast_S_S1600000 (constantI S_ 32 0#32)))
      (addi s (broadcastInDim S1600000 ![] bcast_S_S1600000 (constantI S_ 32 100000#32))) s = s := by
  funext e
  show Scalar.select (IntOp.cmpi .slt (s e) 0#32) _ (s e) = s e
  have hn : ¬ IntOp.cmpi .slt (s e) 0#32 = 1#1 := by
    rw [IntOp.cmpi_slt, toInt_zero32]; exact not_lt.2 (hs e).1
  rw [eq_zero_of_ne_one hn]; exact select_zero _ _

theorem takeOk_one (s : IVec S1600000 32) (hs : ∀ e, 0 ≤ (s e).toInt ∧ (s e).toInt < 100000) (e : S1600000.Idx) :
    takeOk s e = 1#1 := by
  unfold takeOk takeIdx
  dsimp only
  rw [wrap_id s hs]
  refine reduce_andi_one _ _ _ _ _ rfl (fun i => ?_)
  refine IntOp.andi_eq_one.2 ⟨?_, ?_⟩
  · show IntOp.cmpi .sge (s _) 0#32 = 1#1
    rw [IntOp.cmpi_sge, toInt_zero32]; exact (hs _).1
  · show IntOp.cmpi .sle (s _) 99999#32 = 1#1
    rw [IntOp.cmpi_sle, toInt_99999]
    have h2 : ∀ k, (s k).toInt ≤ 99999 := fun k => by have := (hs k).2; omega
    exact h2 _

theorem takeRows_eq_gather (h : FVec F S100000x64 .f32) (s : IVec S1600000 32)
    (hs : ∀ e, 0 ≤ (s e).toInt ∧ (s e).toInt < 100000) :
    takeRows h s = Host.gather gather_S100000x64_S1600000x1_S1600000x64_1_0_n_n_0_1_164 h (takeIdx s) := by
  rw [takeRows_def]
  funext j
  show Scalar.select (takeOk s _) (Host.gather gather_S100000x64_S1600000x1_S1600000x64_1_0_n_n_0_1_164 h (takeIdx s) j) _ = _
  rw [takeOk_one s hs]; exact select_one _ _

end Cert.KernelIdeal.HandValue

end
-- ==== Proof.Hand.Stages.lean ====
import proofs.«406513_j58480274702513_1_alg».proof.Proof.Hand.TakeRows
import proofs.«406513_j58480274702513_1_alg».proof.Proof.Hand.Glue
import proofs.«406513_j58480274702513_1_alg».proof.Proof.RefStages

noncomputable section

namespace Cert.KernelIdeal.HandValue

open Idealize.ShloMosaic
open Cert.KernelIdeal Cert.KernelIdeal.Facts₀ Cert.KernelIdeal.Facts

variable [Cert.KernelIdeal.Facts]

theorem takeRows_eq {F : FTy → Type} [FloatOps F] (h : FVec F S100000x64 .f32) (s : IVec S1600000 32) :
    Hand.takeRows h s = takeRows h s := by
  unfold Hand.takeRows Hand.rowOk Hand.idxCol Hand.wrapIdx takeRows
  rfl

variable {x0 : FVec Ideal S100000x1024 .f32} {x1 : IVec S2x1600000 32} {x2 : IVec S100000 32} {x3 : FVec Ideal S2x16 .f32} {x4 : FVec Ideal S16 .f32} {x5 : FVec Ideal S16x32 .f32} {x6 : FVec Ideal S32 .f32} {x7 : FVec Ideal S1022x16 .f32} {x8 : FVec Ideal S16 .f32} {x9 : FVec Ideal S16x32 .f32} {x10 : FVec Ideal S32 .f32} {x11 : FVec Ideal S2x64x64 .f32} {x12 : FVec Ideal S2x64 .f32} {x13 : FVec Ideal S2x64 .f32} {x14 : FVec Ideal S2x64 .f32} {x15 : FVec Ideal S2x64 .f32} {x16 : FVec Ideal S2x64 .f32} {x17 : FVec Ideal S2x64x64 .f32} {x18 : FVec Ideal S2x64 .f32} {x19 : FVec Ideal S2x64 .f32} {x20 : FVec Ideal S2x64 .f32} {x21 : FVec Ideal S2x64 .f32} {x22 : FVec Ideal S2x64 .f32}

-- With the sources in range the guarded lookup is the plain gather; every other operand is the reference's own.
theorem agg0_eq (hs : ∀ e, 0 ≤ (Hand.srcIdx x1 e).toInt ∧ (Hand.srcIdx x1 e).toInt < 100000) :
    Hand.aggRows (F := Ideal) (Cert.ReferenceIdeal.ReadP.val_main_v26 (F := Ideal) x0 x3 x4 x5 x6 x7 x8 x9 x10) x1 = Cert.ReferenceIdeal.ReadP.val_main_v36 (F := Ideal) x0 x1 x3 x4 x5 x6 x7 x8 x9 x10 := by
  unfold Hand.aggRows Cert.ReferenceIdeal.ReadP.val_main_v36 Cert.ReferenceIdeal.ReadP.val_main_v33
  rw [takeRows_eq, takeRows_eq_gather _ _ hs]; rfl

theorem agg1_eq (hs : ∀ e, 0 ≤ (Hand.srcIdx x1 e).toInt ∧ (Hand.srcIdx x1 e).toInt < 100000) :
    Hand.aggRows (F := Ideal) (Cert.ReferenceIdeal.ReadP.val_main_v101 (F := Ideal) x0 x1 x3 x4 x5 x6 x7 x8 x9 x10 x11 x12 x13 x14 x15 x16 x17 x18 x19 x20 x21 x22) x1 = Cert.ReferenceIdeal.ReadP.val_main_v111 (F := Ideal) x0 x1 x3 x4 x5 x6 x7 x8 x9 x10 x11 x12 x13 x14 x15 x16 x17 x18 x19 x20 x21 x22 := by
  unfold Hand.aggRows Cert.ReferenceIdeal.ReadP.val_main_v111 Cert.ReferenceIdeal.ReadP.val_main_v108
  rw [takeRows_eq, takeRows_eq_gather _ _ hs]; rfl

theorem pooled_eq :
    Host.scatterAdd scatter_S512x64_S100000x1_S100000x64_1_0_0_1
      (broadcastInDim S512x64 ![] bcast_S_S512x64 (constant (F := Ideal) S_ .f32 0x00000000#32))
      (broadcastInDim S100000x1 ![0] bcast_S100000_S100000x1_0 x2)
      (Cert.ReferenceIdeal.ReadP.val_main_v177 (F := Ideal) x0 x1 x3 x4 x5 x6 x7 x8 x9 x10 x11 x12 x13 x14 x15 x16 x17 x18 x19 x20 x21 x22)
    = Cert.ReferenceIdeal.ReadP.val_main_v180 (F := Ideal) x0 x1 x2 x3 x4 x5 x6 x7 x8 x9 x10 x11 x12 x13 x14 x15 x16 x17 x18 x19 x20 x21 x22 := rfl

theorem counts_eq :
    Host.scatterAdd scatter_S512_S100000x1_S100000_n_0_0_1
      (broadcastInDim S512 ![] bcast_S_S512 (constant (F := Ideal) S_ .f32 0x00000000#32))
      (broadcastInDim S100000x1 ![0] bcast_S100000_S100000x1_0 x2)
      (broadcastInDim S100000 ![] bcast_S_S100000 (constant (F := Ideal) S_ .f32 0x3F800000#32))
    = Cert.ReferenceIdeal.ReadP.val_main_v184 (F := Ideal) x2 := rfl

end Cert.KernelIdeal.HandValue

end
-- ==== Proof.Hand.PreFacts.lean ====
import proofs.«406513_j58480274702513_1_alg».proof.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Idealize.ShloMosaic Idealize.ShloMosaic.ValueIdx
open Cert.Pre_finite_inputs Cert.Pre_finite_inputs.Facts

variable [Cert.Pre_finite_inputs.Facts]

instance : Subsingleton S_.Idx := ⟨fun a b => funext fun d => d.elim0⟩

def srcOf (x1 : IVec S2x1600000 32) : IVec S1600000 32 :=
  shapeCast S1600000 (extractStridedSlice S1x1600000 ![0, 0] x1 slices_S2x1600000_S1x1600000_0_0) shapeCasts_S1x1600000_S1600000

theorem andi_ix {s : Shape} (a b : IVec s 1) (i : s.Idx) : andi a b i = 1#1 ↔ a i = 1#1 ∧ b i = 1#1 :=
  IntOp.andi_eq_one

theorem ofBits_inf : Ideal.ofBits .f32 0x7F800000#32 = (⊤ : EReal) := by
  simp [Ideal.ofBits, Ideal.ieee]

-- max(x, -x) is +inf at both infinities, so a bound below +inf leaves only the reals.
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

variable {x0 : FVec Ideal S100000x1024 .f32} {x1 : IVec S2x1600000 32} {x2 : IVec S100000 32} {x3 : FVec Ideal S2x16 .f32} {x4 : FVec Ideal S16 .f32} {x5 : FVec Ideal S16x32 .f32} {x6 : FVec Ideal S32 .f32} {x7 : FVec Ideal S1022x16 .f32} {x8 : FVec Ideal S16 .f32} {x9 : FVec Ideal S16x32 .f32} {x10 : FVec Ideal S32 .f32} {x11 : FVec Ideal S2x64x64 .f32} {x12 : FVec Ideal S2x64 .f32} {x13 : FVec Ideal S2x64 .f32} {x14 : FVec Ideal S2x64 .f32} {x15 : FVec Ideal S2x64 .f32} {x16 : FVec Ideal S2x64 .f32} {x17 : FVec Ideal S2x64x64 .f32} {x18 : FVec Ideal S2x64 .f32} {x19 : FVec Ideal S2x64 .f32} {x20 : FVec Ideal S2x64 .f32} {x21 : FVec Ideal S2x64 .f32} {x22 : FVec Ideal S2x64 .f32} {x23 : FVec Ideal S64x16 .f32} {x24 : FVec Ideal S16 .f32} {x25 : FVec Ideal S16x7 .f32} {x26 : FVec Ideal S7 .f32}
  (h : Cert.Pre_finite_inputs.fn (F := Ideal) x0 x1 x2 x3 x4 x5 x6 x7 x8 x9 x10 x11 x12 x13 x14 x15 x16 x17 x18 x19 x20 x21 x22 x23 x24 x25 x26 = (fun _ => 1#1))
include h

-- The precondition is a conjunction of one-bit reductions; its first conjunct bounds |x0|, its last the sources.
theorem fn_ends :
    Host.reduce IntOp.andi (cmpf .olt (Host.absf x0) (broadcastInDim S100000x1024 ![] bcast_S_S100000x1024 (constant (F := Ideal) S_ .f32 0x7F800000#32)))
        (constantI S_ 1 1#1) reducesTo_S100000x1024_S_d0_1 h_S_ ix0 = 1#1
    ∧ Host.reduce IntOp.andi (andi (cmpi .sge (srcOf x1) (broadcastInDim S1600000 ![] bcast_S_S1600000 (constantI S_ 32 0#32)))
          (cmpi .slt (srcOf x1) (broadcastInDim S1600000 ![] bcast_S_S1600000 (constantI S_ 32 100000#32))))
        (constantI S_ 1 1#1) reducesTo_S1600000_S_d0 h_S_ ix0 = 1#1 := by
  have e := congrFun h ix0
  unfold Cert.Pre_finite_inputs.fn fn_part1 fn_part2 fn_part3 fn_part4 fn_part5 fn_part6 fn_part7 at e
  dsimp only at e
  simp only [andi_ix] at e
  exact ⟨e.1.1.1.1.1.1.1.1.1.1.1.1.1.1.1.1.1.1.1.1.1.1.1.1.1, e.2⟩

theorem x_real (i : S100000x1024.Idx) : ∃ r : ℝ, x0 i = (r : EReal) := by
  have e : Ideal.cmp .olt (max (x0 i) (-(x0 i))) (Ideal.ofBits .f32 0x7F800000#32) = 1#1 :=
    Host.reduce_andi_all _ _ _ _ ix0 (fn_ends h).1 i
  rw [ofBits_inf] at e
  exact real_of_abs_lt_top _ e

theorem src_range (e : S1600000.Idx) : 0 ≤ (srcOf x1 e).toInt ∧ (srcOf x1 e).toInt < 100000 := by
  obtain ⟨q1, q2⟩ := (andi_ix _ _ _).1 (Host.reduce_andi_all _ _ _ _ ix0 (fn_ends h).2 e)
  have q1' : IntOp.cmpi .sge (srcOf x1 e) 0#32 = 1#1 := q1
  have q2' : IntOp.cmpi .slt (srcOf x1 e) 100000#32 = 1#1 := q2
  rw [IntOp.cmpi_sge, show (0#32 : BitVec 32).toInt = 0 from by decide] at q1'
  rw [IntOp.cmpi_slt, show (100000#32 : BitVec 32).toInt = 100000 from by decide] at q2'
  exact ⟨q1', q2'⟩

end Cert.PreFacts

end
-- ==== Proof.Hand.Value0Spec.lean ====
import Idealize.ShloMosaic.PureOps.Ideal.Laws
import Mathlib.Algebra.BigOperators.Fin

open scoped BigOperators

noncomputable section

namespace Cert.KernelIdeal.HandValue

def mlp {n : ℕ} (xr : Fin n → EReal) (wa : Fin n → Fin 16 → EReal) (ba : Fin 16 → EReal)
    (wb : Fin 16 → Fin 32 → EReal) (bb : Fin 32 → EReal) (j : Fin 32) : EReal :=
  max ((∑ k : Fin 16, max ((∑ q : Fin n, xr q * wa q k) + ba k) 0 * wb k j) + bb j) 0

theorem sum_pad_front {m n : ℕ} (f g : Fin (m + n) → EReal) (hz : ∀ q : Fin m, g (Fin.castAdd n q) = 0) :
    ∑ q : Fin (m + n), f q * g q = ∑ q : Fin n, f (Fin.natAdd m q) * g (Fin.natAdd m q) := by
  rw [Fin.sum_univ_add, Finset.sum_eq_zero (fun q _ => by rw [hz q, mul_zero]), zero_add]

theorem sum_pad_back {m n : ℕ} (f g : Fin (m + n) → EReal) (hz : ∀ q : Fin n, g (Fin.natAdd m q) = 0) :
    ∑ q : Fin (m + n), f q * g q = ∑ q : Fin m, f (Fin.castAdd n q) * g (Fin.castAdd n q) := by
  rw [Fin.sum_univ_add, Finset.sum_eq_zero (s := Finset.univ) (f := fun q : Fin n => f (Fin.natAdd m q) * g (Fin.natAdd m q))
    (fun q _ => by rw [hz q, mul_zero]), add_zero]

theorem mlp_pad_front (xr : Fin 1024 → EReal) (wa : Fin 1024 → Fin 16 → EReal) (w : Fin 2 → Fin 16 → EReal)
    (hz : ∀ (q : Fin 1022) k, wa (Fin.castAdd 2 q) k = 0) (hw : ∀ (q : Fin 2) k, wa (Fin.natAdd 1022 q) k = w q k)
    (ba : Fin 16 → EReal) (wb : Fin 16 → Fin 32 → EReal) (bb : Fin 32 → EReal) (j : Fin 32) :
    mlp xr wa ba wb bb j = mlp (fun q : Fin 2 => xr (Fin.natAdd 1022 q)) w ba wb bb j := by
  unfold mlp
  have e : ∀ k, (∑ q : Fin 1024, xr q * wa q k) = ∑ q : Fin 2, xr (Fin.natAdd 1022 q) * w q k := fun k => by
    rw [sum_pad_front (m := 1022) (n := 2) xr (fun q => wa q k) (fun q => hz q k)]
    exact Finset.sum_congr rfl fun q _ => by rw [hw q k]
  simp only [e]

theorem mlp_pad_back (xr : Fin 1024 → EReal) (wa : Fin 1024 → Fin 16 → EReal) (w : Fin 1022 → Fin 16 → EReal)
    (hz : ∀ (q : Fin 2) k, wa (Fin.natAdd 1022 q) k = 0) (hw : ∀ (q : Fin 1022) k, wa (Fin.castAdd 2 q) k = w q k)
    (ba : Fin 16 → EReal) (wb : Fin 16 → Fin 32 → EReal) (bb : Fin 32 → EReal) (j : Fin 32) :
    mlp xr wa ba wb bb j = mlp (fun q : Fin 1022 => xr (Fin.castAdd 2 q)) w ba wb bb j := by
  unfold mlp
  have e : ∀ k, (∑ q : Fin 1024, xr q * wa q k) = ∑ q : Fin 1022, xr (Fin.castAdd 2 q) * w q k := fun k => by
    rw [sum_pad_back (m := 1022) (n := 2) xr (fun q => wa q k) (fun q => hz q k)]
    exact Finset.sum_congr rfl fun q _ => by rw [hw q k]
  simp only [e]

end Cert.KernelIdeal.HandValue

end
-- ==== Proof.Hand.Value0Pay.lean ====
import proofs.«406513_j58480274702513_1_alg».proof.Proof.Gen.KernelIdeal.Skeleton
import proofs.«406513_j58480274702513_1_alg».proof.Proof.Hand.Value0Spec
import Idealize.ShloMosaic.Lib.Pipeline.Value
import Idealize.ShloMosaic.Lib.ValueIdx
import Idealize.ShloMosaic.PureOps.Ideal.Laws

noncomputable section

namespace Cert.KernelIdeal.HandValue

open Cert.KernelIdeal Cert.KernelIdeal.Gen Idealize.ShloMosaic Idealize.ShloMosaic.TcCoe Idealize.SL.Sem
open Idealize.ShloMosaic.ValueIdx
open scoped BigOperators

theorem lhs_in_0 (i : S2000x16.Idx) (q : dot_S2000x1024_S1024x16_S2000x16_1_0_0_1_n_n.contr.Idx) :
    (dot_S2000x1024_S1024x16_S2000x16_1_0_0_1_n_n.lhsIdx i q 0).val = (i 0).val := by
  unfold DotDims.lhsIdx
  rw [dif_neg (show ¬(0 : Fin S2000x1024.rank) ∈ dot_S2000x1024_S1024x16_S2000x16_1_0_0_1_n_n.lhsBatch by decide), dif_pos (show (0 : Fin S2000x1024.rank) ∈ dot_S2000x1024_S1024x16_S2000x16_1_0_0_1_n_n.lhsNonContracting by decide)]
  rfl
theorem lhs_in_1 (i : S2000x16.Idx) (q : dot_S2000x1024_S1024x16_S2000x16_1_0_0_1_n_n.contr.Idx) :
    (dot_S2000x1024_S1024x16_S2000x16_1_0_0_1_n_n.lhsIdx i q 1).val = (q ⟨0, by decide⟩).val :=
  dot_S2000x1024_S1024x16_S2000x16_1_0_0_1_n_n.lhsIdx_val_of_single rfl i q
theorem rhs_in_0 (i : S2000x16.Idx) (q : dot_S2000x1024_S1024x16_S2000x16_1_0_0_1_n_n.contr.Idx) :
    (dot_S2000x1024_S1024x16_S2000x16_1_0_0_1_n_n.rhsIdx i q 0).val = (q ⟨0, by decide⟩).val :=
  dot_S2000x1024_S1024x16_S2000x16_1_0_0_1_n_n.rhsIdx_val_of_single rfl i q
theorem rhs_in_1 (i : S2000x16.Idx) (q : dot_S2000x1024_S1024x16_S2000x16_1_0_0_1_n_n.contr.Idx) :
    (dot_S2000x1024_S1024x16_S2000x16_1_0_0_1_n_n.rhsIdx i q 1).val = (i 1).val := by
  unfold DotDims.rhsIdx
  rw [dif_neg (show ¬(1 : Fin S1024x16.rank) ∈ dot_S2000x1024_S1024x16_S2000x16_1_0_0_1_n_n.rhsBatch by decide), dif_pos (show (1 : Fin S1024x16.rank) ∈ dot_S2000x1024_S1024x16_S2000x16_1_0_0_1_n_n.rhsNonContracting by decide)]
  rfl

theorem matmul_in_at (X : FVec Ideal S2000x1024 .f32) (W : FVec Ideal S1024x16 .f32) (p : Fin 2000) (k : Fin 16) :
    matmul dot_S2000x1024_S1024x16_S2000x16_1_0_0_1_n_n none X W (constant S2000x16 .f32 0x00000000#32) (ix2 p k) = ∑ q : Fin 1024, X (ix2 p q) * W (ix2 q k) := by
  simp only [matmul]
  rw [Ideal.matmul_constant_zero_apply, ← Equiv.sum_comp (contrEquiv1 dot_S2000x1024_S1024x16_S2000x16_1_0_0_1_n_n 1024 rfl rfl).symm]
  refine Finset.sum_congr rfl fun q _ => ?_
  have hq := contrEquiv1_symm_val dot_S2000x1024_S1024x16_S2000x16_1_0_0_1_n_n 1024 rfl rfl q
  have el : dot_S2000x1024_S1024x16_S2000x16_1_0_0_1_n_n.lhsIdx (ix2 p k) ((contrEquiv1 dot_S2000x1024_S1024x16_S2000x16_1_0_0_1_n_n 1024 rfl rfl).symm q) = ix2 p q := funext fun a => Fin.ext (by
    match a with
    | ⟨0, _⟩ => exact lhs_in_0 _ _
    | ⟨1, _⟩ => exact (lhs_in_1 _ _).trans hq)
  have er : dot_S2000x1024_S1024x16_S2000x16_1_0_0_1_n_n.rhsIdx (ix2 p k) ((contrEquiv1 dot_S2000x1024_S1024x16_S2000x16_1_0_0_1_n_n 1024 rfl rfl).symm q) = ix2 q k := funext fun a => Fin.ext (by
    match a with
    | ⟨0, _⟩ => exact (rhs_in_0 _ _).trans hq
    | ⟨1, _⟩ => exact rhs_in_1 _ _)
  rw [el, er]

theorem lhs_out_0 (i : S2000x32.Idx) (q : dot_S2000x16_S16x32_S2000x32_1_0_0_1_n_n.contr.Idx) :
    (dot_S2000x16_S16x32_S2000x32_1_0_0_1_n_n.lhsIdx i q 0).val = (i 0).val := by
  unfold DotDims.lhsIdx
  rw [dif_neg (show ¬(0 : Fin S2000x16.rank) ∈ dot_S2000x16_S16x32_S2000x32_1_0_0_1_n_n.lhsBatch by decide), dif_pos (show (0 : Fin S2000x16.rank) ∈ dot_S2000x16_S16x32_S2000x32_1_0_0_1_n_n.lhsNonContracting by decide)]
  rfl
theorem lhs_out_1 (i : S2000x32.Idx) (q : dot_S2000x16_S16x32_S2000x32_1_0_0_1_n_n.contr.Idx) :
    (dot_S2000x16_S16x32_S2000x32_1_0_0_1_n_n.lhsIdx i q 1).val = (q ⟨0, by decide⟩).val :=
  dot_S2000x16_S16x32_S2000x32_1_0_0_1_n_n.lhsIdx_val_of_single rfl i q
theorem rhs_out_0 (i : S2000x32.Idx) (q : dot_S2000x16_S16x32_S2000x32_1_0_0_1_n_n.contr.Idx) :
    (dot_S2000x16_S16x32_S2000x32_1_0_0_1_n_n.rhsIdx i q 0).val = (q ⟨0, by decide⟩).val :=
  dot_S2000x16_S16x32_S2000x32_1_0_0_1_n_n.rhsIdx_val_of_single rfl i q
theorem rhs_out_1 (i : S2000x32.Idx) (q : dot_S2000x16_S16x32_S2000x32_1_0_0_1_n_n.contr.Idx) :
    (dot_S2000x16_S16x32_S2000x32_1_0_0_1_n_n.rhsIdx i q 1).val = (i 1).val := by
  unfold DotDims.rhsIdx
  rw [dif_neg (show ¬(1 : Fin S16x32.rank) ∈ dot_S2000x16_S16x32_S2000x32_1_0_0_1_n_n.rhsBatch by decide), dif_pos (show (1 : Fin S16x32.rank) ∈ dot_S2000x16_S16x32_S2000x32_1_0_0_1_n_n.rhsNonContracting by decide)]
  rfl

theorem matmul_out_at (X : FVec Ideal S2000x16 .f32) (W : FVec Ideal S16x32 .f32) (p : Fin 2000) (k : Fin 32) :
    matmul dot_S2000x16_S16x32_S2000x32_1_0_0_1_n_n none X W (constant S2000x32 .f32 0x00000000#32) (ix2 p k) = ∑ q : Fin 16, X (ix2 p q) * W (ix2 q k) := by
  simp only [matmul]
  rw [Ideal.matmul_constant_zero_apply, ← Equiv.sum_comp (contrEquiv1 dot_S2000x16_S16x32_S2000x32_1_0_0_1_n_n 16 rfl rfl).symm]
  refine Finset.sum_congr rfl fun q _ => ?_
  have hq := contrEquiv1_symm_val dot_S2000x16_S16x32_S2000x32_1_0_0_1_n_n 16 rfl rfl q
  have el : dot_S2000x16_S16x32_S2000x32_1_0_0_1_n_n.lhsIdx (ix2 p k) ((contrEquiv1 dot_S2000x16_S16x32_S2000x32_1_0_0_1_n_n 16 rfl rfl).symm q) = ix2 p q := funext fun a => Fin.ext (by
    match a with
    | ⟨0, _⟩ => exact lhs_out_0 _ _
    | ⟨1, _⟩ => exact (lhs_out_1 _ _).trans hq)
  have er : dot_S2000x16_S16x32_S2000x32_1_0_0_1_n_n.rhsIdx (ix2 p k) ((contrEquiv1 dot_S2000x16_S16x32_S2000x32_1_0_0_1_n_n 16 rfl rfl).symm q) = ix2 q k := funext fun a => Fin.ext (by
    match a with
    | ⟨0, _⟩ => exact (rhs_out_0 _ _).trans hq
    | ⟨1, _⟩ => exact rhs_out_1 _ _)
  rw [el, er]

theorem bias16_at (b : FVec Ideal S1x16 .f32) (p : Fin 2000) (k : Fin 16) :
    broadcastTo S2000x16 b broadcasts_S1x16_S2000x16 (ix2 p k) = b (ix2 (0 : Fin 1) k) :=
  broadcastTo_apply b broadcasts_S1x16_S2000x16 (ix2 p k) (ix2 (0 : Fin 1) k) (fun a => match a with
    | ⟨0, _⟩ => by show 0 = if (1 : Nat) = 1 then 0 else p.val; rw [if_pos rfl]
    | ⟨1, _⟩ => by show k.val = if (16 : Nat) = 1 then 0 else k.val; rw [if_neg (by decide)])

theorem bias32_at (b : FVec Ideal S1x32 .f32) (p : Fin 2000) (j : Fin 32) :
    broadcastTo S2000x32 b broadcasts_S1x32_S2000x32 (ix2 p j) = b (ix2 (0 : Fin 1) j) :=
  broadcastTo_apply b broadcasts_S1x32_S2000x32 (ix2 p j) (ix2 (0 : Fin 1) j) (fun a => match a with
    | ⟨0, _⟩ => by show 0 = if (1 : Nat) = 1 then 0 else p.val; rw [if_pos rfl]
    | ⟨1, _⟩ => by show j.val = if (32 : Nat) = 1 then 0 else j.val; rw [if_neg (by decide)])

theorem zero_f32 : (FloatOps.ofBits .f32 0x00000000#32 : Ideal .f32) = 0 := Ideal.ofBits_zero_f32

abbrev rowOf (x : FVec Ideal S2000x1024 .f32) (p : Fin 2000) : Fin 1024 → EReal := fun q => x (ix2 p q)

abbrev mat16 (w : FVec Ideal S1024x16 .f32) : Fin 1024 → Fin 16 → EReal := fun q k => w (ix2 q k)
abbrev mat32 (w : FVec Ideal S16x32 .f32) : Fin 16 → Fin 32 → EReal := fun k j => w (ix2 k j)
abbrev vec16 (b : FVec Ideal S1x16 .f32) : Fin 16 → EReal := fun k => b (ix2 (0 : Fin 1) k)
abbrev vec32 (b : FVec Ideal S1x32 .f32) : Fin 32 → EReal := fun j => b (ix2 (0 : Fin 1) j)

theorem pay2_at (v0 : FVec Ideal S2000x1024 .f32) (v1 : FVec Ideal S1024x16 .f32) (v4 : FVec Ideal S1x16 .f32)
    (v10 : FVec Ideal S16x32 .f32) (v12 : FVec Ideal S1x32 .f32) (p : Fin 2000) (j : Fin 32) :
    k0_pay2 (F := Ideal) v0 v1 v4 v10 v12 (ix2 p j) = mlp (rowOf v0 p) (mat16 v1) (vec16 v4) (mat32 v10) (vec32 v12) j := by
  unfold k0_pay2 mlp
  simp only [shapeCast_self]
  rw [maximumf_apply, addf_apply, matmul_out_at, bias32_at, broadcast_apply]
  simp only [maximumf_apply, addf_apply, matmul_in_at, bias16_at, broadcast_apply]
  simp only [zero_f32]

theorem pay3_at (v0 : FVec Ideal S2000x1024 .f32) (v18 : FVec Ideal S1024x16 .f32) (v21 : FVec Ideal S1x16 .f32)
    (v27 : FVec Ideal S16x32 .f32) (v29 : FVec Ideal S1x32 .f32) (p : Fin 2000) (j : Fin 32) :
    max (k0_pay3 (F := Ideal) v0 v18 v21 v27 v29 (ix2 p j)) 0 = mlp (rowOf v0 p) (mat16 v18) (vec16 v21) (mat32 v27) (vec32 v29) j := by
  unfold k0_pay3 mlp
  simp only [shapeCast_self]
  rw [addf_apply, matmul_out_at, bias32_at]
  simp only [maximumf_apply, addf_apply, matmul_in_at, bias16_at, broadcast_apply]
  simp only [zero_f32]

theorem pay1_left (v17 v32 : FVec Ideal S2000x32 .f32) (z : Ideal .f32) (p : Fin 2000) (j : Fin 64) (h : j.val < 32) :
    k0_pay1 (F := Ideal) v17 v32 z (ix2 p j) = max (v32 (ix2 p (⟨j.val, h⟩ : Fin 32))) z := by
  show concatenate S2000x64 1 [⟨S2000x32, maximumf v32 (broadcast S2000x32 z)⟩, ⟨S2000x32, v17⟩] concatenates_S2000x32_S2000x32_S2000x64_d1 (ix2 p j) = _
  rw [concatenate_pair_apply_left (1 : Fin S2000x64.rank) _ _ concatenates_S2000x32_S2000x32_S2000x64_d1 (ix2 p j) rfl
    (ix2 p (⟨j.val, h⟩ : Fin 32)) (fun b => match b with | ⟨0, _⟩ => rfl | ⟨1, _⟩ => rfl)]
  rfl

theorem pay1_right (v17 v32 : FVec Ideal S2000x32 .f32) (z : Ideal .f32) (p : Fin 2000) (j : Fin 64) (h : 32 ≤ j.val) :
    k0_pay1 (F := Ideal) v17 v32 z (ix2 p j) = v17 (ix2 p (⟨j.val - 32, by have := j.isLt; omega⟩ : Fin 32)) := by
  show concatenate S2000x64 1 [⟨S2000x32, maximumf v32 (broadcast S2000x32 z)⟩, ⟨S2000x32, v17⟩] concatenates_S2000x32_S2000x32_S2000x64_d1 (ix2 p j) = _
  exact concatenate_pair_apply_right (1 : Fin S2000x64.rank) _ _ concatenates_S2000x32_S2000x32_S2000x64_d1 (ix2 p j) rfl rfl
    (ix2 p (⟨j.val - 32, by have := j.isLt; omega⟩ : Fin 32))
    (fun b hb => match b, hb with | ⟨0, _⟩, _ => rfl | ⟨1, _⟩, hb => absurd rfl hb)
    (by show j.val - 32 + 32 = j.val; omega)

theorem pay_at (x0 : FVec Ideal S2000x1024 .f32) (x1 : FVec Ideal S1024x16 .f32) (x2 : FVec Ideal S1x16 .f32)
    (x3 : FVec Ideal S16x32 .f32) (x4 : FVec Ideal S1x32 .f32) (x5 : FVec Ideal S1024x16 .f32) (x6 : FVec Ideal S1x16 .f32)
    (x7 : FVec Ideal S16x32 .f32) (x8 : FVec Ideal S1x32 .f32) (p : Fin 2000) (j : Fin 64) :
    k0_pay1 (F := Ideal) (k0_pay2 x0 x1 x2 x3 x4) (k0_pay3 x0 x5 x6 x7 x8) (Scalar.ofBits .f32 0x00000000#32) (ix2 p j) =
      if h : j.val < 32 then mlp (rowOf x0 p) (mat16 x5) (vec16 x6) (mat32 x7) (vec32 x8) ⟨j.val, h⟩
      else mlp (rowOf x0 p) (mat16 x1) (vec16 x2) (mat32 x3) (vec32 x4) ⟨j.val - 32, by have := j.isLt; omega⟩ := by
  by_cases h : j.val < 32
  · rw [dif_pos h, pay1_left _ _ _ p j h, ← pay3_at]
    exact congrArg (max _) zero_f32
  · rw [dif_neg h, pay1_right _ _ _ p j (Nat.le_of_not_lt h), pay2_at]

end Cert.KernelIdeal.HandValue

end
-- ==== Proof.Hand.Value0Ref.lean ====
import proofs.«406513_j58480274702513_1_alg».proof.Proof.RefStages
import proofs.«406513_j58480274702513_1_alg».proof.Proof.Hand.Value0Spec
import Idealize.ShloMosaic.Lib.Pipeline.Value
import Idealize.ShloMosaic.Lib.ValueIdx
import Idealize.ShloMosaic.PureOps.Ideal.Laws

noncomputable section

namespace Cert.KernelIdeal.HandValue.Ref

open Cert.ReferenceIdeal Cert.ReferenceIdeal.ReadP Idealize.ShloMosaic Idealize.ShloMosaic.TcCoe Idealize.SL.Sem
open Idealize.ShloMosaic.ValueIdx
open Cert.KernelIdeal.HandValue (mlp)
open scoped BigOperators

theorem zero_f32 : (FloatOps.ofBits .f32 0x00000000#32 : Ideal .f32) = 0 := Ideal.ofBits_zero_f32

theorem v25_at (x0 : (⟨S100000x1024, .f32⟩ : BufTy).Contents (Elt Ideal)) (x7 : (⟨S1022x16, .f32⟩ : BufTy).Contents (Elt Ideal))
    (x8 : (⟨S16, .f32⟩ : BufTy).Contents (Elt Ideal)) (x9 : (⟨S16x32, .f32⟩ : BufTy).Contents (Elt Ideal))
    (x10 : (⟨S32, .f32⟩ : BufTy).Contents (Elt Ideal)) (r : Fin 100000) (j : Fin 32) :
    val_main_v25 (F := Ideal) x0 x7 x8 x9 x10 (ix2 r j) =
      mlp (fun q : Fin 1022 => x0 (ix2 r (Fin.castAdd 2 q))) (fun q k => x7 (ix2 q k)) (fun k => x8 (ix1 k))
        (fun k j => x9 (ix2 k j)) (fun j => x10 (ix1 j)) j := by
  rw [val_main_v25_apply, val_main_v24_apply, val_main_v21_apply, val_main_v23_apply, val_main_v22_apply,
    val_main_call3_v0_apply, val_main_call3_cst_apply]
  simp only [val_main_v20_apply, val_main_v19_apply, val_main_v16_apply, val_main_v18_apply, val_main_v17_apply,
    val_main_v4_apply, val_main_call2_v0_apply, val_main_call2_cst_apply, Ideal.addf_def, Ideal.maximumf_def, zero_f32]
  unfold mlp
  have e0 : ∀ (k : Fin 16) (q : Fin 1022), idx_main_v4 (lidx_main_v16 (lidx_main_v21 (ix2 r j) k) q) = ix2 r (Fin.castAdd 2 q) :=
    fun k q => funext fun a => by match a with | ⟨0, _⟩ => rfl | ⟨1, _⟩ => rfl
  have e1 : ∀ (k : Fin 16) (q : Fin 1022), ridx_main_v16 (lidx_main_v21 (ix2 r j) k) q = ix2 q k :=
    fun k q => funext fun a => by match a with | ⟨0, _⟩ => rfl | ⟨1, _⟩ => rfl
  have e2 : ∀ (k : Fin 16), idx_main_v17 (idx_main_v18 (lidx_main_v21 (ix2 r j) k)) = ix1 k :=
    fun k => funext fun a => by match a with | ⟨0, _⟩ => rfl
  have e3 : ∀ (k : Fin 16), ridx_main_v21 (ix2 r j) k = ix2 k j :=
    fun k => funext fun a => by match a with | ⟨0, _⟩ => rfl | ⟨1, _⟩ => rfl
  have e4 : idx_main_v22 (idx_main_v23 (ix2 r j)) = ix1 j :=
    funext fun a => by match a with | ⟨0, _⟩ => rfl
  simp only [e0, e1, e2, e3, e4]

theorem v15_at (x0 : (⟨S100000x1024, .f32⟩ : BufTy).Contents (Elt Ideal)) (x3 : (⟨S2x16, .f32⟩ : BufTy).Contents (Elt Ideal))
    (x4 : (⟨S16, .f32⟩ : BufTy).Contents (Elt Ideal)) (x5 : (⟨S16x32, .f32⟩ : BufTy).Contents (Elt Ideal))
    (x6 : (⟨S32, .f32⟩ : BufTy).Contents (Elt Ideal)) (r : Fin 100000) (j : Fin 32) :
    val_main_v15 (F := Ideal) x0 x3 x4 x5 x6 (ix2 r j) =
      mlp (fun q : Fin 2 => x0 (ix2 r (Fin.natAdd 1022 q))) (fun q k => x3 (ix2 q k)) (fun k => x4 (ix1 k))
        (fun k j => x5 (ix2 k j)) (fun j => x6 (ix1 j)) j := by
  rw [val_main_v15_apply, val_main_v14_apply, val_main_v11_apply, val_main_v13_apply, val_main_v12_apply,
    val_main_call1_v0_apply, val_main_call1_cst_apply]
  simp only [val_main_v10_apply, val_main_v9_apply, val_main_v6_apply, val_main_v8_apply, val_main_v7_apply,
    val_main_v5_apply, val_main_call0_v0_apply, val_main_call0_cst_apply, Ideal.addf_def, Ideal.maximumf_def, zero_f32]
  unfold mlp
  have e0 : ∀ (k : Fin 16) (q : Fin 2), idx_main_v5 (lidx_main_v6 (lidx_main_v11 (ix2 r j) k) q) = ix2 r (Fin.natAdd 1022 q) :=
    fun k q => funext fun a => by match a with | ⟨0, _⟩ => rfl | ⟨1, _⟩ => rfl
  have e1 : ∀ (k : Fin 16) (q : Fin 2), ridx_main_v6 (lidx_main_v11 (ix2 r j) k) q = ix2 q k :=
    fun k q => funext fun a => by match a with | ⟨0, _⟩ => rfl | ⟨1, _⟩ => rfl
  have e2 : ∀ (k : Fin 16), idx_main_v7 (idx_main_v8 (lidx_main_v11 (ix2 r j) k)) = ix1 k :=
    fun k => funext fun a => by match a with | ⟨0, _⟩ => rfl
  have e3 : ∀ (k : Fin 16), ridx_main_v11 (ix2 r j) k = ix2 k j :=
    fun k => funext fun a => by match a with | ⟨0, _⟩ => rfl | ⟨1, _⟩ => rfl
  have e4 : idx_main_v12 (idx_main_v13 (ix2 r j)) = ix1 j :=
    funext fun a => by match a with | ⟨0, _⟩ => rfl
  simp only [e0, e1, e2, e3, e4]

theorem v26_at (x0 : (⟨S100000x1024, .f32⟩ : BufTy).Contents (Elt Ideal)) (x3 : (⟨S2x16, .f32⟩ : BufTy).Contents (Elt Ideal))
    (x4 : (⟨S16, .f32⟩ : BufTy).Contents (Elt Ideal)) (x5 : (⟨S16x32, .f32⟩ : BufTy).Contents (Elt Ideal))
    (x6 : (⟨S32, .f32⟩ : BufTy).Contents (Elt Ideal)) (x7 : (⟨S1022x16, .f32⟩ : BufTy).Contents (Elt Ideal))
    (x8 : (⟨S16, .f32⟩ : BufTy).Contents (Elt Ideal)) (x9 : (⟨S16x32, .f32⟩ : BufTy).Contents (Elt Ideal))
    (x10 : (⟨S32, .f32⟩ : BufTy).Contents (Elt Ideal)) (r : Fin 100000) (j : Fin 64) :
    val_main_v26 (F := Ideal) x0 x3 x4 x5 x6 x7 x8 x9 x10 (ix2 r j) =
      if h : j.val < 32 then
        mlp (fun q : Fin 1022 => x0 (ix2 r (Fin.castAdd 2 q))) (fun q k => x7 (ix2 q k)) (fun k => x8 (ix1 k))
          (fun k j => x9 (ix2 k j)) (fun j => x10 (ix1 j)) ⟨j.val, h⟩
      else
        mlp (fun q : Fin 2 => x0 (ix2 r (Fin.natAdd 1022 q))) (fun q k => x3 (ix2 q k)) (fun k => x4 (ix1 k))
          (fun k j => x5 (ix2 k j)) (fun j => x6 (ix1 j)) ⟨j.val - 32, by have := j.isLt; omega⟩ := by
  unfold val_main_v26
  by_cases h : j.val < 32
  · rw [dif_pos h, ← v25_at]
    exact concatenate_pair_apply_left (s₁ := S100000x32) (s₂ := S100000x32) (1 : Fin S100000x64.rank) _ _ _ (ix2 r j) rfl
      (ix2 r (⟨j.val, h⟩ : Fin 32)) (fun b => match b with | ⟨0, _⟩ => rfl | ⟨1, _⟩ => rfl)
  · rw [dif_neg h, ← v15_at]
    exact concatenate_pair_apply_right (s₁ := S100000x32) (s₂ := S100000x32) (1 : Fin S100000x64.rank) _ _ _ (ix2 r j) rfl rfl
      (ix2 r (⟨j.val - 32, by have := j.isLt; omega⟩ : Fin 32))
      (fun b hb => match b, hb with | ⟨0, _⟩, _ => rfl | ⟨1, _⟩, hb => absurd rfl hb)
      (by show j.val - 32 + 32 = j.val; omega)

end Cert.KernelIdeal.HandValue.Ref

end
-- ==== Proof.Hand.Value0.lean ====
import proofs.«406513_j58480274702513_1_alg».proof.Proof.Hand.Region0
import proofs.«406513_j58480274702513_1_alg».proof.Proof.Hand.Value0Pay
import proofs.«406513_j58480274702513_1_alg».proof.Proof.Hand.Value0Ref
import Idealize.ShloMosaic.Lib.Pipeline.Value

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem zeros2 : (![0, 0] : Fin 2 → Nat) = fun _ => 0 := funext fun a => by fin_cases a <;> rfl

theorem idx_facts : ∀ t : Fin cfg0.N, (win0_0.index t (0 : Fin 2) = t.val ∧ win0_0.index t (1 : Fin 2) = 0)
    ∧ (win0_9.index t (0 : Fin 2) = t.val ∧ win0_9.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

theorem iblk0_0_at (c : Dev nD) (t : Fin cfg0.N) (p : Fin 2000) (q : Fin 1024) (r : Fin 100000) (hr : r.val = t.val * 2000 + p.val) :
    (iblk0 V c 0 t : Vec Ideal S2000x1024 .f32) (ix2 p q) = (V c main_arg0 : S100000x1024.Idx → Elt Ideal .f32) (ix2 r q) := by
  obtain ⟨⟨e0, e1⟩, -⟩ := idx_facts t
  unfold iblk0
  rw [View.read_apply]
  show V c main_arg0 _ = V c main_arg0 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 1024 + 1 * q.val = q.val; rw [e1]; omega

-- A block read through an embedding that adds a zero offset is the array itself.
theorem read_self {S : Shape} {α : Type} (f : S.Idx → α) (e : S.Idx → S.Idx) (n k : Fin S.rank → Nat)
    (hn : ∀ a, n a = 0) (he : ∀ y a, (e y a).val = n a * k a + 1 * (y a).val) : (fun y => f (e y)) = f :=
  funext fun y => congrArg f (funext fun a => Fin.ext (by rw [he, hn]; omega))

theorem iblk0_1_eq (c : Dev nD) (t : Fin cfg0.N) :
    (iblk0 V c 1 t : Vec Ideal S1024x16 .f32) = (V c main_v1 : S1024x16.Idx → Elt Ideal .f32) :=
  read_self (V c main_v1) ((cfg0.win 1).blk t).view.emb (win0_1.index t) S1024x16.size
    (Fin.forall_fin_two.2 (idx_facts t).2.2.1) fun y => Fin.forall_fin_two.2 ⟨rfl, rfl⟩

theorem iblk0_2_eq (c : Dev nD) (t : Fin cfg0.N) :
    (iblk0 V c 2 t : Vec Ideal S1x16 .f32) = (V c main_v4 : S1x16.Idx → Elt Ideal .f32) :=
  read_self (V c main_v4) ((cfg0.win 2).blk t).view.emb (win0_2.index t) S1x16.size
    (Fin.forall_fin_two.2 (idx_facts t).2.2.2.1) fun y => Fin.forall_fin_two.2 ⟨rfl, rfl⟩

theorem iblk0_3_eq (c : Dev nD) (t : Fin cfg0.N) :
    (iblk0 V c 3 t : Vec Ideal S16x32 .f32) = (V c main_arg5 : S16x32.Idx → Elt Ideal .f32) :=
  read_self (V c main_arg5) ((cfg0.win 3).blk t).view.emb (win0_3.index t) S16x32.size
    (Fin.forall_fin_two.2 (idx_facts t).2.2.2.2.1) fun y => Fin.forall_fin_two.2 ⟨rfl, rfl⟩

theorem iblk0_4_eq (c : Dev nD) (t : Fin cfg0.N) :
    (iblk0 V c 4 t : Vec Ideal S1x32 .f32) = (V c main_v5 : S1x32.Idx → Elt Ideal .f32) :=
  read_self (V c main_v5) ((cfg0.win 4).blk t).view.emb (win0_4.index t) S1x32.size
    (Fin.forall_fin_two.2 (idx_facts t).2.2.2.2.2.1) fun y => Fin.forall_fin_two.2 ⟨rfl, rfl⟩

theorem iblk0_5_eq (c : Dev nD) (t : Fin cfg0.N) :
    (iblk0 V c 5 t : Vec Ideal S1024x16 .f32) = (V c main_v3 : S1024x16.Idx → Elt Ideal .f32) :=
  read_self (V c main_v3) ((cfg0.win 5).blk t).view.emb (win0_5.index t) S1024x16.size
    (Fin.forall_fin_two.2 (idx_facts t).2.2.2.2.2.2.1) fun y => Fin.forall_fin_two.2 ⟨rfl, rfl⟩

theorem iblk0_6_eq (c : Dev nD) (t : Fin cfg0.N) :
    (iblk0 V c 6 t : Vec Ideal S1x16 .f32) = (V c main_v6 : S1x16.Idx → Elt Ideal .f32) :=
  read_self (V c main_v6) ((cfg0.win 6).blk t).view.emb (win0_6.index t) S1x16.size
    (Fin.forall_fin_two.2 (idx_facts t).2.2.2.2.2.2.2.1) fun y => Fin.forall_fin_two.2 ⟨rfl, rfl⟩

theorem iblk0_7_eq (c : Dev nD) (t : Fin cfg0.N) :
    (iblk0 V c 7 t : Vec Ideal S16x32 .f32) = (V c main_arg9 : S16x32.Idx → Elt Ideal .f32) :=
  read_self (V c main_arg9) ((cfg0.win 7).blk t).view.emb (win0_7.index t) S16x32.size
    (Fin.forall_fin_two.2 (idx_facts t).2.2.2.2.2.2.2.2.1) fun y => Fin.forall_fin_two.2 ⟨rfl, rfl⟩

theorem iblk0_8_eq (c : Dev nD) (t : Fin cfg0.N) :
    (iblk0 V c 8 t : Vec Ideal S1x32 .f32) = (V c main_v7 : S1x32.Idx → Elt Ideal .f32) :=
  read_self (V c main_v7) ((cfg0.win 8).blk t).view.emb (win0_8.index t) S1x32.size
    (Fin.forall_fin_two.2 (idx_facts t).2.2.2.2.2.2.2.2.2) fun y => Fin.forall_fin_two.2 ⟨rfl, rfl⟩

def nodeFeatures (a0 : S100000x1024.Idx → EReal) (a1 : S1024x16.Idx → EReal) (a2 : S1x16.Idx → EReal) (a3 : S16x32.Idx → EReal)
    (a4 : S1x32.Idx → EReal) (a5 : S1024x16.Idx → EReal) (a6 : S1x16.Idx → EReal) (a7 : S16x32.Idx → EReal) (a8 : S1x32.Idx → EReal) :
    S100000x64.Idx → EReal := fun i =>
  if h : (i 1).val < 32 then mlp (fun q : Fin 1024 => a0 (ix2 (⟨(i 0).val, (i 0).isLt⟩ : Fin 100000) q)) (mat16 a5) (vec16 a6) (mat32 a7) (vec32 a8) ⟨(i 1).val, h⟩
  else mlp (fun q : Fin 1024 => a0 (ix2 (⟨(i 0).val, (i 0).isLt⟩ : Fin 100000) q)) (mat16 a1) (vec16 a2) (mat32 a3) (vec32 a4)
    ⟨(i 1).val - 32, by have h1 : (i 1).val < 64 := (i 1).isLt; omega⟩

theorem flushed9_eq (c : Dev nD) (t : Fin cfg0.N) :
    (dat0 V c).flushed 9 t = ((cfg0.win 9).blk t).view.read (Elt Ideal)
      (nodeFeatures (V c main_arg0) (V c main_v1) (V c main_v4) (V c main_arg5) (V c main_v5) (V c main_v3) (V c main_v6) (V c main_arg9) (V c main_v7)) := by
  show (cfg0.win 9).cut (grid0.coords t) ((dat0 V c).after 9 t) = _
  rw [after0_9]
  unfold out0_9
  rw [View.canon_unit_zero zeros2]
  simp only [View.ld_unit_zero (S := S2000x1024) zeros2, View.ld_unit_zero (S := S1024x16) zeros2, View.ld_unit_zero (S := S1x16) zeros2,
    View.ld_unit_zero (S := S16x32) zeros2, View.ld_unit_zero (S := S1x32) zeros2]
  rw [iblk0_1_eq V c t, iblk0_2_eq V c t, iblk0_3_eq V c t, iblk0_4_eq V c t, iblk0_5_eq V c t, iblk0_6_eq V c t, iblk0_7_eq V c t, iblk0_8_eq V c t]
  obtain ⟨-, ⟨e0, e1⟩, -⟩ := idx_facts t
  have ht : t.val < 50 := t.isLt
  funext y
  obtain ⟨p, j, rfl⟩ : ∃ (p : Fin 2000) (j : Fin 64), y = ix2 p j := ⟨y 0, y 1, eq_ix2 y⟩
  have hemb : ((cfg0.win 9).blk t).view.emb (ix2 p j) = ix2 (⟨t.val * 2000 + p.val, by have := p.isLt; omega⟩ : Fin 100000) j := by
    funext a
    apply Fin.ext
    match a with
    | ⟨0, _⟩ => show win0_9.index t (0 : Fin 2) * 2000 + 1 * p.val = t.val * 2000 + p.val; rw [e0]; omega
    | ⟨1, _⟩ => show win0_9.index t (1 : Fin 2) * 64 + 1 * j.val = j.val; rw [e1]; omega
  show k0_pay1 (F := Ideal) (k0_pay2 (iblk0 V c 0 t) (V c main_v1) (V c main_v4) (V c main_arg5) (V c main_v5))
      (k0_pay3 (iblk0 V c 0 t) (V c main_v3) (V c main_v6) (V c main_arg9) (V c main_v7)) (Scalar.ofBits .f32 0x00000000#32) (ix2 p j)
    = nodeFeatures (V c main_arg0) (V c main_v1) (V c main_v4) (V c main_arg5) (V c main_v5) (V c main_v3) (V c main_v6) (V c main_arg9) (V c main_v7)
        (((cfg0.win 9).blk t).view.emb (ix2 p j))
  rw [pay_at, hemb]
  unfold nodeFeatures
  have hrow : rowOf (iblk0 V c 0 t) p = fun q : Fin 1024 => (V c main_arg0 : S100000x1024.Idx → Elt Ideal .f32) (ix2 (⟨t.val * 2000 + p.val, by have := p.isLt; omega⟩ : Fin 100000) q) :=
    funext fun q => iblk0_0_at V c t p q _ rfl
  rw [hrow]

theorem mem_blk9 (t : Fin cfg0.N) (i : S100000x64.Idx) :
    i ∈ ((cfg0.win 9).blk t).view.set ↔ ∀ a : Fin 2, win0_9.index t a * S2000x64.size a ≤ (i a).val ∧ (i a).val < win0_9.index t a * S2000x64.size a + S2000x64.size a := by
  show i ∈ ((View.whole main_v8).slice (win0_9.rect t)).set ↔ _
  rw [View.set_slice_whole, Rect.mem_set_unit]
  exact Iff.rfl

theorem final9 (c : Dev nD) : (dat0 V c).arrAt 9 cfg0.N =
    nodeFeatures (V c main_arg0) (V c main_v1) (V c main_v4) (V c main_arg5) (V c main_v5) (V c main_v3) (V c main_v6) (V c main_arg9) (V c main_v7) :=
  (dat0 V c).arrAt_eq_of_cover 9 _ (fun t _ => flushed9_eq V c t) fun i => by
    have hi0 : (i 0).val < 100000 := (i 0).isLt
    have hi1 : (i 1).val < 64 := (i 1).isLt
    have hN : cfg0.N = 50 := N_0
    let t : Fin cfg0.N := ⟨(i 0).val / 2000, by rw [hN]; omega⟩
    obtain ⟨-, ⟨e0, e1⟩, -⟩ := idx_facts t
    have e0' : win0_9.index t (0 : Fin 2) = (i 0).val / 2000 := e0
    refine ⟨t, flush0_9 t, ?_⟩
    rw [mem_blk9]
    intro a
    match a with
    | ⟨0, _⟩ => show win0_9.index t (0 : Fin 2) * 2000 ≤ (i 0).val ∧ (i 0).val < win0_9.index t (0 : Fin 2) * 2000 + 2000; rw [e0']; omega
    | ⟨1, _⟩ => show win0_9.index t (1 : Fin 2) * 64 ≤ (i 1).val ∧ (i 1).val < win0_9.index t (1 : Fin 2) * 64 + 64; rw [e1]; omega

theorem row16_at (b : S16.Idx → EReal) (k : Fin 16) : shapeCast S1x16 b shapeCasts_S16_S1x16 (ix2 (0 : Fin 1) k) = b (ix1 k) :=
  shapeCast_apply b shapeCasts_S16_S1x16 (ix2 (0 : Fin 1) k) (ix1 k) (by
    rw [Shape.rowMajor_val_one, Shape.rowMajor_val_two]; show k.val = 0 * 16 + k.val; omega)
theorem row32_at (b : S32.Idx → EReal) (j : Fin 32) : shapeCast S1x32 b shapeCasts_S32_S1x32 (ix2 (0 : Fin 1) j) = b (ix1 j) :=
  shapeCast_apply b shapeCasts_S32_S1x32 (ix2 (0 : Fin 1) j) (ix1 j) (by
    rw [Shape.rowMajor_val_one, Shape.rowMajor_val_two]; show j.val = 0 * 32 + j.val; omega)

theorem zeros_at {s : Shape} (h : S_.BroadcastsInDim s ![]) (i : s.Idx) :
    broadcastInDim s ![] h (constant (F := Ideal) S_ .f32 0x00000000#32) i = (0 : EReal) := by
  exact (broadcastInDim_apply _ h _ i (fun a => a.elim0) (fun a => a.elim0)).trans zero_f32

theorem padFront_zero (w : S2x16.Idx → EReal) (q : Fin 1022) (k : Fin 16) :
    mat16 (concatenate S1024x16 0 [⟨S1022x16, broadcastInDim S1022x16 ![] bcast_S_S1022x16 (constant (F := Ideal) S_ .f32 0x00000000#32)⟩, ⟨S2x16, w⟩]
      concatenates_S1022x16_S2x16_S1024x16_d0) (Fin.castAdd 2 q) k = 0 := by
  show concatenate S1024x16 0 [⟨S1022x16, broadcastInDim S1022x16 ![] bcast_S_S1022x16 (constant (F := Ideal) S_ .f32 0x00000000#32)⟩, ⟨S2x16, w⟩] concatenates_S1022x16_S2x16_S1024x16_d0 (ix2 (Fin.castAdd 2 q) k) = 0
  rw [concatenate_pair_apply_left (0 : Fin S1024x16.rank) _ _ concatenates_S1022x16_S2x16_S1024x16_d0 (ix2 (Fin.castAdd 2 q) k) rfl
    (ix2 q k) (fun b => match b with | ⟨0, _⟩ => rfl | ⟨1, _⟩ => rfl)]
  exact zeros_at _ _
theorem padFront_rows (w : S2x16.Idx → EReal) (q : Fin 2) (k : Fin 16) :
    mat16 (concatenate S1024x16 0 [⟨S1022x16, broadcastInDim S1022x16 ![] bcast_S_S1022x16 (constant (F := Ideal) S_ .f32 0x00000000#32)⟩, ⟨S2x16, w⟩]
      concatenates_S1022x16_S2x16_S1024x16_d0) (Fin.natAdd 1022 q) k = w (ix2 q k) := by
  show concatenate S1024x16 0 [⟨S1022x16, broadcastInDim S1022x16 ![] bcast_S_S1022x16 (constant (F := Ideal) S_ .f32 0x00000000#32)⟩, ⟨S2x16, w⟩] concatenates_S1022x16_S2x16_S1024x16_d0 (ix2 (Fin.natAdd 1022 q) k) = _
  exact concatenate_pair_apply_right (0 : Fin S1024x16.rank) _ _ concatenates_S1022x16_S2x16_S1024x16_d0 (ix2 (Fin.natAdd 1022 q) k) rfl rfl
    (ix2 q k) (fun b hb => match b, hb with | ⟨0, _⟩, hb => absurd rfl hb | ⟨1, _⟩, _ => rfl)
    (by show q.val + 1022 = 1022 + q.val; omega)

theorem padBack_rows (w : S1022x16.Idx → EReal) (q : Fin 1022) (k : Fin 16) :
    mat16 (concatenate S1024x16 0 [⟨S1022x16, w⟩, ⟨S2x16, broadcastInDim S2x16 ![] bcast_S_S2x16 (constant (F := Ideal) S_ .f32 0x00000000#32)⟩]
      concatenates_S1022x16_S2x16_S1024x16_d0) (Fin.castAdd 2 q) k = w (ix2 q k) := by
  show concatenate S1024x16 0 [⟨S1022x16, w⟩, ⟨S2x16, broadcastInDim S2x16 ![] bcast_S_S2x16 (constant (F := Ideal) S_ .f32 0x00000000#32)⟩] concatenates_S1022x16_S2x16_S1024x16_d0 (ix2 (Fin.castAdd 2 q) k) = _
  exact concatenate_pair_apply_left (0 : Fin S1024x16.rank) _ _ concatenates_S1022x16_S2x16_S1024x16_d0 (ix2 (Fin.castAdd 2 q) k) rfl
    (ix2 q k) (fun b => match b with | ⟨0, _⟩ => rfl | ⟨1, _⟩ => rfl)
theorem padBack_zero (w : S1022x16.Idx → EReal) (q : Fin 2) (k : Fin 16) :
    mat16 (concatenate S1024x16 0 [⟨S1022x16, w⟩, ⟨S2x16, broadcastInDim S2x16 ![] bcast_S_S2x16 (constant (F := Ideal) S_ .f32 0x00000000#32)⟩]
      concatenates_S1022x16_S2x16_S1024x16_d0) (Fin.natAdd 1022 q) k = 0 := by
  show concatenate S1024x16 0 [⟨S1022x16, w⟩, ⟨S2x16, broadcastInDim S2x16 ![] bcast_S_S2x16 (constant (F := Ideal) S_ .f32 0x00000000#32)⟩] concatenates_S1022x16_S2x16_S1024x16_d0 (ix2 (Fin.natAdd 1022 q) k) = 0
  rw [concatenate_pair_apply_right (0 : Fin S1024x16.rank) _ _ concatenates_S1022x16_S2x16_S1024x16_d0 (ix2 (Fin.natAdd 1022 q) k) rfl rfl
    (ix2 q k) (fun b hb => match b, hb with | ⟨0, _⟩, hb => absurd rfl hb | ⟨1, _⟩, _ => rfl)
    (by show q.val + 1022 = 1022 + q.val; omega)]
  exact zeros_at _ _

theorem final0 (c : Dev nD)
    (x0 : (⟨Cert.ReferenceIdeal.S100000x1024, .f32⟩ : BufTy).Contents (Elt Ideal)) (x3 : (⟨Cert.ReferenceIdeal.S2x16, .f32⟩ : BufTy).Contents (Elt Ideal))
    (x4 : (⟨Cert.ReferenceIdeal.S16, .f32⟩ : BufTy).Contents (Elt Ideal)) (x5 : (⟨Cert.ReferenceIdeal.S16x32, .f32⟩ : BufTy).Contents (Elt Ideal))
    (x6 : (⟨Cert.ReferenceIdeal.S32, .f32⟩ : BufTy).Contents (Elt Ideal)) (x7 : (⟨Cert.ReferenceIdeal.S1022x16, .f32⟩ : BufTy).Contents (Elt Ideal))
    (x8 : (⟨Cert.ReferenceIdeal.S16, .f32⟩ : BufTy).Contents (Elt Ideal)) (x9 : (⟨Cert.ReferenceIdeal.S16x32, .f32⟩ : BufTy).Contents (Elt Ideal))
    (x10 : (⟨Cert.ReferenceIdeal.S32, .f32⟩ : BufTy).Contents (Elt Ideal))
    (hx : ∀ i, ∃ r : ℝ, x0 i = (r : EReal))
    (h0 : V c main_arg0 = x0)
    (h1 : V c main_v1 = concatenate S1024x16 0 [⟨S1022x16, broadcastInDim S1022x16 ![] bcast_S_S1022x16 (constant (F := Ideal) S_ .f32 0x00000000#32)⟩, ⟨S2x16, x3⟩] concatenates_S1022x16_S2x16_S1024x16_d0)
    (h2 : V c main_v4 = shapeCast _ x4 shapeCasts_S16_S1x16) (h3 : V c main_arg5 = x5) (h4 : V c main_v5 = shapeCast _ x6 shapeCasts_S32_S1x32)
    (h5 : V c main_v3 = concatenate S1024x16 0 [⟨S1022x16, x7⟩, ⟨S2x16, broadcastInDim S2x16 ![] bcast_S_S2x16 (constant (F := Ideal) S_ .f32 0x00000000#32)⟩] concatenates_S1022x16_S2x16_S1024x16_d0)
    (h6 : V c main_v6 = shapeCast _ x8 shapeCasts_S16_S1x16) (h7 : V c main_arg9 = x9) (h8 : V c main_v7 = shapeCast _ x10 shapeCasts_S32_S1x32) :
    (dat0 V c).arrAt 9 cfg0.N = Cert.ReferenceIdeal.ReadP.val_main_v26 x0 x3 x4 x5 x6 x7 x8 x9 x10 := by
  rw [final9, h0, h1, h2, h3, h4, h5, h6, h7, h8]
  funext i
  obtain ⟨r, j, rfl⟩ : ∃ (r : Fin 100000) (j : Fin 64), i = ix2 r j := ⟨i 0, i 1, eq_ix2 i⟩
  rw [Ref.v26_at]
  unfold nodeFeatures
  by_cases h : j.val < 32
  · rw [dif_pos h, dif_pos (show ((ix2 r j : S100000x64.Idx) 1).val < 32 from h),
      mlp_pad_back _ _ (fun q k => x7 (ix2 q k)) (fun q k => padBack_zero x7 q k) (fun q k => padBack_rows x7 q k)]
    congr 1
    · funext k; exact row16_at x8 k
    · funext k; exact row32_at x10 k
  · rw [dif_neg h, dif_neg (show ¬((ix2 r j : S100000x64.Idx) 1).val < 32 from h),
      mlp_pad_front _ _ (fun q k => x3 (ix2 q k)) (fun q k => padFront_zero x3 q k) (fun q k => padFront_rows x3 q k)]
    congr 1
    · funext k; exact row16_at x4 k
    · funext k; exact row32_at x6 k

end Cert.KernelIdeal.HandValue

end
-- ==== Proof.Hand.LayerSpec.lean ====
import Idealize.ShloMosaic.PureOps.Ideal.Laws
import Idealize.ShloMosaic.Lib.ValueIdx

noncomputable section

namespace Cert.KernelIdeal.HandValue

open Idealize.ShloMosaic

abbrev epsV : EReal := Ideal.ofBits .f32 0x3727C5AC#32

abbrev zeroV : EReal := Ideal.ofBits .f32 0x00000000#32

def norm (x mu var g be : EReal) : EReal := (x - mu) * Ideal.rsqrt (var + epsV) * g + be

def layerRow (a b r : Fin 64 → EReal) (W1 : Fin 64 → Fin 64 → EReal) (b1 mu1 var1 g1 be1 : Fin 64 → EReal)
    (W2 : Fin 64 → Fin 64 → EReal) (b2 mu2 var2 g2 be2 : Fin 64 → EReal) (q : Fin 64) : EReal :=
  norm ((∑ k : Fin 64, max (norm ((∑ l : Fin 64, (a l + b l) * W1 l k) + b1 k) (mu1 k) (var1 k) (g1 k) (be1 k)) zeroV * W2 k q) + b2 q)
    (mu2 q) (var2 q) (g2 q) (be2 q) + r q

end Cert.KernelIdeal.HandValue

end
-- ==== Proof.Hand.LayerKernel.lean ====
import proofs.«406513_j58480274702513_1_alg».proof.Proof.Gen.KernelIdeal.Skeleton
import proofs.«406513_j58480274702513_1_alg».proof.Proof.Hand.LayerSpec
import Idealize.ShloMosaic.Lib.Pipeline.Value
import Idealize.ShloMosaic.Lib.StackMember
import Idealize.ShloMosaic.Lib.ValueLayout
import Idealize.ShloMosaic.Lib.ValueIdx
import Idealize.ShloMosaic.PureOps.Ideal.Laws

noncomputable section

namespace Cert.KernelIdeal.HandValue

open Cert.KernelIdeal Cert.KernelIdeal.Gen
open Idealize.ShloMosaic Idealize.ShloMosaic.ValueIdx

-- The dense map into the zero accumulator is the plain matrix product.
theorem matK_apply (lhs : FVec Ideal S10000x64 .f32) (rhs : FVec Ideal S64x64 .f32) (p : Fin 10000) (q : Fin 64) :
    matmul dot_S10000x64_S64x64_S10000x64_1_0_0_1_n_n none lhs rhs (constant (F := Ideal) S10000x64 .f32 0x00000000#32) (ix2 p q)
      = ∑ k : Fin 64, lhs (ix2 p k) * rhs (ix2 k q) :=
  (congrFun (matmul_zero_eq_dotGeneral _ none lhs rhs) (ix2 p q)).trans (StackMember.dotGeneral_plain_apply none lhs rhs p q)

theorem rsqrt_apply' {s : Shape} (a : FVec Ideal s .f32) (i : s.Idx) : rsqrt a i = Ideal.rsqrt (a i) := rfl

theorem pay1_apply (x0 x1 x2 : Vec Ideal S10000x64 .f32) (W1 : Vec Ideal S64x64 .f32) (b1 mu1 var1 g1 be1 : Vec Ideal S1x64 .f32) (W2 : Vec Ideal S64x64 .f32)
    (b2 mu2 var2 g2 be2 : Vec Ideal S1x64 .f32) (p : Fin 10000) (q : Fin 64) :
    k1_pay1 (k1_pay2 x0 x1 W1 b1 mu1 var1 g1 be1 W2) b2 mu2 var2 g2 be2 x2 (ix2 p q)
      = layerRow (fun l => x0 (ix2 p l)) (fun l => x1 (ix2 p l)) (fun l => x2 (ix2 p l)) (fun l k => W1 (ix2 l k))
          (fun k => b1 (ix2 0 k)) (fun k => mu1 (ix2 0 k)) (fun k => var1 (ix2 0 k)) (fun k => g1 (ix2 0 k)) (fun k => be1 (ix2 0 k))
          (fun l k => W2 (ix2 l k))
          (fun k => b2 (ix2 0 k)) (fun k => mu2 (ix2 0 k)) (fun k => var2 (ix2 0 k)) (fun k => g2 (ix2 0 k)) (fun k => be2 (ix2 0 k)) q := by
  unfold k1_pay1 k1_pay2
  simp only [shapeCast_self, addf_apply, mulf_apply, subf_apply, maximumf_apply, broadcast_apply, rsqrt_apply', broadcastTo_1b_ab_apply, matK_apply]
  rfl

-- The two regions' bodies are the same program.
theorem k2_pay_eq : @k2_pay1 = @k1_pay1 ∧ @k2_pay2 = @k1_pay2 := ⟨rfl, rfl⟩

theorem hz : (![0, 0] : Fin 2 → Nat) = fun _ => 0 := funext fun a => by fin_cases a <;> rfl

theorem layerRow_congr {a a' b b' r r' : Fin 64 → EReal} {W1 W1' : Fin 64 → Fin 64 → EReal} {b1 b1' mu1 mu1' var1 var1' g1 g1' be1 be1' : Fin 64 → EReal}
    {W2 W2' : Fin 64 → Fin 64 → EReal} {b2 b2' mu2 mu2' var2 var2' g2 g2' be2 be2' : Fin 64 → EReal}
    (ha : ∀ l, a l = a' l) (hb : ∀ l, b l = b' l) (hr : ∀ l, r l = r' l) (hW1 : ∀ l k, W1 l k = W1' l k)
    (hb1 : ∀ k, b1 k = b1' k) (hmu1 : ∀ k, mu1 k = mu1' k) (hvar1 : ∀ k, var1 k = var1' k) (hg1 : ∀ k, g1 k = g1' k) (hbe1 : ∀ k, be1 k = be1' k)
    (hW2 : ∀ l k, W2 l k = W2' l k)
    (hb2 : ∀ k, b2 k = b2' k) (hmu2 : ∀ k, mu2 k = mu2' k) (hvar2 : ∀ k, var2 k = var2' k) (hg2 : ∀ k, g2 k = g2' k) (hbe2 : ∀ k, be2 k = be2' k) (q : Fin 64) :
    layerRow a b r W1 b1 mu1 var1 g1 be1 W2 b2 mu2 var2 g2 be2 q = layerRow a' b' r' W1' b1' mu1' var1' g1' be1' W2' b2' mu2' var2' g2' be2' q := by
  have e2 {f g : Fin 64 → Fin 64 → EReal} (h : ∀ l k, f l k = g l k) : f = g := funext fun l => funext (h l)
  rw [funext ha, funext hb, funext hr, e2 hW1, funext hb1, funext hmu1, funext hvar1, funext hg1, funext hbe1, e2 hW2,
    funext hb2, funext hmu2, funext hvar2, funext hg2, funext hbe2]

theorem at_emb {S : Shape} {α : Type} (A : S.Idx → α) {x y : S.Idx} (h : ∀ a, (x a : ℕ) = y a) : A x = A y :=
  congrArg A (funext fun a => Fin.ext (h a))

theorem row_ix (t : ℕ) (p : Fin 10000) (n : Fin 100000) (hn : n.val = 10000 * t + p.val) (l : Fin 64) (a : Fin 2) :
    (if a.val = 0 then 10000 * t else 0) + (ix2 p l a : ℕ) = (ix2 n l a : ℕ) := by
  match a with
  | ⟨0, _⟩ => exact hn.symm
  | ⟨1, _⟩ => exact Nat.zero_add _

end Cert.KernelIdeal.HandValue

end
-- ==== Proof.Hand.Rows1.lean ====
import proofs.«406513_j58480274702513_1_alg».proof.Proof.Hand.Region1
import proofs.«406513_j58480274702513_1_alg».proof.Proof.Hand.LayerKernel
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))
  (c : Dev nD) (t : Fin cfg1.N)

def rowAt1 (n : Fin 100000) (q : Fin 64) : EReal :=
  layerRow (fun l => V c main_v8 (ix2 n l))
    (fun l => V c main_v16 (ix2 n l))
    (fun l => V c main_v8 (ix2 n l))
    (fun l k => V c main_v18 (ix2 l k))
    (fun k => V c main_v21 (ix2 0 k))
    (fun k => V c main_v30 (ix2 0 k))
    (fun k => V c main_v33 (ix2 0 k))
    (fun k => V c main_v24 (ix2 0 k))
    (fun k => V c main_v27 (ix2 0 k))
    (fun l k => V c main_v35 (ix2 l k))
    (fun k => V c main_v38 (ix2 0 k))
    (fun k => V c main_v47 (ix2 0 k))
    (fun k => V c main_v50 (ix2 0 k))
    (fun k => V c main_v41 (ix2 0 k))
    (fun k => V c main_v44 (ix2 0 k)) q

def G1 : Vec Ideal S100000x64 .f32 := fun i => rowAt1 V c (i 0) (i 1)

theorem idxW1 : ∀ (t : Fin cfg1.N) (w : Fin 16), 2 < w.val → w.val < 15 → ∀ a, (win1 w).index t a = 0 :=
  (by decide +kernel : ∀ (t : Fin grid1.N) (w : Fin 16), 2 < w.val → w.val < 15 → ∀ a, (win1 w).index t a = 0)

theorem idxR1 : ∀ (t : Fin cfg1.N) (w : Fin 16), w.val < 3 ∨ w.val = 15 → ∀ a,
    (win1 w).index t a * (win1 w).size a = if a.val = 0 then 10000 * t.val else 0 :=
  (by decide +kernel : ∀ (t : Fin grid1.N) (w : Fin 16), w.val < 3 ∨ w.val = 15 → ∀ a,
    (win1 w).index t a * (win1 w).size a = if a.val = 0 then 10000 * t.val else 0)

theorem embW1 (w : Fin 16) (h0 : 2 < w.val) (h1 : w.val < 15) (y) (a) :
    (((win1 w).rect t).emb y a : ℕ) = y a :=
  (win1 w).rect_emb_val_of_index_zero t a (idxW1 t w h0 h1 a) y

theorem embR1 (w : Fin 16) (h : w.val < 3 ∨ w.val = 15) (y) (a) :
    (((win1 w).rect t).emb y a : ℕ) = (if a.val = 0 then 10000 * t.val else 0) + y a := by
  rw [(win1 w).rect_emb_val t y a, idxR1 t w h a]

theorem blk1_0 (p : Fin 10000) (l : Fin 64) (n : Fin 100000) (hn : n.val = 10000 * t.val + p.val) :
    iblk1 V c 0 t (ix2 p l) = V c main_v8 (ix2 n l) :=
  at_emb (V c main_v8) fun a => (embR1 t 0 (Or.inl (by decide)) _ a).trans (row_ix t.val p n hn l a)
theorem blk1_1 (p : Fin 10000) (l : Fin 64) (n : Fin 100000) (hn : n.val = 10000 * t.val + p.val) :
    iblk1 V c 1 t (ix2 p l) = V c main_v16 (ix2 n l) :=
  at_emb (V c main_v16) fun a => (embR1 t 1 (Or.inl (by decide)) _ a).trans (row_ix t.val p n hn l a)
theorem blk1_2 (p : Fin 10000) (l : Fin 64) (n : Fin 100000) (hn : n.val = 10000 * t.val + p.val) :
    iblk1 V c 2 t (ix2 p l) = V c main_v8 (ix2 n l) :=
  at_emb (V c main_v8) fun a => (embR1 t 2 (Or.inl (by decide)) _ a).trans (row_ix t.val p n hn l a)
theorem blk1_3 (j : S64x64.Idx) : iblk1 V c 3 t j = V c main_v18 j :=
  at_emb (V c main_v18) (embW1 t 3 (by decide) (by decide) j)
theorem blk1_4 (j : S1x64.Idx) : iblk1 V c 4 t j = V c main_v21 j :=
  at_emb (V c main_v21) (embW1 t 4 (by decide) (by decide) j)
theorem blk1_5 (j : S1x64.Idx) : iblk1 V c 5 t j = V c main_v24 j :=
  at_emb (V c main_v24) (embW1 t 5 (by decide) (by decide) j)
theorem blk1_6 (j : S1x64.Idx) : iblk1 V c 6 t j = V c main_v27 j :=
  at_emb (V c main_v27) (embW1 t 6 (by decide) (by decide) j)
theorem blk1_7 (j : S1x64.Idx) : iblk1 V c 7 t j = V c main_v30 j :=
  at_emb (V c main_v30) (embW1 t 7 (by decide) (by decide) j)
theorem blk1_8 (j : S1x64.Idx) : iblk1 V c 8 t j = V c main_v33 j :=
  at_emb (V c main_v33) (embW1 t 8 (by decide) (by decide) j)
theorem blk1_9 (j : S64x64.Idx) : iblk1 V c 9 t j = V c main_v35 j :=
  at_emb (V c main_v35) (embW1 t 9 (by decide) (by decide) j)
theorem blk1_10 (j : S1x64.Idx) : iblk1 V c 10 t j = V c main_v38 j :=
  at_emb (V c main_v38) (embW1 t 10 (by decide) (by decide) j)
theorem blk1_11 (j : S1x64.Idx) : iblk1 V c 11 t j = V c main_v41 j :=
  at_emb (V c main_v41) (embW1 t 11 (by decide) (by decide) j)
theorem blk1_12 (j : S1x64.Idx) : iblk1 V c 12 t j = V c main_v44 j :=
  at_emb (V c main_v44) (embW1 t 12 (by decide) (by decide) j)
theorem blk1_13 (j : S1x64.Idx) : iblk1 V c 13 t j = V c main_v47 j :=
  at_emb (V c main_v47) (embW1 t 13 (by decide) (by decide) j)
theorem blk1_14 (j : S1x64.Idx) : iblk1 V c 14 t j = V c main_v50 j :=
  at_emb (V c main_v50) (embW1 t 14 (by decide) (by decide) j)

theorem emb1_15 (p : Fin 10000) (q : Fin 64) (n : Fin 100000) (hn : n.val = 10000 * t.val + p.val) :
    ((cfg1.win 15).blk t).view.emb (ix2 p q) = ix2 n q :=
  funext fun a => Fin.ext ((embR1 t 15 (Or.inr rfl) _ a).trans (row_ix t.val p n hn q a))

theorem rows1_flushed :
    (dat1 V c).flushed 15 t = ((cfg1.win 15).blk t).view.read (Elt Ideal) (G1 V c) := by
  show (cfg1.win 15).cut (grid1.coords t) ((dat1 V c).after 15 t) = _
  rw [after1_15]
  unfold out1_15
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  refine (pay1_apply _ _ _ _ _ _ _ _ _ _ _ _ _ _ _ p q).trans ?_
  let n : Fin 100000 := ⟨10000 * t.val + p.val, by have := p.isLt; have := lt_of_lt_of_eq t.isLt N_1; omega⟩
  show _ = G1 V c (((cfg1.win 15).blk t).view.emb (ix2 p q))
  rw [emb1_15 t p q n rfl]
  show _ = rowAt1 V c n q
  unfold rowAt1
  exact layerRow_congr (fun l => blk1_0 V c t p l n rfl) (fun l => blk1_1 V c t p l n rfl) (fun l => blk1_2 V c t p l n rfl)
    (fun l k => blk1_3 V c t _) (fun k => blk1_4 V c t _) (fun k => blk1_7 V c t _) (fun k => blk1_8 V c t _)
    (fun k => blk1_5 V c t _) (fun k => blk1_6 V c t _) (fun l k => blk1_9 V c t _) (fun k => blk1_10 V c t _)
    (fun k => blk1_13 V c t _) (fun k => blk1_14 V c t _) (fun k => blk1_11 V c t _) (fun k => blk1_12 V c t _) q

theorem final1_rows : (dat1 V c).arrAt 15 cfg1.N = G1 V c :=
  (dat1 V c).arrAt_eq_of_cover 15 (G1 V c) (fun t _ => rows1_flushed V c t) fun i => by
    have h0 : (i 0).val < 100000 := (i 0).isLt
    let t : Fin cfg1.N := ⟨(i 0).val / 10000, by rw [show cfg1.N = 10 from N_1]; omega⟩
    refine ⟨t, flush1_15 t, ?_⟩
    have e := (emb1_15 t ⟨(i 0).val % 10000, Nat.mod_lt _ (by decide)⟩ (i 1) (i 0)
      (by show _ = 10000 * ((i 0).val / 10000) + (i 0).val % 10000; omega)).trans (eq_ix2 i).symm
    exact Eq.mp (congrArg (· ∈ ((cfg1.win 15).blk t).view.set) e) (View.emb_mem_set _ _)

end Cert.KernelIdeal.HandValue

end
-- ==== Proof.Hand.LayerRef.lean ====
import proofs.«406513_j58480274702513_1_alg».proof.Proof.RefStages
import proofs.«406513_j58480274702513_1_alg».proof.Proof.Hand.LayerSpec
import Idealize.ShloMosaic.Lib.StackMember

noncomputable section

namespace Cert.KernelIdeal.HandValue

open Idealize.ShloMosaic Idealize.ShloMosaic.ValueIdx
open Cert.ReferenceIdeal Cert.ReferenceIdeal.Gen

def rowB {F : FTy → Type} [FloatOps F] (v : FVec F S64 .f32) : FVec F S100000x64 .f32 :=
  broadcastInDim S100000x64 ![0, 1] bcast_S1x64_S100000x64_0_1 (broadcastInDim S1x64 ![1] bcast_S64_S1x64_1 v)

def denseNorm {F : FTy → Type} [FloatOps F] (x : FVec F S100000x64 .f32) (W : FVec F S64x64 .f32) (b mu var g be : FVec F S64 .f32) :
    FVec F S100000x64 .f32 :=
  addf (mulf (mulf (subf (addf (Host.dotGeneral dot_S100000x64_S64x64_S100000x64_1_0_0_1_n_n none x W) (rowB b)) (rowB mu))
    (rowB (Host.rsqrt (addf var (broadcastInDim S64 ![] bcast_S_S64 (constant S_ .f32 0x3727C5AC#32)))))) (rowB g)) (rowB be)

def refLayer {F : FTy → Type} [FloatOps F] (h a r : FVec F S100000x64 .f32) (W1 : FVec F S64x64 .f32) (b1 mu1 var1 g1 be1 : FVec F S64 .f32)
    (W2 : FVec F S64x64 .f32) (b2 mu2 var2 g2 be2 : FVec F S64 .f32) : FVec F S100000x64 .f32 :=
  addf (denseNorm (maximumf (denseNorm (addf h a) W1 b1 mu1 var1 g1 be1)
      (broadcastInDim S100000x64 ![] bcast_S_S100000x64 (constant S_ .f32 0x00000000#32))) W2 b2 mu2 var2 g2 be2) r

theorem rowB_apply {F : FTy → Type} [FloatOps F] (v : FVec F S64 .f32) (n : Fin 100000) (q : Fin 64) : rowB v (ix2 n q) = v (ix1 q) := by
  unfold rowB
  rw [broadcastInDim_apply _ bcast_S1x64_S100000x64_0_1 _ (ix2 n q) (ix2 (0 : Fin 1) q) (fun a => match a with
      | ⟨0, _⟩ => by show 0 = if (1 : Nat) = 1 then 0 else n.val; rw [if_pos rfl]
      | ⟨1, _⟩ => by show q.val = if (64 : Nat) = 1 then 0 else q.val; rw [if_neg (by decide)])]
  exact broadcastInDim_apply _ bcast_S64_S1x64_1 v (ix2 (0 : Fin 1) q) (ix1 q) (fun a => match a with
      | ⟨0, _⟩ => by show q.val = if (64 : Nat) = 1 then 0 else q.val; rw [if_neg (by decide)])

theorem dot_apply (y0 : FVec Ideal S100000x64 .f32) (y1 : FVec Ideal S64x64 .f32) (n : Fin 100000) (q : Fin 64) :
    Host.dotGeneral dot_S100000x64_S64x64_S100000x64_1_0_0_1_n_n none y0 y1 (ix2 n q) = ∑ k : Fin 64, y0 (ix2 n k) * y1 (ix2 k q) :=
  StackMember.dotGeneral_plain_apply none y0 y1 n q

theorem denseNorm_apply (x : FVec Ideal S100000x64 .f32) (W : FVec Ideal S64x64 .f32) (b mu var g be : FVec Ideal S64 .f32) (n : Fin 100000) (q : Fin 64) :
    denseNorm x W b mu var g be (ix2 n q)
      = norm ((∑ k : Fin 64, x (ix2 n k) * W (ix2 k q)) + b (ix1 q)) (mu (ix1 q)) (var (ix1 q)) (g (ix1 q)) (be (ix1 q)) := by
  unfold denseNorm
  simp only [addf_apply, mulf_apply, subf_apply, dot_apply, rowB_apply]
  rfl

theorem refLayer_apply (h a r : FVec Ideal S100000x64 .f32) (W1 : FVec Ideal S64x64 .f32) (b1 mu1 var1 g1 be1 : FVec Ideal S64 .f32)
    (W2 : FVec Ideal S64x64 .f32) (b2 mu2 var2 g2 be2 : FVec Ideal S64 .f32) (n : Fin 100000) (q : Fin 64) :
    refLayer h a r W1 b1 mu1 var1 g1 be1 W2 b2 mu2 var2 g2 be2 (ix2 n q)
      = layerRow (fun l => h (ix2 n l)) (fun l => a (ix2 n l)) (fun l => r (ix2 n l))
          (fun l k => W1 (ix2 l k)) (fun k => b1 (ix1 k)) (fun k => mu1 (ix1 k)) (fun k => var1 (ix1 k)) (fun k => g1 (ix1 k)) (fun k => be1 (ix1 k))
          (fun l k => W2 (ix2 l k)) (fun k => b2 (ix1 k)) (fun k => mu2 (ix1 k)) (fun k => var2 (ix1 k)) (fun k => g2 (ix1 k)) (fun k => be2 (ix1 k)) q := by
  unfold refLayer
  simp only [addf_apply, maximumf_apply, denseNorm_apply]
  rfl

end Cert.KernelIdeal.HandValue

end
-- ==== Proof.Hand.Value1.lean ====
import proofs.«406513_j58480274702513_1_alg».proof.Proof.Hand.Rows1
import proofs.«406513_j58480274702513_1_alg».proof.Proof.Hand.LayerRef
import Idealize.ShloMosaic.Lib.Pipeline.Value
import Idealize.ShloMosaic.Lib.ValueLayout
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

theorem final1 (V : (c : Dev nD) → (b : Ref sig .tc) → Buf (Elt Ideal) ((c : Thread nD τ).loc b)) (c : Dev nD)
    (x0 : (⟨Cert.ReferenceIdeal.S100000x1024, .f32⟩ : BufTy).Contents (Elt Ideal)) (x1 : (⟨Cert.ReferenceIdeal.S2x1600000, .i32⟩ : BufTy).Contents (Elt Ideal)) (x3 : (⟨Cert.ReferenceIdeal.S2x16, .f32⟩ : BufTy).Contents (Elt Ideal)) (x4 : (⟨Cert.ReferenceIdeal.S16, .f32⟩ : BufTy).Contents (Elt Ideal)) (x5 : (⟨Cert.ReferenceIdeal.S16x32, .f32⟩ : BufTy).Contents (Elt Ideal)) (x6 : (⟨Cert.ReferenceIdeal.S32, .f32⟩ : BufTy).Contents (Elt Ideal)) (x7 : (⟨Cert.ReferenceIdeal.S1022x16, .f32⟩ : BufTy).Contents (Elt Ideal)) (x8 : (⟨Cert.ReferenceIdeal.S16, .f32⟩ : BufTy).Contents (Elt Ideal)) (x9 : (⟨Cert.ReferenceIdeal.S16x32, .f32⟩ : BufTy).Contents (Elt Ideal)) (x10 : (⟨Cert.ReferenceIdeal.S32, .f32⟩ : BufTy).Contents (Elt Ideal)) (x11 : (⟨Cert.ReferenceIdeal.S2x64x64, .f32⟩ : BufTy).Contents (Elt Ideal)) (x12 x13 x14 x15 x16 : (⟨Cert.ReferenceIdeal.S2x64, .f32⟩ : BufTy).Contents (Elt Ideal)) (x17 : (⟨Cert.ReferenceIdeal.S2x64x64, .f32⟩ : BufTy).Contents (Elt Ideal)) (x18 x19 x20 x21 x22 : (⟨Cert.ReferenceIdeal.S2x64, .f32⟩ : BufTy).Contents (Elt Ideal))
    (h0 : V c main_v8 = Cert.ReferenceIdeal.ReadP.val_main_v26 x0 x3 x4 x5 x6 x7 x8 x9 x10)
    (h1 : V c main_v16 = Cert.ReferenceIdeal.ReadP.val_main_v36 x0 x1 x3 x4 x5 x6 x7 x8 x9 x10)
    (h3 : V c main_v18 = shapeCast _ (extractStridedSlice S1x64x64 ![0, 0, 0] x11 slices_S2x64x64_S1x64x64_0_0_0) shapeCasts_S1x64x64_S64x64)
    (h4 : V c main_v21 = shapeCast _ (shapeCast _ (extractStridedSlice S1x64 ![0, 0] x12 slices_S2x64_S1x64_0_0) shapeCasts_S1x64_S64) shapeCasts_S64_S1x64)
    (h5 : V c main_v24 = shapeCast _ (shapeCast _ (extractStridedSlice S1x64 ![0, 0] x13 slices_S2x64_S1x64_0_0) shapeCasts_S1x64_S64) shapeCasts_S64_S1x64)
    (h6 : V c main_v27 = shapeCast _ (shapeCast _ (extractStridedSlice S1x64 ![0, 0] x14 slices_S2x64_S1x64_0_0) shapeCasts_S1x64_S64) shapeCasts_S64_S1x64)
    (h7 : V c main_v30 = shapeCast _ (shapeCast _ (extractStridedSlice S1x64 ![0, 0] x15 slices_S2x64_S1x64_0_0) shapeCasts_S1x64_S64) shapeCasts_S64_S1x64)
    (h8 : V c main_v33 = shapeCast _ (shapeCast _ (extractStridedSlice S1x64 ![0, 0] x16 slices_S2x64_S1x64_0_0) shapeCasts_S1x64_S64) shapeCasts_S64_S1x64)
    (h9 : V c main_v35 = shapeCast _ (extractStridedSlice S1x64x64 ![0, 0, 0] x17 slices_S2x64x64_S1x64x64_0_0_0) shapeCasts_S1x64x64_S64x64)
    (h10 : V c main_v38 = shapeCast _ (shapeCast _ (extractStridedSlice S1x64 ![0, 0] x18 slices_S2x64_S1x64_0_0) shapeCasts_S1x64_S64) shapeCasts_S64_S1x64)
    (h11 : V c main_v41 = shapeCast _ (shapeCast _ (extractStridedSlice S1x64 ![0, 0] x19 slices_S2x64_S1x64_0_0) shapeCasts_S1x64_S64) shapeCasts_S64_S1x64)
    (h12 : V c main_v44 = shapeCast _ (shapeCast _ (extractStridedSlice S1x64 ![0, 0] x20 slices_S2x64_S1x64_0_0) shapeCasts_S1x64_S64) shapeCasts_S64_S1x64)
    (h13 : V c main_v47 = shapeCast _ (shapeCast _ (extractStridedSlice S1x64 ![0, 0] x21 slices_S2x64_S1x64_0_0) shapeCasts_S1x64_S64) shapeCasts_S64_S1x64)
    (h14 : V c main_v50 = shapeCast _ (shapeCast _ (extractStridedSlice S1x64 ![0, 0] x22 slices_S2x64_S1x64_0_0) shapeCasts_S1x64_S64) shapeCasts_S64_S1x64)
    : (dat1 V c).arrAt 15 cfg1.N = Cert.ReferenceIdeal.ReadP.val_main_v101 x0 x1 x3 x4 x5 x6 x7 x8 x9 x10 x11 x12 x13 x14 x15 x16 x17 x18 x19 x20 x21 x22 := by
  have w1 {A : Vec Ideal S1x64 .f32} {u : FVec Ideal S64 .f32} (h : A = shapeCast _ u shapeCasts_S64_S1x64) (k : Fin 64) :
      A (ix2 0 k) = u (ix1 k) := (congrFun h _).trans (shapeCast_a_1a_apply u _ 0 k)
  refine (final1_rows V c).trans ?_
  funext i
  obtain ⟨n, q, rfl⟩ : ∃ (n : Fin 100000) (q : Fin 64), i = ix2 n q := ⟨i 0, i 1, eq_ix2 i⟩
  show rowAt1 V c n q = refLayer (F := Ideal) _ _ _ _ _ _ _ _ _ _ _ _ _ _ _ (ix2 n q)
  rw [refLayer_apply]
  unfold rowAt1
  exact layerRow_congr (fun l => congrFun h0 (ix2 n l)) (fun l => congrFun h1 (ix2 n l)) (fun l => congrFun h0 (ix2 n l))
    (fun l k => congrFun h3 (ix2 l k)) (w1 h4) (w1 h7) (w1 h8) (w1 h5) (w1 h6)
    (fun l k => congrFun h9 (ix2 l k)) (w1 h10) (w1 h13) (w1 h14) (w1 h11) (w1 h12) q

end Cert.KernelIdeal.HandValue

end
-- ==== Proof.Hand.Rows2.lean ====
import proofs.«406513_j58480274702513_1_alg».proof.Proof.Hand.Region2
import proofs.«406513_j58480274702513_1_alg».proof.Proof.Hand.LayerKernel
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))
  (c : Dev nD) (t : Fin cfg2.N)

def rowAt2 (n : Fin 100000) (q : Fin 64) : EReal :=
  layerRow (fun l => V c main_v51 (ix2 n l))
    (fun l => V c main_v55 (ix2 n l))
    (fun l => V c main_v56 (ix2 n l))
    (fun l k => V c main_v58 (ix2 l k))
    (fun k => V c main_v61 (ix2 0 k))
    (fun k => V c main_v70 (ix2 0 k))
    (fun k => V c main_v73 (ix2 0 k))
    (fun k => V c main_v64 (ix2 0 k))
    (fun k => V c main_v67 (ix2 0 k))
    (fun l k => V c main_v75 (ix2 l k))
    (fun k => V c main_v78 (ix2 0 k))
    (fun k => V c main_v87 (ix2 0 k))
    (fun k => V c main_v90 (ix2 0 k))
    (fun k => V c main_v81 (ix2 0 k))
    (fun k => V c main_v84 (ix2 0 k)) q

def G2 : Vec Ideal S100000x64 .f32 := fun i => rowAt2 V c (i 0) (i 1)

theorem idxW2 : ∀ (t : Fin cfg2.N) (w : Fin 16), 2 < w.val → w.val < 15 → ∀ a, (win2 w).index t a = 0 :=
  (by decide +kernel : ∀ (t : Fin grid2.N) (w : Fin 16), 2 < w.val → w.val < 15 → ∀ a, (win2 w).index t a = 0)

theorem idxR2 : ∀ (t : Fin cfg2.N) (w : Fin 16), w.val < 3 ∨ w.val = 15 → ∀ a,
    (win2 w).index t a * (win2 w).size a = if a.val = 0 then 10000 * t.val else 0 :=
  (by decide +kernel : ∀ (t : Fin grid2.N) (w : Fin 16), w.val < 3 ∨ w.val = 15 → ∀ a,
    (win2 w).index t a * (win2 w).size a = if a.val = 0 then 10000 * t.val else 0)

theorem embW2 (w : Fin 16) (h0 : 2 < w.val) (h1 : w.val < 15) (y) (a) :
    (((win2 w).rect t).emb y a : ℕ) = y a :=
  (win2 w).rect_emb_val_of_index_zero t a (idxW2 t w h0 h1 a) y

theorem embR2 (w : Fin 16) (h : w.val < 3 ∨ w.val = 15) (y) (a) :
    (((win2 w).rect t).emb y a : ℕ) = (if a.val = 0 then 10000 * t.val else 0) + y a := by
  rw [(win2 w).rect_emb_val t y a, idxR2 t w h a]

theorem blk2_0 (p : Fin 10000) (l : Fin 64) (n : Fin 100000) (hn : n.val = 10000 * t.val + p.val) :
    iblk2 V c 0 t (ix2 p l) = V c main_v51 (ix2 n l) :=
  at_emb (V c main_v51) fun a => (embR2 t 0 (Or.inl (by decide)) _ a).trans (row_ix t.val p n hn l a)
theorem blk2_1 (p : Fin 10000) (l : Fin 64) (n : Fin 100000) (hn : n.val = 10000 * t.val + p.val) :
    iblk2 V c 1 t (ix2 p l) = V c main_v55 (ix2 n l) :=
  at_emb (V c main_v55) fun a => (embR2 t 1 (Or.inl (by decide)) _ a).trans (row_ix t.val p n hn l a)
theorem blk2_2 (p : Fin 10000) (l : Fin 64) (n : Fin 100000) (hn : n.val = 10000 * t.val + p.val) :
    iblk2 V c 2 t (ix2 p l) = V c main_v56 (ix2 n l) :=
  at_emb (V c main_v56) fun a => (embR2 t 2 (Or.inl (by decide)) _ a).trans (row_ix t.val p n hn l a)
theorem blk2_3 (j : S64x64.Idx) : iblk2 V c 3 t j = V c main_v58 j :=
  at_emb (V c main_v58) (embW2 t 3 (by decide) (by decide) j)
theorem blk2_4 (j : S1x64.Idx) : iblk2 V c 4 t j = V c main_v61 j :=
  at_emb (V c main_v61) (embW2 t 4 (by decide) (by decide) j)
theorem blk2_5 (j : S1x64.Idx) : iblk2 V c 5 t j = V c main_v64 j :=
  at_emb (V c main_v64) (embW2 t 5 (by decide) (by decide) j)
theorem blk2_6 (j : S1x64.Idx) : iblk2 V c 6 t j = V c main_v67 j :=
  at_emb (V c main_v67) (embW2 t 6 (by decide) (by decide) j)
theorem blk2_7 (j : S1x64.Idx) : iblk2 V c 7 t j = V c main_v70 j :=
  at_emb (V c main_v70) (embW2 t 7 (by decide) (by decide) j)
theorem blk2_8 (j : S1x64.Idx) : iblk2 V c 8 t j = V c main_v73 j :=
  at_emb (V c main_v73) (embW2 t 8 (by decide) (by decide) j)
theorem blk2_9 (j : S64x64.Idx) : iblk2 V c 9 t j = V c main_v75 j :=
  at_emb (V c main_v75) (embW2 t 9 (by decide) (by decide) j)
theorem blk2_10 (j : S1x64.Idx) : iblk2 V c 10 t j = V c main_v78 j :=
  at_emb (V c main_v78) (embW2 t 10 (by decide) (by decide) j)
theorem blk2_11 (j : S1x64.Idx) : iblk2 V c 11 t j = V c main_v81 j :=
  at_emb (V c main_v81) (embW2 t 11 (by decide) (by decide) j)
theorem blk2_12 (j : S1x64.Idx) : iblk2 V c 12 t j = V c main_v84 j :=
  at_emb (V c main_v84) (embW2 t 12 (by decide) (by decide) j)
theorem blk2_13 (j : S1x64.Idx) : iblk2 V c 13 t j = V c main_v87 j :=
  at_emb (V c main_v87) (embW2 t 13 (by decide) (by decide) j)
theorem blk2_14 (j : S1x64.Idx) : iblk2 V c 14 t j = V c main_v90 j :=
  at_emb (V c main_v90) (embW2 t 14 (by decide) (by decide) j)

theorem emb2_15 (p : Fin 10000) (q : Fin 64) (n : Fin 100000) (hn : n.val = 10000 * t.val + p.val) :
    ((cfg2.win 15).blk t).view.emb (ix2 p q) = ix2 n q :=
  funext fun a => Fin.ext ((embR2 t 15 (Or.inr rfl) _ a).trans (row_ix t.val p n hn q a))

theorem rows2_flushed :
    (dat2 V c).flushed 15 t = ((cfg2.win 15).blk t).view.read (Elt Ideal) (G2 V c) := by
  show (cfg2.win 15).cut (grid2.coords t) ((dat2 V c).after 15 t) = _
  rw [after2_15]
  unfold out2_15
  rw [View.canon_unit_zero hz, k2_pay_eq.1, k2_pay_eq.2]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  refine (pay1_apply _ _ _ _ _ _ _ _ _ _ _ _ _ _ _ p q).trans ?_
  let n : Fin 100000 := ⟨10000 * t.val + p.val, by have := p.isLt; have := lt_of_lt_of_eq t.isLt N_2; omega⟩
  show _ = G2 V c (((cfg2.win 15).blk t).view.emb (ix2 p q))
  rw [emb2_15 t p q n rfl]
  show _ = rowAt2 V c n q
  unfold rowAt2
  exact layerRow_congr (fun l => blk2_0 V c t p l n rfl) (fun l => blk2_1 V c t p l n rfl) (fun l => blk2_2 V c t p l n rfl)
    (fun l k => blk2_3 V c t _) (fun k => blk2_4 V c t _) (fun k => blk2_7 V c t _) (fun k => blk2_8 V c t _)
    (fun k => blk2_5 V c t _) (fun k => blk2_6 V c t _) (fun l k => blk2_9 V c t _) (fun k => blk2_10 V c t _)
    (fun k => blk2_13 V c t _) (fun k => blk2_14 V c t _) (fun k => blk2_11 V c t _) (fun k => blk2_12 V c t _) q

theorem final2_rows : (dat2 V c).arrAt 15 cfg2.N = G2 V c :=
  (dat2 V c).arrAt_eq_of_cover 15 (G2 V c) (fun t _ => rows2_flushed V c t) fun i => by
    have h0 : (i 0).val < 100000 := (i 0).isLt
    let t : Fin cfg2.N := ⟨(i 0).val / 10000, by rw [show cfg2.N = 10 from N_2]; omega⟩
    refine ⟨t, flush2_15 t, ?_⟩
    have e := (emb2_15 t ⟨(i 0).val % 10000, Nat.mod_lt _ (by decide)⟩ (i 1) (i 0)
      (by show _ = 10000 * ((i 0).val / 10000) + (i 0).val % 10000; omega)).trans (eq_ix2 i).symm
    exact Eq.mp (congrArg (· ∈ ((cfg2.win 15).blk t).view.set) e) (View.emb_mem_set _ _)

end Cert.KernelIdeal.HandValue

end
-- ==== Proof.Hand.Value2.lean ====
import proofs.«406513_j58480274702513_1_alg».proof.Proof.Hand.Rows2
import proofs.«406513_j58480274702513_1_alg».proof.Proof.Hand.LayerRef
import Idealize.ShloMosaic.Lib.Pipeline.Value
import Idealize.ShloMosaic.Lib.ValueLayout
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

theorem layerRow_residual_add (a b r s : Fin 64 → EReal) (W1 : Fin 64 → Fin 64 → EReal) (b1 mu1 var1 g1 be1 : Fin 64 → EReal)
    (W2 : Fin 64 → Fin 64 → EReal) (b2 mu2 var2 g2 be2 : Fin 64 → EReal) (q : Fin 64) :
    layerRow a b (fun l => r l + s l) W1 b1 mu1 var1 g1 be1 W2 b2 mu2 var2 g2 be2 q
      = layerRow a b r W1 b1 mu1 var1 g1 be1 W2 b2 mu2 var2 g2 be2 q + s q := by
  unfold layerRow
  exact (add_assoc _ _ _).symm

theorem final2 (V : (c : Dev nD) → (b : Ref sig .tc) → Buf (Elt Ideal) ((c : Thread nD τ).loc b)) (c : Dev nD)
    (x0 : (⟨Cert.ReferenceIdeal.S100000x1024, .f32⟩ : BufTy).Contents (Elt Ideal)) (x1 : (⟨Cert.ReferenceIdeal.S2x1600000, .i32⟩ : BufTy).Contents (Elt Ideal)) (x3 : (⟨Cert.ReferenceIdeal.S2x16, .f32⟩ : BufTy).Contents (Elt Ideal)) (x4 : (⟨Cert.ReferenceIdeal.S16, .f32⟩ : BufTy).Contents (Elt Ideal)) (x5 : (⟨Cert.ReferenceIdeal.S16x32, .f32⟩ : BufTy).Contents (Elt Ideal)) (x6 : (⟨Cert.ReferenceIdeal.S32, .f32⟩ : BufTy).Contents (Elt Ideal)) (x7 : (⟨Cert.ReferenceIdeal.S1022x16, .f32⟩ : BufTy).Contents (Elt Ideal)) (x8 : (⟨Cert.ReferenceIdeal.S16, .f32⟩ : BufTy).Contents (Elt Ideal)) (x9 : (⟨Cert.ReferenceIdeal.S16x32, .f32⟩ : BufTy).Contents (Elt Ideal)) (x10 : (⟨Cert.ReferenceIdeal.S32, .f32⟩ : BufTy).Contents (Elt Ideal)) (x11 : (⟨Cert.ReferenceIdeal.S2x64x64, .f32⟩ : BufTy).Contents (Elt Ideal)) (x12 x13 x14 x15 x16 : (⟨Cert.ReferenceIdeal.S2x64, .f32⟩ : BufTy).Contents (Elt Ideal)) (x17 : (⟨Cert.ReferenceIdeal.S2x64x64, .f32⟩ : BufTy).Contents (Elt Ideal)) (x18 x19 x20 x21 x22 : (⟨Cert.ReferenceIdeal.S2x64, .f32⟩ : BufTy).Contents (Elt Ideal))
    (h0 : V c main_v51 = Cert.ReferenceIdeal.ReadP.val_main_v101 x0 x1 x3 x4 x5 x6 x7 x8 x9 x10 x11 x12 x13 x14 x15 x16 x17 x18 x19 x20 x21 x22)
    (h1 : V c main_v55 = Cert.ReferenceIdeal.ReadP.val_main_v111 x0 x1 x3 x4 x5 x6 x7 x8 x9 x10 x11 x12 x13 x14 x15 x16 x17 x18 x19 x20 x21 x22)
    (h2 : V c main_v56 = addf (Cert.ReferenceIdeal.ReadP.val_main_v101 x0 x1 x3 x4 x5 x6 x7 x8 x9 x10 x11 x12 x13 x14 x15 x16 x17 x18 x19 x20 x21 x22) (Cert.ReferenceIdeal.ReadP.val_main_v26 x0 x3 x4 x5 x6 x7 x8 x9 x10))
    (h3 : V c main_v58 = shapeCast _ (extractStridedSlice S1x64x64 ![1, 0, 0] x11 slices_S2x64x64_S1x64x64_1_0_0) shapeCasts_S1x64x64_S64x64)
    (h4 : V c main_v61 = shapeCast _ (shapeCast _ (extractStridedSlice S1x64 ![1, 0] x12 slices_S2x64_S1x64_1_0) shapeCasts_S1x64_S64) shapeCasts_S64_S1x64)
    (h5 : V c main_v64 = shapeCast _ (shapeCast _ (extractStridedSlice S1x64 ![1, 0] x13 slices_S2x64_S1x64_1_0) shapeCasts_S1x64_S64) shapeCasts_S64_S1x64)
    (h6 : V c main_v67 = shapeCast _ (shapeCast _ (extractStridedSlice S1x64 ![1, 0] x14 slices_S2x64_S1x64_1_0) shapeCasts_S1x64_S64) shapeCasts_S64_S1x64)
    (h7 : V c main_v70 = shapeCast _ (shapeCast _ (extractStridedSlice S1x64 ![1, 0] x15 slices_S2x64_S1x64_1_0) shapeCasts_S1x64_S64) shapeCasts_S64_S1x64)
    (h8 : V c main_v73 = shapeCast _ (shapeCast _ (extractStridedSlice S1x64 ![1, 0] x16 slices_S2x64_S1x64_1_0) shapeCasts_S1x64_S64) shapeCasts_S64_S1x64)
    (h9 : V c main_v75 = shapeCast _ (extractStridedSlice S1x64x64 ![1, 0, 0] x17 slices_S2x64x64_S1x64x64_1_0_0) shapeCasts_S1x64x64_S64x64)
    (h10 : V c main_v78 = shapeCast _ (shapeCast _ (extractStridedSlice S1x64 ![1, 0] x18 slices_S2x64_S1x64_1_0) shapeCasts_S1x64_S64) shapeCasts_S64_S1x64)
    (h11 : V c main_v81 = shapeCast _ (shapeCast _ (extractStridedSlice S1x64 ![1, 0] x19 slices_S2x64_S1x64_1_0) shapeCasts_S1x64_S64) shapeCasts_S64_S1x64)
    (h12 : V c main_v84 = shapeCast _ (shapeCast _ (extractStridedSlice S1x64 ![1, 0] x20 slices_S2x64_S1x64_1_0) shapeCasts_S1x64_S64) shapeCasts_S64_S1x64)
    (h13 : V c main_v87 = shapeCast _ (shapeCast _ (extractStridedSlice S1x64 ![1, 0] x21 slices_S2x64_S1x64_1_0) shapeCasts_S1x64_S64) shapeCasts_S64_S1x64)
    (h14 : V c main_v90 = shapeCast _ (shapeCast _ (extractStridedSlice S1x64 ![1, 0] x22 slices_S2x64_S1x64_1_0) shapeCasts_S1x64_S64) shapeCasts_S64_S1x64)
    : (dat2 V c).arrAt 15 cfg2.N = Cert.ReferenceIdeal.ReadP.val_main_v177 x0 x1 x3 x4 x5 x6 x7 x8 x9 x10 x11 x12 x13 x14 x15 x16 x17 x18 x19 x20 x21 x22 := by
  have w1 {A : Vec Ideal S1x64 .f32} {u : FVec Ideal S64 .f32} (h : A = shapeCast _ u shapeCasts_S64_S1x64) (k : Fin 64) :
      A (ix2 0 k) = u (ix1 k) := (congrFun h _).trans (shapeCast_a_1a_apply u _ 0 k)
  refine (final2_rows V c).trans ?_
  funext i
  obtain ⟨n, q, rfl⟩ : ∃ (n : Fin 100000) (q : Fin 64), i = ix2 n q := ⟨i 0, i 1, eq_ix2 i⟩
  let r1 := Cert.ReferenceIdeal.ReadP.val_main_v101 x0 x1 x3 x4 x5 x6 x7 x8 x9 x10 x11 x12 x13 x14 x15 x16 x17 x18 x19 x20 x21 x22
  let r0 := Cert.ReferenceIdeal.ReadP.val_main_v26 x0 x3 x4 x5 x6 x7 x8 x9 x10
  show rowAt2 V c n q = refLayer (F := Ideal) _ _ _ _ _ _ _ _ _ _ _ _ _ _ _ (ix2 n q) + r0 (ix2 n q)
  rw [refLayer_apply]
  unfold rowAt2
  refine (layerRow_congr (r' := fun l => r1 (ix2 n l) + r0 (ix2 n l))
    (fun l => congrFun h0 (ix2 n l)) (fun l => congrFun h1 (ix2 n l)) (fun l => congrFun h2 (ix2 n l))
    (fun l k => congrFun h3 (ix2 l k)) (w1 h4) (w1 h7) (w1 h8) (w1 h5) (w1 h6)
    (fun l k => congrFun h9 (ix2 l k)) (w1 h10) (w1 h13) (w1 h14) (w1 h11) (w1 h12) q).trans ?_
  exact layerRow_residual_add _ _ (fun l => r1 (ix2 n l)) (fun l => r0 (ix2 n l)) _ _ _ _ _ _ _ _ _ _ _ _ q

end Cert.KernelIdeal.HandValue

end
-- ==== Proof.Hand.Value3.lean ====
import proofs.«406513_j58480274702513_1_alg».proof.Proof.Hand.Region3
import proofs.«406513_j58480274702513_1_alg».proof.Proof.RefStages
import Idealize.ShloMosaic.Lib.Pipeline.Value
import Idealize.ShloMosaic.Lib.ValueIdx
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)

section Blocks
variable {F : FTy → Type} [FloatOps F]
variable (V : (c : Dev nD) → (b : Ref sig .tc) → Buf (Elt F) ((c : Thread nD τ).loc b))

theorem hz3 : (![0, 0] : Fin 2 → Nat) = fun _ => 0 := funext fun a => by fin_cases a <;> rfl

theorem idx_facts3 : ∀ t : Fin cfg3.N,
    win3_0.index t (0 : Fin 2) = 0 ∧ win3_0.index t (1 : Fin 2) = 0 ∧
    win3_1.index t (0 : Fin 2) = 0 ∧ win3_1.index t (1 : Fin 2) = 0 ∧
    win3_2.index t (0 : Fin 2) = 0 ∧ win3_2.index t (1 : Fin 2) = 0 ∧
    win3_3.index t (0 : Fin 2) = 0 ∧ win3_3.index t (1 : Fin 2) = 0 ∧
    win3_4.index t (0 : Fin 2) = 0 ∧ win3_4.index t (1 : Fin 2) = 0 ∧
    win3_5.index t (0 : Fin 2) = 0 ∧ win3_5.index t (1 : Fin 2) = 0 ∧
    win3_6.index t (0 : Fin 2) = 0 ∧ win3_6.index t (1 : Fin 2) = 0 :=
  (by decide +kernel : ∀ t : Fin grid3.N, _)

theorem blk3_0 (c : Dev nD) (t : Fin cfg3.N) : (iblk3 V c 0 t : Vec F S512x64 .f32) = (V c main_v94 : Vec F S512x64 .f32) := by
  funext y
  show V c main_v94 (((cfg3.win 0).blk t).view.emb y) = V c main_v94 y
  refine congrArg _ (funext fun a => Fin.ext ?_)
  have e := idx_facts3 t
  match a with
  | ⟨0, _⟩ => show win3_0.index t (0 : Fin 2) * 512 + 1 * (y 0).val = (y 0).val; omega
  | ⟨1, _⟩ => show win3_0.index t (1 : Fin 2) * 64 + 1 * (y 1).val = (y 1).val; omega

theorem blk3_1 (c : Dev nD) (t : Fin cfg3.N) : (iblk3 V c 1 t : Vec F S512x1 .f32) = (V c main_v99 : Vec F S512x1 .f32) := by
  funext y
  show V c main_v99 (((cfg3.win 1).blk t).view.emb y) = V c main_v99 y
  refine congrArg _ (funext fun a => Fin.ext ?_)
  have e := idx_facts3 t
  match a with
  | ⟨0, _⟩ => show win3_1.index t (0 : Fin 2) * 512 + 1 * (y 0).val = (y 0).val; omega
  | ⟨1, _⟩ => show win3_1.index t (1 : Fin 2) * 1 + 1 * (y 1).val = (y 1).val; omega

theorem blk3_2 (c : Dev nD) (t : Fin cfg3.N) : (iblk3 V c 2 t : Vec F S64x16 .f32) = (V c main_arg23 : Vec F S64x16 .f32) := by
  funext y
  show V c main_arg23 (((cfg3.win 2).blk t).view.emb y) = V c main_arg23 y
  refine congrArg _ (funext fun a => Fin.ext ?_)
  have e := idx_facts3 t
  match a with
  | ⟨0, _⟩ => show win3_2.index t (0 : Fin 2) * 64 + 1 * (y 0).val = (y 0).val; omega
  | ⟨1, _⟩ => show win3_2.index t (1 : Fin 2) * 16 + 1 * (y 1).val = (y 1).val; omega

theorem blk3_3 (c : Dev nD) (t : Fin cfg3.N) : (iblk3 V c 3 t : Vec F S1x16 .f32) = (V c main_v100 : Vec F S1x16 .f32) := by
  funext y
  show V c main_v100 (((cfg3.win 3).blk t).view.emb y) = V c main_v100 y
  refine congrArg _ (funext fun a => Fin.ext ?_)
  have e := idx_facts3 t
  match a with
  | ⟨0, _⟩ => show win3_3.index t (0 : Fin 2) * 1 + 1 * (y 0).val = (y 0).val; omega
  | ⟨1, _⟩ => show win3_3.index t (1 : Fin 2) * 16 + 1 * (y 1).val = (y 1).val; omega

theorem blk3_4 (c : Dev nD) (t : Fin cfg3.N) : (iblk3 V c 4 t : Vec F S16x7 .f32) = (V c main_arg25 : Vec F S16x7 .f32) := by
  funext y
  show V c main_arg25 (((cfg3.win 4).blk t).view.emb y) = V c main_arg25 y
  refine congrArg _ (funext fun a => Fin.ext ?_)
  have e := idx_facts3 t
  match a with
  | ⟨0, _⟩ => show win3_4.index t (0 : Fin 2) * 16 + 1 * (y 0).val = (y 0).val; omega
  | ⟨1, _⟩ => show win3_4.index t (1 : Fin 2) * 7 + 1 * (y 1).val = (y 1).val; omega

theorem blk3_5 (c : Dev nD) (t : Fin cfg3.N) : (iblk3 V c 5 t : Vec F S1x7 .f32) = (V c main_v101 : Vec F S1x7 .f32) := by
  funext y
  show V c main_v101 (((cfg3.win 5).blk t).view.emb y) = V c main_v101 y
  refine congrArg _ (funext fun a => Fin.ext ?_)
  have e := idx_facts3 t
  match a with
  | ⟨0, _⟩ => show win3_5.index t (0 : Fin 2) * 1 + 1 * (y 0).val = (y 0).val; omega
  | ⟨1, _⟩ => show win3_5.index t (1 : Fin 2) * 7 + 1 * (y 1).val = (y 1).val; omega

theorem flushed3_6_eq (c : Dev nD) (t : Fin cfg3.N) :
    (dat3 V c).flushed 6 t = ((cfg3.win 6).blk t).view.read (Elt F)
      (k3_pay1 (V c main_v99) (V c main_v94) (V c main_arg23) (V c main_v100) (V c main_arg25) (V c main_v101)) := by
  show (cfg3.win 6).cut (grid3.coords t) ((dat3 V c).after 6 t) = _
  rw [after3_6]
  unfold out3_6
  rw [View.canon_unit_zero hz3]
  simp only [View.ld_unit_zero (S := S512x64) hz3, View.ld_unit_zero (S := S512x1) hz3, View.ld_unit_zero (S := S64x16) hz3,
    View.ld_unit_zero (S := S1x16) hz3, View.ld_unit_zero (S := S16x7) hz3, View.ld_unit_zero (S := S1x7) hz3]
  rw [blk3_0, blk3_1, blk3_2, blk3_3, blk3_4, blk3_5]
  funext j
  show k3_pay1 (V c main_v99) (V c main_v94) (V c main_arg23) (V c main_v100) (V c main_arg25) (V c main_v101) j
    = k3_pay1 (V c main_v99) (V c main_v94) (V c main_arg23) (V c main_v100) (V c main_arg25) (V c main_v101) (((cfg3.win 6).blk t).view.emb j)
  refine congrArg _ (funext fun a => Fin.ext ?_)
  have e := idx_facts3 t
  match a with
  | ⟨0, _⟩ => show (j 0).val = win3_6.index t (0 : Fin 2) * 512 + 1 * (j 0).val; omega
  | ⟨1, _⟩ => show (j 1).val = win3_6.index t (1 : Fin 2) * 7 + 1 * (j 1).val; omega

theorem mem_blk3_6 (t : Fin cfg3.N) (i : S512x7.Idx) :
    i ∈ ((cfg3.win 6).blk t).view.set ↔ ∀ a : Fin 2, win3_6.index t a * S512x7.size a ≤ (i a).val ∧ (i a).val < win3_6.index t a * S512x7.size a + S512x7.size a := by
  show i ∈ ((View.whole main_v102).slice (win3_6.rect t)).set ↔ _
  rw [View.set_slice_whole, Rect.mem_set_unit]
  exact Iff.rfl

theorem arr3_6 (c : Dev nD) : (dat3 V c).arrAt 6 cfg3.N
    = k3_pay1 (V c main_v99) (V c main_v94) (V c main_arg23) (V c main_v100) (V c main_arg25) (V c main_v101) :=
  (dat3 V c).arrAt_eq_of_cover 6 _ (fun t _ => flushed3_6_eq V c t) (fun i => ⟨t3_0, flush3_6 t3_0, by
    rw [mem_blk3_6]
    have e := idx_facts3 t3_0
    intro a
    match a with
    | ⟨0, _⟩ => show win3_6.index t3_0 (0 : Fin 2) * 512 ≤ (i 0).val ∧ (i 0).val < win3_6.index t3_0 (0 : Fin 2) * 512 + 512; have hi : (i 0).val < 512 := (i 0).isLt; omega
    | ⟨1, _⟩ => show win3_6.index t3_0 (1 : Fin 2) * 7 ≤ (i 1).val ∧ (i 1).val < win3_6.index t3_0 (1 : Fin 2) * 7 + 7; have hi : (i 1).val < 7 := (i 1).isLt; omega⟩)

end Blocks

section Stages
variable {F : FTy → Type} [FloatOps F]

def kMean (cnt : Vec F S512x1 .f32) (ps : Vec F S512x64 .f32) : FVec F S512x64 .f32 :=
  divf (shapeCast S512x64 ps shapeCasts_S512x64_S512x64)
    (broadcastTo S512x64 (maximumf (shapeCast S512x1 cnt shapeCasts_S512x1_S512x1) (broadcast S512x1 (Scalar.ofBits .f32 0x3F800000#32))) broadcasts_S512x1_S512x64)

def kHidden (mean : FVec F S512x64 .f32) (w1 : Vec F S64x16 .f32) (b1 : Vec F S1x16 .f32) : FVec F S512x16 .f32 :=
  maximumf (addf (matmul dot_S512x64_S64x16_S512x16_1_0_0_1_n_n none mean w1 (constant S512x16 .f32 0x00000000#32))
      (broadcastTo S512x16 (shapeCast S1x16 b1 shapeCasts_S1x16_S1x16) broadcasts_S1x16_S512x16))
    (broadcast S512x16 (Scalar.ofBits .f32 0x00000000#32))

def kLogits (hid : FVec F S512x16 .f32) (w2 : Vec F S16x7 .f32) (b2 : Vec F S1x7 .f32) : FVec F S512x7 .f32 :=
  addf (matmul dot_S512x16_S16x7_S512x7_1_0_0_1_n_n none hid w2 (constant S512x7 .f32 0x00000000#32))
    (broadcastTo S512x7 (shapeCast S1x7 b2 shapeCasts_S1x7_S1x7) broadcasts_S1x7_S512x7)

def kRowMax (l : FVec F S512x7 .f32) : FVec F S512 .f32 :=
  maximumf (broadcast S512 (Scalar.ofBits .f32 0xFF800000#32))
    (multiReduction .maximumf [1] S512 l 0xFF800000#32 reduces_S512x7_S512 (.inl rfl) rfl)

def kShift (l : FVec F S512x7 .f32) : FVec F S512x7 .f32 :=
  subf l (broadcastTo S512x7 (shapeCast S512x1 (kRowMax l) shapeCasts_S512_S512x1) broadcasts_S512x1_S512x7)

def kLogSoftmax (l : FVec F S512x7 .f32) : FVec F S512x7 .f32 :=
  subf (kShift l) (broadcastTo S512x7 (log (shapeCast S512x1
    (multiReduction .add [1] S512 (exp (kShift l)) 0x00000000#32 reduces_S512x7_S512 (.inl rfl) rfl) shapeCasts_S512_S512x1)) broadcasts_S512x1_S512x7)

theorem k3_pay1_eq_stages (v0 : Vec F S512x1 .f32) (v4 : Vec F S512x64 .f32) (v8 : Vec F S64x16 .f32) (v10 : Vec F S1x16 .f32)
    (v16 : Vec F S16x7 .f32) (v18 : Vec F S1x7 .f32) :
    k3_pay1 v0 v4 v8 v10 v16 v18 = kLogSoftmax (kLogits (kHidden (kMean v0 v4) v8 v10) v16 v18) := rfl

end Stages

theorem dot1_eq : (dot_S512x64_S64x16_S512x16_1_0_0_1_n_n : DotDims S512x64 S64x16 S512x16) = Cert.ReferenceIdeal.dot_S512x64_S64x16_S512x16_1_0_0_1_n_n := rfl
theorem dot2_eq : (dot_S512x16_S16x7_S512x7_1_0_0_1_n_n : DotDims S512x16 S16x7 S512x7) = Cert.ReferenceIdeal.dot_S512x16_S16x7_S512x7_1_0_0_1_n_n := rfl

section Layout
open Idealize.ShloMosaic.ValueIdx
variable {α : Type}

theorem col_apply (x : S512.Idx → α) (r : Fin 512) (z : Fin 1) :
    shapeCast S512x1 x shapeCasts_S512_S512x1 (ix2 r z) = x (ix1 r) :=
  shapeCast_apply x _ (ix2 r z) (ix1 r) (by
    rw [Shape.rowMajor_val_one, Shape.rowMajor_val_two]
    show r.val = r.val * 1 + z.val
    have := z.isLt; omega)

theorem row16_apply (x : S16.Idx → α) (z : Fin 1) (q : Fin 16) :
    shapeCast S1x16 x shapeCasts_S16_S1x16 (ix2 z q) = x (ix1 q) :=
  shapeCast_apply x _ (ix2 z q) (ix1 q) (by
    rw [Shape.rowMajor_val_one, Shape.rowMajor_val_two]
    show q.val = z.val * 16 + q.val
    have := z.isLt; omega)

theorem row7_apply (x : S7.Idx → α) (z : Fin 1) (q : Fin 7) :
    shapeCast S1x7 x shapeCasts_S7_S1x7 (ix2 z q) = x (ix1 q) :=
  shapeCast_apply x _ (ix2 z q) (ix1 q) (by
    rw [Shape.rowMajor_val_one, Shape.rowMajor_val_two]
    show q.val = z.val * 7 + q.val
    have := z.isLt; omega)

theorem bcol64_apply (x : S512x1.Idx → α) (r : Fin 512) (q : Fin 64) :
    broadcastTo S512x64 x broadcasts_S512x1_S512x64 (ix2 r q) = x (ix2 r 0) :=
  broadcastTo_apply x _ (ix2 r q) (ix2 r 0) (fun a => match a with
    | ⟨0, _⟩ => by show r.val = if (512 : Nat) = 1 then 0 else r.val; rw [if_neg (by decide)]
    | ⟨1, _⟩ => by show 0 = if (1 : Nat) = 1 then 0 else q.val; rw [if_pos rfl])

theorem bcol7_apply (x : S512x1.Idx → α) (r : Fin 512) (q : Fin 7) :
    broadcastTo S512x7 x broadcasts_S512x1_S512x7 (ix2 r q) = x (ix2 r 0) :=
  broadcastTo_apply x _ (ix2 r q) (ix2 r 0) (fun a => match a with
    | ⟨0, _⟩ => by show r.val = if (512 : Nat) = 1 then 0 else r.val; rw [if_neg (by decide)]
    | ⟨1, _⟩ => by show 0 = if (1 : Nat) = 1 then 0 else q.val; rw [if_pos rfl])

theorem brow16_apply (x : S1x16.Idx → α) (r : Fin 512) (q : Fin 16) :
    broadcastTo S512x16 x broadcasts_S1x16_S512x16 (ix2 r q) = x (ix2 0 q) :=
  broadcastTo_apply x _ (ix2 r q) (ix2 0 q) (fun a => match a with
    | ⟨0, _⟩ => by show 0 = if (1 : Nat) = 1 then 0 else r.val; rw [if_pos rfl]
    | ⟨1, _⟩ => by show q.val = if (16 : Nat) = 1 then 0 else q.val; rw [if_neg (by decide)])

theorem brow7_apply (x : S1x7.Idx → α) (r : Fin 512) (q : Fin 7) :
    broadcastTo S512x7 x broadcasts_S1x7_S512x7 (ix2 r q) = x (ix2 0 q) :=
  broadcastTo_apply x _ (ix2 r q) (ix2 0 q) (fun a => match a with
    | ⟨0, _⟩ => by show 0 = if (1 : Nat) = 1 then 0 else r.val; rw [if_pos rfl]
    | ⟨1, _⟩ => by show q.val = if (7 : Nat) = 1 then 0 else q.val; rw [if_neg (by decide)])

end Layout

section StageReads
open Idealize.ShloMosaic.ValueIdx
variable {F : FTy → Type} [FloatOps F]

theorem kMean_apply (cn : FVec F S512 .f32) (ps : FVec F S512x64 .f32) (r : Fin 512) (q : Fin 64) :
    kMean (shapeCast S512x1 cn shapeCasts_S512_S512x1) ps (ix2 r q)
      = FloatOps.divf (ps (ix2 r q)) (FloatOps.maximumf (cn (ix1 r)) (FloatOps.ofBits .f32 0x3F800000#32)) := by
  unfold kMean
  show FloatOps.divf (shapeCast S512x64 ps shapeCasts_S512x64_S512x64 (ix2 r q)) (broadcastTo S512x64 _ broadcasts_S512x1_S512x64 (ix2 r q)) = _
  rw [shapeCast_self, bcol64_apply]
  show FloatOps.divf _ (FloatOps.maximumf (shapeCast S512x1 (shapeCast S512x1 cn shapeCasts_S512_S512x1) shapeCasts_S512x1_S512x1 (ix2 r 0)) _) = _
  rw [shapeCast_self, col_apply]
  rfl

theorem kShift_apply (l : FVec F S512x7 .f32) (r : Fin 512) (q : Fin 7) :
    kShift l (ix2 r q) = FloatOps.subf (l (ix2 r q)) (kRowMax l (ix1 r)) := by
  unfold kShift
  show FloatOps.subf _ (broadcastTo S512x7 _ broadcasts_S512x1_S512x7 (ix2 r q)) = _
  rw [bcol7_apply, col_apply]

theorem kLogSoftmax_apply (l : FVec F S512x7 .f32) (r : Fin 512) (q : Fin 7) :
    kLogSoftmax l (ix2 r q) = FloatOps.subf (kShift l (ix2 r q))
      (FloatOps.log (multiReduction .add [1] S512 (exp (kShift l)) 0x00000000#32 reduces_S512x7_S512 (.inl rfl) rfl (ix1 r))) := by
  unfold kLogSoftmax
  refine congrArg (FloatOps.subf _) ?_
  refine (bcol7_apply _ r q).trans ?_
  exact congrArg FloatOps.log (col_apply _ r 0)

theorem exp_apply {s : Shape} {φ : FTy} (x : FVec F s φ) (i : s.Idx) : exp x i = FloatOps.exp (x i) := rfl

theorem kRowMax_apply (l : FVec Ideal S512x7 .f32) (j : S512.Idx) :
    kRowMax l j = FloatOps.maximumf (FloatOps.ofBits .f32 0xFF800000#32)
      ((Finset.univ : Finset (Fin (S512x7.size 1))).fold max (FloatOps.ofBits .f32 0xFF800000#32) (l ∘ reduces_S512x7_S512.lift j)) :=
  congrArg (FloatOps.maximumf (FloatOps.ofBits .f32 0xFF800000#32))
    (Ideal.multiReduction_maximumf_single l 0xFF800000#32 reduces_S512x7_S512 (.inl rfl) rfl j)

theorem rowSum_apply (src : FVec Ideal S512x7 .f32) (j : S512.Idx) :
    multiReduction .add [1] S512 src 0x00000000#32 reduces_S512x7_S512 (.inl rfl) rfl j
      = ∑ k : Fin (S512x7.size 1), src (reduces_S512x7_S512.lift j k) :=
  Ideal.multiReduction_add_single src 0x00000000#32 reduces_S512x7_S512 (.inl rfl) rfl j

end StageReads

theorem matmul1_eq (M : FVec Ideal S512x64 .f32) (w : FVec Ideal S64x16 .f32) :
    matmul dot_S512x64_S64x16_S512x16_1_0_0_1_n_n none M w (constant S512x16 .f32 0x00000000#32)
      = Host.dotGeneral Cert.ReferenceIdeal.dot_S512x64_S64x16_S512x16_1_0_0_1_n_n none M w := by
  funext j
  rw [← dot1_eq]
  show FloatOps.matmul _ none M w (constant _ .f32 0x00000000#32) j = FloatOps.dotGeneral _ none .single M w j
  rw [Ideal.matmul_constant_zero_apply, Ideal.dotGeneral_apply]

theorem matmul2_eq (M : FVec Ideal S512x16 .f32) (w : FVec Ideal S16x7 .f32) :
    matmul dot_S512x16_S16x7_S512x7_1_0_0_1_n_n none M w (constant S512x7 .f32 0x00000000#32)
      = Host.dotGeneral Cert.ReferenceIdeal.dot_S512x16_S16x7_S512x7_1_0_0_1_n_n none M w := by
  funext j
  rw [← dot2_eq]
  show FloatOps.matmul _ none M w (constant _ .f32 0x00000000#32) j = FloatOps.dotGeneral _ none .single M w j
  rw [Ideal.matmul_constant_zero_apply, Ideal.dotGeneral_apply]

section Ref
open Cert.ReferenceIdeal.ReadP
open Idealize.ShloMosaic.ValueIdx
variable (V : (c : Dev nD) → (b : Ref sig .tc) → Buf (Elt Ideal) ((c : Thread nD τ).loc b)) (c : Dev nD)
variable (x0 : (⟨Cert.ReferenceIdeal.S100000x1024, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S2x16, .f32⟩ : BufTy).Contents (Elt Ideal)) (x4 : (⟨Cert.ReferenceIdeal.S16, .f32⟩ : BufTy).Contents (Elt Ideal)) (x5 : (⟨Cert.ReferenceIdeal.S16x32, .f32⟩ : BufTy).Contents (Elt Ideal)) (x6 : (⟨Cert.ReferenceIdeal.S32, .f32⟩ : BufTy).Contents (Elt Ideal)) (x7 : (⟨Cert.ReferenceIdeal.S1022x16, .f32⟩ : BufTy).Contents (Elt Ideal)) (x8 : (⟨Cert.ReferenceIdeal.S16, .f32⟩ : BufTy).Contents (Elt Ideal)) (x9 : (⟨Cert.ReferenceIdeal.S16x32, .f32⟩ : BufTy).Contents (Elt Ideal)) (x10 : (⟨Cert.ReferenceIdeal.S32, .f32⟩ : BufTy).Contents (Elt Ideal)) (x11 : (⟨Cert.ReferenceIdeal.S2x64x64, .f32⟩ : BufTy).Contents (Elt Ideal)) (x12 : (⟨Cert.ReferenceIdeal.S2x64, .f32⟩ : BufTy).Contents (Elt Ideal)) (x13 : (⟨Cert.ReferenceIdeal.S2x64, .f32⟩ : BufTy).Contents (Elt Ideal)) (x14 : (⟨Cert.ReferenceIdeal.S2x64, .f32⟩ : BufTy).Contents (Elt Ideal)) (x15 : (⟨Cert.ReferenceIdeal.S2x64, .f32⟩ : BufTy).Contents (Elt Ideal)) (x16 : (⟨Cert.ReferenceIdeal.S2x64, .f32⟩ : BufTy).Contents (Elt Ideal)) (x17 : (⟨Cert.ReferenceIdeal.S2x64x64, .f32⟩ : BufTy).Contents (Elt Ideal)) (x18 : (⟨Cert.ReferenceIdeal.S2x64, .f32⟩ : BufTy).Contents (Elt Ideal)) (x19 : (⟨Cert.ReferenceIdeal.S2x64, .f32⟩ : BufTy).Contents (Elt Ideal)) (x20 : (⟨Cert.ReferenceIdeal.S2x64, .f32⟩ : BufTy).Contents (Elt Ideal)) (x21 : (⟨Cert.ReferenceIdeal.S2x64, .f32⟩ : BufTy).Contents (Elt Ideal)) (x22 : (⟨Cert.ReferenceIdeal.S2x64, .f32⟩ : BufTy).Contents (Elt Ideal)) (x23 : (⟨Cert.ReferenceIdeal.S64x16, .f32⟩ : BufTy).Contents (Elt Ideal)) (x24 : (⟨Cert.ReferenceIdeal.S16, .f32⟩ : BufTy).Contents (Elt Ideal)) (x25 : (⟨Cert.ReferenceIdeal.S16x7, .f32⟩ : BufTy).Contents (Elt Ideal)) (x26 : (⟨Cert.ReferenceIdeal.S7, .f32⟩ : BufTy).Contents (Elt Ideal))

theorem mean_eq : kMean (F := Ideal) (shapeCast S512x1 (val_main_v184 (F := Ideal) x2) shapeCasts_S512_S512x1) (val_main_v180 (F := Ideal) x0 x1 x2 x3 x4 x5 x6 x7 x8 x9 x10 x11 x12 x13 x14 x15 x16 x17 x18 x19 x20 x21 x22)
    = val_main_v189 (F := Ideal) x0 x1 x2 x3 x4 x5 x6 x7 x8 x9 x10 x11 x12 x13 x14 x15 x16 x17 x18 x19 x20 x21 x22 := by
  funext i
  obtain ⟨r, q, rfl⟩ : ∃ (r : Fin 512) (q : Fin 64), i = ix2 r q := ⟨i 0, i 1, eq_ix2 i⟩
  rw [kMean_apply, val_main_v189_apply, val_main_v188_apply, val_main_v187_apply, val_main_v186_apply, val_main_v185_apply, val_main_cst_11_apply]
  have e : idx_main_v187 (idx_main_v188 (ix2 r q)) = ix1 r := funext fun a => match a with | ⟨0, _⟩ => rfl
  rw [e]
  rfl

theorem hidden_eq : kHidden (F := Ideal) (val_main_v189 (F := Ideal) x0 x1 x2 x3 x4 x5 x6 x7 x8 x9 x10 x11 x12 x13 x14 x15 x16 x17 x18 x19 x20 x21 x22) x23 (shapeCast S1x16 x24 shapeCasts_S16_S1x16)
    = val_main_v194 (F := Ideal) x0 x1 x2 x3 x4 x5 x6 x7 x8 x9 x10 x11 x12 x13 x14 x15 x16 x17 x18 x19 x20 x21 x22 x23 x24 := by
  funext i
  obtain ⟨r, q, rfl⟩ : ∃ (r : Fin 512) (q : Fin 16), i = ix2 r q := ⟨i 0, i 1, eq_ix2 i⟩
  rw [val_main_v194_apply, val_main_v193_apply, val_main_call6_v0_apply, val_main_call6_cst_apply, val_main_v192_apply, val_main_v191_apply]
  unfold kHidden val_main_v190
  rw [matmul1_eq]
  show FloatOps.maximumf (FloatOps.addf _ (broadcastTo S512x16 _ broadcasts_S1x16_S512x16 (ix2 r q))) _ = _
  rw [brow16_apply, shapeCast_self, row16_apply]
  have e : idx_main_v191 (idx_main_v192 (ix2 r q)) = ix1 q := funext fun a => match a with | ⟨0, _⟩ => rfl
  rw [e]
  rfl

theorem logits_eq : kLogits (F := Ideal) (val_main_v194 (F := Ideal) x0 x1 x2 x3 x4 x5 x6 x7 x8 x9 x10 x11 x12 x13 x14 x15 x16 x17 x18 x19 x20 x21 x22 x23 x24) x25 (shapeCast S1x7 x26 shapeCasts_S7_S1x7)
    = val_main_v198 (F := Ideal) x0 x1 x2 x3 x4 x5 x6 x7 x8 x9 x10 x11 x12 x13 x14 x15 x16 x17 x18 x19 x20 x21 x22 x23 x24 x25 x26 := by
  funext i
  obtain ⟨r, q, rfl⟩ : ∃ (r : Fin 512) (q : Fin 7), i = ix2 r q := ⟨i 0, i 1, eq_ix2 i⟩
  rw [val_main_v198_apply, val_main_v197_apply, val_main_v196_apply]
  unfold kLogits val_main_v195
  rw [matmul2_eq]
  show FloatOps.addf _ (broadcastTo S512x7 _ broadcasts_S1x7_S512x7 (ix2 r q)) = _
  rw [brow7_apply, shapeCast_self, row7_apply]
  have e : idx_main_v196 (idx_main_v197 (ix2 r q)) = ix1 q := funext fun a => match a with | ⟨0, _⟩ => rfl
  rw [e]

theorem rowmax_eq : kRowMax (F := Ideal) (val_main_v198 (F := Ideal) x0 x1 x2 x3 x4 x5 x6 x7 x8 x9 x10 x11 x12 x13 x14 x15 x16 x17 x18 x19 x20 x21 x22 x23 x24 x25 x26) = val_main_call7_v2 (F := Ideal) x0 x1 x2 x3 x4 x5 x6 x7 x8 x9 x10 x11 x12 x13 x14 x15 x16 x17 x18 x19 x20 x21 x22 x23 x24 x25 x26 := by
  funext j
  rw [kRowMax_apply, val_main_call7_v2_apply, val_main_call7_v1_apply, val_main_call7_cst_0_apply]
  unfold val_main_call7_v0
  rw [Host.reduce_eq_fold_single FloatOps.maximumf _ _ _ reduces_S512x7_S512]
  rfl

theorem shift_eq : kShift (F := Ideal) (val_main_v198 (F := Ideal) x0 x1 x2 x3 x4 x5 x6 x7 x8 x9 x10 x11 x12 x13 x14 x15 x16 x17 x18 x19 x20 x21 x22 x23 x24 x25 x26) = val_main_call7_v5 (F := Ideal) x0 x1 x2 x3 x4 x5 x6 x7 x8 x9 x10 x11 x12 x13 x14 x15 x16 x17 x18 x19 x20 x21 x22 x23 x24 x25 x26 := by
  funext i
  obtain ⟨r, q, rfl⟩ : ∃ (r : Fin 512) (q : Fin 7), i = ix2 r q := ⟨i 0, i 1, eq_ix2 i⟩
  rw [kShift_apply, rowmax_eq, val_main_call7_v5_apply, val_main_call7_v4_apply, val_main_call7_v3_apply]
  have e : idx_main_call7_v3 (idx_main_call7_v4 (ix2 r q)) = ix1 r := funext fun a => match a with | ⟨0, _⟩ => rfl
  rw [e]

theorem lsm_eq : kLogSoftmax (F := Ideal) (val_main_v198 (F := Ideal) x0 x1 x2 x3 x4 x5 x6 x7 x8 x9 x10 x11 x12 x13 x14 x15 x16 x17 x18 x19 x20 x21 x22 x23 x24 x25 x26) = val_main_v199 (F := Ideal) x0 x1 x2 x3 x4 x5 x6 x7 x8 x9 x10 x11 x12 x13 x14 x15 x16 x17 x18 x19 x20 x21 x22 x23 x24 x25 x26 := by
  funext i
  obtain ⟨r, q, rfl⟩ : ∃ (r : Fin 512) (q : Fin 7), i = ix2 r q := ⟨i 0, i 1, eq_ix2 i⟩
  rw [kLogSoftmax_apply, shift_eq]
  refine (congrArg (fun s => FloatOps.subf _ (FloatOps.log s)) (rowSum_apply _ (ix1 r))).trans ?_
  rw [val_main_v199_apply, val_main_call7_v10_apply, val_main_call7_v9_apply, val_main_call7_v8_apply, val_main_call7_v7_apply, val_main_call7_cst_1_apply]
  have e : idx_main_call7_v8 (idx_main_call7_v10 (ix2 r q)) = ix1 r := funext fun a => match a with | ⟨0, _⟩ => rfl
  rw [e]
  refine congrArg (FloatOps.subf _) ?_
  rw [Ideal.hostUnary_log_def, Ideal.log_def, Ideal.ofBits_def, Ideal.ofBits_zero_f32, zero_add]
  refine congrArg Ideal.log (Finset.sum_congr rfl fun k _ => ?_)
  rw [val_main_call7_v6_apply, Ideal.hostUnary_exp_def]
  have hidx : reduces_S512x7_S512.lift (ix1 r) k = idx_main_call7_v7 (ix1 r) k :=
    funext fun a => Fin.ext (by match a with | ⟨0, _⟩ => rfl | ⟨1, _⟩ => rfl)
  rw [hidx, exp_apply, Ideal.exp_def]

theorem pay_eq_ref : k3_pay1 (F := Ideal) (shapeCast S512x1 (val_main_v184 (F := Ideal) x2) shapeCasts_S512_S512x1) (val_main_v180 (F := Ideal) x0 x1 x2 x3 x4 x5 x6 x7 x8 x9 x10 x11 x12 x13 x14 x15 x16 x17 x18 x19 x20 x21 x22)
      x23 (shapeCast S1x16 x24 shapeCasts_S16_S1x16) x25 (shapeCast S1x7 x26 shapeCasts_S7_S1x7)
    = val_main_v199 (F := Ideal) x0 x1 x2 x3 x4 x5 x6 x7 x8 x9 x10 x11 x12 x13 x14 x15 x16 x17 x18 x19 x20 x21 x22 x23 x24 x25 x26 := by
  rw [k3_pay1_eq_stages, mean_eq, hidden_eq, logits_eq, lsm_eq]

theorem final3
    (h94 : V c main_v94 = val_main_v180 (F := Ideal) x0 x1 x2 x3 x4 x5 x6 x7 x8 x9 x10 x11 x12 x13 x14 x15 x16 x17 x18 x19 x20 x21 x22)
    (h99 : V c main_v99 = shapeCast S512x1 (val_main_v184 (F := Ideal) x2) shapeCasts_S512_S512x1)
    (h23 : V c main_arg23 = x23) (h100 : V c main_v100 = shapeCast S1x16 x24 shapeCasts_S16_S1x16)
    (h25 : V c main_arg25 = x25) (h101 : V c main_v101 = shapeCast S1x7 x26 shapeCasts_S7_S1x7) :
    (dat3 V c).arrAt 6 cfg3.N = val_main_v199 (F := Ideal) x0 x1 x2 x3 x4 x5 x6 x7 x8 x9 x10 x11 x12 x13 x14 x15 x16 x17 x18 x19 x20 x21 x22 x23 x24 x25 x26 := by
  rw [arr3_6, h94, h99, h23, h100, h25, h101]
  exact pay_eq_ref ..

end Ref

end Cert.KernelIdeal.HandValue

end
-- ==== Proof.Hand.Assemble.lean ====
import proofs.«406513_j58480274702513_1_alg».proof.Proof.Hand.Outs
import proofs.«406513_j58480274702513_1_alg».proof.Proof.Hand.Glue
import proofs.«406513_j58480274702513_1_alg».proof.Proof.Hand.Stages
import proofs.«406513_j58480274702513_1_alg».proof.Proof.Hand.PreFacts
import proofs.«406513_j58480274702513_1_alg».proof.Proof.RefStages
import proofs.«406513_j58480274702513_1_alg».proof.Proof.Hand.Value0
import proofs.«406513_j58480274702513_1_alg».proof.Proof.Hand.Value1
import proofs.«406513_j58480274702513_1_alg».proof.Proof.Hand.Value2
import proofs.«406513_j58480274702513_1_alg».proof.Proof.Hand.Value3

noncomputable section

namespace Cert.KernelIdeal.HandValue

open Cert.KernelIdeal Cert.KernelIdeal.Gen
open Idealize.ShloMosaic Idealize.ShloMosaic.TcCoe Idealize.SL.Sem

-- Region by region: each region's entry contents are the reference's stage values, by the previous region's result and the host steps between.
theorem kernel_result [Cert.KernelIdeal.Facts] [Cert.Pre_finite_inputs.Facts]
    (m : (ℓ : Loc nD τ sig) → Buf (Elt Ideal) ℓ) (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) = (fun _ => 1#1)) :
    Hand.O3 m c = Cert.ReferenceIdeal.ReadP.val_main_v199 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) := by
  have hs : ∀ e, 0 ≤ (Hand.srcIdx (m ((c.tc : Thread nD τ).loc main_arg1)) e).toInt ∧ (Hand.srcIdx (m ((c.tc : Thread nD τ).loc main_arg1)) e).toInt < 100000 := Cert.PreFacts.src_range hpre
  have e0 : Hand.O0 m c = _ :=
    final0 (Hand.atRefs (Hand.W1 m)) c _ _ _ _ _ _ _ _ _ (Cert.PreFacts.x_real hpre) (Hand.W1_launch m c main_arg0) (Hand.glue0_main_v1 m c) (Hand.glue0_main_v4 m c)
      (Hand.W1_launch m c main_arg5) (Hand.glue0_main_v5 m c) (Hand.glue0_main_v3 m c) (Hand.glue0_main_v6 m c) (Hand.W1_launch m c main_arg9)
      (Hand.glue0_main_v7 m c)
  have e8 := Hand.glue1_main_v8 m (Hand.O0 m) c
  have e16 := Hand.glue1_main_v16 m (Hand.O0 m) c
  rw [e0] at e8 e16
  rw [agg0_eq hs] at e16
  have e1 : Hand.O1 m c = _ :=
    final1 (Hand.atRefs (Hand.W5 m (Hand.O0 m))) c _ _ _ _ _ _ _ _ _ _ _ _ _ _ _ _ _ _ _ _ _ _ e8 e16
      (Hand.glue1_main_v18 m _ c) (Hand.glue1_main_v21 m _ c) (Hand.glue1_main_v24 m _ c) (Hand.glue1_main_v27 m _ c) (Hand.glue1_main_v30 m _ c) (Hand.glue1_main_v33 m _ c) (Hand.glue1_main_v35 m _ c) (Hand.glue1_main_v38 m _ c) (Hand.glue1_main_v41 m _ c) (Hand.glue1_main_v44 m _ c) (Hand.glue1_main_v47 m _ c) (Hand.glue1_main_v50 m _ c)
  have e51 := Hand.glue2_main_v51 m (Hand.O0 m) (Hand.O1 m) c
  have e55 := Hand.glue2_main_v55 m (Hand.O0 m) (Hand.O1 m) c
  have e56 := Hand.glue2_main_v56 m (Hand.O0 m) (Hand.O1 m) c
  rw [e1] at e51 e55 e56
  rw [agg1_eq hs] at e55
  rw [e0] at e56
  have e2 : Hand.O2 m c = _ :=
    final2 (Hand.atRefs (Hand.W8 m (Hand.O0 m) (Hand.O1 m))) c _ _ _ _ _ _ _ _ _ _ _ _ _ _ _ _ _ _ _ _ _ _ e51 e55 e56
      (Hand.glue2_main_v58 m _ _ c) (Hand.glue2_main_v61 m _ _ c) (Hand.glue2_main_v64 m _ _ c) (Hand.glue2_main_v67 m _ _ c) (Hand.glue2_main_v70 m _ _ c) (Hand.glue2_main_v73 m _ _ c) (Hand.glue2_main_v75 m _ _ c) (Hand.glue2_main_v78 m _ _ c) (Hand.glue2_main_v81 m _ _ c) (Hand.glue2_main_v84 m _ _ c) (Hand.glue2_main_v87 m _ _ c) (Hand.glue2_main_v90 m _ _ c)
  have e94 := Hand.glue3_main_v94 m (Hand.O0 m) (Hand.O1 m) (Hand.O2 m) c
  have e99 := Hand.glue3_main_v99 m (Hand.O0 m) (Hand.O1 m) (Hand.O2 m) c
  rw [e2, pooled_eq] at e94
  rw [counts_eq] at e99
  unfold Hand.O3
  exact final3 (Hand.atRefs (Hand.W10 m (Hand.O0 m) (Hand.O1 m) (Hand.O2 m))) c _ _ _ _ _ _ _ _ _ _ _ _ _ _ _ _ _ _ _ _ _ _ _ _ _ _ _ e94 e99
    (Hand.W10_launch m _ _ _ c main_arg23) (Hand.glue3_main_v100 m _ _ _ c) (Hand.W10_launch m _ _ _ c main_arg25) (Hand.glue3_main_v101 m _ _ _ c)

end Cert.KernelIdeal.HandValue

end
-- ==== Proof.lean ====
import proofs.«406513_j58480274702513_1_alg».proof.Defs
import proofs.«406513_j58480274702513_1_alg».proof.Proof.Gen.Kernel
import proofs.«406513_j58480274702513_1_alg».proof.Proof.Gen.KernelIdeal
import proofs.«406513_j58480274702513_1_alg».proof.Proof.Gen.ReferenceIdeal
import proofs.«406513_j58480274702513_1_alg».proof.Proof.Gen.Pre_finite_inputs
import proofs.«406513_j58480274702513_1_alg».proof.Proof.Hand.Inst
import proofs.«406513_j58480274702513_1_alg».proof.Proof.HandK.Inst
import proofs.«406513_j58480274702513_1_alg».proof.Proof.Hand.RefRun9
import proofs.«406513_j58480274702513_1_alg».proof.Proof.Hand.Assemble

set_option maxRecDepth 16384

noncomputable section

namespace Cert.Proof

open Idealize.ShloMosaic Idealize.SL.Sem

theorem frame_Kernel : Cert.frame_Kernel :=
  fun m ρ _ => (θ_run _ _ _).mono
    (fun r h c => by repeat' apply And.intro
                     all_goals exact (h c).2 _ (by decide) (by decide))
    (Cert.Kernel.Hand.run_result (F := Bits) m ρ)

theorem frame_KernelIdeal : Cert.frame_KernelIdeal :=
  fun m ρ _ => (θ_run _ _ _).mono
    (fun r h c => by repeat' apply And.intro
                     all_goals exact (h c).2 _ (by decide) (by decide))
    (Cert.KernelIdeal.Hand.run_result (F := Ideal) m ρ)

theorem frame_ReferenceIdeal : Cert.frame_ReferenceIdeal :=
  fun m ρ _ => (θ_run _ _ _).mono (fun _ h c => (h c).2) (Cert.ReferenceIdeal.HandRun.run (F := Ideal) m ρ)

/-- Both programs end at the kernel's last output array, which the value modules show is the reference's last stage. -/
theorem algebraic : Cert.algebraic_KernelIdeal_ReferenceIdeal :=
  fun m ρ m' ρ' hpre hagree =>
    ⟨fun c => Cert.KernelIdeal.Hand.O3 m c,
      (θ_run _ _ _).mono
        (fun r h c => ⟨(h c).1, by repeat' apply And.intro
                                   all_goals exact (h c).2 _ (by decide) (by decide)⟩)
        (Cert.KernelIdeal.Hand.run_result (F := Ideal) m ρ),
      (θ_run _ _ _).mono
        (fun r h c => ⟨(h c).1.trans (Eq.trans (by simp only [hagree c]) (Cert.KernelIdeal.HandValue.kernel_result m c (hpre c)).symm), (h c).2⟩)
        (Cert.ReferenceIdeal.HandRun.run (F := Ideal) m' ρ')⟩

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
